-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v87_0)) (v1 : (c : Dev Cert.KernelIdeal.nD) → Buf (Elt Ideal) ((c.tc : Thread Cert.KernelIdeal.nD Cert.KernelIdeal.τ).loc Cert.KernelIdeal.main_v87_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87_0) = v0 c
          ∧ r.2.mem ((c.tc : Thread Cert.KernelIdeal.nD Cert.KernelIdeal.τ).loc Cert.KernelIdeal.main_v87_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v170) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S128x1 .f32) (main_arg13 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg12
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S128 .f32) (main_arg9 : FVec F S128 .f32) (main_arg10 : FVec F S128x128 .f32) (main_arg11 : FVec F S128 .f32) (main_arg12 : FVec F S128x1 .f32) (main_arg13 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) (main_arg12 : FVec F S128x1 .f32) (main_arg13 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x64 .f32) (main_arg1 : IVec S2x800000 32) (main_arg2 : FVec F S64x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) (main_arg12 : FVec F S128x1 .f32) (main_arg13 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x128 : Shape := ⟨2, ![50000, 128]⟩
abbrev S5000x64 : Shape := ⟨2, ![5000, 64]⟩
abbrev S5000x1 : Shape := ⟨2, ![5000, 1]⟩
abbrev S5000x128 : Shape := ⟨2, ![5000, 128]⟩
abbrev S850000x128 : Shape := ⟨2, ![850000, 128]⟩
abbrev S1x128 : Shape := ⟨2, ![1, 128]⟩
abbrev S1x1 : Shape := ⟨2, ![1, 1]⟩

abbrev nBuf : Space → Nat
  | .hbm => 120
  | .vmem => 72
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S50000, .i32⟩
  | .hbm, ⟨15, _⟩ => ⟨S1x800000, .i32⟩
  | .hbm, ⟨16, _⟩ => ⟨S800000, .i32⟩
  | .hbm, ⟨17, _⟩ => ⟨S850000, .i32⟩
  | .hbm, ⟨18, _⟩ => ⟨S1x800000, .i32⟩
  | .hbm, ⟨19, _⟩ => ⟨S800000, .i32⟩
  | .hbm, ⟨20, _⟩ => ⟨S850000, .i32⟩
  | .hbm, ⟨21, _⟩ => ⟨S_, .i32⟩
  | .hbm, ⟨22, _⟩ => ⟨S850000, .i32⟩
  | .hbm, ⟨23, _⟩ => ⟨S_, .i32⟩
  | .hbm, ⟨24, _⟩ => ⟨S50000, .i32⟩
  | .hbm, ⟨25, _⟩ => ⟨S850000x1, .i32⟩
  | .hbm, ⟨26, _⟩ => ⟨S50000, .i32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000x128, .f32⟩
  | .hbm, ⟨40, _⟩ => ⟨S_, .f32⟩
  | .hbm, ⟨41, _⟩ => ⟨S50000x128, .f32⟩
  | .hbm, ⟨42, _⟩ => ⟨S850000x1, .i32⟩
  | .hbm, ⟨43, _⟩ => ⟨S50000x128, .f32⟩
  | .hbm, ⟨44, _⟩ => ⟨S1x128, .f32⟩
  | .hbm, ⟨45, _⟩ => ⟨S1x128, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S50000x128, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x128, .f32⟩
  | .hbm, ⟨76, _⟩ => ⟨S_, .f32⟩
  | .hbm, ⟨77, _⟩ => ⟨S50000x128, .f32⟩
  | .hbm, ⟨78, _⟩ => ⟨S850000x1, .i32⟩
  | .hbm, ⟨79, _⟩ => ⟨S50000x128, .f32⟩
  | .hbm, ⟨80, _⟩ => ⟨S1x128, .f32⟩
  | .hbm, ⟨81, _⟩ => ⟨S1x128, .f32⟩
  | .hbm, ⟨82, _⟩ => ⟨S128, .f32⟩
  | .hbm, ⟨83, _⟩ => ⟨S_, .f32⟩
  | .hbm, ⟨84, _⟩ => ⟨S128, .f32⟩
  | .hbm, ⟨85, _⟩ => ⟨S128, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S128, .f32⟩
  | .hbm, ⟨90, _⟩ => ⟨S_, .f32⟩
  | .hbm, ⟨91, _⟩ => ⟨S128, .f32⟩
  | .hbm, ⟨92, _⟩ => ⟨S128, .f32⟩
  | .hbm, ⟨93, _⟩ => ⟨S_, .f32⟩
  | .hbm, ⟨94, _⟩ => ⟨S128, .f32⟩
  | .hbm, ⟨95, _⟩ => ⟨S128, .f32⟩
  | .hbm, ⟨96, _⟩ => ⟨S128, .f32⟩
  | .hbm, ⟨97, _⟩ => ⟨S1x128, .f32⟩
  | .hbm, ⟨98, _⟩ => ⟨S1x128, .f32⟩
  | .hbm, ⟨99, _⟩ => ⟨S1x128, .f32⟩
  | .hbm, ⟨100, _⟩ => ⟨S1x128, .f32⟩
  | .hbm, ⟨101, _⟩ => ⟨S1x128, .f32⟩
  | .hbm, ⟨102, _⟩ => ⟨S50000x128, .f32⟩
  | .hbm, ⟨103, _⟩ => ⟨S_, .i32⟩
  | .hbm, ⟨104, _⟩ => ⟨S850000, .i32⟩
  | .hbm, ⟨105, _⟩ => ⟨S850000, .i1⟩
  | .hbm, ⟨106, _⟩ => ⟨S_, .i32⟩
  | .hbm, ⟨107, _⟩ => ⟨S850000, .i32⟩
  | .hbm, ⟨108, _⟩ => ⟨S850000, .i32⟩
  | .hbm, ⟨109, _⟩ => ⟨S850000, .i32⟩
  | .hbm, ⟨110, _⟩ => ⟨S850000x1, .i32⟩
  | .hbm, ⟨111, _⟩ => ⟨S850000x128, .f32⟩
  | .hbm, ⟨112, _⟩ => ⟨S_, .f32⟩
  | .hbm, ⟨113, _⟩ => ⟨S50000x128, .f32⟩
  | .hbm, ⟨114, _⟩ => ⟨S850000x1, .i32⟩
  | .hbm, ⟨115, _⟩ => ⟨S50000x128, .f32⟩
  | .hbm, ⟨116, _⟩ => ⟨S1x128, .f32⟩
  | .hbm, ⟨117, _⟩ => ⟨S1x1, .f32⟩
  | .hbm, ⟨118, _⟩ => ⟨S50000x1, .f32⟩
  | .hbm, ⟨119, _⟩ => ⟨S50000x1, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x1, .f32⟩
  | .local _ .vmem, ⟨25, _⟩ => ⟨S5000x1, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S128x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x1, .f32⟩
  | .local _ .vmem, ⟨37, _⟩ => ⟨S5000x1, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S5000x128, .f32⟩
  | .local _ .vmem, ⟨42, _⟩ => ⟨S5000x128, .f32⟩
  | .local _ .vmem, ⟨43, _⟩ => ⟨S5000x1, .f32⟩
  | .local _ .vmem, ⟨44, _⟩ => ⟨S5000x1, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S5000x128, .f32⟩
  | .local _ .vmem, ⟨50, _⟩ => ⟨S5000x128, .f32⟩
  | .local _ .vmem, ⟨51, _⟩ => ⟨S5000x1, .f32⟩
  | .local _ .vmem, ⟨52, _⟩ => ⟨S5000x1, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S128x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x1, .f32⟩
  | .local _ .vmem, ⟨64, _⟩ => ⟨S5000x1, .f32⟩
  | .local _ .vmem, ⟨65, _⟩ => ⟨S1x128, .f32⟩
  | .local _ .vmem, ⟨66, _⟩ => ⟨S128x1, .f32⟩
  | .local _ .vmem, ⟨67, _⟩ => ⟨S1x1, .f32⟩
  | .local _ .vmem, ⟨68, _⟩ => ⟨S5000x1, .f32⟩
  | .local _ .vmem, ⟨69, _⟩ => ⟨S5000x1, .f32⟩
  | .local _ .vmem, ⟨70, _⟩ => ⟨S5000x1, .f32⟩
  | .local _ .vmem, ⟨71, _⟩ => ⟨S5000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c : Ref sig .tc := ⟨.hbm, 21, rfl⟩
abbrev main_v7 : Ref sig .tc := ⟨.hbm, 22, rfl⟩
abbrev main_c_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_6 : Ref sig .tc := ⟨.hbm, 67, rfl⟩
abbrev main_v45 : Ref sig .tc := ⟨.hbm, 68, rfl⟩
abbrev main_v46 : Ref sig .tc := ⟨.hbm, 69, rfl⟩
abbrev main_c_7 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_8 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_9 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_10 : Ref sig .tc := ⟨.hbm, 90, rfl⟩
abbrev main_v64 : Ref sig .tc := ⟨.hbm, 91, rfl⟩
abbrev main_v65 : Ref sig .tc := ⟨.hbm, 92, rfl⟩
abbrev main_cst_11 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_12 : Ref sig .tc := ⟨.hbm, 103, rfl⟩
abbrev main_v75 : Ref sig .tc := ⟨.hbm, 104, rfl⟩
abbrev main_v76 : Ref sig .tc := ⟨.hbm, 105, rfl⟩
abbrev main_c_13 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_14 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87_0 : Ref sig .tc := ⟨.hbm, 118, rfl⟩
abbrev main_v87_1 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc3_stg8_0 : Ref sig .tc := ⟨.vmem, 32, rfl⟩
abbrev cc3_stg8_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_scratch0 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_scratch0 : Ref sig .tc := ⟨.vmem, 48, rfl⟩
abbrev cc6_stg0_0 : Ref sig .tc := ⟨.vmem, 49, rfl⟩
abbrev cc6_stg0_1 : Ref sig .tc := ⟨.vmem, 50, rfl⟩
abbrev cc6_stg1_0 : Ref sig .tc := ⟨.vmem, 51, rfl⟩
abbrev cc6_stg1_1 : Ref sig .tc := ⟨.vmem, 52, rfl⟩
abbrev cc6_stg2_0 : Ref sig .tc := ⟨.vmem, 53, rfl⟩
abbrev cc6_stg3_0 : Ref sig .tc := ⟨.vmem, 54, rfl⟩
abbrev cc6_stg4_0 : Ref sig .tc := ⟨.vmem, 55, rfl⟩
abbrev cc6_stg5_0 : Ref sig .tc := ⟨.vmem, 56, rfl⟩
abbrev cc6_stg6_0 : Ref sig .tc := ⟨.vmem, 57, rfl⟩
abbrev cc6_stg7_0 : Ref sig .tc := ⟨.vmem, 58, rfl⟩
abbrev cc6_stg8_0 : Ref sig .tc := ⟨.vmem, 59, rfl⟩
abbrev cc6_stg8_1 : Ref sig .tc := ⟨.vmem, 60, rfl⟩
abbrev cc7_stg0_0 : Ref sig .tc := ⟨.vmem, 61, rfl⟩
abbrev cc7_stg0_1 : Ref sig .tc := ⟨.vmem, 62, rfl⟩
abbrev cc7_stg1_0 : Ref sig .tc := ⟨.vmem, 63, rfl⟩
abbrev cc7_stg1_1 : Ref sig .tc := ⟨.vmem, 64, rfl⟩
abbrev cc7_stg2_0 : Ref sig .tc := ⟨.vmem, 65, rfl⟩
abbrev cc7_stg3_0 : Ref sig .tc := ⟨.vmem, 66, rfl⟩
abbrev cc7_stg4_0 : Ref sig .tc := ⟨.vmem, 67, rfl⟩
abbrev cc7_stg5_0 : Ref sig .tc := ⟨.vmem, 68, rfl⟩
abbrev cc7_stg5_1 : Ref sig .tc := ⟨.vmem, 69, rfl⟩
abbrev cc7_stg6_0 : Ref sig .tc := ⟨.vmem, 70, rfl⟩
abbrev cc7_stg6_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem7_0 : DmaSem sig := 29
abbrev cc3_sem8_0 : DmaSem sig := 30
abbrev cc3_sem8_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem3_0 : DmaSem sig := 43
abbrev cc5_sem4_0 : DmaSem sig := 44
abbrev cc6_sem0_0 : DmaSem sig := 45
abbrev cc6_sem0_1 : DmaSem sig := 46
abbrev cc6_sem1_0 : DmaSem sig := 47
abbrev cc6_sem1_1 : DmaSem sig := 48
abbrev cc6_sem2_0 : DmaSem sig := 49
abbrev cc6_sem3_0 : DmaSem sig := 50
abbrev cc6_sem4_0 : DmaSem sig := 51
abbrev cc6_sem5_0 : DmaSem sig := 52
abbrev cc6_sem6_0 : DmaSem sig := 53
abbrev cc6_sem7_0 : DmaSem sig := 54
abbrev cc6_sem8_0 : DmaSem sig := 55
abbrev cc6_sem8_1 : DmaSem sig := 56
abbrev cc7_sem0_0 : DmaSem sig := 57
abbrev cc7_sem0_1 : DmaSem sig := 58
abbrev cc7_sem1_0 : DmaSem sig := 59
abbrev cc7_sem1_1 : DmaSem sig := 60
abbrev cc7_sem2_0 : DmaSem sig := 61
abbrev cc7_sem3_0 : DmaSem sig := 62
abbrev cc7_sem4_0 : DmaSem sig := 63
abbrev cc7_sem5_0 : DmaSem sig := 64
abbrev cc7_sem5_1 : DmaSem sig := 65
abbrev cc7_sem6_0 : DmaSem sig := 66
abbrev cc7_sem6_1 : DmaSem sig := 67

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_10 : BitVec 32 := 0#32
  let v22 : BitVec 1 := Scalar.cmpi .ne v21 c0_i32_10
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v25 : BitVec 1 := Scalar.cmpi .eq arg0 c9_i32
  let v26 : BitVec 32 := Scalar.extui v25
  let c0_i32_12 : BitVec 32 := 0#32
  let v27 : BitVec 1 := Scalar.cmpi .ne v26 c0_i32_12
  v27

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_10 : BitVec 32 := 0#32
  let v22 : BitVec 1 := Scalar.cmpi .ne v21 c0_i32_10
  v22

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![10], ![false]⟩

def k5_cond2 (i : grid5.Coords) : BitVec 1 :=
  let arg0 : BitVec 32 := BitVec.ofNat 32 (i 0).val
  let c9_i32 : BitVec 32 := 9#32
  let v25 : BitVec 1 := Scalar.cmpi .eq arg0 c9_i32
  let v26 : BitVec 32 := Scalar.extui v25
  let c0_i32_12 : BitVec 32 := 0#32
  let v27 : BitVec 1 := Scalar.cmpi .ne v26 c0_i32_12
  v27

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S128x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 2 → Memref sig .tc .vmem S5000x128 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x1 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S5000x1 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  broadcasts_S1x128_S5000x128 : S1x128.Broadcasts S5000x128
  reduces_S5000x128_S128 : S5000x128.Reduces [0] S128
  shapeCasts_S1x128_S128 : S1x128.ShapeCasts S128
  bcast_S_S128 : S_.BroadcastsInDim S128 (![] : Fin 0 → Fin S128.rank)
  inb_S128x128_S128x128_0_0 : ∀ a, (![0, 0] : Fin 2 → Nat) a + S128x128.size a ≤ S128x128.size a
  h_S128x128 : 0 < S128x128.numel
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S50000_S850000x1_S850000_n_0_0_1_wf : ScatterDims.WF S50000 S850000x1 S850000 [] [0] [0] 1
  dot_S5000x64_S64x128_S5000x128_1_0_0_1_n_n_wf : DotDims.WF S5000x64 S64x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .f32 = 32 ∨ (Rect.block (s := S128x128) S128x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x128.size a ≤ S50000x128.size a
  hwx3_8 : ∀ i : grid3.Coords, EltTy.bits .f32 = 32 ∨ (Rect.block (s := S50000x128) S5000x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S50000x1.size a
  hwx6_1 : ∀ i : grid6.Coords, EltTy.bits .f32 = 32 ∨ (Rect.block (s := S50000x1) S5000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S128x128.size a ≤ S128x128.size a
  hwx6_7 : ∀ i : grid6.Coords, EltTy.bits .f32 = 32 ∨ (Rect.block (s := S128x128) S128x128.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S5000x128.size a ≤ S50000x128.size a
  hwx6_8 : ∀ i : grid6.Coords, EltTy.bits .f32 = 32 ∨ (Rect.block (s := S50000x128) S5000x128.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S50000x1.size a
  hwx7_1 : ∀ i : grid7.Coords, EltTy.bits .f32 = 32 ∨ (Rect.block (s := S50000x1) S5000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x1.size a ≤ S128x1.size a
  hwx7_3 : ∀ i : grid7.Coords, EltTy.bits .f32 = 32 ∨ (Rect.block (s := S128x1) S128x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x1.size a ≤ S1x1.size a
  hwx7_4 : ∀ i : grid7.Coords, EltTy.bits .f32 = 32 ∨ (Rect.block (s := S1x1) S1x1.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x1.size a ≤ S50000x1.size a
  hwx7_5 : ∀ i : grid7.Coords, EltTy.bits .f32 = 32 ∨ (Rect.block (s := S50000x1) S5000x1.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x1.size a ≤ S50000x1.size a
  hwx7_6 : ∀ i : grid7.Coords, EltTy.bits .f32 = 32 ∨ (Rect.block (s := S50000x1) S5000x1.size (cc7_transform_6 i) (hinb7_6 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v24) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v32) S1x128.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v24) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v41) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v42) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v43) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg6) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v44) S5000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v54) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v13) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v55) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v56) S1x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v54) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v13) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v60) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v61) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v62) S1x128.size cc5_transform_4 reads5_4 true true 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev idle5 : Fin 5 → grid5.Coords → Bool := fun | 0 => fun _ => false | 1 => fun _ => false | 2 => fun _ => false | 3 => fun _ => false | 4 => fun i => !(k5_cond2 i == 1#1) | ⟨_ + 5, h⟩ => absurd h (Nat.not_lt.2 (Nat.le_add_left _ _))

abbrev win6_0 : Pipeline.Window sig grid6 :=
  Pipeline.Window.ofSpec (Memref.whole main_v54) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v13) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v69) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v70) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v71) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v72) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v73) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_arg10) S128x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v74) S5000x128.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_v84) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v13) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v85) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg12) S128x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v86) S1x1.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v87_0) S5000x1.size cc7_transform_5 reads7_5 true false 2 stage7_5 sem7_5
    hrank7 hreads7_5 hinb7_5 nbuf7_5 (Memref.isWhole_whole _) hwx7_5 hstage7_5

abbrev win7_6 : Pipeline.Window sig grid7 :=
  Pipeline.Window.ofSpec (Memref.whole main_v87_1) S5000x1.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x1 : Shape := ⟨2, ![50000, 1]⟩
abbrev S1x1 : Shape := ⟨2, ![1, 1]⟩

abbrev nBuf : Space → Nat
  | .hbm => 226
  | .vmem => 0
  | .smem => 0
  | _ => 0

abbrev hbmTy0_0 (i : Nat) : BufTy := match i % 128 with
  | 0 => ⟨S50000x64, .f32⟩
  | 1 => ⟨S2x800000, .i32⟩
  | 2 => ⟨S64x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x128, .f32⟩
  | 11 => ⟨S128, .f32⟩
  | 12 => ⟨S128x1, .f32⟩
  | 13 => ⟨S1, .f32⟩
  | 14 => ⟨S50000, .i32⟩
  | 15 => ⟨S1x800000, .i32⟩
  | 16 => ⟨S800000, .i32⟩
  | 17 => ⟨S850000, .i32⟩
  | 18 => ⟨S1x800000, .i32⟩
  | 19 => ⟨S800000, .i32⟩
  | 20 => ⟨S850000, .i32⟩
  | 21 => ⟨S_, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S50000, .f32⟩
  | 28 => ⟨S50000x128, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x128, .f32⟩
  | 57 => ⟨S850000x1, .f32⟩
  | 58 => ⟨S850000x128, .f32⟩
  | 59 => ⟨S850000x128, .f32⟩
  | 60 => ⟨S_, .f32⟩
  | 61 => ⟨S50000x128, .f32⟩
  | 62 => ⟨S850000x1, .i32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S128, .f32⟩
  | 69 => ⟨S_, .f32⟩
  | 70 => ⟨S128, .f32⟩
  | 71 => ⟨S128, .f32⟩
  | 72 => ⟨S1x128, .f32⟩
  | 73 => ⟨S50000x128, .f32⟩
  | 74 => ⟨S50000x128, .f32⟩
  | 75 => ⟨S50000x128, .f32⟩
  | 76 => ⟨S_, .f32⟩
  | 77 => ⟨S128, .f32⟩
  | 78 => ⟨S_, .f32⟩
  | 79 => ⟨S128, .f32⟩
  | 80 => ⟨S128, .f32⟩
  | 81 => ⟨S1x128, .f32⟩
  | 82 => ⟨S50000x128, .f32⟩
  | 83 => ⟨S50000x128, .f32⟩
  | 84 => ⟨S_, .f32⟩
  | 85 => ⟨S128, .f32⟩
  | 86 => ⟨S128, .f32⟩
  | 87 => ⟨S128, .f32⟩
  | 88 => ⟨S1x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S50000x128, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000, .f32⟩
  | 119 => ⟨S850000, .f32⟩
  | 120 => ⟨S_, .i32⟩
  | 121 => ⟨S850000, .i32⟩
  | 122 => ⟨S850000, .i1⟩
  | 123 => ⟨S_, .i32⟩
  | 124 => ⟨S850000, .i32⟩
  | 125 => ⟨S850000, .i32⟩
  | 126 => ⟨S850000, .i32⟩
  | 127 => ⟨S850000x1, .i32⟩
  | _ => ⟨S50000x64, .f32⟩

abbrev hbmTy0_1 (i : Nat) : BufTy := match i % 128 with
  | 0 => ⟨S850000x128, .f32⟩
  | 1 => ⟨S850000x1, .f32⟩
  | 2 => ⟨S850000x128, .f32⟩
  | 3 => ⟨S850000x128, .f32⟩
  | 4 => ⟨S_, .f32⟩
  | 5 => ⟨S50000x128, .f32⟩
  | 6 => ⟨S850000x1, .i32⟩
  | 7 => ⟨S50000x128, .f32⟩
  | 8 => ⟨S1x128, .f32⟩
  | 9 => ⟨S50000x128, .f32⟩
  | 10 => ⟨S50000x128, .f32⟩
  | 11 => ⟨S_, .f32⟩
  | 12 => ⟨S128, .f32⟩
  | 13 => ⟨S_, .f32⟩
  | 14 => ⟨S128, .f32⟩
  | 15 => ⟨S128, .f32⟩
  | 16 => ⟨S1x128, .f32⟩
  | 17 => ⟨S50000x128, .f32⟩
  | 18 => ⟨S50000x128, .f32⟩
  | 19 => ⟨S50000x128, .f32⟩
  | 20 => ⟨S_, .f32⟩
  | 21 => ⟨S128, .f32⟩
  | 22 => ⟨S_, .f32⟩
  | 23 => ⟨S128, .f32⟩
  | 24 => ⟨S128, .f32⟩
  | 25 => ⟨S1x128, .f32⟩
  | 26 => ⟨S50000x128, .f32⟩
  | 27 => ⟨S50000x128, .f32⟩
  | 28 => ⟨S_, .f32⟩
  | 29 => ⟨S128, .f32⟩
  | 30 => ⟨S128, .f32⟩
  | 31 => ⟨S128, .f32⟩
  | 32 => ⟨S1x128, .f32⟩
  | 33 => ⟨S50000x128, .f32⟩
  | 34 => ⟨S50000x128, .f32⟩
  | 35 => ⟨S1x128, .f32⟩
  | 36 => ⟨S50000x128, .f32⟩
  | 37 => ⟨S50000x128, .f32⟩
  | 38 => ⟨S1x128, .f32⟩
  | 39 => ⟨S50000x128, .f32⟩
  | 40 => ⟨S50000x128, .f32⟩
  | 41 => ⟨S_, .f32⟩
  | 42 => ⟨S50000x128, .f32⟩
  | 43 => ⟨S50000x128, .f32⟩
  | 44 => ⟨S50000x128, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000, .f32⟩
  | 63 => ⟨S850000, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000x128, .f32⟩
  | 73 => ⟨S850000x1, .f32⟩
  | 74 => ⟨S850000x128, .f32⟩
  | 75 => ⟨S850000x128, .f32⟩
  | 76 => ⟨S_, .f32⟩
  | 77 => ⟨S50000x128, .f32⟩
  | 78 => ⟨S850000x1, .i32⟩
  | 79 => ⟨S50000x128, .f32⟩
  | 80 => ⟨S1x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S50000x1, .f32⟩
  | 87 => ⟨S1x1, .f32⟩
  | 88 => ⟨S50000x1, .f32⟩
  | 89 => ⟨S50000x1, .f32⟩
  | 90 => ⟨S50000x1, .f32⟩
  | 91 => ⟨S50000x1, .f32⟩
  | 92 => ⟨S_, .f32⟩
  | 93 => ⟨S50000x1, .f32⟩
  | 94 => ⟨S50000x1, .f32⟩
  | 95 => ⟨S_, .f32⟩
  | 96 => ⟨S50000x1, .f32⟩
  | 97 => ⟨S50000x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_2 : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_cst_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_11 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call0_cst : Ref sig .tc := ⟨.hbm, 97, rfl⟩
abbrev main_call0_v0 : Ref sig .tc := ⟨.hbm, 98, rfl⟩
abbrev main_v69 : Ref sig .tc := ⟨.hbm, 99, rfl⟩
abbrev main_v70 : Ref sig .tc := ⟨.hbm, 100, rfl⟩
abbrev main_c_12 : Ref sig .tc := ⟨.hbm, 101, rfl⟩
abbrev main_v71 : Ref sig .tc := ⟨.hbm, 102, rfl⟩
abbrev main_v72 : Ref sig .tc := ⟨.hbm, 103, rfl⟩
abbrev main_c_13 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c_14 : Ref sig .tc := ⟨.hbm, 110, rfl⟩
abbrev main_v78 : Ref sig .tc := ⟨.hbm, 111, rfl⟩
abbrev main_v79 : Ref sig .tc := ⟨.hbm, 112, rfl⟩
abbrev main_c_15 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_c_16 : Ref sig .tc := ⟨.hbm, 120, rfl⟩
abbrev main_v86 : Ref sig .tc := ⟨.hbm, 121, rfl⟩
abbrev main_v87 : Ref sig .tc := ⟨.hbm, 122, rfl⟩
abbrev main_c_17 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_18 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_19 : Ref sig .tc := ⟨.hbm, 139, rfl⟩
abbrev main_v102 : Ref sig .tc := ⟨.hbm, 140, rfl⟩
abbrev main_cst_20 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_21 : Ref sig .tc := ⟨.hbm, 148, rfl⟩
abbrev main_v109 : Ref sig .tc := ⟨.hbm, 149, rfl⟩
abbrev main_cst_22 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_cst_23 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_call1_cst : Ref sig .tc := ⟨.hbm, 169, rfl⟩
abbrev main_call1_v0 : Ref sig .tc := ⟨.hbm, 170, rfl⟩
abbrev main_v127 : Ref sig .tc := ⟨.hbm, 171, rfl⟩
abbrev main_v128 : Ref sig .tc := ⟨.hbm, 172, rfl⟩
abbrev main_c_24 : Ref sig .tc := ⟨.hbm, 173, rfl⟩
abbrev main_v129 : Ref sig .tc := ⟨.hbm, 174, rfl⟩
abbrev main_v130 : Ref sig .tc := ⟨.hbm, 175, rfl⟩
abbrev main_c_25 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_c_26 : Ref sig .tc := ⟨.hbm, 182, rfl⟩
abbrev main_v136 : Ref sig .tc := ⟨.hbm, 183, rfl⟩
abbrev main_v137 : Ref sig .tc := ⟨.hbm, 184, rfl⟩
abbrev main_c_27 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_c_28 : Ref sig .tc := ⟨.hbm, 192, rfl⟩
abbrev main_v144 : Ref sig .tc := ⟨.hbm, 193, rfl⟩
abbrev main_v145 : Ref sig .tc := ⟨.hbm, 194, rfl⟩
abbrev main_c_29 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_cst_30 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_call2_cst : Ref sig .tc := ⟨.hbm, 211, rfl⟩
abbrev main_call2_v0 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_cst_31 : Ref sig .tc := ⟨.hbm, 220, rfl⟩
abbrev main_v167 : Ref sig .tc := ⟨.hbm, 221, rfl⟩
abbrev main_v168 : Ref sig .tc := ⟨.hbm, 222, rfl⟩
abbrev main_cst_32 : Ref sig .tc := ⟨.hbm, 223, rfl⟩
abbrev main_v169 : Ref sig .tc := ⟨.hbm, 224, rfl⟩
abbrev main_v170 : Ref sig .tc := ⟨.hbm, 225, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  scatter_S50000_S850000x1_S850000_n_0_0_1_wf : ScatterDims.WF S50000 S850000x1 S850000 [] [0] [0] 1
  dot_S50000x64_S64x128_S50000x128_1_0_0_1_n_n_wf : DotDims.WF S50000x64 S64x128 S50000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KI.Reg0.lean ====
import proofs.«408734_j33483565039990_3_alg».proof.Proof.Gen.KernelIdeal.Launch
import proofs.«408734_j33483565039990_3_alg».proof.Proof.Gen.KernelIdeal.Skeleton
import proofs.«408734_j33483565039990_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x64 := Rect.unit (s := S5000x64) ![0, 0] S5000x64.size inb_S5000x64_S5000x64_0_0
abbrev r0_1 : Rect S64x128 := Rect.unit (s := S64x128) ![0, 0] S64x128.size inb_S64x128_S64x128_0_0
abbrev r0_2 : Rect S5000x1 := Rect.unit (s := S5000x1) ![0, 0] S5000x1.size inb_S5000x1_S5000x1_0_0
abbrev r0_3 : Rect S5000x128 := Rect.unit (s := S5000x128) ![0, 0] S5000x128.size inb_S5000x128_S5000x128_0_0

def out0_3 (x0 : Vec F S5000x64 .f32) (x1 : Vec F S64x128 .f32) (x2 : Vec F S5000x1 .f32) : Vec F S5000x128 .f32 :=
  View.canon [⟨r0_3, k0_pay1 (View.ld x0 r0_0) (View.ld x1 r0_1) (View.ld x2 r0_2)⟩]

theorem cover0_3 (p0 : Vec F S5000x128 .f32) (y : S5000x128.Idx) :
    ∃ pc ∈ ([⟨r0_3, p0⟩] : List (View.Piece (Elt F) S5000x128 .f32)), y ∈ pc.1.set :=
  View.cover_of_tiled [⟨r0_3, p0⟩] S5000x128.size (by rfl) y

set_option maxHeartbeats 1000000 in

theorem sound_kernel0 (c : Dev nD) (E : Set ℕ) (i : grid0.Coords)
    (arg0 : Memref sig .tc .vmem S5000x64 .f32) (harg0 : arg0.IsWhole) (arg1 : Memref sig .tc .vmem S64x128 .f32) (harg1 : arg1.IsWhole)
    (arg2 : Memref sig .tc .vmem S5000x1 .f32) (harg2 : arg2.IsWhole) (arg3 : Memref sig .tc .vmem S5000x128 .f32) (harg3 : arg3.IsWhole)
    (x0 : Vec F S5000x64 .f32) (x1 : Vec F S64x128 .f32) (x2 : Vec F S5000x1 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__matmul_scale_kernel i arg0 harg0 arg1 harg1 arg2 harg2 arg3 harg3) K := by
  simp only [cc0__matmul_scale_kernel_eq_skeleton]; unfold cc0__matmul_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  show Pipeline.ΦA spec0 c ⊢ Pipeline.ΦA spec0 c
  exact BI.Entails.refl _

theorem hout0 (c : Dev nD) : (dat0 V c).Φ (Fin.last cfg0.N) ⊢ Pipeline.ΦA spec0 c := by
  show Pipeline.ΦA spec0 c ⊢ Pipeline.ΦA spec0 c
  exact BI.Entails.refl _

end Cert.KernelIdeal.Hand

end
-- ==== Proof.KI.Reg1Runs.lean ====
import proofs.«408734_j33483565039990_3_alg».proof.Proof.Gen.KernelIdeal.Launch
import proofs.«408734_j33483565039990_3_alg».proof.Proof.Gen.KernelIdeal.Skeleton
import proofs.«408734_j33483565039990_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val = 0 :=
  (by decide +kernel : ∀ t : Fin grid1.N, cond1_0 (grid1.coords t) ↔ t.val = 0)

abbrev cond1_1 (i : grid1.Coords) : Prop := k1_cond2 i = 1#1

theorem hcond1_1 : ∀ t : Fin cfg1.N, cond1_1 (grid1.coords t) ↔ t.val = 9 :=
  (by decide +kernel : ∀ t : Fin grid1.N, cond1_1 (grid1.coords t) ↔ t.val = 9)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

theorem idleAt1_3 : ∀ t : Fin cfg1.N, ¬cond1_1 (grid1.coords t) → cfg1.idle 3 (grid1.coords t) = true := by decide +kernel

theorem noFlush1_3 : ∀ t : Fin cfg1.N, ¬cond1_1 (grid1.coords t) → (cfg1.win 3).flush t = false := by decide +kernel

theorem liveAt1_3 : ∀ t : Fin cfg1.N, cond1_1 (grid1.coords t) → cfg1.idle 3 (grid1.coords t) = false := by decide +kernel

abbrev VO1_3 : View sig .tc .vmem S1x128 .f32 := (Memref.whole cc1_stg3_0 : Memref sig .tc .vmem S1x128 .f32).view

abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)

abbrev scM1_0 : Memref sig .tc .vmem S1x128 .f32 := Memref.whole cc1_scratch0

abbrev VS1_0 : View sig .tc .vmem S1x128 .f32 := scM1_0.view

theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.KernelIdeal.Hand

end
-- ==== Proof.KI.Reg1Run.lean ====
import proofs.«408734_j33483565039990_3_alg».proof.Proof.KI.Reg1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun1_A (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond1_0 i) (hc1 : ¬cond1_1 i)
    (x0 : Vec F S5000x128 .f32) (x1 : Vec F S5000x1 .f32) (x2 : Vec F S1x128 .f32) :
    Σ' (L3 : List (View.Piece (Elt F) S1x128 .f32)), { LS0 : List (View.Piece (Elt F) S1x128 .f32) //
      ∀ (xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc1__sum_kernel i arg1 harg1 arg2 harg2 arg3 harg3 arg4 harg4 arg5 harg5) K } := by
  refine ⟨[], ?_, fun xi3 E K => ?run⟩
  case run =>
    simp only [cc1__sum_kernel_eq_skeleton]; unfold cc1__sum_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 1000000 in

noncomputable def kernelRun1_B (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i) (hc1 : ¬cond1_1 i)
    (x0 : Vec F S5000x128 .f32) (x1 : Vec F S5000x1 .f32) (x2 : Vec F S1x128 .f32) (xs0 : Vec F S1x128 .f32) :
    Σ' (L3 : List (View.Piece (Elt F) S1x128 .f32)), { LS0 : List (View.Piece (Elt F) S1x128 .f32) //
      ∀ (xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc1__sum_kernel i arg1 harg1 arg2 harg2 arg3 harg3 arg4 harg4 arg5 harg5) K } := by
  refine ⟨[], ?_, fun xi3 E K => ?run⟩
  case run =>
    simp only [cc1__sum_kernel_eq_skeleton]; unfold cc1__sum_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 1000000 in

noncomputable def kernelRun1_C (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i) (hc1 : cond1_1 i)
    (x0 : Vec F S5000x128 .f32) (x1 : Vec F S5000x1 .f32) (x2 : Vec F S1x128 .f32) (xs0 : Vec F S1x128 .f32) :
    Σ' (L3 : List (View.Piece (Elt F) S1x128 .f32)), { LS0 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc1__sum_kernel i arg1 harg1 arg2 harg2 arg3 harg3 arg4 harg4 arg5 harg5) K } := by
  refine ⟨?_, ?_, fun E K => ?run⟩
  case run =>
    simp only [cc1__sum_kernel_eq_skeleton]; unfold cc1__sum_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.KernelIdeal.Hand

end
-- ==== Proof.KI.Reg1.lean ====
import proofs.«408734_j33483565039990_3_alg».proof.Proof.KI.Reg1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem scover1_A_0 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond1_0 i) (hc1 : ¬cond1_1 i)
    (x0 : Vec F S5000x128 .f32) (x1 : Vec F S5000x1 .f32) (x2 : Vec F S1x128 .f32) (y : S1x128.Idx) :
    ∃ pc ∈ (kernelRun1_A c i arg1 harg1 arg2 harg2 arg3 harg3 arg4 harg4 arg5 harg5 hc0 hc1 x0 x1 x2).2.1, y ∈ pc.1.set :=
  View.cover_of_tiledL (kernelRun1_A c i arg1 harg1 arg2 harg2 arg3 harg3 arg4 harg4 arg5 harg5 hc0 hc1 x0 x1 x2).2.1 S1x128.size (by sl_kernel_rfl) y

def sout1_A_0 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond1_0 i) (hc1 : ¬cond1_1 i)
    (x0 : Vec F S5000x128 .f32) (x1 : Vec F S5000x1 .f32) (x2 : Vec F S1x128 .f32) : Vec F S1x128 .f32 :=
  VS1_0.read (Elt F) (VS1_0.writes (Elt F) VS1_0.junk (kernelRun1_A c i arg1 harg1 arg2 harg2 arg3 harg3 arg4 harg4 arg5 harg5 hc0 hc1 x0 x1 x2).2.1)

theorem scover1_B_0 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i) (hc1 : ¬cond1_1 i)
    (x0 : Vec F S5000x128 .f32) (x1 : Vec F S5000x1 .f32) (x2 : Vec F S1x128 .f32) (xs0 : Vec F S1x128 .f32) (y : S1x128.Idx) :
    ∃ pc ∈ (kernelRun1_B c i arg1 harg1 arg2 harg2 arg3 harg3 arg4 harg4 arg5 harg5 hc0 hc1 x0 x1 x2 xs0).2.1, y ∈ pc.1.set :=
  View.cover_of_tiledL (kernelRun1_B c i arg1 harg1 arg2 harg2 arg3 harg3 arg4 harg4 arg5 harg5 hc0 hc1 x0 x1 x2 xs0).2.1 S1x128.size (by sl_kernel_rfl) y

def sout1_B_0 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i) (hc1 : ¬cond1_1 i)
    (x0 : Vec F S5000x128 .f32) (x1 : Vec F S5000x1 .f32) (x2 : Vec F S1x128 .f32) (xs0 : Vec F S1x128 .f32) : Vec F S1x128 .f32 :=
  VS1_0.read (Elt F) (VS1_0.writes (Elt F) VS1_0.junk (kernelRun1_B c i arg1 harg1 arg2 harg2 arg3 harg3 arg4 harg4 arg5 harg5 hc0 hc1 x0 x1 x2 xs0).2.1)

theorem cover1_C_3 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i) (hc1 : cond1_1 i)
    (x0 : Vec F S5000x128 .f32) (x1 : Vec F S5000x1 .f32) (x2 : Vec F S1x128 .f32) (xs0 : Vec F S1x128 .f32) (y : S1x128.Idx) :
    ∃ pc ∈ (kernelRun1_C c i arg1 harg1 arg2 harg2 arg3 harg3 arg4 harg4 arg5 harg5 hc0 hc1 x0 x1 x2 xs0).1, y ∈ pc.1.set :=
  View.cover_of_tiledL (kernelRun1_C c i arg1 harg1 arg2 harg2 arg3 harg3 arg4 harg4 arg5 harg5 hc0 hc1 x0 x1 x2 xs0).1 S1x128.size (by sl_kernel_rfl) y

def out1_C_3 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i) (hc1 : cond1_1 i)
    (x0 : Vec F S5000x128 .f32) (x1 : Vec F S5000x1 .f32) (x2 : Vec F S1x128 .f32) (xs0 : Vec F S1x128 .f32) : Vec F S1x128 .f32 :=
  VO1_3.read (Elt F) (VO1_3.writes (Elt F) VO1_3.junk (kernelRun1_C c i arg1 harg1 arg2 harg2 arg3 harg3 arg4 harg4 arg5 harg5 hc0 hc1 x0 x1 x2 xs0).1)

theorem scover1_C_0 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i) (hc1 : cond1_1 i)
    (x0 : Vec F S5000x128 .f32) (x1 : Vec F S5000x1 .f32) (x2 : Vec F S1x128 .f32) (xs0 : Vec F S1x128 .f32) (y : S1x128.Idx) :
    ∃ pc ∈ (kernelRun1_C c i arg1 harg1 arg2 harg2 arg3 harg3 arg4 harg4 arg5 harg5 hc0 hc1 x0 x1 x2 xs0).2.1, y ∈ pc.1.set :=
  View.cover_of_tiledL (kernelRun1_C c i arg1 harg1 arg2 harg2 arg3 harg3 arg4 harg4 arg5 harg5 hc0 hc1 x0 x1 x2 xs0).2.1 S1x128.size (by sl_kernel_rfl) y

def sout1_C_0 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i) (hc1 : cond1_1 i)
    (x0 : Vec F S5000x128 .f32) (x1 : Vec F S5000x1 .f32) (x2 : Vec F S1x128 .f32) (xs0 : Vec F S1x128 .f32) : Vec F S1x128 .f32 :=
  VS1_0.read (Elt F) (VS1_0.writes (Elt F) VS1_0.junk (kernelRun1_C c i arg1 harg1 arg2 harg2 arg3 harg3 arg4 harg4 arg5 harg5 hc0 hc1 x0 x1 x2 xs0).2.1)

def idle1_3 : Vec F S1x128 .f32 := VO1_3.read (Elt F) VO1_3.junk

def outsAt1 (c : Dev nD) : (n : ℕ) → n < cfg1.N → Vec F S1x128 .f32 × Vec F S1x128 .f32
  | 0, hn => (idle1_3, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr rfl) (fun h => absurd ((hcond1_1 ⟨0, hn⟩).mp h) (show ¬(0 : ℕ) = 9 by decide)) (iblk1 V c 0 ⟨0, hn⟩) (iblk1 V c 1 ⟨0, hn⟩) (iblk1 V c 2 ⟨0, hn⟩))
  | n + 1, hn =>
    if h1 : n + 1 = 9 then
      (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
       sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
    else
      (idle1_3, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val = 0) (h1 : ¬t.val = 9) :
    outsAt1 V c t.val t.isLt = (idle1_3, sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact absurd h0 (Nat.succ_ne_zero n)

theorem outsAt1_B (c : Dev nD) (t : Fin cfg1.N) (h0 : ¬t.val = 0) (h1 : ¬t.val = 9) :
    outsAt1 V c t.val t.isLt = (idle1_3, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

theorem outsAt1_C (c : Dev nD) (t : Fin cfg1.N) (h0 : ¬t.val = 0) (h1 : t.val = 9) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2)
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 10 := lt_of_lt_of_eq t.isLt (show cfg1.N = 10 from N_1)
  by_cases h0 : t.val = 0
  · have h1 : ¬t.val = 9 := by omega
    have hc1 : ¬cond1_1 (grid1.coords t) := fun h => h1 ((hcond1_1 t).mp h)
    rw [Dat.leavesExact_idle (dat1 V c) 3 t (idleAt1_3 t hc1) (noFlush1_3 t hc1)]
    rw [outsAt1_A V c t h0 h1]
    unfold sout1_A_0; (try dsimp only)
    rw [PhiS1_castSucc V c t, PhiS1_zero V c _ _ h0, PhiA1_eq]
    iintro ⟨⟨⟨HS0, Hr⟩, Hg⟩, Ho, ⟨%d0, H0⟩, ⟨%d1, H1⟩, ⟨%d2, H2⟩, ⟨%d3, H3⟩⟩
    iapply ((kernelRun1_A c (grid1.coords t) _ _ _ _ _ _ _ _ _ _ ((hcond1_0 t).mpr h0) hc1 (iblk1 V c 0 t) (iblk1 V c 1 t) (iblk1 V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover1_A_0 c _ _ _ _ _ _ _ _ _ _ _ _ _ _ _ _)
        iexact Hr
      iexact Hg
    isplitl [Ho]; · iexact Ho
    isplitl [H0]; · iexact H0
    isplitl [H1]; · iexact H1
    isplitl [H2]; · iexact H2
    iexists _; iexact H3
  · by_cases h1 : t.val = 9
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [outsAt1_C V c t h0 h1]
      unfold out1_C_3 sout1_C_0; (try dsimp only)
      rw [PhiS1_castSucc V c t, PhiS1_pos V c _ _ h0]
      iintro ⟨⟨⟨HS0, Hr⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) hc1 (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · have hc1 : ¬cond1_1 (grid1.coords t) := fun h => h1 ((hcond1_1 t).mp h)
      rw [Dat.leavesExact_idle (dat1 V c) 3 t (idleAt1_3 t hc1) (noFlush1_3 t hc1)]
      rw [outsAt1_B V c t h0 h1]
      unfold sout1_B_0; (try dsimp only)
      rw [PhiS1_castSucc V c t, PhiS1_pos V c _ _ h0]
      iintro ⟨⟨⟨HS0, Hr⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) hc1 (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

theorem hout1 (c : Dev nD) : (dat1 V c).Φ (Fin.last cfg1.N) ⊢ Pipeline.ΦA spec1 c :=
  Phi_out1 V c _ (by rw [Fin.val_last]; have : cfg1.N = 10 := N_1; omega)

end Cert.KernelIdeal.Hand

end
-- ==== Proof.KI.Reg2Runs.lean ====
import proofs.«408734_j33483565039990_3_alg».proof.Proof.Gen.KernelIdeal.Launch
import proofs.«408734_j33483565039990_3_alg».proof.Proof.Gen.KernelIdeal.Skeleton
import proofs.«408734_j33483565039990_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val = 0 :=
  (by decide +kernel : ∀ t : Fin grid2.N, cond2_0 (grid2.coords t) ↔ t.val = 0)

abbrev cond2_1 (i : grid2.Coords) : Prop := k2_cond2 i = 1#1

theorem hcond2_1 : ∀ t : Fin cfg2.N, cond2_1 (grid2.coords t) ↔ t.val = 9 :=
  (by decide +kernel : ∀ t : Fin grid2.N, cond2_1 (grid2.coords t) ↔ t.val = 9)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel

theorem idleAt2_4 : ∀ t : Fin cfg2.N, ¬cond2_1 (grid2.coords t) → cfg2.idle 4 (grid2.coords t) = true := by decide +kernel

theorem noFlush2_4 : ∀ t : Fin cfg2.N, ¬cond2_1 (grid2.coords t) → (cfg2.win 4).flush t = false := by decide +kernel

theorem liveAt2_4 : ∀ t : Fin cfg2.N, cond2_1 (grid2.coords t) → cfg2.idle 4 (grid2.coords t) = false := by decide +kernel

abbrev VO2_4 : View sig .tc .vmem S1x128 .f32 := (Memref.whole cc2_stg4_0 : Memref sig .tc .vmem S1x128 .f32).view

abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)

abbrev scM2_0 : Memref sig .tc .vmem S1x128 .f32 := Memref.whole cc2_scratch0

abbrev VS2_0 : View sig .tc .vmem S1x128 .f32 := scM2_0.view

theorem PhiA2_eq (c : Dev nD) :
    (Pipeline.ΦA spec2 c : sProp 𝕄)
      = iprop(iprop((∃ d, owns (c : Thread nD τ) scM2_0 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Cert.KernelIdeal.Hand

end
-- ==== Proof.KI.Reg2RunA.lean ====
import proofs.«408734_j33483565039990_3_alg».proof.Proof.KI.Reg2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun2_A (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond2_0 i) (hc1 : ¬cond2_1 i)
    (x0 : Vec F S5000x128 .f32) (x1 : Vec F S5000x1 .f32) (x2 : Vec F S1x128 .f32) (x3 : Vec F S1x128 .f32) :
    Σ' (L4 : List (View.Piece (Elt F) S1x128 .f32)), { LS0 : List (View.Piece (Elt F) S1x128 .f32) //
      ∀ (xi4 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc2__sumsq_kernel i arg1 harg1 arg2 harg2 arg3 harg3 arg4 harg4 arg5 harg5 arg6 harg6) K } := by
  refine ⟨[], ?_, fun xi4 E K => ?run⟩
  case run =>
    simp only [cc2__sumsq_kernel_eq_skeleton]; unfold cc2__sumsq_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.KernelIdeal.Hand

end
-- ==== Proof.KI.Reg2RunB.lean ====
import proofs.«408734_j33483565039990_3_alg».proof.Proof.KI.Reg2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun2_B (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i) (hc1 : ¬cond2_1 i)
    (x0 : Vec F S5000x128 .f32) (x1 : Vec F S5000x1 .f32) (x2 : Vec F S1x128 .f32) (x3 : Vec F S1x128 .f32) (xs0 : Vec F S1x128 .f32) :
    Σ' (L4 : List (View.Piece (Elt F) S1x128 .f32)), { LS0 : List (View.Piece (Elt F) S1x128 .f32) //
      ∀ (xi4 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc2__sumsq_kernel i arg1 harg1 arg2 harg2 arg3 harg3 arg4 harg4 arg5 harg5 arg6 harg6) K } := by
  refine ⟨[], ?_, fun xi4 E K => ?run⟩
  case run =>
    simp only [cc2__sumsq_kernel_eq_skeleton]; unfold cc2__sumsq_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.KernelIdeal.Hand

end
-- ==== Proof.KI.Reg2RunC.lean ====
import proofs.«408734_j33483565039990_3_alg».proof.Proof.KI.Reg2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun2_C (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i) (hc1 : cond2_1 i)
    (x0 : Vec F S5000x128 .f32) (x1 : Vec F S5000x1 .f32) (x2 : Vec F S1x128 .f32) (x3 : Vec F S1x128 .f32) (xs0 : Vec F S1x128 .f32) :
    Σ' (L4 : List (View.Piece (Elt F) S1x128 .f32)), { LS0 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc2__sumsq_kernel i arg1 harg1 arg2 harg2 arg3 harg3 arg4 harg4 arg5 harg5 arg6 harg6) K } := by
  refine ⟨?_, ?_, fun E K => ?run⟩
  case run =>
    simp only [cc2__sumsq_kernel_eq_skeleton]; unfold cc2__sumsq_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.KernelIdeal.Hand

end
-- ==== Proof.KI.Reg2.lean ====
import proofs.«408734_j33483565039990_3_alg».proof.Proof.KI.Reg2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def out2_A_4 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond2_0 i) (hc1 : ¬cond2_1 i)
    (x0 : Vec F S5000x128 .f32) (x1 : Vec F S5000x1 .f32) (x2 : Vec F S1x128 .f32) (x3 : Vec F S1x128 .f32) : Vec F S1x128 .f32 :=
  VO2_4.read (Elt F) (VO2_4.writes (Elt F) VO2_4.junk (kernelRun2_A c i arg1 harg1 arg2 harg2 arg3 harg3 arg4 harg4 arg5 harg5 arg6 harg6 hc0 hc1 x0 x1 x2 x3).1)

theorem scover2_A_0 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond2_0 i) (hc1 : ¬cond2_1 i)
    (x0 : Vec F S5000x128 .f32) (x1 : Vec F S5000x1 .f32) (x2 : Vec F S1x128 .f32) (x3 : Vec F S1x128 .f32) (y : S1x128.Idx) :
    ∃ pc ∈ (kernelRun2_A c i arg1 harg1 arg2 harg2 arg3 harg3 arg4 harg4 arg5 harg5 arg6 harg6 hc0 hc1 x0 x1 x2 x3).2.1, y ∈ pc.1.set :=
  View.cover_of_tiledL (kernelRun2_A c i arg1 harg1 arg2 harg2 arg3 harg3 arg4 harg4 arg5 harg5 arg6 harg6 hc0 hc1 x0 x1 x2 x3).2.1 S1x128.size (by sl_kernel_rfl) y

def sout2_A_0 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond2_0 i) (hc1 : ¬cond2_1 i)
    (x0 : Vec F S5000x128 .f32) (x1 : Vec F S5000x1 .f32) (x2 : Vec F S1x128 .f32) (x3 : Vec F S1x128 .f32) : Vec F S1x128 .f32 :=
  VS2_0.read (Elt F) (VS2_0.writes (Elt F) VS2_0.junk (kernelRun2_A c i arg1 harg1 arg2 harg2 arg3 harg3 arg4 harg4 arg5 harg5 arg6 harg6 hc0 hc1 x0 x1 x2 x3).2.1)

def out2_B_4 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i) (hc1 : ¬cond2_1 i)
    (x0 : Vec F S5000x128 .f32) (x1 : Vec F S5000x1 .f32) (x2 : Vec F S1x128 .f32) (x3 : Vec F S1x128 .f32) (xs0 : Vec F S1x128 .f32) : Vec F S1x128 .f32 :=
  VO2_4.read (Elt F) (VO2_4.writes (Elt F) VO2_4.junk (kernelRun2_B c i arg1 harg1 arg2 harg2 arg3 harg3 arg4 harg4 arg5 harg5 arg6 harg6 hc0 hc1 x0 x1 x2 x3 xs0).1)

theorem scover2_B_0 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i) (hc1 : ¬cond2_1 i)
    (x0 : Vec F S5000x128 .f32) (x1 : Vec F S5000x1 .f32) (x2 : Vec F S1x128 .f32) (x3 : Vec F S1x128 .f32) (xs0 : Vec F S1x128 .f32) (y : S1x128.Idx) :
    ∃ pc ∈ (kernelRun2_B c i arg1 harg1 arg2 harg2 arg3 harg3 arg4 harg4 arg5 harg5 arg6 harg6 hc0 hc1 x0 x1 x2 x3 xs0).2.1, y ∈ pc.1.set :=
  View.cover_of_tiledL (kernelRun2_B c i arg1 harg1 arg2 harg2 arg3 harg3 arg4 harg4 arg5 harg5 arg6 harg6 hc0 hc1 x0 x1 x2 x3 xs0).2.1 S1x128.size (by sl_kernel_rfl) y

def sout2_B_0 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i) (hc1 : ¬cond2_1 i)
    (x0 : Vec F S5000x128 .f32) (x1 : Vec F S5000x1 .f32) (x2 : Vec F S1x128 .f32) (x3 : Vec F S1x128 .f32) (xs0 : Vec F S1x128 .f32) : Vec F S1x128 .f32 :=
  VS2_0.read (Elt F) (VS2_0.writes (Elt F) VS2_0.junk (kernelRun2_B c i arg1 harg1 arg2 harg2 arg3 harg3 arg4 harg4 arg5 harg5 arg6 harg6 hc0 hc1 x0 x1 x2 x3 xs0).2.1)

theorem cover2_C_4 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i) (hc1 : cond2_1 i)
    (x0 : Vec F S5000x128 .f32) (x1 : Vec F S5000x1 .f32) (x2 : Vec F S1x128 .f32) (x3 : Vec F S1x128 .f32) (xs0 : Vec F S1x128 .f32) (y : S1x128.Idx) :
    ∃ pc ∈ (kernelRun2_C c i arg1 harg1 arg2 harg2 arg3 harg3 arg4 harg4 arg5 harg5 arg6 harg6 hc0 hc1 x0 x1 x2 x3 xs0).1, y ∈ pc.1.set :=
  View.cover_of_tiledL (kernelRun2_C c i arg1 harg1 arg2 harg2 arg3 harg3 arg4 harg4 arg5 harg5 arg6 harg6 hc0 hc1 x0 x1 x2 x3 xs0).1 S1x128.size (by sl_kernel_rfl) y

def out2_C_4 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i) (hc1 : cond2_1 i)
    (x0 : Vec F S5000x128 .f32) (x1 : Vec F S5000x1 .f32) (x2 : Vec F S1x128 .f32) (x3 : Vec F S1x128 .f32) (xs0 : Vec F S1x128 .f32) : Vec F S1x128 .f32 :=
  VO2_4.read (Elt F) (VO2_4.writes (Elt F) VO2_4.junk (kernelRun2_C c i arg1 harg1 arg2 harg2 arg3 harg3 arg4 harg4 arg5 harg5 arg6 harg6 hc0 hc1 x0 x1 x2 x3 xs0).1)

theorem scover2_C_0 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i) (hc1 : cond2_1 i)
    (x0 : Vec F S5000x128 .f32) (x1 : Vec F S5000x1 .f32) (x2 : Vec F S1x128 .f32) (x3 : Vec F S1x128 .f32) (xs0 : Vec F S1x128 .f32) (y : S1x128.Idx) :
    ∃ pc ∈ (kernelRun2_C c i arg1 harg1 arg2 harg2 arg3 harg3 arg4 harg4 arg5 harg5 arg6 harg6 hc0 hc1 x0 x1 x2 x3 xs0).2.1, y ∈ pc.1.set :=
  View.cover_of_tiledL (kernelRun2_C c i arg1 harg1 arg2 harg2 arg3 harg3 arg4 harg4 arg5 harg5 arg6 harg6 hc0 hc1 x0 x1 x2 x3 xs0).2.1 S1x128.size (by sl_kernel_rfl) y

def sout2_C_0 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i) (hc1 : cond2_1 i)
    (x0 : Vec F S5000x128 .f32) (x1 : Vec F S5000x1 .f32) (x2 : Vec F S1x128 .f32) (x3 : Vec F S1x128 .f32) (xs0 : Vec F S1x128 .f32) : Vec F S1x128 .f32 :=
  VS2_0.read (Elt F) (VS2_0.writes (Elt F) VS2_0.junk (kernelRun2_C c i arg1 harg1 arg2 harg2 arg3 harg3 arg4 harg4 arg5 harg5 arg6 harg6 hc0 hc1 x0 x1 x2 x3 xs0).2.1)

def outsAt2 (c : Dev nD) : (n : ℕ) → n < cfg2.N → Vec F S1x128 .f32 × Vec F S1x128 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h1 : n + 1 = 9 then
      (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
    else
      (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

theorem outsAt2_A (c : Dev nD) (t : Fin cfg2.N) (h0 : t.val = 0) (h1 : ¬t.val = 9) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact absurd h0 (Nat.succ_ne_zero n)

theorem outsAt2_B (c : Dev nD) (t : Fin cfg2.N) (h0 : ¬t.val = 0) (h1 : ¬t.val = 9) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact absurd rfl h0
  | succ n => exact (dif_neg h1).trans rfl

theorem outsAt2_C (c : Dev nD) (t : Fin cfg2.N) (h0 : ¬t.val = 0) (h1 : t.val = 9) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact absurd rfl h0
  | succ n => exact (dif_pos h1).trans rfl

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  by_cases h0 : t.val = 0
  · by_cases h1 : t.val = 9
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4 t (fun h => h1 ((hcond2_1 t).mp h))) (noFlush2_4 t (fun h => h1 ((hcond2_1 t).mp h)))]
      rw [outsAt2_A V c t h0 h1]
      unfold sout2_A_0; (try dsimp only)
      rw [PhiS2_castSucc V c t, PhiS2_zero V c _ _ h0, PhiA2_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_A_0 c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
  · by_cases h1 : t.val = 9
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_C V c t h0 h1]
      unfold out2_C_4 sout2_C_0; (try dsimp only)
      rw [PhiS2_castSucc V c t, PhiS2_pos V c _ _ h0]
      iintro ⟨⟨⟨HS0, Hr⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_C_0 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_C_4 c _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4 t (fun h => h1 ((hcond2_1 t).mp h))) (noFlush2_4 t (fun h => h1 ((hcond2_1 t).mp h)))]
      rw [outsAt2_B V c t h0 h1]
      unfold sout2_B_0; (try dsimp only)
      rw [PhiS2_castSucc V c t, PhiS2_pos V c _ _ h0]
      iintro ⟨⟨⟨HS0, Hr⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_B_0 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

theorem hout2 (c : Dev nD) : (dat2 V c).Φ (Fin.last cfg2.N) ⊢ Pipeline.ΦA spec2 c :=
  Phi_out2 V c _ (by rw [Fin.val_last]; have : cfg2.N = 10 := N_2; omega)

end Cert.KernelIdeal.Hand

end
-- ==== Proof.KI.Reg3.lean ====
import proofs.«408734_j33483565039990_3_alg».proof.Proof.Gen.KernelIdeal.Launch
import proofs.«408734_j33483565039990_3_alg».proof.Proof.Gen.KernelIdeal.Skeleton
import proofs.«408734_j33483565039990_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S5000x128 := Rect.unit (s := S5000x128) ![0, 0] S5000x128.size inb_S5000x128_S5000x128_0_0
abbrev r3_1 : Rect S5000x1 := Rect.unit (s := S5000x1) ![0, 0] S5000x1.size inb_S5000x1_S5000x1_0_0
abbrev r3_2 : Rect S1x128 := Rect.unit (s := S1x128) ![0, 0] S1x128.size inb_S1x128_S1x128_0_0
abbrev r3_3 : Rect S128x128 := Rect.unit (s := S128x128) ![0, 0] S128x128.size inb_S128x128_S128x128_0_0

def out3_8 (x0 : Vec F S5000x128 .f32) (x1 : Vec F S5000x1 .f32) (x2 x3 x4 x5 x6 : Vec F S1x128 .f32) (x7 : Vec F S128x128 .f32) : Vec F S5000x128 .f32 :=
  View.canon [⟨r3_0, k3_pay1 (View.ld x0 r3_0) (View.ld x1 r3_1) (View.ld x2 r3_2) (View.ld x3 r3_2) (View.ld x4 r3_2) (View.ld x5 r3_2) (View.ld x6 r3_2) (View.ld x7 r3_3) (View.ld x1 r3_1)⟩]

theorem cover3_8 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

set_option maxHeartbeats 4000000 in

theorem sound_kernel3 (c : Dev nD) (E : Set ℕ) (i : grid3.Coords) (arg0 : Memref sig .tc .vmem S5000x128 .f32) (harg0 : arg0.IsWhole) (arg1 : Memref sig .tc .vmem S5000x1 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S5000x128 .f32) (harg8 : arg8.IsWhole)
    (x0 : Vec F S5000x128 .f32) (x1 : Vec F S5000x1 .f32) (x2 : Vec F S1x128 .f32) (x3 : Vec F S1x128 .f32) (x4 : Vec F S1x128 .f32) (x5 : Vec F S1x128 .f32) (x6 : Vec F S1x128 .f32) (x7 : Vec F S128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out3_8 x0 x1 x2 x3 x4 x5 x6 x7)) -∗ K ⟨⟩))
      ⊢ wp frame (wpE (defs₀ (F := F)) Variants.none c none) E (cc3__bn_relu_matmul_kernel i arg0 harg0 arg1 harg1 arg2 harg2 arg3 harg3 arg4 harg4 arg5 harg5 arg6 harg6 arg7 harg7 arg8 harg8) K := by
  simp only [cc3__bn_relu_matmul_kernel_eq_skeleton]; unfold cc3__bn_relu_matmul_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover3_8 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = out3_8 (iblk3 V c 0 t) (iblk3 V c 1 t) (iblk3 V c 2 t) (iblk3 V c 3 t) (iblk3 V c 4 t) (iblk3 V c 5 t) (iblk3 V c 6 t) (iblk3 V c 7 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  show Pipeline.ΦA spec3 c ⊢ Pipeline.ΦA spec3 c
  exact BI.Entails.refl _

theorem hout3 (c : Dev nD) : (dat3 V c).Φ (Fin.last cfg3.N) ⊢ Pipeline.ΦA spec3 c := by
  show Pipeline.ΦA spec3 c ⊢ Pipeline.ΦA spec3 c
  exact BI.Entails.refl _

end Cert.KernelIdeal.Hand

end
-- ==== Proof.KI.Reg4Runs.lean ====
import proofs.«408734_j33483565039990_3_alg».proof.Proof.Gen.KernelIdeal.Launch
import proofs.«408734_j33483565039990_3_alg».proof.Proof.Gen.KernelIdeal.Skeleton
import proofs.«408734_j33483565039990_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev cond4_0 (i : grid4.Coords) : Prop := (Scalar.cmpi .ne (Scalar.extui (Scalar.cmpi .eq (BitVec.ofNat 32 (i 0).val) 0#32)) 0#32) = 1#1

theorem hcond4_0 : ∀ t : Fin cfg4.N, cond4_0 (grid4.coords t) ↔ t.val = 0 :=
  (by decide +kernel : ∀ t : Fin grid4.N, cond4_0 (grid4.coords t) ↔ t.val = 0)

abbrev cond4_1 (i : grid4.Coords) : Prop := k4_cond2 i = 1#1

theorem hcond4_1 : ∀ t : Fin cfg4.N, cond4_1 (grid4.coords t) ↔ t.val = 9 :=
  (by decide +kernel : ∀ t : Fin grid4.N, cond4_1 (grid4.coords t) ↔ t.val = 9)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel

theorem idleAt4_3 : ∀ t : Fin cfg4.N, ¬cond4_1 (grid4.coords t) → cfg4.idle 3 (grid4.coords t) = true := by decide +kernel

theorem noFlush4_3 : ∀ t : Fin cfg4.N, ¬cond4_1 (grid4.coords t) → (cfg4.win 3).flush t = false := by decide +kernel

theorem liveAt4_3 : ∀ t : Fin cfg4.N, cond4_1 (grid4.coords t) → cfg4.idle 3 (grid4.coords t) = false := by decide +kernel

abbrev VO4_3 : View sig .tc .vmem S1x128 .f32 := (Memref.whole cc4_stg3_0 : Memref sig .tc .vmem S1x128 .f32).view

abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x1 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)

abbrev scM4_0 : Memref sig .tc .vmem S1x128 .f32 := Memref.whole cc4_scratch0

abbrev VS4_0 : View sig .tc .vmem S1x128 .f32 := scM4_0.view

theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.KernelIdeal.Hand

end
-- ==== Proof.KI.Reg4Run.lean ====
import proofs.«408734_j33483565039990_3_alg».proof.Proof.KI.Reg4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun4_A (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond4_0 i) (hc1 : ¬cond4_1 i)
    (x0 : Vec F S5000x128 .f32) (x1 : Vec F S5000x1 .f32) (x2 : Vec F S1x128 .f32) :
    Σ' (L3 : List (View.Piece (Elt F) S1x128 .f32)), { LS0 : List (View.Piece (Elt F) S1x128 .f32) //
      ∀ (xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc4__sum_kernel i arg1 harg1 arg2 harg2 arg3 harg3 arg4 harg4 arg5 harg5) K } := by
  refine ⟨[], ?_, fun xi3 E K => ?run⟩
  case run =>
    simp only [cc4__sum_kernel_eq_skeleton]; unfold cc4__sum_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 1000000 in

noncomputable def kernelRun4_B (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond4_0 i) (hc1 : ¬cond4_1 i)
    (x0 : Vec F S5000x128 .f32) (x1 : Vec F S5000x1 .f32) (x2 : Vec F S1x128 .f32) (xs0 : Vec F S1x128 .f32) :
    Σ' (L3 : List (View.Piece (Elt F) S1x128 .f32)), { LS0 : List (View.Piece (Elt F) S1x128 .f32) //
      ∀ (xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc4__sum_kernel i arg1 harg1 arg2 harg2 arg3 harg3 arg4 harg4 arg5 harg5) K } := by
  refine ⟨[], ?_, fun xi3 E K => ?run⟩
  case run =>
    simp only [cc4__sum_kernel_eq_skeleton]; unfold cc4__sum_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 1000000 in

noncomputable def kernelRun4_C (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond4_0 i) (hc1 : cond4_1 i)
    (x0 : Vec F S5000x128 .f32) (x1 : Vec F S5000x1 .f32) (x2 : Vec F S1x128 .f32) (xs0 : Vec F S1x128 .f32) :
    Σ' (L3 : List (View.Piece (Elt F) S1x128 .f32)), { LS0 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc4__sum_kernel i arg1 harg1 arg2 harg2 arg3 harg3 arg4 harg4 arg5 harg5) K } := by
  refine ⟨?_, ?_, fun E K => ?run⟩
  case run =>
    simp only [cc4__sum_kernel_eq_skeleton]; unfold cc4__sum_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.KernelIdeal.Hand

end
-- ==== Proof.KI.Reg4.lean ====
import proofs.«408734_j33483565039990_3_alg».proof.Proof.KI.Reg4Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem scover4_A_0 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond4_0 i) (hc1 : ¬cond4_1 i)
    (x0 : Vec F S5000x128 .f32) (x1 : Vec F S5000x1 .f32) (x2 : Vec F S1x128 .f32) (y : S1x128.Idx) :
    ∃ pc ∈ (kernelRun4_A c i arg1 harg1 arg2 harg2 arg3 harg3 arg4 harg4 arg5 harg5 hc0 hc1 x0 x1 x2).2.1, y ∈ pc.1.set :=
  View.cover_of_tiledL (kernelRun4_A c i arg1 harg1 arg2 harg2 arg3 harg3 arg4 harg4 arg5 harg5 hc0 hc1 x0 x1 x2).2.1 S1x128.size (by sl_kernel_rfl) y

def sout4_A_0 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond4_0 i) (hc1 : ¬cond4_1 i)
    (x0 : Vec F S5000x128 .f32) (x1 : Vec F S5000x1 .f32) (x2 : Vec F S1x128 .f32) : Vec F S1x128 .f32 :=
  VS4_0.read (Elt F) (VS4_0.writes (Elt F) VS4_0.junk (kernelRun4_A c i arg1 harg1 arg2 harg2 arg3 harg3 arg4 harg4 arg5 harg5 hc0 hc1 x0 x1 x2).2.1)

theorem scover4_B_0 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond4_0 i) (hc1 : ¬cond4_1 i)
    (x0 : Vec F S5000x128 .f32) (x1 : Vec F S5000x1 .f32) (x2 : Vec F S1x128 .f32) (xs0 : Vec F S1x128 .f32) (y : S1x128.Idx) :
    ∃ pc ∈ (kernelRun4_B c i arg1 harg1 arg2 harg2 arg3 harg3 arg4 harg4 arg5 harg5 hc0 hc1 x0 x1 x2 xs0).2.1, y ∈ pc.1.set :=
  View.cover_of_tiledL (kernelRun4_B c i arg1 harg1 arg2 harg2 arg3 harg3 arg4 harg4 arg5 harg5 hc0 hc1 x0 x1 x2 xs0).2.1 S1x128.size (by sl_kernel_rfl) y

def sout4_B_0 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond4_0 i) (hc1 : ¬cond4_1 i)
    (x0 : Vec F S5000x128 .f32) (x1 : Vec F S5000x1 .f32) (x2 : Vec F S1x128 .f32) (xs0 : Vec F S1x128 .f32) : Vec F S1x128 .f32 :=
  VS4_0.read (Elt F) (VS4_0.writes (Elt F) VS4_0.junk (kernelRun4_B c i arg1 harg1 arg2 harg2 arg3 harg3 arg4 harg4 arg5 harg5 hc0 hc1 x0 x1 x2 xs0).2.1)

theorem cover4_C_3 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond4_0 i) (hc1 : cond4_1 i)
    (x0 : Vec F S5000x128 .f32) (x1 : Vec F S5000x1 .f32) (x2 : Vec F S1x128 .f32) (xs0 : Vec F S1x128 .f32) (y : S1x128.Idx) :
    ∃ pc ∈ (kernelRun4_C c i arg1 harg1 arg2 harg2 arg3 harg3 arg4 harg4 arg5 harg5 hc0 hc1 x0 x1 x2 xs0).1, y ∈ pc.1.set :=
  View.cover_of_tiledL (kernelRun4_C c i arg1 harg1 arg2 harg2 arg3 harg3 arg4 harg4 arg5 harg5 hc0 hc1 x0 x1 x2 xs0).1 S1x128.size (by sl_kernel_rfl) y

def out4_C_3 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond4_0 i) (hc1 : cond4_1 i)
    (x0 : Vec F S5000x128 .f32) (x1 : Vec F S5000x1 .f32) (x2 : Vec F S1x128 .f32) (xs0 : Vec F S1x128 .f32) : Vec F S1x128 .f32 :=
  VO4_3.read (Elt F) (VO4_3.writes (Elt F) VO4_3.junk (kernelRun4_C c i arg1 harg1 arg2 harg2 arg3 harg3 arg4 harg4 arg5 harg5 hc0 hc1 x0 x1 x2 xs0).1)

theorem scover4_C_0 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond4_0 i) (hc1 : cond4_1 i)
    (x0 : Vec F S5000x128 .f32) (x1 : Vec F S5000x1 .f32) (x2 : Vec F S1x128 .f32) (xs0 : Vec F S1x128 .f32) (y : S1x128.Idx) :
    ∃ pc ∈ (kernelRun4_C c i arg1 harg1 arg2 harg2 arg3 harg3 arg4 harg4 arg5 harg5 hc0 hc1 x0 x1 x2 xs0).2.1, y ∈ pc.1.set :=
  View.cover_of_tiledL (kernelRun4_C c i arg1 harg1 arg2 harg2 arg3 harg3 arg4 harg4 arg5 harg5 hc0 hc1 x0 x1 x2 xs0).2.1 S1x128.size (by sl_kernel_rfl) y

def sout4_C_0 (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond4_0 i) (hc1 : cond4_1 i)
    (x0 : Vec F S5000x128 .f32) (x1 : Vec F S5000x1 .f32) (x2 : Vec F S1x128 .f32) (xs0 : Vec F S1x128 .f32) : Vec F S1x128 .f32 :=
  VS4_0.read (Elt F) (VS4_0.writes (Elt F) VS4_0.junk (kernelRun4_C c i arg1 harg1 arg2 harg2 arg3 harg3 arg4 harg4 arg5 harg5 hc0 hc1 x0 x1 x2 xs0).2.1)

def idle4_3 : Vec F S1x128 .f32 := VO4_3.read (Elt F) VO4_3.junk

def outsAt4 (c : Dev nD) : (n : ℕ) → n < cfg4.N → Vec F S1x128 .f32 × Vec F S1x128 .f32
  | 0, hn => (idle4_3, sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr rfl) (fun h => absurd ((hcond4_1 ⟨0, hn⟩).mp h) (show ¬(0 : ℕ) = 9 by decide)) (iblk4 V c 0 ⟨0, hn⟩) (iblk4 V c 1 ⟨0, hn⟩) (iblk4 V c 2 ⟨0, hn⟩))
  | n + 1, hn =>
    if h1 : n + 1 = 9 then
      (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2,
       sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2)
    else
      (idle4_3, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2)

theorem outsAt4_A (c : Dev nD) (t : Fin cfg4.N) (h0 : t.val = 0) (h1 : ¬t.val = 9) :
    outsAt4 V c t.val t.isLt = (idle4_3, sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact absurd h0 (Nat.succ_ne_zero n)

theorem outsAt4_B (c : Dev nD) (t : Fin cfg4.N) (h0 : ¬t.val = 0) (h1 : ¬t.val = 9) :
    outsAt4 V c t.val t.isLt = (idle4_3, sout4_B_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact absurd rfl h0
  | succ n => exact (dif_neg h1).trans rfl

theorem outsAt4_C (c : Dev nD) (t : Fin cfg4.N) (h0 : ¬t.val = 0) (h1 : t.val = 9) :
    outsAt4 V c t.val t.isLt = (out4_C_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2,
      sout4_C_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact absurd rfl h0
  | succ n => exact (dif_pos h1).trans rfl

def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2)
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2)
      ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2)
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  have hN : t.val < 10 := lt_of_lt_of_eq t.isLt (show cfg4.N = 10 from N_4)
  by_cases h0 : t.val = 0
  · have h1 : ¬t.val = 9 := by omega
    have hc1 : ¬cond4_1 (grid4.coords t) := fun h => h1 ((hcond4_1 t).mp h)
    rw [Dat.leavesExact_idle (dat4 V c) 3 t (idleAt4_3 t hc1) (noFlush4_3 t hc1)]
    rw [outsAt4_A V c t h0 h1]
    unfold sout4_A_0; (try dsimp only)
    rw [PhiS4_castSucc V c t, PhiS4_zero V c _ _ h0, PhiA4_eq]
    iintro ⟨⟨⟨HS0, Hr⟩, Hg⟩, Ho, ⟨%d0, H0⟩, ⟨%d1, H1⟩, ⟨%d2, H2⟩, ⟨%d3, H3⟩⟩
    iapply ((kernelRun4_A c (grid4.coords t) _ _ _ _ _ _ _ _ _ _ ((hcond4_0 t).mpr h0) hc1 (iblk4 V c 0 t) (iblk4 V c 1 t) (iblk4 V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover4_A_0 c _ _ _ _ _ _ _ _ _ _ _ _ _ _ _ _)
        iexact Hr
      iexact Hg
    isplitl [Ho]; · iexact Ho
    isplitl [H0]; · iexact H0
    isplitl [H1]; · iexact H1
    isplitl [H2]; · iexact H2
    iexists _; iexact H3
  · by_cases h1 : t.val = 9
    · have hc1 : cond4_1 (grid4.coords t) := (hcond4_1 t).mpr h1
      rw [show (dat4 V c).leavesExact 3 t = owns (c : Thread nD τ) (ms4_3 t) fullShare ((dat4 V c).after 3 t) from by
        unfold Dat.leavesExact; rw [liveAt4_3 t hc1], after4_3]
      rw [outsAt4_C V c t h0 h1]
      unfold out4_C_3 sout4_C_0; (try dsimp only)
      rw [PhiS4_castSucc V c t, PhiS4_pos V c _ _ h0]
      iintro ⟨⟨⟨HS0, Hr⟩, Hg⟩, Ho, ⟨%d0, H0⟩, ⟨%d1, H1⟩, ⟨%d2, H2⟩, ⟨%d3, H3⟩⟩
      iapply ((kernelRun4_C c (grid4.coords t) _ _ _ _ _ _ _ _ _ _ (fun h => h0 ((hcond4_0 t).mp h)) hc1 (iblk4 V c 0 t) (iblk4 V c 1 t) (iblk4 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_C_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover4_C_3 c _ _ _ _ _ _ _ _ _ _ _ _ _ _ _ _ _)
    · have hc1 : ¬cond4_1 (grid4.coords t) := fun h => h1 ((hcond4_1 t).mp h)
      rw [Dat.leavesExact_idle (dat4 V c) 3 t (idleAt4_3 t hc1) (noFlush4_3 t hc1)]
      rw [outsAt4_B V c t h0 h1]
      unfold sout4_B_0; (try dsimp only)
      rw [PhiS4_castSucc V c t, PhiS4_pos V c _ _ h0]
      iintro ⟨⟨⟨HS0, Hr⟩, Hg⟩, Ho, ⟨%d0, H0⟩, ⟨%d1, H1⟩, ⟨%d2, H2⟩, ⟨%d3, H3⟩⟩
      iapply ((kernelRun4_B c (grid4.coords t) _ _ _ _ _ _ _ _ _ _ (fun h => h0 ((hcond4_0 t).mp h)) hc1 (iblk4 V c 0 t) (iblk4 V c 1 t) (iblk4 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_B_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]
    · iexists _; iexact HS0
    iexact Hr
  iexact Hg

theorem hout4 (c : Dev nD) : (dat4 V c).Φ (Fin.last cfg4.N) ⊢ Pipeline.ΦA spec4 c :=
  Phi_out4 V c _ (by rw [Fin.val_last]; have : cfg4.N = 10 := N_4; omega)

end Cert.KernelIdeal.Hand

end
-- ==== Proof.KI.Reg5Runs.lean ====
import proofs.«408734_j33483565039990_3_alg».proof.Proof.Gen.KernelIdeal.Launch
import proofs.«408734_j33483565039990_3_alg».proof.Proof.Gen.KernelIdeal.Skeleton
import proofs.«408734_j33483565039990_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

abbrev cond5_0 (i : grid5.Coords) : Prop := (Scalar.cmpi .ne (Scalar.extui (Scalar.cmpi .eq (BitVec.ofNat 32 (i 0).val) 0#32)) 0#32) = 1#1

theorem hcond5_0 : ∀ t : Fin cfg5.N, cond5_0 (grid5.coords t) ↔ t.val = 0 :=
  (by decide +kernel : ∀ t : Fin grid5.N, cond5_0 (grid5.coords t) ↔ t.val = 0)

abbrev cond5_1 (i : grid5.Coords) : Prop := k5_cond2 i = 1#1

theorem hcond5_1 : ∀ t : Fin cfg5.N, cond5_1 (grid5.coords t) ↔ t.val = 9 :=
  (by decide +kernel : ∀ t : Fin grid5.N, cond5_1 (grid5.coords t) ↔ t.val = 9)

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel

theorem idleAt5_4 : ∀ t : Fin cfg5.N, ¬cond5_1 (grid5.coords t) → cfg5.idle 4 (grid5.coords t) = true := by decide +kernel

theorem noFlush5_4 : ∀ t : Fin cfg5.N, ¬cond5_1 (grid5.coords t) → (cfg5.win 4).flush t = false := by decide +kernel

theorem liveAt5_4 : ∀ t : Fin cfg5.N, cond5_1 (grid5.coords t) → cfg5.idle 4 (grid5.coords t) = false := by decide +kernel

abbrev VO5_4 : View sig .tc .vmem S1x128 .f32 := (Memref.whole cc5_stg4_0 : Memref sig .tc .vmem S1x128 .f32).view

abbrev ms5_0 (t : Fin cfg5.N) : Memref sig .tc .vmem S5000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S5000x1 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x128 .f32 := win5_4.stage (cfg5.slots t 4)
abbrev hs5_4 (t : Fin cfg5.N) : (ms5_4 t).IsWhole := hstage5_4 ((cfg5.slots t 4).cast nbuf5_4)

abbrev scM5_0 : Memref sig .tc .vmem S1x128 .f32 := Memref.whole cc5_scratch0

abbrev VS5_0 : View sig .tc .vmem S1x128 .f32 := scM5_0.view

theorem PhiA5_eq (c : Dev nD) :
    (Pipeline.ΦA spec5 c : sProp 𝕄)
      = iprop(iprop((∃ d, owns (c : Thread nD τ) scM5_0 fullShare d)
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

end Cert.KernelIdeal.Hand

end
-- ==== Proof.KI.Reg5RunA.lean ====
import proofs.«408734_j33483565039990_3_alg».proof.Proof.KI.Reg5Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun5_A (c : Dev nD) (i : grid5.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond5_0 i) (hc1 : ¬cond5_1 i)
    (x0 : Vec F S5000x128 .f32) (x1 : Vec F S5000x1 .f32) (x2 : Vec F S1x128 .f32) (x3 : Vec F S1x128 .f32) :
    Σ' (L4 : List (View.Piece (Elt F) S1x128 .f32)), { LS0 : List (View.Piece (Elt F) S1x128 .f32) //
      ∀ (xi4 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc5__sumsq_kernel i arg1 harg1 arg2 harg2 arg3 harg3 arg4 harg4 arg5 harg5 arg6 harg6) K } := by
  refine ⟨[], ?_, fun xi4 E K => ?run⟩
  case run =>
    simp only [cc5__sumsq_kernel_eq_skeleton]; unfold cc5__sumsq_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.KernelIdeal.Hand

end
-- ==== Proof.KI.Reg5RunB.lean ====
import proofs.«408734_j33483565039990_3_alg».proof.Proof.KI.Reg5RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun5_B (c : Dev nD) (i : grid5.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond5_0 i) (hc1 : ¬cond5_1 i)
    (x0 : Vec F S5000x128 .f32) (x1 : Vec F S5000x1 .f32) (x2 : Vec F S1x128 .f32) (x3 : Vec F S1x128 .f32) (xs0 : Vec F S1x128 .f32) :
    Σ' (L4 : List (View.Piece (Elt F) S1x128 .f32)), { LS0 : List (View.Piece (Elt F) S1x128 .f32) //
      ∀ (xi4 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc5__sumsq_kernel i arg1 harg1 arg2 harg2 arg3 harg3 arg4 harg4 arg5 harg5 arg6 harg6) K } := by
  refine ⟨[], ?_, fun xi4 E K => ?run⟩
  case run =>
    simp only [cc5__sumsq_kernel_eq_skeleton]; unfold cc5__sumsq_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.KernelIdeal.Hand

end
-- ==== Proof.KI.Reg5RunC.lean ====
import proofs.«408734_j33483565039990_3_alg».proof.Proof.KI.Reg5RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun5_C (c : Dev nD) (i : grid5.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond5_0 i) (hc1 : cond5_1 i)
    (x0 : Vec F S5000x128 .f32) (x1 : Vec F S5000x1 .f32) (x2 : Vec F S1x128 .f32) (x3 : Vec F S1x128 .f32) (xs0 : Vec F S1x128 .f32) :
    Σ' (L4 : List (View.Piece (Elt F) S1x128 .f32)), { LS0 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc5__sumsq_kernel i arg1 harg1 arg2 harg2 arg3 harg3 arg4 harg4 arg5 harg5 arg6 harg6) K } := by
  refine ⟨?_, ?_, fun E K => ?run⟩
  case run =>
    simp only [cc5__sumsq_kernel_eq_skeleton]; unfold cc5__sumsq_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.KernelIdeal.Hand

end
-- ==== Proof.KI.Reg5.lean ====
import proofs.«408734_j33483565039990_3_alg».proof.Proof.KI.Reg5RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def out5_A_4 (c : Dev nD) (i : grid5.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond5_0 i) (hc1 : ¬cond5_1 i)
    (x0 : Vec F S5000x128 .f32) (x1 : Vec F S5000x1 .f32) (x2 : Vec F S1x128 .f32) (x3 : Vec F S1x128 .f32) : Vec F S1x128 .f32 :=
  VO5_4.read (Elt F) (VO5_4.writes (Elt F) VO5_4.junk (kernelRun5_A c i arg1 harg1 arg2 harg2 arg3 harg3 arg4 harg4 arg5 harg5 arg6 harg6 hc0 hc1 x0 x1 x2 x3).1)

theorem scover5_A_0 (c : Dev nD) (i : grid5.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond5_0 i) (hc1 : ¬cond5_1 i)
    (x0 : Vec F S5000x128 .f32) (x1 : Vec F S5000x1 .f32) (x2 : Vec F S1x128 .f32) (x3 : Vec F S1x128 .f32) (y : S1x128.Idx) :
    ∃ pc ∈ (kernelRun5_A c i arg1 harg1 arg2 harg2 arg3 harg3 arg4 harg4 arg5 harg5 arg6 harg6 hc0 hc1 x0 x1 x2 x3).2.1, y ∈ pc.1.set :=
  View.cover_of_tiledL (kernelRun5_A c i arg1 harg1 arg2 harg2 arg3 harg3 arg4 harg4 arg5 harg5 arg6 harg6 hc0 hc1 x0 x1 x2 x3).2.1 S1x128.size (by sl_kernel_rfl) y

def sout5_A_0 (c : Dev nD) (i : grid5.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond5_0 i) (hc1 : ¬cond5_1 i)
    (x0 : Vec F S5000x128 .f32) (x1 : Vec F S5000x1 .f32) (x2 : Vec F S1x128 .f32) (x3 : Vec F S1x128 .f32) : Vec F S1x128 .f32 :=
  VS5_0.read (Elt F) (VS5_0.writes (Elt F) VS5_0.junk (kernelRun5_A c i arg1 harg1 arg2 harg2 arg3 harg3 arg4 harg4 arg5 harg5 arg6 harg6 hc0 hc1 x0 x1 x2 x3).2.1)

def out5_B_4 (c : Dev nD) (i : grid5.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond5_0 i) (hc1 : ¬cond5_1 i)
    (x0 : Vec F S5000x128 .f32) (x1 : Vec F S5000x1 .f32) (x2 : Vec F S1x128 .f32) (x3 : Vec F S1x128 .f32) (xs0 : Vec F S1x128 .f32) : Vec F S1x128 .f32 :=
  VO5_4.read (Elt F) (VO5_4.writes (Elt F) VO5_4.junk (kernelRun5_B c i arg1 harg1 arg2 harg2 arg3 harg3 arg4 harg4 arg5 harg5 arg6 harg6 hc0 hc1 x0 x1 x2 x3 xs0).1)

theorem scover5_B_0 (c : Dev nD) (i : grid5.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond5_0 i) (hc1 : ¬cond5_1 i)
    (x0 : Vec F S5000x128 .f32) (x1 : Vec F S5000x1 .f32) (x2 : Vec F S1x128 .f32) (x3 : Vec F S1x128 .f32) (xs0 : Vec F S1x128 .f32) (y : S1x128.Idx) :
    ∃ pc ∈ (kernelRun5_B c i arg1 harg1 arg2 harg2 arg3 harg3 arg4 harg4 arg5 harg5 arg6 harg6 hc0 hc1 x0 x1 x2 x3 xs0).2.1, y ∈ pc.1.set :=
  View.cover_of_tiledL (kernelRun5_B c i arg1 harg1 arg2 harg2 arg3 harg3 arg4 harg4 arg5 harg5 arg6 harg6 hc0 hc1 x0 x1 x2 x3 xs0).2.1 S1x128.size (by sl_kernel_rfl) y

def sout5_B_0 (c : Dev nD) (i : grid5.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond5_0 i) (hc1 : ¬cond5_1 i)
    (x0 : Vec F S5000x128 .f32) (x1 : Vec F S5000x1 .f32) (x2 : Vec F S1x128 .f32) (x3 : Vec F S1x128 .f32) (xs0 : Vec F S1x128 .f32) : Vec F S1x128 .f32 :=
  VS5_0.read (Elt F) (VS5_0.writes (Elt F) VS5_0.junk (kernelRun5_B c i arg1 harg1 arg2 harg2 arg3 harg3 arg4 harg4 arg5 harg5 arg6 harg6 hc0 hc1 x0 x1 x2 x3 xs0).2.1)

theorem cover5_C_4 (c : Dev nD) (i : grid5.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond5_0 i) (hc1 : cond5_1 i)
    (x0 : Vec F S5000x128 .f32) (x1 : Vec F S5000x1 .f32) (x2 : Vec F S1x128 .f32) (x3 : Vec F S1x128 .f32) (xs0 : Vec F S1x128 .f32) (y : S1x128.Idx) :
    ∃ pc ∈ (kernelRun5_C c i arg1 harg1 arg2 harg2 arg3 harg3 arg4 harg4 arg5 harg5 arg6 harg6 hc0 hc1 x0 x1 x2 x3 xs0).1, y ∈ pc.1.set :=
  View.cover_of_tiledL (kernelRun5_C c i arg1 harg1 arg2 harg2 arg3 harg3 arg4 harg4 arg5 harg5 arg6 harg6 hc0 hc1 x0 x1 x2 x3 xs0).1 S1x128.size (by sl_kernel_rfl) y

def out5_C_4 (c : Dev nD) (i : grid5.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond5_0 i) (hc1 : cond5_1 i)
    (x0 : Vec F S5000x128 .f32) (x1 : Vec F S5000x1 .f32) (x2 : Vec F S1x128 .f32) (x3 : Vec F S1x128 .f32) (xs0 : Vec F S1x128 .f32) : Vec F S1x128 .f32 :=
  VO5_4.read (Elt F) (VO5_4.writes (Elt F) VO5_4.junk (kernelRun5_C c i arg1 harg1 arg2 harg2 arg3 harg3 arg4 harg4 arg5 harg5 arg6 harg6 hc0 hc1 x0 x1 x2 x3 xs0).1)

theorem scover5_C_0 (c : Dev nD) (i : grid5.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond5_0 i) (hc1 : cond5_1 i)
    (x0 : Vec F S5000x128 .f32) (x1 : Vec F S5000x1 .f32) (x2 : Vec F S1x128 .f32) (x3 : Vec F S1x128 .f32) (xs0 : Vec F S1x128 .f32) (y : S1x128.Idx) :
    ∃ pc ∈ (kernelRun5_C c i arg1 harg1 arg2 harg2 arg3 harg3 arg4 harg4 arg5 harg5 arg6 harg6 hc0 hc1 x0 x1 x2 x3 xs0).2.1, y ∈ pc.1.set :=
  View.cover_of_tiledL (kernelRun5_C c i arg1 harg1 arg2 harg2 arg3 harg3 arg4 harg4 arg5 harg5 arg6 harg6 hc0 hc1 x0 x1 x2 x3 xs0).2.1 S1x128.size (by sl_kernel_rfl) y

def sout5_C_0 (c : Dev nD) (i : grid5.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond5_0 i) (hc1 : cond5_1 i)
    (x0 : Vec F S5000x128 .f32) (x1 : Vec F S5000x1 .f32) (x2 : Vec F S1x128 .f32) (x3 : Vec F S1x128 .f32) (xs0 : Vec F S1x128 .f32) : Vec F S1x128 .f32 :=
  VS5_0.read (Elt F) (VS5_0.writes (Elt F) VS5_0.junk (kernelRun5_C c i arg1 harg1 arg2 harg2 arg3 harg3 arg4 harg4 arg5 harg5 arg6 harg6 hc0 hc1 x0 x1 x2 x3 xs0).2.1)

def outsAt5 (c : Dev nD) : (n : ℕ) → n < cfg5.N → Vec F S1x128 .f32 × Vec F S1x128 .f32
  | 0, hn => (out5_A_4 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) scM5_0 (Memref.isWhole_whole _) ((hcond5_0 ⟨0, hn⟩).mpr rfl) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) scM5_0 (Memref.isWhole_whole _) ((hcond5_0 ⟨0, hn⟩).mpr rfl) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩))
  | n + 1, hn =>
    if h1 : n + 1 = 9 then
      (out5_C_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) (fun h => Nat.succ_ne_zero n ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) (fun h => Nat.succ_ne_zero n ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2)
    else
      (out5_B_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) (fun h => Nat.succ_ne_zero n ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) (fun h => Nat.succ_ne_zero n ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2)

theorem outsAt5_A (c : Dev nD) (t : Fin cfg5.N) (h0 : t.val = 0) (h1 : ¬t.val = 9) :
    outsAt5 V c t.val t.isLt = (out5_A_4 c (grid5.coords t) (ms5_0 t) (hs5_0 t) (ms5_1 t) (hs5_1 t) (ms5_2 t) (hs5_2 t) (ms5_3 t) (hs5_3 t) (ms5_4 t) (hs5_4 t) scM5_0 (Memref.isWhole_whole _) ((hcond5_0 t).mpr h0) (fun h => h1 ((hcond5_1 t).mp h)) (iblk5 V c 0 t) (iblk5 V c 1 t) (iblk5 V c 2 t) (iblk5 V c 3 t), sout5_A_0 c (grid5.coords t) (ms5_0 t) (hs5_0 t) (ms5_1 t) (hs5_1 t) (ms5_2 t) (hs5_2 t) (ms5_3 t) (hs5_3 t) (ms5_4 t) (hs5_4 t) scM5_0 (Memref.isWhole_whole _) ((hcond5_0 t).mpr h0) (fun h => h1 ((hcond5_1 t).mp h)) (iblk5 V c 0 t) (iblk5 V c 1 t) (iblk5 V c 2 t) (iblk5 V c 3 t)) := by
  obtain ⟨n, hn⟩ := t
  cases n with
  | zero => exact rfl
  | succ n => exact absurd h0 (Nat.succ_ne_zero n)

theorem outsAt5_B (c : Dev nD) (t : Fin cfg5.N) (h0 : ¬t.val = 0) (h1 : ¬t.val = 9) :
    outsAt5 V c t.val t.isLt = (out5_B_4 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) (fun h => h1 ((hcond5_1 t).mp h)) (iblk5 V c 0 t) (iblk5 V c 1 t) (iblk5 V c 2 t) (iblk5 V c 3 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) (fun h => h1 ((hcond5_1 t).mp h)) (iblk5 V c 0 t) (iblk5 V c 1 t) (iblk5 V c 2 t) (iblk5 V c 3 t) (outsAt5 V c (t.val - 1) (Nat.lt_of_le_of_lt (Nat.sub_le _ _) t.isLt)).2) := by
  obtain ⟨n, hn⟩ := t
  cases n with
  | zero => exact absurd rfl h0
  | succ n => exact (dif_neg h1).trans rfl

theorem outsAt5_C (c : Dev nD) (t : Fin cfg5.N) (h0 : ¬t.val = 0) (h1 : t.val = 9) :
    outsAt5 V c t.val t.isLt = (out5_C_4 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) ((hcond5_1 t).mpr h1) (iblk5 V c 0 t) (iblk5 V c 1 t) (iblk5 V c 2 t) (iblk5 V c 3 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) ((hcond5_1 t).mpr h1) (iblk5 V c 0 t) (iblk5 V c 1 t) (iblk5 V c 2 t) (iblk5 V c 3 t) (outsAt5 V c (t.val - 1) (Nat.lt_of_le_of_lt (Nat.sub_le _ _) t.isLt)).2) := by
  obtain ⟨n, hn⟩ := t
  cases n with
  | zero => exact absurd rfl h0
  | succ n => exact (dif_pos h1).trans rfl

def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5_0 fullShare ((outsAt5 V c n hn).2) ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

set_option maxHeartbeats 4800000 in

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).owesAt () t.succ = (dat5 V c).owesAt () t.castSucc from rfl]
  rw [show (dat5 V c).Φ t.succ = PhiS5 V c (t.val + 1) t.isLt from rfl, PhiS5_succ]
  have hN : t.val < 10 := lt_of_lt_of_eq t.isLt (show cfg5.N = 10 from N_5)
  by_cases h0 : t.val = 0
  · by_cases h1 : t.val = 9
    · exfalso; omega
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t], after5_3]
      rw [Dat.leavesExact_idle (dat5 V c) 4 t (idleAt5_4 t (fun h => h1 ((hcond5_1 t).mp h))) (noFlush5_4 t (fun h => h1 ((hcond5_1 t).mp h)))]
      rw [outsAt5_A V c t h0 h1]
      unfold sout5_A_0; (try dsimp only)
      rw [PhiS5_castSucc V c t, PhiS5_zero V c _ _ h0, PhiA5_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun5_A c (grid5.coords t) _ _ _ _ _ _ _ _ _ _ _ _ ((hcond5_0 t).mpr h0) (fun h => h1 ((hcond5_1 t).mp h)) (iblk5 V c 0 t) (iblk5 V c 1 t) (iblk5 V c 2 t) (iblk5 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover5_A_0 c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
  · by_cases h1 : t.val = 9
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t], after5_3]
      rw [show (dat5 V c).leavesExact 4 t = owns (c : Thread nD τ) (ms5_4 t) fullShare ((dat5 V c).after 4 t) from by
        unfold Dat.leavesExact; rw [liveAt5_4 t ((hcond5_1 t).mpr h1)], after5_4]
      rw [outsAt5_C V c t h0 h1]
      unfold out5_C_4 sout5_C_0; (try dsimp only)
      rw [PhiS5_castSucc V c t, PhiS5_pos V c _ _ h0]
      iintro ⟨⟨⟨HS0, Hr⟩, Hg⟩, Ho, ⟨%d0, H0⟩, ⟨%d1, H1⟩, ⟨%d2, H2⟩, ⟨%d3, H3⟩, ⟨%d4, H4⟩⟩
      iapply ((kernelRun5_C c (grid5.coords t) _ _ _ _ _ _ _ _ _ _ _ _ (fun h => h0 ((hcond5_0 t).mp h)) ((hcond5_1 t).mpr h1) (iblk5 V c 0 t) (iblk5 V c 1 t) (iblk5 V c 2 t) (iblk5 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover5_C_0 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover5_C_4 c _ _ _ _ _ _ _ _ _ _ _ _ _ _ _ _ _ _ _ _)
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t], after5_3]
      rw [Dat.leavesExact_idle (dat5 V c) 4 t (idleAt5_4 t (fun h => h1 ((hcond5_1 t).mp h))) (noFlush5_4 t (fun h => h1 ((hcond5_1 t).mp h)))]
      rw [outsAt5_B V c t h0 h1]
      unfold sout5_B_0; (try dsimp only)
      rw [PhiS5_castSucc V c t, PhiS5_pos V c _ _ h0]
      iintro ⟨⟨⟨HS0, Hr⟩, Hg⟩, Ho, ⟨%d0, H0⟩, ⟨%d1, H1⟩, ⟨%d2, H2⟩, ⟨%d3, H3⟩, ⟨%d4, H4⟩⟩
      iapply ((kernelRun5_B c (grid5.coords t) _ _ _ _ _ _ _ _ _ _ _ _ (fun h => h0 ((hcond5_0 t).mp h)) (fun h => h1 ((hcond5_1 t).mp h)) (iblk5 V c 0 t) (iblk5 V c 1 t) (iblk5 V c 2 t) (iblk5 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover5_B_0 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS0, Hr⟩, Hg⟩
  isplitl [HS0 Hr]
  · isplitl [HS0]
    · iexists _; iexact HS0
    iexact Hr
  iexact Hg

theorem hout5 (c : Dev nD) : (dat5 V c).Φ (Fin.last cfg5.N) ⊢ Pipeline.ΦA spec5 c :=
  Phi_out5 V c _ (by rw [Fin.val_last]; have : cfg5.N = 10 := N_5; omega)

end Cert.KernelIdeal.Hand

end
-- ==== Proof.KI.Reg6.lean ====
import proofs.«408734_j33483565039990_3_alg».proof.Proof.Gen.KernelIdeal.Launch
import proofs.«408734_j33483565039990_3_alg».proof.Proof.Gen.KernelIdeal.Skeleton
import proofs.«408734_j33483565039990_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S5000x128 := Rect.unit (s := S5000x128) ![0, 0] S5000x128.size inb_S5000x128_S5000x128_0_0
abbrev r6_1 : Rect S5000x1 := Rect.unit (s := S5000x1) ![0, 0] S5000x1.size inb_S5000x1_S5000x1_0_0
abbrev r6_2 : Rect S1x128 := Rect.unit (s := S1x128) ![0, 0] S1x128.size inb_S1x128_S1x128_0_0
abbrev r6_3 : Rect S128x128 := Rect.unit (s := S128x128) ![0, 0] S128x128.size inb_S128x128_S128x128_0_0

def out6_8 (x0 : Vec F S5000x128 .f32) (x1 : Vec F S5000x1 .f32) (x2 x3 x4 x5 x6 : Vec F S1x128 .f32) (x7 : Vec F S128x128 .f32) : Vec F S5000x128 .f32 :=
  View.canon [⟨r6_0, k6_pay1 (View.ld x0 r6_0) (View.ld x1 r6_1) (View.ld x2 r6_2) (View.ld x3 r6_2) (View.ld x4 r6_2) (View.ld x5 r6_2) (View.ld x6 r6_2) (View.ld x7 r6_3) (View.ld x1 r6_1)⟩]

theorem cover6_8 (p0 : Vec F S5000x128 .f32) (y : S5000x128.Idx) :
    ∃ pc ∈ ([⟨r6_0, p0⟩] : List (View.Piece (Elt F) S5000x128 .f32)), y ∈ pc.1.set :=
  View.cover_of_tiled [⟨r6_0, p0⟩] S5000x128.size (by rfl) y

set_option maxHeartbeats 4000000 in

theorem sound_kernel6 (c : Dev nD) (E : Set ℕ) (i : grid6.Coords) (arg0 : Memref sig .tc .vmem S5000x128 .f32) (harg0 : arg0.IsWhole) (arg1 : Memref sig .tc .vmem S5000x1 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S5000x128 .f32) (harg8 : arg8.IsWhole)
    (x0 : Vec F S5000x128 .f32) (x1 : Vec F S5000x1 .f32) (x2 : Vec F S1x128 .f32) (x3 : Vec F S1x128 .f32) (x4 : Vec F S1x128 .f32) (x5 : Vec F S1x128 .f32) (x6 : Vec F S1x128 .f32) (x7 : Vec F S128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out6_8 x0 x1 x2 x3 x4 x5 x6 x7)) -∗ K ⟨⟩))
      ⊢ wp frame (wpE (defs₀ (F := F)) Variants.none c none) E (cc6__bn_relu_matmul_kernel i arg0 harg0 arg1 harg1 arg2 harg2 arg3 harg3 arg4 harg4 arg5 harg5 arg6 harg6 arg7 harg7 arg8 harg8) K := by
  simp only [cc6__bn_relu_matmul_kernel_eq_skeleton]; unfold cc6__bn_relu_matmul_kernel_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover6_8 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => out6_8 (iblk6 V c 0 t) (iblk6 V c 1 t) (iblk6 V c 2 t) (iblk6 V c 3 t) (iblk6 V c 4 t) (iblk6 V c 5 t) (iblk6 V c 6 t) (iblk6 V c 7 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = out6_8 (iblk6 V c 0 t) (iblk6 V c 1 t) (iblk6 V c 2 t) (iblk6 V c 3 t) (iblk6 V c 4 t) (iblk6 V c 5 t) (iblk6 V c 6 t) (iblk6 V c 7 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel6 c Set.univ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  show Pipeline.ΦA spec6 c ⊢ Pipeline.ΦA spec6 c
  exact BI.Entails.refl _

theorem hout6 (c : Dev nD) : (dat6 V c).Φ (Fin.last cfg6.N) ⊢ Pipeline.ΦA spec6 c := by
  show Pipeline.ΦA spec6 c ⊢ Pipeline.ΦA spec6 c
  exact BI.Entails.refl _

end Cert.KernelIdeal.Hand

end
-- ==== Proof.KI.Reg7.lean ====
import proofs.«408734_j33483565039990_3_alg».proof.Proof.Gen.KernelIdeal.Launch
import proofs.«408734_j33483565039990_3_alg».proof.Proof.Gen.KernelIdeal.Skeleton
import proofs.«408734_j33483565039990_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

abbrev r7_0 : Rect S5000x128 := Rect.unit (s := S5000x128) ![0, 0] S5000x128.size inb_S5000x128_S5000x128_0_0
abbrev r7_1 : Rect S5000x1 := Rect.unit (s := S5000x1) ![0, 0] S5000x1.size inb_S5000x1_S5000x1_0_0
abbrev r7_2 : Rect S1x128 := Rect.unit (s := S1x128) ![0, 0] S1x128.size inb_S1x128_S1x128_0_0
abbrev r7_3 : Rect S128x1 := Rect.unit (s := S128x1) ![0, 0] S128x1.size inb_S128x1_S128x1_0_0
abbrev r7_4 : Rect S1x1 := Rect.unit (s := S1x1) ![0, 0] S1x1.size inb_S1x1_S1x1_0_0

def out7_5 (x0 : Vec F S5000x128 .f32) (x1 : Vec F S5000x1 .f32) (x2 : Vec F S1x128 .f32) (x3 : Vec F S128x1 .f32) (x4 : Vec F S1x1 .f32) : Vec F S5000x1 .f32 :=
  View.canon [⟨r7_1, k7_pay1 (View.ld x0 r7_0) (View.ld x1 r7_1) (View.ld x2 r7_2) (View.ld x3 r7_3) (View.ld x4 r7_4)⟩]

def out7_6 (x0 : Vec F S5000x128 .f32) (x1 : Vec F S5000x1 .f32) (x2 : Vec F S1x128 .f32) (x3 : Vec F S128x1 .f32) (x4 : Vec F S1x1 .f32) : Vec F S5000x1 .f32 :=
  View.canon [⟨r7_1, k7_pay2 (View.ld x0 r7_0) (View.ld x1 r7_1) (View.ld x2 r7_2) (View.ld x3 r7_3) (View.ld x4 r7_4)⟩]

theorem cover7_o (p0 : Vec F S5000x1 .f32) (y : S5000x1.Idx) :
    ∃ pc ∈ ([⟨r7_1, p0⟩] : List (View.Piece (Elt F) S5000x1 .f32)), y ∈ pc.1.set :=
  View.cover_of_tiled [⟨r7_1, p0⟩] S5000x1.size (by rfl) y

set_option maxHeartbeats 1000000 in

theorem sound_kernel7 (c : Dev nD) (E : Set ℕ) (i : grid7.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S5000x1 .f32) (harg6 : arg6.IsWhole) (arg7 : Memref sig .tc .vmem S5000x1 .f32) (harg7 : arg7.IsWhole)
    (x0 : Vec F S5000x128 .f32) (x1 : Vec F S5000x1 .f32) (x2 : Vec F S1x128 .f32) (x3 : Vec F S128x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out7_5 x0 x1 x2 x3 x4) ∗ owns (c : Thread nD τ) arg7 fullShare (out7_6 x0 x1 x2 x3 x4)) -∗ K ⟨⟩))
      ⊢ wp frame (wpE (defs₀ (F := F)) Variants.none c none) E (cc7__bias_relu_head_kernel i arg1 harg1 arg2 harg2 arg3 harg3 arg4 harg4 arg5 harg5 arg6 harg6 arg7 harg7) K := by
  simp only [cc7__bias_relu_head_kernel_eq_skeleton]; unfold cc7__bias_relu_head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover7_o _)
  iexists _; isplitr
  swap; · iexact H6
  ipureintro
  exact View.read_writes_eq_canon _ _ _ (cover7_o _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
    | ⟨6, _⟩ => out7_6 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]
theorem after7_6 (c : Dev nD) (t : Fin cfg7.N) : (dat7 V c).after 6 t = out7_6 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ (grid7.coords t) _ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := by
  show Pipeline.ΦA spec7 c ⊢ Pipeline.ΦA spec7 c
  exact BI.Entails.refl _

theorem hout7 (c : Dev nD) : (dat7 V c).Φ (Fin.last cfg7.N) ⊢ Pipeline.ΦA spec7 c := by
  show Pipeline.ΦA spec7 c ⊢ Pipeline.ΦA spec7 c
  exact BI.Entails.refl _

end Cert.KernelIdeal.Hand

end
-- ==== Proof.KI.Fold.lean ====
import proofs.«408734_j33483565039990_3_alg».proof.Proof.KI.Reg0
import proofs.«408734_j33483565039990_3_alg».proof.Proof.KI.Reg1
import proofs.«408734_j33483565039990_3_alg».proof.Proof.KI.Reg2
import proofs.«408734_j33483565039990_3_alg».proof.Proof.KI.Reg3
import proofs.«408734_j33483565039990_3_alg».proof.Proof.KI.Reg4
import proofs.«408734_j33483565039990_3_alg».proof.Proof.KI.Reg5
import proofs.«408734_j33483565039990_3_alg».proof.Proof.KI.Reg6
import proofs.«408734_j33483565039990_3_alg».proof.Proof.KI.Reg7
import proofs.«408734_j33483565039990_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The contents of the TensorCore's unscoped buffers at each boundary between two items of the program: the launch
    memory, then after each stretch of host operations their results, and after each kernel region its output arrays at
    what the pipeline's write-backs leave (every other buffer as the region found it). -/

variable (m : (ℓ : Loc nD τ sig) → Buf (Elt F) ℓ)

/-- At launch. -/
abbrev U0 (c : Dev nD) : Valuation τ sig (Elt F) := fun b => m (c, b)
/-- After the host operations before region 0. -/
abbrev U1 (c : Dev nD) : Valuation τ sig (Elt F) := StableHlo.after hostOps0 (U0 m c)
/-- The same, read at the TensorCore's references: what region 0 is entered with. -/
abbrev E0 : (c : Dev nD) → (b : Ref sig .tc) → Buf (Elt F) ((c : Thread nD τ).loc b) := fun c b => U1 m c b
/-- After region 0: its output array at what the write-backs leave. -/
abbrev U2 (c : Dev nD) : Valuation τ sig (Elt F) := Function.update (U1 m c) main_v14 ((dat0 (E0 m) c).arrAt 3 cfg0.N)
/-- After the host operations before region 1. -/
abbrev U3 (c : Dev nD) : Valuation τ sig (Elt F) := StableHlo.after hostOps1 (U2 m c)
/-- The same, read at the TensorCore's references: what region 1 is entered with. -/
abbrev E1 : (c : Dev nD) → (b : Ref sig .tc) → Buf (Elt F) ((c : Thread nD τ).loc b) := fun c b => U3 m c b
/-- After region 1: its output array at what the write-backs leave. -/
abbrev U4 (c : Dev nD) : Valuation τ sig (Elt F) := Function.update (U3 m c) main_v26 ((dat1 (E1 m) c).arrAt 3 cfg1.N)
/-- After the host operations before region 2. -/
abbrev U5 (c : Dev nD) : Valuation τ sig (Elt F) := StableHlo.after hostOps2 (U4 m c)
/-- The same, read at the TensorCore's references: what region 2 is entered with. -/
abbrev E2 : (c : Dev nD) → (b : Ref sig .tc) → Buf (Elt F) ((c : Thread nD τ).loc b) := fun c b => U5 m c b
/-- After region 2: its output array at what the write-backs leave. -/
abbrev U6 (c : Dev nD) : Valuation τ sig (Elt F) := Function.update (U5 m c) main_v32 ((dat2 (E2 m) c).arrAt 4 cfg2.N)
/-- After the host operations before region 3. -/
abbrev U7 (c : Dev nD) : Valuation τ sig (Elt F) := StableHlo.after hostOps3 (U6 m c)
/-- The same, read at the TensorCore's references: what region 3 is entered with. -/
abbrev E3 : (c : Dev nD) → (b : Ref sig .tc) → Buf (Elt F) ((c : Thread nD τ).loc b) := fun c b => U7 m c b
/-- After region 3: its output array at what the write-backs leave. -/
abbrev U8 (c : Dev nD) : Valuation τ sig (Elt F) := Function.update (U7 m c) main_v44 ((dat3 (E3 m) c).arrAt 8 cfg3.N)
/-- After the host operations before region 4. -/
abbrev U9 (c : Dev nD) : Valuation τ sig (Elt F) := StableHlo.after hostOps4 (U8 m c)
/-- The same, read at the TensorCore's references: what region 4 is entered with. -/
abbrev E4 : (c : Dev nD) → (b : Ref sig .tc) → Buf (Elt F) ((c : Thread nD τ).loc b) := fun c b => U9 m c b
/-- After region 4: its output array at what the write-backs leave. -/
abbrev U10 (c : Dev nD) : Valuation τ sig (Elt F) := Function.update (U9 m c) main_v56 ((dat4 (E4 m) c).arrAt 3 cfg4.N)
/-- After the host operations before region 5. -/
abbrev U11 (c : Dev nD) : Valuation τ sig (Elt F) := StableHlo.after hostOps5 (U10 m c)
/-- The same, read at the TensorCore's references: what region 5 is entered with. -/
abbrev E5 : (c : Dev nD) → (b : Ref sig .tc) → Buf (Elt F) ((c : Thread nD τ).loc b) := fun c b => U11 m c b
/-- After region 5: its output array at what the write-backs leave. -/
abbrev U12 (c : Dev nD) : Valuation τ sig (Elt F) := Function.update (U11 m c) main_v62 ((dat5 (E5 m) c).arrAt 4 cfg5.N)
/-- After the host operations before region 6. -/
abbrev U13 (c : Dev nD) : Valuation τ sig (Elt F) := StableHlo.after hostOps6 (U12 m c)
/-- The same, read at the TensorCore's references: what region 6 is entered with. -/
abbrev E6 : (c : Dev nD) → (b : Ref sig .tc) → Buf (Elt F) ((c : Thread nD τ).loc b) := fun c b => U13 m c b
/-- After region 6: its output array at what the write-backs leave. -/
abbrev U14 (c : Dev nD) : Valuation τ sig (Elt F) := Function.update (U13 m c) main_v74 ((dat6 (E6 m) c).arrAt 8 cfg6.N)
/-- After the host operations before region 7. -/
abbrev U15 (c : Dev nD) : Valuation τ sig (Elt F) := StableHlo.after hostOps7 (U14 m c)
/-- The same, read at the TensorCore's references: what region 7 is entered with. -/
abbrev E7 : (c : Dev nD) → (b : Ref sig .tc) → Buf (Elt F) ((c : Thread nD τ).loc b) := fun c b => U15 m c b
/-- After region 7: its output arrays at what the write-backs leave. -/
abbrev U16 (c : Dev nD) : Valuation τ sig (Elt F) := Function.update (Function.update (U15 m c) main_v87_0 ((dat7 (E7 m) c).arrAt 5 cfg7.N)) main_v87_1 ((dat7 (E7 m) c).arrAt 6 cfg7.N)

/-! What each item leaves unchanged. -/

theorem U1_of (c : Dev nD) (r : Ref sig .tc) (h : r ∉ hostOps0_W) : U1 m c r = U0 m c r :=
  StableHlo.after_of_writes_sub hostOps0 _ hostOps0_writes h
theorem U2_of (c : Dev nD) (r : Ref sig .tc) (h : r ∉ ([main_v14] : List (Ref sig .tc))) : U2 m c r = U1 m c r := by
  simp only [U2, Function.update_of_ne (StableHlo.devRef_ne_of_ne (List.ne_of_not_mem_cons h) : (Proc.devRef .tc r : DevRef τ sig) ≠ Proc.devRef .tc main_v14)]
theorem U3_of (c : Dev nD) (r : Ref sig .tc) (h : r ∉ hostOps1_W) : U3 m c r = U2 m c r :=
  StableHlo.after_of_writes_sub hostOps1 _ hostOps1_writes h
theorem U4_of (c : Dev nD) (r : Ref sig .tc) (h : r ∉ ([main_v26] : List (Ref sig .tc))) : U4 m c r = U3 m c r := by
  simp only [U4, Function.update_of_ne (StableHlo.devRef_ne_of_ne (List.ne_of_not_mem_cons h) : (Proc.devRef .tc r : DevRef τ sig) ≠ Proc.devRef .tc main_v26)]
theorem U5_of (c : Dev nD) (r : Ref sig .tc) (h : r ∉ hostOps2_W) : U5 m c r = U4 m c r :=
  StableHlo.after_of_writes_sub hostOps2 _ hostOps2_writes h
theorem U6_of (c : Dev nD) (r : Ref sig .tc) (h : r ∉ ([main_v32] : List (Ref sig .tc))) : U6 m c r = U5 m c r := by
  simp only [U6, Function.update_of_ne (StableHlo.devRef_ne_of_ne (List.ne_of_not_mem_cons h) : (Proc.devRef .tc r : DevRef τ sig) ≠ Proc.devRef .tc main_v32)]
theorem U7_of (c : Dev nD) (r : Ref sig .tc) (h : r ∉ hostOps3_W) : U7 m c r = U6 m c r :=
  StableHlo.after_of_writes_sub hostOps3 _ hostOps3_writes h
theorem U8_of (c : Dev nD) (r : Ref sig .tc) (h : r ∉ ([main_v44] : List (Ref sig .tc))) : U8 m c r = U7 m c r := by
  simp only [U8, Function.update_of_ne (StableHlo.devRef_ne_of_ne (List.ne_of_not_mem_cons h) : (Proc.devRef .tc r : DevRef τ sig) ≠ Proc.devRef .tc main_v44)]
theorem U9_of (c : Dev nD) (r : Ref sig .tc) (h : r ∉ hostOps4_W) : U9 m c r = U8 m c r :=
  StableHlo.after_of_writes_sub hostOps4 _ hostOps4_writes h
theorem U10_of (c : Dev nD) (r : Ref sig .tc) (h : r ∉ ([main_v56] : List (Ref sig .tc))) : U10 m c r = U9 m c r := by
  simp only [U10, Function.update_of_ne (StableHlo.devRef_ne_of_ne (List.ne_of_not_mem_cons h) : (Proc.devRef .tc r : DevRef τ sig) ≠ Proc.devRef .tc main_v56)]
theorem U11_of (c : Dev nD) (r : Ref sig .tc) (h : r ∉ hostOps5_W) : U11 m c r = U10 m c r :=
  StableHlo.after_of_writes_sub hostOps5 _ hostOps5_writes h
theorem U12_of (c : Dev nD) (r : Ref sig .tc) (h : r ∉ ([main_v62] : List (Ref sig .tc))) : U12 m c r = U11 m c r := by
  simp only [U12, Function.update_of_ne (StableHlo.devRef_ne_of_ne (List.ne_of_not_mem_cons h) : (Proc.devRef .tc r : DevRef τ sig) ≠ Proc.devRef .tc main_v62)]
theorem U13_of (c : Dev nD) (r : Ref sig .tc) (h : r ∉ hostOps6_W) : U13 m c r = U12 m c r :=
  StableHlo.after_of_writes_sub hostOps6 _ hostOps6_writes h
theorem U14_of (c : Dev nD) (r : Ref sig .tc) (h : r ∉ ([main_v74] : List (Ref sig .tc))) : U14 m c r = U13 m c r := by
  simp only [U14, Function.update_of_ne (StableHlo.devRef_ne_of_ne (List.ne_of_not_mem_cons h) : (Proc.devRef .tc r : DevRef τ sig) ≠ Proc.devRef .tc main_v74)]
theorem U15_of (c : Dev nD) (r : Ref sig .tc) (h : r ∉ hostOps7_W) : U15 m c r = U14 m c r :=
  StableHlo.after_of_writes_sub hostOps7 _ hostOps7_writes h
theorem U16_of (c : Dev nD) (r : Ref sig .tc) (h : r ∉ ([main_v87_0, main_v87_1] : List (Ref sig .tc))) : U16 m c r = U15 m c r := by
  simp only [U16, Function.update_of_ne (StableHlo.devRef_ne_of_ne (List.ne_of_not_mem_cons h) : (Proc.devRef .tc r : DevRef τ sig) ≠ Proc.devRef .tc main_v87_0), Function.update_of_ne (StableHlo.devRef_ne_of_ne (List.ne_of_not_mem_cons (List.not_mem_of_not_mem_cons h)) : (Proc.devRef .tc r : DevRef τ sig) ≠ Proc.devRef .tc main_v87_1)]

/-! No item writes an argument. -/

theorem U16_main_arg0 (c : Dev nD) : U16 m c main_arg0 = m ((c : Thread nD τ).loc main_arg0) :=
  (U16_of m c main_arg0 (by decide)).trans <| (U15_of m c main_arg0 (by decide)).trans <| (U14_of m c main_arg0 (by decide)).trans <| (U13_of m c main_arg0 (by decide)).trans <| (U12_of m c main_arg0 (by decide)).trans <| (U11_of m c main_arg0 (by decide)).trans <| (U10_of m c main_arg0 (by decide)).trans <| (U9_of m c main_arg0 (by decide)).trans <| (U8_of m c main_arg0 (by decide)).trans <| (U7_of m c main_arg0 (by decide)).trans <| (U6_of m c main_arg0 (by decide)).trans <| (U5_of m c main_arg0 (by decide)).trans <| (U4_of m c main_arg0 (by decide)).trans <| (U3_of m c main_arg0 (by decide)).trans <| (U2_of m c main_arg0 (by decide)).trans <| (U1_of m c main_arg0 (by decide)).trans rfl
theorem U16_main_arg1 (c : Dev nD) : U16 m c main_arg1 = m ((c : Thread nD τ).loc main_arg1) :=
  (U16_of m c main_arg1 (by decide)).trans <| (U15_of m c main_arg1 (by decide)).trans <| (U14_of m c main_arg1 (by decide)).trans <| (U13_of m c main_arg1 (by decide)).trans <| (U12_of m c main_arg1 (by decide)).trans <| (U11_of m c main_arg1 (by decide)).trans <| (U10_of m c main_arg1 (by decide)).trans <| (U9_of m c main_arg1 (by decide)).trans <| (U8_of m c main_arg1 (by decide)).trans <| (U7_of m c main_arg1 (by decide)).trans <| (U6_of m c main_arg1 (by decide)).trans <| (U5_of m c main_arg1 (by decide)).trans <| (U4_of m c main_arg1 (by decide)).trans <| (U3_of m c main_arg1 (by decide)).trans <| (U2_of m c main_arg1 (by decide)).trans <| (U1_of m c main_arg1 (by decide)).trans rfl
theorem U16_main_arg2 (c : Dev nD) : U16 m c main_arg2 = m ((c : Thread nD τ).loc main_arg2) :=
  (U16_of m c main_arg2 (by decide)).trans <| (U15_of m c main_arg2 (by decide)).trans <| (U14_of m c main_arg2 (by decide)).trans <| (U13_of m c main_arg2 (by decide)).trans <| (U12_of m c main_arg2 (by decide)).trans <| (U11_of m c main_arg2 (by decide)).trans <| (U10_of m c main_arg2 (by decide)).trans <| (U9_of m c main_arg2 (by decide)).trans <| (U8_of m c main_arg2 (by decide)).trans <| (U7_of m c main_arg2 (by decide)).trans <| (U6_of m c main_arg2 (by decide)).trans <| (U5_of m c main_arg2 (by decide)).trans <| (U4_of m c main_arg2 (by decide)).trans <| (U3_of m c main_arg2 (by decide)).trans <| (U2_of m c main_arg2 (by decide)).trans <| (U1_of m c main_arg2 (by decide)).trans rfl
theorem U16_main_arg3 (c : Dev nD) : U16 m c main_arg3 = m ((c : Thread nD τ).loc main_arg3) :=
  (U16_of m c main_arg3 (by decide)).trans <| (U15_of m c main_arg3 (by decide)).trans <| (U14_of m c main_arg3 (by decide)).trans <| (U13_of m c main_arg3 (by decide)).trans <| (U12_of m c main_arg3 (by decide)).trans <| (U11_of m c main_arg3 (by decide)).trans <| (U10_of m c main_arg3 (by decide)).trans <| (U9_of m c main_arg3 (by decide)).trans <| (U8_of m c main_arg3 (by decide)).trans <| (U7_of m c main_arg3 (by decide)).trans <| (U6_of m c main_arg3 (by decide)).trans <| (U5_of m c main_arg3 (by decide)).trans <| (U4_of m c main_arg3 (by decide)).trans <| (U3_of m c main_arg3 (by decide)).trans <| (U2_of m c main_arg3 (by decide)).trans <| (U1_of m c main_arg3 (by decide)).trans rfl
theorem U16_main_arg4 (c : Dev nD) : U16 m c main_arg4 = m ((c : Thread nD τ).loc main_arg4) :=
  (U16_of m c main_arg4 (by decide)).trans <| (U15_of m c main_arg4 (by decide)).trans <| (U14_of m c main_arg4 (by decide)).trans <| (U13_of m c main_arg4 (by decide)).trans <| (U12_of m c main_arg4 (by decide)).trans <| (U11_of m c main_arg4 (by decide)).trans <| (U10_of m c main_arg4 (by decide)).trans <| (U9_of m c main_arg4 (by decide)).trans <| (U8_of m c main_arg4 (by decide)).trans <| (U7_of m c main_arg4 (by decide)).trans <| (U6_of m c main_arg4 (by decide)).trans <| (U5_of m c main_arg4 (by decide)).trans <| (U4_of m c main_arg4 (by decide)).trans <| (U3_of m c main_arg4 (by decide)).trans <| (U2_of m c main_arg4 (by decide)).trans <| (U1_of m c main_arg4 (by decide)).trans rfl
theorem U16_main_arg5 (c : Dev nD) : U16 m c main_arg5 = m ((c : Thread nD τ).loc main_arg5) :=
  (U16_of m c main_arg5 (by decide)).trans <| (U15_of m c main_arg5 (by decide)).trans <| (U14_of m c main_arg5 (by decide)).trans <| (U13_of m c main_arg5 (by decide)).trans <| (U12_of m c main_arg5 (by decide)).trans <| (U11_of m c main_arg5 (by decide)).trans <| (U10_of m c main_arg5 (by decide)).trans <| (U9_of m c main_arg5 (by decide)).trans <| (U8_of m c main_arg5 (by decide)).trans <| (U7_of m c main_arg5 (by decide)).trans <| (U6_of m c main_arg5 (by decide)).trans <| (U5_of m c main_arg5 (by decide)).trans <| (U4_of m c main_arg5 (by decide)).trans <| (U3_of m c main_arg5 (by decide)).trans <| (U2_of m c main_arg5 (by decide)).trans <| (U1_of m c main_arg5 (by decide)).trans rfl
theorem U16_main_arg6 (c : Dev nD) : U16 m c main_arg6 = m ((c : Thread nD τ).loc main_arg6) :=
  (U16_of m c main_arg6 (by decide)).trans <| (U15_of m c main_arg6 (by decide)).trans <| (U14_of m c main_arg6 (by decide)).trans <| (U13_of m c main_arg6 (by decide)).trans <| (U12_of m c main_arg6 (by decide)).trans <| (U11_of m c main_arg6 (by decide)).trans <| (U10_of m c main_arg6 (by decide)).trans <| (U9_of m c main_arg6 (by decide)).trans <| (U8_of m c main_arg6 (by decide)).trans <| (U7_of m c main_arg6 (by decide)).trans <| (U6_of m c main_arg6 (by decide)).trans <| (U5_of m c main_arg6 (by decide)).trans <| (U4_of m c main_arg6 (by decide)).trans <| (U3_of m c main_arg6 (by decide)).trans <| (U2_of m c main_arg6 (by decide)).trans <| (U1_of m c main_arg6 (by decide)).trans rfl
theorem U16_main_arg7 (c : Dev nD) : U16 m c main_arg7 = m ((c : Thread nD τ).loc main_arg7) :=
  (U16_of m c main_arg7 (by decide)).trans <| (U15_of m c main_arg7 (by decide)).trans <| (U14_of m c main_arg7 (by decide)).trans <| (U13_of m c main_arg7 (by decide)).trans <| (U12_of m c main_arg7 (by decide)).trans <| (U11_of m c main_arg7 (by decide)).trans <| (U10_of m c main_arg7 (by decide)).trans <| (U9_of m c main_arg7 (by decide)).trans <| (U8_of m c main_arg7 (by decide)).trans <| (U7_of m c main_arg7 (by decide)).trans <| (U6_of m c main_arg7 (by decide)).trans <| (U5_of m c main_arg7 (by decide)).trans <| (U4_of m c main_arg7 (by decide)).trans <| (U3_of m c main_arg7 (by decide)).trans <| (U2_of m c main_arg7 (by decide)).trans <| (U1_of m c main_arg7 (by decide)).trans rfl
theorem U16_main_arg8 (c : Dev nD) : U16 m c main_arg8 = m ((c : Thread nD τ).loc main_arg8) :=
  (U16_of m c main_arg8 (by decide)).trans <| (U15_of m c main_arg8 (by decide)).trans <| (U14_of m c main_arg8 (by decide)).trans <| (U13_of m c main_arg8 (by decide)).trans <| (U12_of m c main_arg8 (by decide)).trans <| (U11_of m c main_arg8 (by decide)).trans <| (U10_of m c main_arg8 (by decide)).trans <| (U9_of m c main_arg8 (by decide)).trans <| (U8_of m c main_arg8 (by decide)).trans <| (U7_of m c main_arg8 (by decide)).trans <| (U6_of m c main_arg8 (by decide)).trans <| (U5_of m c main_arg8 (by decide)).trans <| (U4_of m c main_arg8 (by decide)).trans <| (U3_of m c main_arg8 (by decide)).trans <| (U2_of m c main_arg8 (by decide)).trans <| (U1_of m c main_arg8 (by decide)).trans rfl
theorem U16_main_arg9 (c : Dev nD) : U16 m c main_arg9 = m ((c : Thread nD τ).loc main_arg9) :=
  (U16_of m c main_arg9 (by decide)).trans <| (U15_of m c main_arg9 (by decide)).trans <| (U14_of m c main_arg9 (by decide)).trans <| (U13_of m c main_arg9 (by decide)).trans <| (U12_of m c main_arg9 (by decide)).trans <| (U11_of m c main_arg9 (by decide)).trans <| (U10_of m c main_arg9 (by decide)).trans <| (U9_of m c main_arg9 (by decide)).trans <| (U8_of m c main_arg9 (by decide)).trans <| (U7_of m c main_arg9 (by decide)).trans <| (U6_of m c main_arg9 (by decide)).trans <| (U5_of m c main_arg9 (by decide)).trans <| (U4_of m c main_arg9 (by decide)).trans <| (U3_of m c main_arg9 (by decide)).trans <| (U2_of m c main_arg9 (by decide)).trans <| (U1_of m c main_arg9 (by decide)).trans rfl
theorem U16_main_arg10 (c : Dev nD) : U16 m c main_arg10 = m ((c : Thread nD τ).loc main_arg10) :=
  (U16_of m c main_arg10 (by decide)).trans <| (U15_of m c main_arg10 (by decide)).trans <| (U14_of m c main_arg10 (by decide)).trans <| (U13_of m c main_arg10 (by decide)).trans <| (U12_of m c main_arg10 (by decide)).trans <| (U11_of m c main_arg10 (by decide)).trans <| (U10_of m c main_arg10 (by decide)).trans <| (U9_of m c main_arg10 (by decide)).trans <| (U8_of m c main_arg10 (by decide)).trans <| (U7_of m c main_arg10 (by decide)).trans <| (U6_of m c main_arg10 (by decide)).trans <| (U5_of m c main_arg10 (by decide)).trans <| (U4_of m c main_arg10 (by decide)).trans <| (U3_of m c main_arg10 (by decide)).trans <| (U2_of m c main_arg10 (by decide)).trans <| (U1_of m c main_arg10 (by decide)).trans rfl
theorem U16_main_arg11 (c : Dev nD) : U16 m c main_arg11 = m ((c : Thread nD τ).loc main_arg11) :=
  (U16_of m c main_arg11 (by decide)).trans <| (U15_of m c main_arg11 (by decide)).trans <| (U14_of m c main_arg11 (by decide)).trans <| (U13_of m c main_arg11 (by decide)).trans <| (U12_of m c main_arg11 (by decide)).trans <| (U11_of m c main_arg11 (by decide)).trans <| (U10_of m c main_arg11 (by decide)).trans <| (U9_of m c main_arg11 (by decide)).trans <| (U8_of m c main_arg11 (by decide)).trans <| (U7_of m c main_arg11 (by decide)).trans <| (U6_of m c main_arg11 (by decide)).trans <| (U5_of m c main_arg11 (by decide)).trans <| (U4_of m c main_arg11 (by decide)).trans <| (U3_of m c main_arg11 (by decide)).trans <| (U2_of m c main_arg11 (by decide)).trans <| (U1_of m c main_arg11 (by decide)).trans rfl
theorem U16_main_arg12 (c : Dev nD) : U16 m c main_arg12 = m ((c : Thread nD τ).loc main_arg12) :=
  (U16_of m c main_arg12 (by decide)).trans <| (U15_of m c main_arg12 (by decide)).trans <| (U14_of m c main_arg12 (by decide)).trans <| (U13_of m c main_arg12 (by decide)).trans <| (U12_of m c main_arg12 (by decide)).trans <| (U11_of m c main_arg12 (by decide)).trans <| (U10_of m c main_arg12 (by decide)).trans <| (U9_of m c main_arg12 (by decide)).trans <| (U8_of m c main_arg12 (by decide)).trans <| (U7_of m c main_arg12 (by decide)).trans <| (U6_of m c main_arg12 (by decide)).trans <| (U5_of m c main_arg12 (by decide)).trans <| (U4_of m c main_arg12 (by decide)).trans <| (U3_of m c main_arg12 (by decide)).trans <| (U2_of m c main_arg12 (by decide)).trans <| (U1_of m c main_arg12 (by decide)).trans rfl
theorem U16_main_arg13 (c : Dev nD) : U16 m c main_arg13 = m ((c : Thread nD τ).loc main_arg13) :=
  (U16_of m c main_arg13 (by decide)).trans <| (U15_of m c main_arg13 (by decide)).trans <| (U14_of m c main_arg13 (by decide)).trans <| (U13_of m c main_arg13 (by decide)).trans <| (U12_of m c main_arg13 (by decide)).trans <| (U11_of m c main_arg13 (by decide)).trans <| (U10_of m c main_arg13 (by decide)).trans <| (U9_of m c main_arg13 (by decide)).trans <| (U8_of m c main_arg13 (by decide)).trans <| (U7_of m c main_arg13 (by decide)).trans <| (U6_of m c main_arg13 (by decide)).trans <| (U5_of m c main_arg13 (by decide)).trans <| (U4_of m c main_arg13 (by decide)).trans <| (U3_of m c main_arg13 (by decide)).trans <| (U2_of m c main_arg13 (by decide)).trans <| (U1_of m c main_arg13 (by decide)).trans rfl

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev M2 (a b : Nat) : Type := (⟨2, ![a, b]⟩ : Shape).Idx → EReal

def rowOf {a b : Nat} (j : (⟨2, ![a, b]⟩ : Shape).Idx) : Fin a := ⟨(j 0).val, idx2_lt0 j⟩

def colOf {a b : Nat} (j : (⟨2, ![a, b]⟩ : Shape).Idx) : Fin b := ⟨(j 1).val, idx2_lt1 j⟩

theorem ix2_rowOf_colOf {a b : Nat} (j : (⟨2, ![a, b]⟩ : Shape).Idx) : ix2 (rowOf j) (colOf j) = j :=
  (eq_ix2 j).symm
@[simp] theorem rowOf_ix2 {a b : Nat} (p : Fin a) (q : Fin b) : rowOf (ix2 p q) = p := rfl
@[simp] theorem colOf_ix2 {a b : Nat} (p : Fin a) (q : Fin b) : colOf (ix2 p q) = q := rfl

def tileRow (t : Fin 10) (r : Fin 5000) : Fin 50000 := ⟨5000 * t.val + r.val, by omega⟩

def scaledMatmul {K : Nat} (x : M2 50000 K) (w : M2 K 128) (d : M2 50000 1) : M2 50000 128 :=
  fun j => (∑ k : Fin K, x (ix2 (rowOf j) k) * w (ix2 k (colOf j))) * d (ix2 (rowOf j) 0)

def postAgg (agg : M2 50000 128) (d : M2 50000 1) (b : M2 1 128) (p : Fin 50000) (q : Fin 128) : EReal :=
  agg (ix2 p q) * d (ix2 p 0) + b (ix2 0 q)

def colSum (agg : M2 50000 128) (d : M2 50000 1) (b : M2 1 128) : M2 1 128 :=
  fun j => ∑ t : Fin 10, ∑ r : Fin 5000, postAgg agg d b (tileRow t r) (colOf j)

def colSumSq (agg : M2 50000 128) (d : M2 50000 1) (b mean : M2 1 128) : M2 1 128 :=
  fun j => ∑ t : Fin 10, ∑ r : Fin 5000,
    (postAgg agg d b (tileRow t r) (colOf j) - mean (ix2 0 (colOf j)))
      * (postAgg agg d b (tileRow t r) (colOf j) - mean (ix2 0 (colOf j)))

def bnRelu (agg : M2 50000 128) (d : M2 50000 1) (b mean inv g bt : M2 1 128) (p : Fin 50000) (k : Fin 128) : EReal :=
  max ((postAgg agg d b p k - mean (ix2 0 k)) * inv (ix2 0 k) * g (ix2 0 k) + bt (ix2 0 k)) 0

def bnReluMatmul (agg : M2 50000 128) (d : M2 50000 1) (b mean inv g bt : M2 1 128) (w : M2 128 128) : M2 50000 128 :=
  fun j => (∑ k : Fin 128, bnRelu agg d b mean inv g bt (rowOf j) k * w (ix2 k (colOf j))) * d (ix2 (rowOf j) 0)

def headOut (agg : M2 50000 128) (d : M2 50000 1) (b : M2 1 128) (fcW : M2 128 1) (fcb : M2 1 1) : M2 50000 1 :=
  fun j => (∑ k : Fin 128, max (postAgg agg d b (rowOf j) k) 0 * fcW (ix2 k 0)) + fcb (ix2 0 0)

def headSig (agg : M2 50000 128) (d : M2 50000 1) (b : M2 1 128) (fcW : M2 128 1) (fcb : M2 1 1) : M2 50000 1 :=
  fun j => Ideal.logistic (headOut agg d b fcW fcb j)

end Cert.Spec

end
-- ==== Proof.KI.Val0.lean ====
import proofs.«408734_j33483565039990_3_alg».proof.Proof.KI.Reg0
import proofs.«408734_j33483565039990_3_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueLayout
import Idealize.ShloMosaic.Lib.StackMember
import Idealize.ShloMosaic.Lib.KernelVsHost
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem broadcastTo_col_apply0 {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem pay0_apply (x0 : Vec Ideal S5000x64 .f32) (x1 : Vec Ideal S64x128 .f32) (x2 : Vec Ideal S5000x1 .f32)
    (p : Fin 5000) (q : Fin 128) :
    k0_pay1 x0 x1 x2 (ix2 p q) = (∑ k : Fin 64, x0 (ix2 p k) * x1 (ix2 k q)) * x2 (ix2 p (0 : Fin 1)) := by
  unfold k0_pay1
  rw [mulf_apply, shapeCast_self, broadcastTo_col_apply0]
  rw [show dot_S5000x64_S64x128_S5000x128_1_0_0_1_n_n = DotDims.plain 5000 64 128 from rfl,
    matmul_zero_eq_dotGeneral, StackMember.dotGeneral_plain_apply]
  rfl

theorem pay0_eq_spec (x0 : Vec Ideal S5000x64 .f32) (x1 : Vec Ideal S64x128 .f32) (x2 : Vec Ideal S5000x1 .f32)
    (a0 : S50000x64.Idx → EReal) (a1 : S64x128.Idx → EReal) (a2 : S50000x1.Idx → EReal) (T : Nat)
    (h0 : ∀ (y : S5000x64.Idx) (i : S50000x64.Idx), (i 0).val = T * 5000 + (y 0).val → (i 1).val = (y 1).val → x0 y = a0 i)
    (h1 : x1 = a1)
    (h2 : ∀ (y : S5000x1.Idx) (i : S50000x1.Idx), (i 0).val = T * 5000 + (y 0).val → (i 1).val = (y 1).val → x2 y = a2 i)
    (j : S5000x128.Idx) (i : S50000x128.Idx) (hi0 : (i 0).val = T * 5000 + (j 0).val) (hi1 : (i 1).val = (j 1).val) :
    k0_pay1 x0 x1 x2 j = Cert.Spec.scaledMatmul a0 a1 a2 i := by
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  have hr : r.val = T * 5000 + p.val := hi0
  obtain rfl : s = q := Fin.ext hi1
  rw [pay0_apply]
  unfold Cert.Spec.scaledMatmul
  rw [Cert.Spec.rowOf_ix2, Cert.Spec.colOf_ix2, h1, h2 (ix2 p (0 : Fin 1)) (ix2 r (0 : Fin 1)) hr rfl]
  congr 1
  exact Finset.sum_congr rfl fun k _ => by rw [h0 (ix2 p k) (ix2 r k) hr rfl]

theorem hz0 : (![0, 0] : Fin 2 → Nat) = fun _ => 0 := funext fun a => by fin_cases a <;> rfl

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

theorem flushed0_eq (c : Dev nD) (t : Fin cfg0.N) :
    (dat0 (F := Ideal) V c).flushed 3 t
      = ((cfg0.win 3).blk t).view.read (Elt Ideal) (Cert.Spec.scaledMatmul (V c main_arg0) (V c main_arg2) (V c main_v13)) := by
  show (cfg0.win 3).cut (grid0.coords t) ((dat0 (F := Ideal) V c).after 3 t) = _
  rw [after0_3]
  unfold out0_3
  rw [View.canon_unit_zero hz0]
  simp only [View.ld_unit_zero (S := S5000x64) hz0, View.ld_unit_zero (S := S64x128) hz0, View.ld_unit_zero (S := S5000x1) hz0]
  obtain ⟨e00, e01, e10, e11, e20, e21, e30, e31⟩ := idx_facts0 t
  funext j
  show k0_pay1 (iblk0 V c 0 t) (iblk0 V c 1 t) (iblk0 V c 2 t) j
    = Cert.Spec.scaledMatmul (V c main_arg0) (V c main_arg2) (V c main_v13) (((cfg0.win 3).blk t).view.emb j)
  refine pay0_eq_spec _ _ _ _ _ _ t.val ?_ ?_ ?_ j _ ?_ ?_
  · intro y i hy0 hy1
    show V c main_arg0 (((cfg0.win 0).blk t).view.emb y) = V c main_arg0 i
    congr 1
    funext a; apply Fin.ext
    match a with
    | ⟨0, _⟩ => show win0_0.index t (0 : Fin 2) * 5000 + 1 * (y 0).val = (i 0).val; omega
    | ⟨1, _⟩ => show win0_0.index t (1 : Fin 2) * 64 + 1 * (y 1).val = (i 1).val; omega
  · funext y
    show V c main_arg2 (((cfg0.win 1).blk t).view.emb y) = V c main_arg2 y
    congr 1
    funext a; apply Fin.ext
    match a with
    | ⟨0, _⟩ => show win0_1.index t (0 : Fin 2) * 64 + 1 * (y 0).val = (y 0).val; omega
    | ⟨1, _⟩ => show win0_1.index t (1 : Fin 2) * 128 + 1 * (y 1).val = (y 1).val; omega
  · intro y i hy0 hy1
    show V c main_v13 (((cfg0.win 2).blk t).view.emb y) = V c main_v13 i
    congr 1
    funext a; apply Fin.ext
    match a with
    | ⟨0, _⟩ => show win0_2.index t (0 : Fin 2) * 5000 + 1 * (y 0).val = (i 0).val; omega
    | ⟨1, _⟩ => show win0_2.index t (1 : Fin 2) * 1 + 1 * (y 1).val = (i 1).val; omega
  · show win0_3.index t (0 : Fin 2) * 5000 + 1 * (j 0).val = t.val * 5000 + (j 0).val; omega
  · show win0_3.index t (1 : Fin 2) * 128 + 1 * (j 1).val = (j 1).val; omega

theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v14).slice (win0_3.rect t)).set ↔ _
  rw [View.set_slice_whole, Rect.mem_set_unit]
  exact Iff.rfl

theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨e00, e01, e10, e11, e20, e21, e30, e31⟩ := idx_facts0 t
  have ht : t.val = (i 0).val / 5000 := rfl
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

theorem val0 (c : Dev nD) :
    (dat0 (F := Ideal) V c).arrAt 3 cfg0.N = Cert.Spec.scaledMatmul (V c main_arg0) (V c main_arg2) (V c main_v13) :=
  (dat0 (F := Ideal) V c).arrAt_eq_of_cover 3 (Cert.Spec.scaledMatmul (V c main_arg0) (V c main_arg2) (V c main_v13))
    (fun t _ => flushed0_eq V c t) cover0

end Cert.KernelIdeal.Hand

end
-- ==== Proof.KI.Val1.lean ====
import proofs.«408734_j33483565039990_3_alg».proof.Proof.KI.Reg1
import proofs.«408734_j33483565039990_3_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Pieces

theorem hz1 : (![0, 0] : Fin 2 → Nat) = fun _ => 0 := funext fun a => by fin_cases a <;> rfl

theorem sout1_B_0_eq (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i) (hc1 : ¬cond1_1 i)
    (x0 : Vec F S5000x128 .f32) (x1 : Vec F S5000x1 .f32) (x2 : Vec F S1x128 .f32) (xs0 : Vec F S1x128 .f32) :
    sout1_B_0 c i arg1 harg1 arg2 harg2 arg3 harg3 arg4 harg4 arg5 harg5 hc0 hc1 x0 x1 x2 xs0 = k1_pay2 x0 x1 x2 xs0 := by
  unfold sout1_B_0
  rw [View.read_writes_eq_canon _ _ _ (scover1_B_0 c i arg1 harg1 arg2 harg2 arg3 harg3 arg4 harg4 arg5 harg5 hc0 hc1 x0 x1 x2 xs0)]
  unfold kernelRun1_B
  dsimp only
  sl_unfold_words
  rw [View.canon_unit_zero hz1]
  simp only [View.readAt_eq_ld, harg1.read_unread, harg2.read_unread, harg3.read_unread, harg5.read_unread, View.ld_unit_zero (S := S5000x128) hz1, View.ld_unit_zero (S := S5000x1) hz1, View.ld_unit_zero (S := S1x128) hz1, View.readCov_unit_zero (S := S1x128) _ hz1]

theorem sout1_A_0_eq (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond1_0 i) (hc1 : ¬cond1_1 i)
    (x0 : Vec F S5000x128 .f32) (x1 : Vec F S5000x1 .f32) (x2 : Vec F S1x128 .f32) :
    sout1_A_0 c i arg1 harg1 arg2 harg2 arg3 harg3 arg4 harg4 arg5 harg5 hc0 hc1 x0 x1 x2 = k1_pay2 x0 x1 x2 k1_pay1 := by
  unfold sout1_A_0
  rw [View.read_writes_eq_canon _ _ _ (scover1_A_0 c i arg1 harg1 arg2 harg2 arg3 harg3 arg4 harg4 arg5 harg5 hc0 hc1 x0 x1 x2)]
  unfold kernelRun1_A
  dsimp only
  sl_unfold_words
  rw [View.canon_cons_unit_zero (S := S1x128) hz1]
  simp only [View.readAt_eq_ld, harg1.read_unread, harg2.read_unread, harg3.read_unread, View.ld_unit_zero (S := S5000x128) hz1, View.ld_unit_zero (S := S5000x1) hz1, View.ld_unit_zero (S := S1x128) hz1, View.readCov_unit_zero (S := S1x128) _ hz1]

theorem sout1_C_0_eq (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i) (hc1 : cond1_1 i)
    (x0 : Vec F S5000x128 .f32) (x1 : Vec F S5000x1 .f32) (x2 : Vec F S1x128 .f32) (xs0 : Vec F S1x128 .f32) :
    sout1_C_0 c i arg1 harg1 arg2 harg2 arg3 harg3 arg4 harg4 arg5 harg5 hc0 hc1 x0 x1 x2 xs0 = k1_pay2 x0 x1 x2 xs0 := by
  unfold sout1_C_0
  rw [View.read_writes_eq_canon _ _ _ (scover1_C_0 c i arg1 harg1 arg2 harg2 arg3 harg3 arg4 harg4 arg5 harg5 hc0 hc1 x0 x1 x2 xs0)]
  unfold kernelRun1_C
  dsimp only
  sl_unfold_words
  rw [View.canon_unit_zero hz1]
  simp only [View.readAt_eq_ld, harg1.read_unread, harg2.read_unread, harg3.read_unread, harg5.read_unread, View.ld_unit_zero (S := S5000x128) hz1, View.ld_unit_zero (S := S5000x1) hz1, View.ld_unit_zero (S := S1x128) hz1, View.readCov_unit_zero (S := S1x128) _ hz1]

theorem out1_C_3_eq (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i) (hc1 : cond1_1 i)
    (x0 : Vec F S5000x128 .f32) (x1 : Vec F S5000x1 .f32) (x2 : Vec F S1x128 .f32) (xs0 : Vec F S1x128 .f32) :
    out1_C_3 c i arg1 harg1 arg2 harg2 arg3 harg3 arg4 harg4 arg5 harg5 hc0 hc1 x0 x1 x2 xs0 = k1_pay2 x0 x1 x2 xs0 := by
  unfold out1_C_3
  rw [View.read_writes_eq_canon _ _ _ (cover1_C_3 c i arg1 harg1 arg2 harg2 arg3 harg3 arg4 harg4 arg5 harg5 hc0 hc1 x0 x1 x2 xs0)]
  unfold kernelRun1_C
  dsimp only
  sl_unfold_words
  rw [View.canon_unit_zero hz1]
  simp only [View.readAt_eq_ld, harg1.read_unread, harg2.read_unread, harg3.read_unread, harg5.read_unread, View.ld_unit_zero (S := S5000x128) hz1, View.ld_unit_zero (S := S5000x1) hz1, View.ld_unit_zero (S := S1x128) hz1, View.readCov_unit_zero (S := S1x128) _ hz1]

end Pieces

section Payloads

open Idealize.ShloMosaic.ValueIdx
open scoped BigOperators

theorem colBroadcast1_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

def tileSum1 (v3 : Vec Ideal S5000x128 .f32) (v5 : Vec Ideal S5000x1 .f32) (v9 : Vec Ideal S1x128 .f32) (q : Fin 128) : EReal :=
  ∑ r : Fin 5000, (v3 (ix2 r q) * v5 (ix2 r (0 : Fin 1)) + v9 (ix2 (0 : Fin 1) q))

theorem k1_pay2_apply (v3 : Vec Ideal S5000x128 .f32) (v5 : Vec Ideal S5000x1 .f32) (v9 v13 : Vec Ideal S1x128 .f32) (q : Fin 128) :
    k1_pay2 (F := Ideal) v3 v5 v9 v13 (ix2 (0 : Fin 1) q) = v13 (ix2 (0 : Fin 1) q) + tileSum1 v3 v5 v9 q := by
  unfold k1_pay2 tileSum1
  refine (congrFun (shapeCast_self _ _) _).trans ?_
  refine congrArg (fun z => v13 (ix2 (0 : Fin 1) q) + z) ?_
  refine (shapeCast_a_1a_apply _ _ (0 : Fin 1) q).trans ?_
  refine (Ideal.multiReduction_add_single _ _ _ _ _ (ix1 q)).trans ?_
  refine Finset.sum_congr rfl fun r _ => ?_
  have hl : reduces_S5000x128_S128.lift (ix1 q) r = ix2 (n0 := 5000) (n1 := 128) r q := by
    funext a; match a with | ⟨0, _⟩ => rfl | ⟨1, _⟩ => rfl
  rw [hl]
  show shapeCast S5000x128 v3 _ (ix2 r q) * broadcastTo S5000x128 (shapeCast S5000x1 v5 _) _ (ix2 r q)
      + broadcastTo S5000x128 (shapeCast S1x128 v9 _) _ (ix2 r q) = _
  rw [shapeCast_self, shapeCast_self, shapeCast_self]
  exact congrArg₂ (· + ·)
    (congrArg (v3 (ix2 r q) * ·) (colBroadcast1_apply (a := 5000) (b := 128) v5 broadcasts_S5000x1_S5000x128 r q))
    (broadcastTo_1b_ab_apply (a := 5000) (b := 128) v9 broadcasts_S1x128_S5000x128 r q)

theorem k1_pay1_apply (q : Fin 128) : k1_pay1 (F := Ideal) (ix2 (0 : Fin 1) q) = 0 := by
  unfold k1_pay1
  refine (congrFun (shapeCast_self _ _) _).trans ?_
  exact Ideal.ofBits_zero_f32

end Payloads

section Blocks

open Idealize.ShloMosaic.ValueIdx

variable (V : (c : Dev nD) → (b : Ref sig .tc) → Buf (Elt Ideal) ((c : Thread nD τ).loc b))

theorem idx1_0 : ∀ t : Fin grid1.N, win1_0.index t 0 = t.val ∧ win1_0.index t 1 = 0 := by decide +kernel
theorem idx1_1 : ∀ t : Fin grid1.N, win1_1.index t 0 = t.val ∧ win1_1.index t 1 = 0 := by decide +kernel
theorem idx1_2 : ∀ t : Fin grid1.N, win1_2.index t 0 = 0 ∧ win1_2.index t 1 = 0 := by decide +kernel
theorem idx1_3 : ∀ t : Fin grid1.N, win1_3.index t 0 = 0 ∧ win1_3.index t 1 = 0 := by decide +kernel

def tileOf1 (t : Fin cfg1.N) : Fin 10 := ⟨t.val, lt_of_lt_of_eq t.isLt N_1⟩

theorem iblk1_0_apply (c : Dev nD) (t : Fin cfg1.N) (r : Fin 5000) (q : Fin 128) :
    (iblk1 V c 0 t : Vec Ideal S5000x128 .f32) (ix2 r q)
      = (V c main_v24 : Cert.Spec.M2 50000 128) (ix2 (Cert.Spec.tileRow (tileOf1 t) r) q) := by
  unfold iblk1
  rw [View.read_apply]
  show V c main_v24 _ = V c main_v24 _
  congr 1
  funext a; apply Fin.ext
  match a with
  | ⟨0, _⟩ => show win1_0.index t 0 * 5000 + 1 * r.val = 5000 * t.val + r.val; rw [(idx1_0 t).1]; omega
  | ⟨1, _⟩ => show win1_0.index t 1 * 128 + 1 * q.val = q.val; rw [(idx1_0 t).2]; omega

theorem iblk1_1_apply (c : Dev nD) (t : Fin cfg1.N) (r : Fin 5000) :
    (iblk1 V c 1 t : Vec Ideal S5000x1 .f32) (ix2 r (0 : Fin 1))
      = (V c main_v13 : Cert.Spec.M2 50000 1) (ix2 (Cert.Spec.tileRow (tileOf1 t) r) (0 : Fin 1)) := by
  unfold iblk1
  rw [View.read_apply]
  show V c main_v13 _ = V c main_v13 _
  congr 1
  funext a; apply Fin.ext
  match a with
  | ⟨0, _⟩ => show win1_1.index t 0 * 5000 + 1 * r.val = 5000 * t.val + r.val; rw [(idx1_1 t).1]; omega
  | ⟨1, _⟩ => show win1_1.index t 1 * 1 + 1 * 0 = 0; rw [(idx1_1 t).2]

theorem iblk1_2_apply (c : Dev nD) (t : Fin cfg1.N) (q : Fin 128) :
    (iblk1 V c 2 t : Vec Ideal S1x128 .f32) (ix2 (0 : Fin 1) q)
      = (V c main_v25 : Cert.Spec.M2 1 128) (ix2 (0 : Fin 1) q) := by
  unfold iblk1
  rw [View.read_apply]
  show V c main_v25 _ = V c main_v25 _
  congr 1
  funext a; apply Fin.ext
  match a with
  | ⟨0, _⟩ => show win1_2.index t 0 * 1 + 1 * 0 = 0; rw [(idx1_2 t).1]
  | ⟨1, _⟩ => show win1_2.index t 1 * 128 + 1 * q.val = q.val; rw [(idx1_2 t).2]; omega

end Blocks

section Value

open Idealize.ShloMosaic.ValueIdx
open scoped BigOperators

variable (V : (c : Dev nD) → (b : Ref sig .tc) → Buf (Elt Ideal) ((c : Thread nD τ).loc b))

def tile1 (c : Dev nD) (t : Fin cfg1.N) (q : Fin 128) : EReal :=
  tileSum1 (iblk1 V c 0 t) (iblk1 V c 1 t) (iblk1 V c 2 t) q

theorem tile1_eq (c : Dev nD) (t : Fin cfg1.N) (q : Fin 128) :
    tile1 V c t q = ∑ r : Fin 5000, Cert.Spec.postAgg (V c main_v24) (V c main_v13) (V c main_v25) (Cert.Spec.tileRow (tileOf1 t) r) q := by
  unfold tile1 tileSum1 Cert.Spec.postAgg
  refine Finset.sum_congr rfl fun r _ => ?_
  rw [iblk1_0_apply, iblk1_1_apply, iblk1_2_apply]

def part1 (c : Dev nD) (q : Fin 128) (n : ℕ) : EReal :=
  ∑ k ∈ Finset.range n, (if h : k < cfg1.N then tile1 V c ⟨k, h⟩ q else 0)

theorem scratch1_eq (c : Dev nD) (q : Fin 128) : ∀ (n : ℕ) (hn : n < cfg1.N),
    (outsAt1 V c n hn).2 (ix2 (0 : Fin 1) q) = part1 V c q (n + 1)
  | 0, hn => by
    rw [outsAt1_A V c ⟨0, hn⟩ rfl (show ¬(0 : ℕ) = 9 by decide)]
    dsimp only
    rw [sout1_A_0_eq]
    refine (k1_pay2_apply _ _ _ _ q).trans ?_
    rw [k1_pay1_apply, zero_add]
    unfold part1
    rw [Finset.sum_range_one, dif_pos hn]
    rfl
  | n + 1, hn => by
    have ih := scratch1_eq c q n (Nat.lt_of_succ_lt hn)
    by_cases h1 : n + 1 = 9
    · rw [outsAt1_C V c ⟨n + 1, hn⟩ (Nat.succ_ne_zero n) h1]
      dsimp only
      rw [sout1_C_0_eq]
      refine (k1_pay2_apply _ _ _ _ q).trans ?_
      unfold part1 at ih ⊢
      rw [Finset.sum_range_succ _ (n + 1), dif_pos hn]
      exact congrArg₂ (· + ·) ih rfl
    · rw [outsAt1_B V c ⟨n + 1, hn⟩ (Nat.succ_ne_zero n) h1]
      dsimp only
      rw [sout1_B_0_eq]
      refine (k1_pay2_apply _ _ _ _ q).trans ?_
      unfold part1 at ih ⊢
      rw [Finset.sum_range_succ _ (n + 1), dif_pos hn]
      exact congrArg₂ (· + ·) ih rfl

end Value

section Final

open Idealize.ShloMosaic.ValueIdx
open scoped BigOperators

variable (V : (c : Dev nD) → (b : Ref sig .tc) → Buf (Elt Ideal) ((c : Thread nD τ).loc b))

theorem last1 : 9 < cfg1.N := by rw [show cfg1.N = 10 from N_1]; decide

theorem part1_all (c : Dev nD) (q : Fin 128) :
    part1 V c q 10 = Cert.Spec.colSum (V c main_v24) (V c main_v13) (V c main_v25) (ix2 (0 : Fin 1) q) := by
  unfold part1 Cert.Spec.colSum
  rw [← Fin.sum_univ_eq_sum_range (fun k => if h : k < cfg1.N then tile1 V c ⟨k, h⟩ q else 0) 10]
  refine Finset.sum_congr rfl fun t _ => ?_
  rw [dif_pos (show t.val < cfg1.N from lt_of_lt_of_eq t.isLt N_1.symm), tile1_eq]
  rfl

theorem out1_last (c : Dev nD) (q : Fin 128) : (outsAt1 V c 9 last1).1 (ix2 (0 : Fin 1) q) = part1 V c q 10 := by
  rw [outsAt1_C V c ⟨9, last1⟩ (show ¬(9 : ℕ) = 0 by decide) rfl]
  dsimp only
  rw [out1_C_3_eq]
  refine (k1_pay2_apply _ _ _ _ q).trans ?_
  have ih := scratch1_eq V c q 8 (Nat.lt_of_succ_lt last1)
  unfold part1 at ih ⊢
  rw [Finset.sum_range_succ _ 9, dif_pos last1]
  exact congrArg₂ (· + ·) ih rfl

abbrev res1 (c : Dev nD) : Buf (Elt Ideal) ((c : Thread nD τ).loc main_v26) :=
  Cert.Spec.colSum (V c main_v24) (V c main_v13) (V c main_v25)

theorem outs1_last_eq (c : Dev nD) : (outsAt1 V c 9 last1).1 = res1 V c := by
  funext j
  have hj : j = ix2 (0 : Fin 1) (j 1) :=
    (eq_ix2 j).trans (congrArg (fun u : Fin 1 => ix2 u (j 1)) (Subsingleton.elim _ _))
  rw [hj]
  exact (out1_last V c (j 1)).trans (part1_all V c (j 1))

theorem flushed1_eq (c : Dev nD) (t : Fin cfg1.N) (hf : (cfg1.win 3).flush t = true) :
    (dat1 V c).flushed 3 t = ((cfg1.win 3).blk t).view.read (Elt Ideal) (res1 V c) := by
  have hN : cfg1.N = 10 := N_1
  have h9 : t.val = 9 := by have := (flush1_3 t).mp hf; have := t.isLt; omega
  obtain rfl : t = t1_9 := Fin.ext h9
  show (cfg1.win 3).cut (grid1.coords t1_9) ((dat1 V c).after 3 t1_9) = _
  rw [after1_3]
  have hz' : (fun a => win1_3.index t1_9 a * main_v26.ty.shape.size a) = fun _ => 0 := funext fun a => by fin_cases a <;> decide
  refine Eq.trans ?_ (Memref.read_access_unit_zero (Elt Ideal) main_v26 hz' (fun a => by rw [congrFun hz' a]; simp) (res1 V c)).symm
  exact outs1_last_eq V c

theorem val1 (c : Dev nD) :
    (dat1 (F := Ideal) V c).arrAt 3 cfg1.N = Cert.Spec.colSum (V c main_v24) (V c main_v13) (V c main_v25) :=
  (dat1 V c).arrAt_eq_of_cover 3 (res1 V c) (flushed1_eq V c) fun i =>
    ⟨t1_9, (flush1_3 t1_9).mpr rfl, by
      show i ∈ ((View.whole main_v26).slice (win1_3.rect t1_9)).set
      rw [View.set_slice_whole, Rect.mem_set_unit]
      intro a
      have hlo : win1_3.index t1_9 a * win1_3.size a = 0 := by fin_cases a <;> decide +kernel
      have hsz : win1_3.xsize (grid1.coords t1_9) a = S1x128.size a := by fin_cases a <;> decide +kernel
      show win1_3.index t1_9 a * win1_3.size a ≤ (i a : ℕ) ∧ (i a : ℕ) < win1_3.index t1_9 a * win1_3.size a + win1_3.xsize (grid1.coords t1_9) a
      rw [hlo, hsz, Nat.zero_add]
      exact ⟨Nat.zero_le _, (i a).isLt⟩⟩

end Final

end Cert.KernelIdeal.Hand

end
-- ==== Proof.KI.Val2.lean ====
import proofs.«408734_j33483565039990_3_alg».proof.Proof.KI.Reg2
import proofs.«408734_j33483565039990_3_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueLayout
import Idealize.ShloMosaic.Lib.ValueIdxCoords
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

section Pieces

variable {F : FTy → Type} [FloatOps F]

theorem hz2 : (![0, 0] : Fin 2 → Nat) = fun _ => 0 := funext fun a => by fin_cases a <;> rfl

theorem sout2_B_eq (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i) (hc1 : ¬cond2_1 i)
    (x0 : Vec F S5000x128 .f32) (x1 : Vec F S5000x1 .f32) (x2 : Vec F S1x128 .f32) (x3 : Vec F S1x128 .f32) (xs0 : Vec F S1x128 .f32) :
    sout2_B_0 c i arg1 harg1 arg2 harg2 arg3 harg3 arg4 harg4 arg5 harg5 arg6 harg6 hc0 hc1 x0 x1 x2 x3 xs0 = k2_pay2 x0 x1 x2 x3 xs0 := by
  unfold sout2_B_0
  rw [View.read_writes_eq_canon _ _ _ (scover2_B_0 c i arg1 harg1 arg2 harg2 arg3 harg3 arg4 harg4 arg5 harg5 arg6 harg6 hc0 hc1 x0 x1 x2 x3 xs0)]
  unfold kernelRun2_B
  dsimp only
  sl_unfold_words
  rw [View.canon_unit_zero hz2]
  simp only [View.readAt_eq_ld, harg1.read_unread, harg2.read_unread, harg3.read_unread, harg4.read_unread, harg5.read_unread, harg6.read_unread, View.ld_unit_zero (S := S5000x128) hz2, View.ld_unit_zero (S := S5000x1) hz2, View.ld_unit_zero (S := S1x128) hz2, View.readCov_unit_zero (S := S1x128) _ hz2]

theorem sout2_C_eq (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i) (hc1 : cond2_1 i)
    (x0 : Vec F S5000x128 .f32) (x1 : Vec F S5000x1 .f32) (x2 : Vec F S1x128 .f32) (x3 : Vec F S1x128 .f32) (xs0 : Vec F S1x128 .f32) :
    sout2_C_0 c i arg1 harg1 arg2 harg2 arg3 harg3 arg4 harg4 arg5 harg5 arg6 harg6 hc0 hc1 x0 x1 x2 x3 xs0 = k2_pay2 x0 x1 x2 x3 xs0 := by
  unfold sout2_C_0
  rw [View.read_writes_eq_canon _ _ _ (scover2_C_0 c i arg1 harg1 arg2 harg2 arg3 harg3 arg4 harg4 arg5 harg5 arg6 harg6 hc0 hc1 x0 x1 x2 x3 xs0)]
  unfold kernelRun2_C
  dsimp only
  sl_unfold_words
  rw [View.canon_unit_zero hz2]
  simp only [View.readAt_eq_ld, harg1.read_unread, harg2.read_unread, harg3.read_unread, harg4.read_unread, harg5.read_unread, harg6.read_unread, View.ld_unit_zero (S := S5000x128) hz2, View.ld_unit_zero (S := S5000x1) hz2, View.ld_unit_zero (S := S1x128) hz2, View.readCov_unit_zero (S := S1x128) _ hz2]

theorem out2_C_eq (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i) (hc1 : cond2_1 i)
    (x0 : Vec F S5000x128 .f32) (x1 : Vec F S5000x1 .f32) (x2 : Vec F S1x128 .f32) (x3 : Vec F S1x128 .f32) (xs0 : Vec F S1x128 .f32) :
    out2_C_4 c i arg1 harg1 arg2 harg2 arg3 harg3 arg4 harg4 arg5 harg5 arg6 harg6 hc0 hc1 x0 x1 x2 x3 xs0 = k2_pay2 x0 x1 x2 x3 xs0 := by
  unfold out2_C_4
  rw [View.read_writes_eq_canon _ _ _ (cover2_C_4 c i arg1 harg1 arg2 harg2 arg3 harg3 arg4 harg4 arg5 harg5 arg6 harg6 hc0 hc1 x0 x1 x2 x3 xs0)]
  unfold kernelRun2_C
  dsimp only
  sl_unfold_words
  rw [View.canon_unit_zero hz2]
  simp only [View.readAt_eq_ld, harg1.read_unread, harg2.read_unread, harg3.read_unread, harg4.read_unread, harg5.read_unread, harg6.read_unread, View.ld_unit_zero (S := S5000x128) hz2, View.ld_unit_zero (S := S5000x1) hz2, View.ld_unit_zero (S := S1x128) hz2, View.readCov_unit_zero (S := S1x128) _ hz2]

theorem sout2_A_eq (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond2_0 i) (hc1 : ¬cond2_1 i)
    (x0 : Vec F S5000x128 .f32) (x1 : Vec F S5000x1 .f32) (x2 : Vec F S1x128 .f32) (x3 : Vec F S1x128 .f32) :
    sout2_A_0 c i arg1 harg1 arg2 harg2 arg3 harg3 arg4 harg4 arg5 harg5 arg6 harg6 hc0 hc1 x0 x1 x2 x3 = k2_pay2 x0 x1 x2 x3 (k2_pay1 (F := F)) := by
  unfold sout2_A_0
  rw [View.read_writes_eq_canon _ _ _ (scover2_A_0 c i arg1 harg1 arg2 harg2 arg3 harg3 arg4 harg4 arg5 harg5 arg6 harg6 hc0 hc1 x0 x1 x2 x3)]
  unfold kernelRun2_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, View.ld_unit_zero (S := S5000x128) hz2, View.ld_unit_zero (S := S5000x1) hz2, View.ld_unit_zero (S := S1x128) hz2, View.readCov_unit_zero (S := S1x128) _ hz2]

end Pieces

theorem bcastCol2_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

def tileSq2 (x0 : Vec Ideal S5000x128 .f32) (x1 : Vec Ideal S5000x1 .f32) (x2 x3 : Vec Ideal S1x128 .f32) (q : Fin 128) : EReal :=
  ∑ r : Fin 5000, (x0 (ix2 r q) * x1 (ix2 r 0) + x2 (ix2 0 q) - x3 (ix2 0 q)) * (x0 (ix2 r q) * x1 (ix2 r 0) + x2 (ix2 0 q) - x3 (ix2 0 q))

theorem lift2_eq (h : Shape.Reduces S5000x128 [0] S128) (q : Fin 128) (r : Fin 5000) :
    h.lift (ix1 q) r = (ix2 r q : S5000x128.Idx) := by
  funext a
  match a with
  | ⟨0, _⟩ => rfl
  | ⟨1, _⟩ => rfl

theorem upd2_apply (x0 : Vec Ideal S5000x128 .f32) (x1 : Vec Ideal S5000x1 .f32) (x2 x3 acc : Vec Ideal S1x128 .f32) (q : Fin 128) :
    k2_pay2 (F := Ideal) x0 x1 x2 x3 acc (ix2 0 q) = acc (ix2 0 q) + tileSq2 x0 x1 x2 x3 q := by
  unfold k2_pay2
  dsimp only
  refine (congrFun (shapeCast_self _ _) (ix2 0 q)).trans ?_
  refine (addf_apply _ _ _).trans ?_
  refine congrArg (acc (ix2 0 q) + ·) ?_
  refine (shapeCast_a_1a_apply _ _ 0 q).trans ?_
  refine (Ideal.multiReduction_add_single _ _ _ _ _ (ix1 q)).trans ?_
  unfold tileSq2
  refine Finset.sum_congr rfl fun (r : Fin 5000) _ => ?_
  rw [lift2_eq reduces_S5000x128_S128 q r]
  simp only [mulf_apply, addf_apply, subf_apply, shapeCast_self, bcastCol2_apply, broadcastTo_1b_ab_apply]

theorem zero2_apply (j : S1x128.Idx) : k2_pay1 (F := Ideal) j = 0 := by
  unfold k2_pay1
  refine (congrFun (shapeCast_self _ _) j).trans ?_
  exact Ideal.ofBits_zero_f32

variable (V : (c : Dev nD) → (b : Ref sig .tc) → Buf (Elt Ideal) ((c : Thread nD τ).loc b))

abbrev blk2_0 (c : Dev nD) (t : Fin cfg2.N) : Vec Ideal S5000x128 .f32 := iblk2 V c 0 t
abbrev blk2_1 (c : Dev nD) (t : Fin cfg2.N) : Vec Ideal S5000x1 .f32 := iblk2 V c 1 t
abbrev blk2_2 (c : Dev nD) (t : Fin cfg2.N) : Vec Ideal S1x128 .f32 := iblk2 V c 2 t
abbrev blk2_3 (c : Dev nD) (t : Fin cfg2.N) : Vec Ideal S1x128 .f32 := iblk2 V c 3 t
abbrev arr2_0 (c : Dev nD) : Cert.Spec.M2 50000 128 := V c main_v24
abbrev arr2_1 (c : Dev nD) : Cert.Spec.M2 50000 1 := V c main_v13
abbrev arr2_2 (c : Dev nD) : Cert.Spec.M2 1 128 := V c main_v30
abbrev arr2_3 (c : Dev nD) : Cert.Spec.M2 1 128 := V c main_v31

theorem lt10_2 (t : Fin cfg2.N) : t.val < 10 := lt_of_lt_of_eq t.isLt N_2

theorem index2_0 : ∀ t : Fin cfg2.N, win2_0.index t 0 = t.val ∧ win2_0.index t 1 = 0 :=
  (by decide +kernel : ∀ t : Fin grid2.N, win2_0.index t 0 = t.val ∧ win2_0.index t 1 = 0)
theorem index2_1 : ∀ t : Fin cfg2.N, win2_1.index t 0 = t.val ∧ win2_1.index t 1 = 0 :=
  (by decide +kernel : ∀ t : Fin grid2.N, win2_1.index t 0 = t.val ∧ win2_1.index t 1 = 0)
theorem index2_2 : ∀ t : Fin cfg2.N, win2_2.index t 0 = 0 ∧ win2_2.index t 1 = 0 :=
  (by decide +kernel : ∀ t : Fin grid2.N, win2_2.index t 0 = 0 ∧ win2_2.index t 1 = 0)
theorem index2_3 : ∀ t : Fin cfg2.N, win2_3.index t 0 = 0 ∧ win2_3.index t 1 = 0 :=
  (by decide +kernel : ∀ t : Fin grid2.N, win2_3.index t 0 = 0 ∧ win2_3.index t 1 = 0)

theorem blk2_0_apply (c : Dev nD) (t : Fin cfg2.N) (r : Fin 5000) (q : Fin 128) :
    blk2_0 V c t (ix2 r q) = arr2_0 V c (ix2 (Cert.Spec.tileRow ⟨t.val, lt10_2 t⟩ r) q) := by
  have hi := index2_0 t
  unfold blk2_0 iblk2 arr2_0
  rw [View.read_apply]
  show V c main_v24 _ = V c main_v24 _
  congr 1
  funext a
  apply Fin.ext
  match a with
  | ⟨0, _⟩ => show win2_0.index t 0 * 5000 + 1 * r.val = 5000 * t.val + r.val; rw [hi.1]; omega
  | ⟨1, _⟩ => show win2_0.index t 1 * 128 + 1 * q.val = q.val; rw [hi.2]; omega

theorem blk2_1_apply (c : Dev nD) (t : Fin cfg2.N) (r : Fin 5000) :
    blk2_1 V c t (ix2 r 0) = arr2_1 V c (ix2 (Cert.Spec.tileRow ⟨t.val, lt10_2 t⟩ r) 0) := by
  have hi := index2_1 t
  unfold blk2_1 iblk2 arr2_1
  rw [View.read_apply]
  show V c main_v13 _ = V c main_v13 _
  congr 1
  funext a
  apply Fin.ext
  match a with
  | ⟨0, _⟩ => show win2_1.index t 0 * 5000 + 1 * r.val = 5000 * t.val + r.val; rw [hi.1]; omega
  | ⟨1, _⟩ => show win2_1.index t 1 * 1 + 1 * 0 = 0; rw [hi.2]

theorem blk2_2_apply (c : Dev nD) (t : Fin cfg2.N) (q : Fin 128) :
    blk2_2 V c t (ix2 0 q) = arr2_2 V c (ix2 0 q) := by
  have hi := index2_2 t
  unfold blk2_2 iblk2 arr2_2
  rw [View.read_apply]
  show V c main_v30 _ = V c main_v30 _
  congr 1
  funext a
  apply Fin.ext
  match a with
  | ⟨0, _⟩ => show win2_2.index t 0 * 1 + 1 * 0 = 0; rw [hi.1]
  | ⟨1, _⟩ => show win2_2.index t 1 * 128 + 1 * q.val = q.val; rw [hi.2]; omega

theorem blk2_3_apply (c : Dev nD) (t : Fin cfg2.N) (q : Fin 128) :
    blk2_3 V c t (ix2 0 q) = arr2_3 V c (ix2 0 q) := by
  have hi := index2_3 t
  unfold blk2_3 iblk2 arr2_3
  rw [View.read_apply]
  show V c main_v31 _ = V c main_v31 _
  congr 1
  funext a
  apply Fin.ext
  match a with
  | ⟨0, _⟩ => show win2_3.index t 0 * 1 + 1 * 0 = 0; rw [hi.1]
  | ⟨1, _⟩ => show win2_3.index t 1 * 128 + 1 * q.val = q.val; rw [hi.2]; omega

def term2 (c : Dev nD) (q : Fin 128) (n : ℕ) : EReal :=
  if h : n < 10 then
    ∑ r : Fin 5000, (Cert.Spec.postAgg (arr2_0 V c) (arr2_1 V c) (arr2_2 V c) (Cert.Spec.tileRow ⟨n, h⟩ r) q - arr2_3 V c (ix2 0 q))
      * (Cert.Spec.postAgg (arr2_0 V c) (arr2_1 V c) (arr2_2 V c) (Cert.Spec.tileRow ⟨n, h⟩ r) q - arr2_3 V c (ix2 0 q))
  else 0

theorem tile2_eq (c : Dev nD) (t : Fin cfg2.N) (q : Fin 128) :
    tileSq2 (blk2_0 V c t) (blk2_1 V c t) (blk2_2 V c t) (blk2_3 V c t) q = term2 V c q t.val := by
  unfold tileSq2 term2
  rw [dif_pos (lt10_2 t)]
  refine Finset.sum_congr rfl fun r _ => ?_
  rw [blk2_0_apply, blk2_1_apply, blk2_2_apply, blk2_3_apply]
  rfl

theorem scratch2_eq (c : Dev nD) (q : Fin 128) : ∀ (n : ℕ) (hn : n < cfg2.N),
    (outsAt2 V c n hn).2 (ix2 0 q) = ∑ k ∈ Finset.range (n + 1), term2 V c q k
  | 0, hn => by
    rw [outsAt2_A V c ⟨0, hn⟩ rfl (by show ¬(0 : ℕ) = 9; decide)]
    dsimp only
    refine (congrFun (sout2_A_eq (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) _ _ (blk2_0 V c ⟨0, hn⟩) (blk2_1 V c ⟨0, hn⟩) (blk2_2 V c ⟨0, hn⟩) (blk2_3 V c ⟨0, hn⟩)) (ix2 0 q)).trans ?_
    rw [upd2_apply, zero2_apply, zero_add, Finset.sum_range_one]
    exact tile2_eq V c ⟨0, hn⟩ q
  | n + 1, hn => by
    have ih := scratch2_eq c q n (Nat.lt_of_succ_lt hn)
    by_cases h1 : n + 1 = 9
    · rw [outsAt2_C V c ⟨n + 1, hn⟩ (Nat.succ_ne_zero n) h1]
      dsimp only
      refine (congrFun (sout2_C_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) _ _ (blk2_0 V c ⟨n + 1, hn⟩) (blk2_1 V c ⟨n + 1, hn⟩) (blk2_2 V c ⟨n + 1, hn⟩) (blk2_3 V c ⟨n + 1, hn⟩) _) (ix2 0 q)).trans ?_
      rw [upd2_apply, Finset.sum_range_succ _ (n + 1)]
      show (outsAt2 V c n _).2 (ix2 0 q) + _ = _
      rw [ih]
      exact congrArg _ (tile2_eq V c ⟨n + 1, hn⟩ q)
    · rw [outsAt2_B V c ⟨n + 1, hn⟩ (Nat.succ_ne_zero n) h1]
      dsimp only
      refine (congrFun (sout2_B_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) _ _ (blk2_0 V c ⟨n + 1, hn⟩) (blk2_1 V c ⟨n + 1, hn⟩) (blk2_2 V c ⟨n + 1, hn⟩) (blk2_3 V c ⟨n + 1, hn⟩) _) (ix2 0 q)).trans ?_
      rw [upd2_apply, Finset.sum_range_succ _ (n + 1)]
      show (outsAt2 V c n _).2 (ix2 0 q) + _ = _
      rw [ih]
      exact congrArg _ (tile2_eq V c ⟨n + 1, hn⟩ q)

theorem lt9_2 : 9 < cfg2.N := by rw [show cfg2.N = 10 from N_2]; decide

abbrev result2 (c : Dev nD) : Buf (Elt Ideal) ((c : Thread nD τ).loc main_v32) := (outsAt2 V c 9 lt9_2).1

theorem result2_apply (c : Dev nD) (q : Fin 128) :
    (outsAt2 V c 9 lt9_2).1 (ix2 0 q) = ∑ k ∈ Finset.range 10, term2 V c q k := by
  rw [outsAt2_C V c ⟨9, lt9_2⟩ (by show ¬(9 : ℕ) = 0; decide) rfl]
  dsimp only
  refine (congrFun (out2_C_eq (F := Ideal) c (grid2.coords ⟨9, lt9_2⟩) (ms2_0 ⟨9, lt9_2⟩) (hs2_0 ⟨9, lt9_2⟩) (ms2_1 ⟨9, lt9_2⟩) (hs2_1 ⟨9, lt9_2⟩) (ms2_2 ⟨9, lt9_2⟩) (hs2_2 ⟨9, lt9_2⟩) (ms2_3 ⟨9, lt9_2⟩) (hs2_3 ⟨9, lt9_2⟩) (ms2_4 ⟨9, lt9_2⟩) (hs2_4 ⟨9, lt9_2⟩) scM2_0 (Memref.isWhole_whole _) _ _ (blk2_0 V c ⟨9, lt9_2⟩) (blk2_1 V c ⟨9, lt9_2⟩) (blk2_2 V c ⟨9, lt9_2⟩) (blk2_3 V c ⟨9, lt9_2⟩) _) (ix2 0 q)).trans ?_
  rw [upd2_apply, Finset.sum_range_succ _ 9]
  show (outsAt2 V c 8 _).2 (ix2 0 q) + _ = _
  rw [scratch2_eq V c q 8]
  exact congrArg _ (tile2_eq V c ⟨9, lt9_2⟩ q)

theorem flushed2_eq (c : Dev nD) (t : Fin cfg2.N) (hf : (cfg2.win 4).flush t = true) :
    (dat2 V c).flushed 4 t = ((cfg2.win 4).blk t).view.read (Elt Ideal) (result2 V c) := by
  have h9 : t.val = 9 := by have := (flush2_4 t).mp hf; have := lt10_2 t; omega
  obtain rfl : t = t2_9 := Fin.ext h9
  show (cfg2.win 4).cut (grid2.coords t2_9) ((dat2 V c).after 4 t2_9) = _
  rw [after2_4]
  have hz' : (fun a => win2_4.index t2_9 a * main_v32.ty.shape.size a) = fun _ => 0 := funext fun a => by fin_cases a <;> decide
  exact (Memref.read_access_unit_zero (Elt Ideal) main_v32 hz' (fun a => by rw [congrFun hz' a]; simp) (result2 V c)).symm

theorem final2 (c : Dev nD) : (dat2 V c).arrAt 4 cfg2.N = result2 V c :=
  (dat2 V c).arrAt_eq_of_cover 4 (result2 V c) (flushed2_eq V c) fun i =>
    ⟨t2_9, (flush2_4 t2_9).mpr rfl, by
      show i ∈ ((View.whole main_v32).slice (win2_4.rect t2_9)).set
      rw [View.set_slice_whole, Rect.mem_set_unit]
      intro a
      have h0 : (i 0 : Nat) < 1 := (i 0).isLt
      have h1 : (i 1 : Nat) < 128 := (i 1).isLt
      match a with
      | ⟨0, _⟩ => show win2_4.index t2_9 0 * win2_4.size 0 ≤ (i 0 : Nat) ∧ (i 0 : Nat) < win2_4.index t2_9 0 * win2_4.size 0 + win2_4.xsize (grid2.coords t2_9) 0
                  rw [show win2_4.index t2_9 0 * win2_4.size 0 = 0 from by decide +kernel, show win2_4.xsize (grid2.coords t2_9) 0 = 1 from by decide +kernel]; omega
      | ⟨1, _⟩ => show win2_4.index t2_9 1 * win2_4.size 1 ≤ (i 1 : Nat) ∧ (i 1 : Nat) < win2_4.index t2_9 1 * win2_4.size 1 + win2_4.xsize (grid2.coords t2_9) 1
                  rw [show win2_4.index t2_9 1 * win2_4.size 1 = 0 from by decide +kernel, show win2_4.xsize (grid2.coords t2_9) 1 = 128 from by decide +kernel]; omega⟩

theorem val2 (c : Dev nD) :
    (dat2 (F := Ideal) V c).arrAt 4 cfg2.N = Cert.Spec.colSumSq (V c main_v24) (V c main_v13) (V c main_v30) (V c main_v31) := by
  refine (final2 V c).trans ?_
  funext j
  have hj : j = ix2 (0 : Fin 1) (Cert.Spec.colOf j) := by
    refine (eq_ix2 j).trans ?_
    refine congrArg₂ ix2 (Fin.ext ?_) rfl
    have := idx2_lt0 j
    show (j 0).val = 0
    omega
  rw [hj]
  refine (result2_apply V c (Cert.Spec.colOf j)).trans ?_
  unfold Cert.Spec.colSumSq
  refine (Fin.sum_univ_eq_sum_range (term2 V c (Cert.Spec.colOf j)) 10).symm.trans ?_
  refine Finset.sum_congr rfl fun t _ => ?_
  unfold term2
  rw [dif_pos t.isLt]
  rfl

end Cert.KernelIdeal.Hand

end
-- ==== Proof.KI.Val3.lean ====
import proofs.«408734_j33483565039990_3_alg».proof.Proof.KI.Reg3
import proofs.«408734_j33483565039990_3_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.StackMember
import Idealize.ShloMosaic.Lib.KernelVsHost
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem bcastCol3 {α : Type} (x : S5000x1.Idx → α) (h : S5000x1.Broadcasts S5000x128) (p : Fin 5000) (q : Fin 128) :
    broadcastTo S5000x128 x h (ix2 p q) = x (ix2 p 0) :=
  broadcastTo_apply x h (ix2 p q) (ix2 p 0) fun a => by
    match a with
    | ⟨0, _⟩ => rfl
    | ⟨1, _⟩ => rfl

theorem bcastRow3 {α : Type} (x : S1x128.Idx → α) (h : S1x128.Broadcasts S5000x128) (p : Fin 5000) (q : Fin 128) :
    broadcastTo S5000x128 x h (ix2 p q) = x (ix2 0 q) :=
  broadcastTo_apply x h (ix2 p q) (ix2 0 q) fun a => by
    match a with
    | ⟨0, _⟩ => rfl
    | ⟨1, _⟩ => rfl

def bnBlk3 (x0 : S5000x128.Idx → EReal) (x1 : S5000x1.Idx → EReal) (x2 x3 x4 x5 x6 : S1x128.Idx → EReal)
    (p : Fin 5000) (k : Fin 128) : EReal :=
  max ((x0 (ix2 p k) * x1 (ix2 p 0) + x2 (ix2 0 k) - x3 (ix2 0 k)) * x4 (ix2 0 k) * x5 (ix2 0 k) + x6 (ix2 0 k)) 0

theorem k3_pay1_apply (x0 : Vec Ideal S5000x128 .f32) (x1 : Vec Ideal S5000x1 .f32) (x2 x3 x4 x5 x6 : Vec Ideal S1x128 .f32)
    (x7 : Vec Ideal S128x128 .f32) (p : Fin 5000) (q : Fin 128) :
    k3_pay1 (F := Ideal) x0 x1 x2 x3 x4 x5 x6 x7 x1 (ix2 p q)
      = (∑ k : Fin 128, bnBlk3 x0 x1 x2 x3 x4 x5 x6 p k * x7 (ix2 k q)) * x1 (ix2 p 0) := by
  unfold k3_pay1
  simp only [shapeCast_self]
  rw [mulf_apply, bcastCol3]
  have hd : (dot_S5000x128_S128x128_S5000x128_1_0_0_1_n_n : DotDims S5000x128 S128x128 S5000x128) = DotDims.plain 5000 128 128 := rfl
  rw [hd, matmul_zero_eq_dotGeneral, StackMember.dotGeneral_plain_apply]
  congr 1
  refine Finset.sum_congr rfl fun k _ => ?_
  rw [truncf_apply, truncf_apply, maximumf_apply, addf_apply, mulf_apply, mulf_apply, subf_apply, addf_apply, mulf_apply,
    bcastCol3, bcastRow3, bcastRow3, bcastRow3, bcastRow3, bcastRow3, broadcast_apply]
  unfold bnBlk3
  congr 2
  exact Ideal.ofBits_zero_f32

theorem k3_pay1_spec (A0 : Cert.Spec.M2 50000 128) (A1 : Cert.Spec.M2 50000 1) (A2 A3 A4 A5 A6 : Cert.Spec.M2 1 128)
    (A7 : Cert.Spec.M2 128 128)
    (x0 : Vec Ideal S5000x128 .f32) (x1 : Vec Ideal S5000x1 .f32) (x2 x3 x4 x5 x6 : Vec Ideal S1x128 .f32)
    (x7 : Vec Ideal S128x128 .f32) (r : Fin 50000) (p : Fin 5000) (q : Fin 128)
    (h0 : ∀ k : Fin 128, x0 (ix2 p k) = A0 (ix2 r k)) (h1 : x1 (ix2 p 0) = A1 (ix2 r 0))
    (h2 : ∀ k : Fin 128, x2 (ix2 0 k) = A2 (ix2 0 k)) (h3 : ∀ k : Fin 128, x3 (ix2 0 k) = A3 (ix2 0 k))
    (h4 : ∀ k : Fin 128, x4 (ix2 0 k) = A4 (ix2 0 k)) (h5 : ∀ k : Fin 128, x5 (ix2 0 k) = A5 (ix2 0 k))
    (h6 : ∀ k : Fin 128, x6 (ix2 0 k) = A6 (ix2 0 k)) (h7 : ∀ k q : Fin 128, x7 (ix2 k q) = A7 (ix2 k q)) :
    k3_pay1 (F := Ideal) x0 x1 x2 x3 x4 x5 x6 x7 x1 (ix2 p q) = Cert.Spec.bnReluMatmul A0 A1 A2 A3 A4 A5 A6 A7 (ix2 r q) := by
  rw [k3_pay1_apply]
  unfold bnBlk3 Cert.Spec.bnReluMatmul Cert.Spec.bnRelu Cert.Spec.postAgg
  simp only [Cert.Spec.rowOf_ix2, Cert.Spec.colOf_ix2]
  rw [h1]
  congr 1
  exact Finset.sum_congr rfl fun k _ => by rw [h0 k, h2 k, h3 k, h4 k, h5 k, h6 k, h7 k q]

variable (V : (c : Dev nD) → (b : Ref sig .tc) → Buf (Elt Ideal) ((c : Thread nD τ).loc b))

theorem hz3 : (![0, 0] : Fin 2 → Nat) = fun _ => 0 := funext fun a => by fin_cases a <;> rfl

theorem idx_facts3 : ∀ t : Fin cfg3.N,
    win3_0.index t (0 : Fin 2) = t.val
    ∧ win3_0.index t (1 : Fin 2) = 0
    ∧ win3_1.index t (0 : Fin 2) = t.val
    ∧ win3_1.index t (1 : Fin 2) = 0
    ∧ win3_8.index t (0 : Fin 2) = t.val
    ∧ win3_8.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0 :=
  (by decide +kernel : ∀ t : Fin grid3.N, _)

theorem lt_N3 (t : Fin cfg3.N) : t.val < 10 := lt_of_lt_of_eq t.isLt N_3

theorem iblk3_0_apply (c : Dev nD) (t : Fin cfg3.N) (p : Fin 5000) (k : Fin 128) (r : Fin 50000) (hr : r.val = 5000 * t.val + p.val) :
    (iblk3 V c 0 t : Vec Ideal S5000x128 .f32) (ix2 p k) = (V c main_v24 : Cert.Spec.M2 50000 128) (ix2 r k) := by
  obtain ⟨e0a, e0b, e1a, e1b, e8a, e8b, e2a, e2b, e3a, e3b, e4a, e4b, e5a, e5b, e6a, e6b, e7a, e7b⟩ := idx_facts3 t
  unfold iblk3
  rw [View.read_apply]
  show V c main_v24 _ = V c main_v24 _
  congr 1
  funext a
  apply Fin.ext
  match a with
  | ⟨0, _⟩ => show win3_0.index t (0 : Fin 2) * 5000 + 1 * p.val = r.val; rw [e0a, hr]; omega
  | ⟨1, _⟩ => show win3_0.index t (1 : Fin 2) * 128 + 1 * k.val = k.val; rw [e0b]; omega

theorem iblk3_1_apply (c : Dev nD) (t : Fin cfg3.N) (p : Fin 5000) (r : Fin 50000) (hr : r.val = 5000 * t.val + p.val) :
    (iblk3 V c 1 t : Vec Ideal S5000x1 .f32) (ix2 p 0) = (V c main_v13 : Cert.Spec.M2 50000 1) (ix2 r 0) := by
  obtain ⟨e0a, e0b, e1a, e1b, e8a, e8b, e2a, e2b, e3a, e3b, e4a, e4b, e5a, e5b, e6a, e6b, e7a, e7b⟩ := idx_facts3 t
  unfold iblk3
  rw [View.read_apply]
  show V c main_v13 _ = V c main_v13 _
  congr 1
  funext a
  apply Fin.ext
  match a with
  | ⟨0, _⟩ => show win3_1.index t (0 : Fin 2) * 5000 + 1 * p.val = r.val; rw [e1a, hr]; omega
  | ⟨1, _⟩ => show win3_1.index t (1 : Fin 2) * 1 + 1 * 0 = 0; rw [e1b]

theorem iblk3_2_apply (c : Dev nD) (t : Fin cfg3.N) (k : Fin 128) :
    (iblk3 V c 2 t : Vec Ideal S1x128 .f32) (ix2 0 k) = (V c main_v39 : Cert.Spec.M2 1 128) (ix2 0 k) := by
  obtain ⟨e0a, e0b, e1a, e1b, e8a, e8b, e2a, e2b, e3a, e3b, e4a, e4b, e5a, e5b, e6a, e6b, e7a, e7b⟩ := idx_facts3 t
  unfold iblk3
  rw [View.read_apply]
  show V c main_v39 _ = V c main_v39 _
  congr 1
  funext a
  apply Fin.ext
  match a with
  | ⟨0, _⟩ => show win3_2.index t (0 : Fin 2) * 1 + 1 * 0 = 0; rw [e2a]
  | ⟨1, _⟩ => show win3_2.index t (1 : Fin 2) * 128 + 1 * k.val = k.val; rw [e2b]; omega

theorem iblk3_3_apply (c : Dev nD) (t : Fin cfg3.N) (k : Fin 128) :
    (iblk3 V c 3 t : Vec Ideal S1x128 .f32) (ix2 0 k) = (V c main_v40 : Cert.Spec.M2 1 128) (ix2 0 k) := by
  obtain ⟨e0a, e0b, e1a, e1b, e8a, e8b, e2a, e2b, e3a, e3b, e4a, e4b, e5a, e5b, e6a, e6b, e7a, e7b⟩ := idx_facts3 t
  unfold iblk3
  rw [View.read_apply]
  show V c main_v40 _ = V c main_v40 _
  congr 1
  funext a
  apply Fin.ext
  match a with
  | ⟨0, _⟩ => show win3_3.index t (0 : Fin 2) * 1 + 1 * 0 = 0; rw [e3a]
  | ⟨1, _⟩ => show win3_3.index t (1 : Fin 2) * 128 + 1 * k.val = k.val; rw [e3b]; omega

theorem iblk3_4_apply (c : Dev nD) (t : Fin cfg3.N) (k : Fin 128) :
    (iblk3 V c 4 t : Vec Ideal S1x128 .f32) (ix2 0 k) = (V c main_v41 : Cert.Spec.M2 1 128) (ix2 0 k) := by
  obtain ⟨e0a, e0b, e1a, e1b, e8a, e8b, e2a, e2b, e3a, e3b, e4a, e4b, e5a, e5b, e6a, e6b, e7a, e7b⟩ := idx_facts3 t
  unfold iblk3
  rw [View.read_apply]
  show V c main_v41 _ = V c main_v41 _
  congr 1
  funext a
  apply Fin.ext
  match a with
  | ⟨0, _⟩ => show win3_4.index t (0 : Fin 2) * 1 + 1 * 0 = 0; rw [e4a]
  | ⟨1, _⟩ => show win3_4.index t (1 : Fin 2) * 128 + 1 * k.val = k.val; rw [e4b]; omega

theorem iblk3_5_apply (c : Dev nD) (t : Fin cfg3.N) (k : Fin 128) :
    (iblk3 V c 5 t : Vec Ideal S1x128 .f32) (ix2 0 k) = (V c main_v42 : Cert.Spec.M2 1 128) (ix2 0 k) := by
  obtain ⟨e0a, e0b, e1a, e1b, e8a, e8b, e2a, e2b, e3a, e3b, e4a, e4b, e5a, e5b, e6a, e6b, e7a, e7b⟩ := idx_facts3 t
  unfold iblk3
  rw [View.read_apply]
  show V c main_v42 _ = V c main_v42 _
  congr 1
  funext a
  apply Fin.ext
  match a with
  | ⟨0, _⟩ => show win3_5.index t (0 : Fin 2) * 1 + 1 * 0 = 0; rw [e5a]
  | ⟨1, _⟩ => show win3_5.index t (1 : Fin 2) * 128 + 1 * k.val = k.val; rw [e5b]; omega

theorem iblk3_6_apply (c : Dev nD) (t : Fin cfg3.N) (k : Fin 128) :
    (iblk3 V c 6 t : Vec Ideal S1x128 .f32) (ix2 0 k) = (V c main_v43 : Cert.Spec.M2 1 128) (ix2 0 k) := by
  obtain ⟨e0a, e0b, e1a, e1b, e8a, e8b, e2a, e2b, e3a, e3b, e4a, e4b, e5a, e5b, e6a, e6b, e7a, e7b⟩ := idx_facts3 t
  unfold iblk3
  rw [View.read_apply]
  show V c main_v43 _ = V c main_v43 _
  congr 1
  funext a
  apply Fin.ext
  match a with
  | ⟨0, _⟩ => show win3_6.index t (0 : Fin 2) * 1 + 1 * 0 = 0; rw [e6a]
  | ⟨1, _⟩ => show win3_6.index t (1 : Fin 2) * 128 + 1 * k.val = k.val; rw [e6b]; omega

theorem iblk3_7_apply (c : Dev nD) (t : Fin cfg3.N) (k q : Fin 128) :
    (iblk3 V c 7 t : Vec Ideal S128x128 .f32) (ix2 k q) = (V c main_arg6 : Cert.Spec.M2 128 128) (ix2 k q) := by
  obtain ⟨e0a, e0b, e1a, e1b, e8a, e8b, e2a, e2b, e3a, e3b, e4a, e4b, e5a, e5b, e6a, e6b, e7a, e7b⟩ := idx_facts3 t
  unfold iblk3
  rw [View.read_apply]
  show V c main_arg6 _ = V c main_arg6 _
  congr 1
  funext a
  apply Fin.ext
  match a with
  | ⟨0, _⟩ => show win3_7.index t (0 : Fin 2) * 128 + 1 * k.val = k.val; rw [e7a]; omega
  | ⟨1, _⟩ => show win3_7.index t (1 : Fin 2) * 128 + 1 * q.val = q.val; rw [e7b]; omega

abbrev G3 (c : Dev nD) : Cert.Spec.M2 50000 128 :=
  Cert.Spec.bnReluMatmul (V c main_v24) (V c main_v13) (V c main_v39) (V c main_v40) (V c main_v41) (V c main_v42) (V c main_v43) (V c main_arg6)

set_option maxHeartbeats 1000000 in

theorem flushed3_8_eq (c : Dev nD) (t : Fin cfg3.N) :
    (dat3 (F := Ideal) V c).flushed 8 t = ((cfg3.win 8).blk t).view.read (Elt Ideal) (G3 V c) := by
  show (cfg3.win 8).cut (grid3.coords t) ((dat3 (F := Ideal) V c).after 8 t) = _
  rw [after3_8]
  unfold out3_8
  rw [View.canon_unit_zero hz3]
  simp only [View.ld_unit_zero (S := S5000x128) hz3, View.ld_unit_zero (S := S5000x1) hz3, View.ld_unit_zero (S := S1x128) hz3,
    View.ld_unit_zero (S := S128x128) hz3]
  funext j
  obtain ⟨p, q, rfl⟩ : ∃ (p : Fin 5000) (q : Fin 128), j = ix2 p q := ⟨j 0, j 1, eq_ix2 j⟩
  have ht := lt_N3 t
  obtain ⟨e0a, e0b, e1a, e1b, e8a, e8b, e2a, e2b, e3a, e3b, e4a, e4b, e5a, e5b, e6a, e6b, e7a, e7b⟩ := idx_facts3 t
  have hemb : ((cfg3.win 8).blk t).view.emb (ix2 p q) = (ix2 (⟨5000 * t.val + p.val, by omega⟩ : Fin 50000) q : S50000x128.Idx) := by
    funext a
    apply Fin.ext
    match a with
    | ⟨0, _⟩ => show win3_8.index t (0 : Fin 2) * 5000 + 1 * p.val = 5000 * t.val + p.val; rw [e8a]; omega
    | ⟨1, _⟩ => show win3_8.index t (1 : Fin 2) * 128 + 1 * q.val = q.val; rw [e8b]; omega
  rw [View.read_apply, hemb]
  exact k3_pay1_spec (V c main_v24) (V c main_v13) (V c main_v39) (V c main_v40) (V c main_v41) (V c main_v42) (V c main_v43) (V c main_arg6)
    (iblk3 V c 0 t) (iblk3 V c 1 t) (iblk3 V c 2 t) (iblk3 V c 3 t) (iblk3 V c 4 t) (iblk3 V c 5 t) (iblk3 V c 6 t) (iblk3 V c 7 t)
    ⟨5000 * t.val + p.val, by omega⟩ p q
    (fun k => iblk3_0_apply V c t p k _ rfl) (iblk3_1_apply V c t p _ rfl)
    (fun k => iblk3_2_apply V c t k) (fun k => iblk3_3_apply V c t k) (fun k => iblk3_4_apply V c t k)
    (fun k => iblk3_5_apply V c t k) (fun k => iblk3_6_apply V c t k) (fun k q => iblk3_7_apply V c t k q)

set_option maxHeartbeats 1000000 in

theorem val3 (c : Dev nD) :
    (dat3 (F := Ideal) V c).arrAt 8 cfg3.N = Cert.Spec.bnReluMatmul (V c main_v24) (V c main_v13) (V c main_v39) (V c main_v40) (V c main_v41) (V c main_v42) (V c main_v43) (V c main_arg6) :=
  (dat3 (F := Ideal) V c).arrAt_eq_of_cover 8 (G3 V c) (fun t _ => flushed3_8_eq V c t) fun i => by
    obtain ⟨i0, i1, rfl⟩ : ∃ (i0 : Fin 50000) (i1 : Fin 128), i = (ix2 i0 i1 : S50000x128.Idx) := ⟨i 0, i 1, eq_ix2 i⟩
    have hi0 : i0.val < 50000 := i0.isLt
    have hi1 : i1.val < 128 := i1.isLt
    have hT : i0.val / 5000 < cfg3.N := by rw [show cfg3.N = 10 from N_3]; omega
    obtain ⟨e0a, e0b, e1a, e1b, e8a, e8b, -⟩ := idx_facts3 ⟨i0.val / 5000, hT⟩
    refine ⟨⟨i0.val / 5000, hT⟩, flush3_8 _, ?_⟩
    show (ix2 i0 i1 : S50000x128.Idx) ∈ ((View.whole main_v44).slice (win3_8.rect ⟨i0.val / 5000, hT⟩)).set
    rw [View.set_slice_whole, Rect.mem_set_unit]
    intro a
    match a with
    | ⟨0, _⟩ =>
      show win3_8.index ⟨i0.val / 5000, hT⟩ (0 : Fin 2) * 5000 ≤ i0.val ∧ i0.val < win3_8.index ⟨i0.val / 5000, hT⟩ (0 : Fin 2) * 5000 + 5000
      rw [e8a]
      show i0.val / 5000 * 5000 ≤ i0.val ∧ i0.val < i0.val / 5000 * 5000 + 5000
      omega
    | ⟨1, _⟩ =>
      show win3_8.index ⟨i0.val / 5000, hT⟩ (1 : Fin 2) * 128 ≤ i1.val ∧ i1.val < win3_8.index ⟨i0.val / 5000, hT⟩ (1 : Fin 2) * 128 + 128
      rw [e8b]
      omega

end Cert.KernelIdeal.Hand

end
-- ==== Proof.KI.Val4.lean ====
import proofs.«408734_j33483565039990_3_alg».proof.Proof.KI.Reg4
import proofs.«408734_j33483565039990_3_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Pieces

theorem hz4 : (![0, 0] : Fin 2 → Nat) = fun _ => 0 := funext fun a => by fin_cases a <;> rfl

theorem sout4_B_0_eq (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond4_0 i) (hc1 : ¬cond4_1 i)
    (x0 : Vec F S5000x128 .f32) (x1 : Vec F S5000x1 .f32) (x2 : Vec F S1x128 .f32) (xs0 : Vec F S1x128 .f32) :
    sout4_B_0 c i arg1 harg1 arg2 harg2 arg3 harg3 arg4 harg4 arg5 harg5 hc0 hc1 x0 x1 x2 xs0 = k4_pay2 x0 x1 x2 xs0 := by
  unfold sout4_B_0
  rw [View.read_writes_eq_canon _ _ _ (scover4_B_0 c i arg1 harg1 arg2 harg2 arg3 harg3 arg4 harg4 arg5 harg5 hc0 hc1 x0 x1 x2 xs0)]
  unfold kernelRun4_B
  dsimp only
  sl_unfold_words
  rw [View.canon_unit_zero hz4]
  simp only [View.readAt_eq_ld, harg1.read_unread, harg2.read_unread, harg3.read_unread, harg5.read_unread, View.ld_unit_zero (S := S5000x128) hz4, View.ld_unit_zero (S := S5000x1) hz4, View.ld_unit_zero (S := S1x128) hz4, View.readCov_unit_zero (S := S1x128) _ hz4]

theorem sout4_A_0_eq (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond4_0 i) (hc1 : ¬cond4_1 i)
    (x0 : Vec F S5000x128 .f32) (x1 : Vec F S5000x1 .f32) (x2 : Vec F S1x128 .f32) :
    sout4_A_0 c i arg1 harg1 arg2 harg2 arg3 harg3 arg4 harg4 arg5 harg5 hc0 hc1 x0 x1 x2 = k4_pay2 x0 x1 x2 k4_pay1 := by
  unfold sout4_A_0
  rw [View.read_writes_eq_canon _ _ _ (scover4_A_0 c i arg1 harg1 arg2 harg2 arg3 harg3 arg4 harg4 arg5 harg5 hc0 hc1 x0 x1 x2)]
  unfold kernelRun4_A
  dsimp only
  sl_unfold_words
  rw [View.canon_cons_unit_zero (S := S1x128) hz4]
  simp only [View.readAt_eq_ld, harg1.read_unread, harg2.read_unread, harg3.read_unread, View.ld_unit_zero (S := S5000x128) hz4, View.ld_unit_zero (S := S5000x1) hz4, View.ld_unit_zero (S := S1x128) hz4, View.readCov_unit_zero (S := S1x128) _ hz4]

theorem sout4_C_0_eq (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond4_0 i) (hc1 : cond4_1 i)
    (x0 : Vec F S5000x128 .f32) (x1 : Vec F S5000x1 .f32) (x2 : Vec F S1x128 .f32) (xs0 : Vec F S1x128 .f32) :
    sout4_C_0 c i arg1 harg1 arg2 harg2 arg3 harg3 arg4 harg4 arg5 harg5 hc0 hc1 x0 x1 x2 xs0 = k4_pay2 x0 x1 x2 xs0 := by
  unfold sout4_C_0
  rw [View.read_writes_eq_canon _ _ _ (scover4_C_0 c i arg1 harg1 arg2 harg2 arg3 harg3 arg4 harg4 arg5 harg5 hc0 hc1 x0 x1 x2 xs0)]
  unfold kernelRun4_C
  dsimp only
  sl_unfold_words
  rw [View.canon_unit_zero hz4]
  simp only [View.readAt_eq_ld, harg1.read_unread, harg2.read_unread, harg3.read_unread, harg5.read_unread, View.ld_unit_zero (S := S5000x128) hz4, View.ld_unit_zero (S := S5000x1) hz4, View.ld_unit_zero (S := S1x128) hz4, View.readCov_unit_zero (S := S1x128) _ hz4]

theorem out4_C_3_eq (c : Dev nD) (i : grid4.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond4_0 i) (hc1 : cond4_1 i)
    (x0 : Vec F S5000x128 .f32) (x1 : Vec F S5000x1 .f32) (x2 : Vec F S1x128 .f32) (xs0 : Vec F S1x128 .f32) :
    out4_C_3 c i arg1 harg1 arg2 harg2 arg3 harg3 arg4 harg4 arg5 harg5 hc0 hc1 x0 x1 x2 xs0 = k4_pay2 x0 x1 x2 xs0 := by
  unfold out4_C_3
  rw [View.read_writes_eq_canon _ _ _ (cover4_C_3 c i arg1 harg1 arg2 harg2 arg3 harg3 arg4 harg4 arg5 harg5 hc0 hc1 x0 x1 x2 xs0)]
  unfold kernelRun4_C
  dsimp only
  sl_unfold_words
  rw [View.canon_unit_zero hz4]
  simp only [View.readAt_eq_ld, harg1.read_unread, harg2.read_unread, harg3.read_unread, harg5.read_unread, View.ld_unit_zero (S := S5000x128) hz4, View.ld_unit_zero (S := S5000x1) hz4, View.ld_unit_zero (S := S1x128) hz4, View.readCov_unit_zero (S := S1x128) _ hz4]

end Pieces

section Payloads

open Idealize.ShloMosaic.ValueIdx
open scoped BigOperators

theorem colBroadcast4_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

def tileSum4 (v3 : Vec Ideal S5000x128 .f32) (v5 : Vec Ideal S5000x1 .f32) (v9 : Vec Ideal S1x128 .f32) (q : Fin 128) : EReal :=
  ∑ r : Fin 5000, (v3 (ix2 r q) * v5 (ix2 r (0 : Fin 1)) + v9 (ix2 (0 : Fin 1) q))

theorem k4_pay2_apply (v3 : Vec Ideal S5000x128 .f32) (v5 : Vec Ideal S5000x1 .f32) (v9 v13 : Vec Ideal S1x128 .f32) (q : Fin 128) :
    k4_pay2 (F := Ideal) v3 v5 v9 v13 (ix2 (0 : Fin 1) q) = v13 (ix2 (0 : Fin 1) q) + tileSum4 v3 v5 v9 q := by
  unfold k4_pay2 tileSum4
  refine (congrFun (shapeCast_self _ _) _).trans ?_
  refine congrArg (fun z => v13 (ix2 (0 : Fin 1) q) + z) ?_
  refine (shapeCast_a_1a_apply _ _ (0 : Fin 1) q).trans ?_
  refine (Ideal.multiReduction_add_single _ _ _ _ _ (ix1 q)).trans ?_
  refine Finset.sum_congr rfl fun r _ => ?_
  have hl : reduces_S5000x128_S128.lift (ix1 q) r = ix2 (n0 := 5000) (n1 := 128) r q := by
    funext a; match a with | ⟨0, _⟩ => rfl | ⟨1, _⟩ => rfl
  rw [hl]
  show shapeCast S5000x128 v3 _ (ix2 r q) * broadcastTo S5000x128 (shapeCast S5000x1 v5 _) _ (ix2 r q)
      + broadcastTo S5000x128 (shapeCast S1x128 v9 _) _ (ix2 r q) = _
  rw [shapeCast_self, shapeCast_self, shapeCast_self]
  exact congrArg₂ (· + ·)
    (congrArg (v3 (ix2 r q) * ·) (colBroadcast4_apply (a := 5000) (b := 128) v5 broadcasts_S5000x1_S5000x128 r q))
    (broadcastTo_1b_ab_apply (a := 5000) (b := 128) v9 broadcasts_S1x128_S5000x128 r q)

theorem k4_pay1_apply (q : Fin 128) : k4_pay1 (F := Ideal) (ix2 (0 : Fin 1) q) = 0 := by
  unfold k4_pay1
  refine (congrFun (shapeCast_self _ _) _).trans ?_
  exact Ideal.ofBits_zero_f32

end Payloads

section Blocks

open Idealize.ShloMosaic.ValueIdx

variable (V : (c : Dev nD) → (b : Ref sig .tc) → Buf (Elt Ideal) ((c : Thread nD τ).loc b))

theorem idx4_0 : ∀ t : Fin grid4.N, win4_0.index t 0 = t.val ∧ win4_0.index t 1 = 0 := by decide +kernel
theorem idx4_1 : ∀ t : Fin grid4.N, win4_1.index t 0 = t.val ∧ win4_1.index t 1 = 0 := by decide +kernel
theorem idx4_2 : ∀ t : Fin grid4.N, win4_2.index t 0 = 0 ∧ win4_2.index t 1 = 0 := by decide +kernel
theorem idx4_3 : ∀ t : Fin grid4.N, win4_3.index t 0 = 0 ∧ win4_3.index t 1 = 0 := by decide +kernel

def tileOf4 (t : Fin cfg4.N) : Fin 10 := ⟨t.val, lt_of_lt_of_eq t.isLt N_4⟩

theorem iblk4_0_apply (c : Dev nD) (t : Fin cfg4.N) (r : Fin 5000) (q : Fin 128) :
    (iblk4 V c 0 t : Vec Ideal S5000x128 .f32) (ix2 r q)
      = (V c main_v54 : Cert.Spec.M2 50000 128) (ix2 (Cert.Spec.tileRow (tileOf4 t) r) q) := by
  unfold iblk4
  rw [View.read_apply]
  show V c main_v54 _ = V c main_v54 _
  congr 1
  funext a; apply Fin.ext
  match a with
  | ⟨0, _⟩ => show win4_0.index t 0 * 5000 + 1 * r.val = 5000 * t.val + r.val; rw [(idx4_0 t).1]; omega
  | ⟨1, _⟩ => show win4_0.index t 1 * 128 + 1 * q.val = q.val; rw [(idx4_0 t).2]; omega

theorem iblk4_1_apply (c : Dev nD) (t : Fin cfg4.N) (r : Fin 5000) :
    (iblk4 V c 1 t : Vec Ideal S5000x1 .f32) (ix2 r (0 : Fin 1))
      = (V c main_v13 : Cert.Spec.M2 50000 1) (ix2 (Cert.Spec.tileRow (tileOf4 t) r) (0 : Fin 1)) := by
  unfold iblk4
  rw [View.read_apply]
  show V c main_v13 _ = V c main_v13 _
  congr 1
  funext a; apply Fin.ext
  match a with
  | ⟨0, _⟩ => show win4_1.index t 0 * 5000 + 1 * r.val = 5000 * t.val + r.val; rw [(idx4_1 t).1]; omega
  | ⟨1, _⟩ => show win4_1.index t 1 * 1 + 1 * 0 = 0; rw [(idx4_1 t).2]

theorem iblk4_2_apply (c : Dev nD) (t : Fin cfg4.N) (q : Fin 128) :
    (iblk4 V c 2 t : Vec Ideal S1x128 .f32) (ix2 (0 : Fin 1) q)
      = (V c main_v55 : Cert.Spec.M2 1 128) (ix2 (0 : Fin 1) q) := by
  unfold iblk4
  rw [View.read_apply]
  show V c main_v55 _ = V c main_v55 _
  congr 1
  funext a; apply Fin.ext
  match a with
  | ⟨0, _⟩ => show win4_2.index t 0 * 1 + 1 * 0 = 0; rw [(idx4_2 t).1]
  | ⟨1, _⟩ => show win4_2.index t 1 * 128 + 1 * q.val = q.val; rw [(idx4_2 t).2]; omega

end Blocks

section Value

open Idealize.ShloMosaic.ValueIdx
open scoped BigOperators

variable (V : (c : Dev nD) → (b : Ref sig .tc) → Buf (Elt Ideal) ((c : Thread nD τ).loc b))

def tile4 (c : Dev nD) (t : Fin cfg4.N) (q : Fin 128) : EReal :=
  tileSum4 (iblk4 V c 0 t) (iblk4 V c 1 t) (iblk4 V c 2 t) q

theorem tile4_eq (c : Dev nD) (t : Fin cfg4.N) (q : Fin 128) :
    tile4 V c t q = ∑ r : Fin 5000, Cert.Spec.postAgg (V c main_v54) (V c main_v13) (V c main_v55) (Cert.Spec.tileRow (tileOf4 t) r) q := by
  unfold tile4 tileSum4 Cert.Spec.postAgg
  refine Finset.sum_congr rfl fun r _ => ?_
  rw [iblk4_0_apply, iblk4_1_apply, iblk4_2_apply]

def part4 (c : Dev nD) (q : Fin 128) (n : ℕ) : EReal :=
  ∑ k ∈ Finset.range n, (if h : k < cfg4.N then tile4 V c ⟨k, h⟩ q else 0)

theorem scratch4_eq (c : Dev nD) (q : Fin 128) : ∀ (n : ℕ) (hn : n < cfg4.N),
    (outsAt4 V c n hn).2 (ix2 (0 : Fin 1) q) = part4 V c q (n + 1)
  | 0, hn => by
    rw [outsAt4_A V c ⟨0, hn⟩ rfl (show ¬(0 : ℕ) = 9 by decide)]
    dsimp only
    rw [sout4_A_0_eq]
    refine (k4_pay2_apply _ _ _ _ q).trans ?_
    rw [k4_pay1_apply, zero_add]
    unfold part4
    rw [Finset.sum_range_one, dif_pos hn]
    rfl
  | n + 1, hn => by
    have ih := scratch4_eq c q n (Nat.lt_of_succ_lt hn)
    by_cases h1 : n + 1 = 9
    · rw [outsAt4_C V c ⟨n + 1, hn⟩ (Nat.succ_ne_zero n) h1]
      dsimp only
      rw [sout4_C_0_eq]
      refine (k4_pay2_apply _ _ _ _ q).trans ?_
      unfold part4 at ih ⊢
      rw [Finset.sum_range_succ _ (n + 1), dif_pos hn]
      exact congrArg₂ (· + ·) ih rfl
    · rw [outsAt4_B V c ⟨n + 1, hn⟩ (Nat.succ_ne_zero n) h1]
      dsimp only
      rw [sout4_B_0_eq]
      refine (k4_pay2_apply _ _ _ _ q).trans ?_
      unfold part4 at ih ⊢
      rw [Finset.sum_range_succ _ (n + 1), dif_pos hn]
      exact congrArg₂ (· + ·) ih rfl

end Value

section Final

open Idealize.ShloMosaic.ValueIdx
open scoped BigOperators

variable (V : (c : Dev nD) → (b : Ref sig .tc) → Buf (Elt Ideal) ((c : Thread nD τ).loc b))

theorem last4 : 9 < cfg4.N := by rw [show cfg4.N = 10 from N_4]; decide

theorem part4_all (c : Dev nD) (q : Fin 128) :
    part4 V c q 10 = Cert.Spec.colSum (V c main_v54) (V c main_v13) (V c main_v55) (ix2 (0 : Fin 1) q) := by
  unfold part4 Cert.Spec.colSum
  rw [← Fin.sum_univ_eq_sum_range (fun k => if h : k < cfg4.N then tile4 V c ⟨k, h⟩ q else 0) 10]
  refine Finset.sum_congr rfl fun t _ => ?_
  rw [dif_pos (show t.val < cfg4.N from lt_of_lt_of_eq t.isLt N_4.symm), tile4_eq]
  rfl

theorem out4_last (c : Dev nD) (q : Fin 128) : (outsAt4 V c 9 last4).1 (ix2 (0 : Fin 1) q) = part4 V c q 10 := by
  rw [outsAt4_C V c ⟨9, last4⟩ (show ¬(9 : ℕ) = 0 by decide) rfl]
  dsimp only
  rw [out4_C_3_eq]
  refine (k4_pay2_apply _ _ _ _ q).trans ?_
  have ih := scratch4_eq V c q 8 (Nat.lt_of_succ_lt last4)
  unfold part4 at ih ⊢
  rw [Finset.sum_range_succ _ 9, dif_pos last4]
  exact congrArg₂ (· + ·) ih rfl

abbrev res4 (c : Dev nD) : Buf (Elt Ideal) ((c : Thread nD τ).loc main_v56) :=
  Cert.Spec.colSum (V c main_v54) (V c main_v13) (V c main_v55)

theorem outs4_last_eq (c : Dev nD) : (outsAt4 V c 9 last4).1 = res4 V c := by
  funext j
  have hj : j = ix2 (0 : Fin 1) (j 1) :=
    (eq_ix2 j).trans (congrArg (fun u : Fin 1 => ix2 u (j 1)) (Subsingleton.elim _ _))
  rw [hj]
  exact (out4_last V c (j 1)).trans (part4_all V c (j 1))

theorem flushed4_eq (c : Dev nD) (t : Fin cfg4.N) (hf : (cfg4.win 3).flush t = true) :
    (dat4 V c).flushed 3 t = ((cfg4.win 3).blk t).view.read (Elt Ideal) (res4 V c) := by
  have hN : cfg4.N = 10 := N_4
  have h9 : t.val = 9 := by have := (flush4_3 t).mp hf; have := t.isLt; omega
  obtain rfl : t = t4_9 := Fin.ext h9
  show (cfg4.win 3).cut (grid4.coords t4_9) ((dat4 V c).after 3 t4_9) = _
  rw [after4_3]
  have hz' : (fun a => win4_3.index t4_9 a * main_v56.ty.shape.size a) = fun _ => 0 := funext fun a => by fin_cases a <;> decide
  refine Eq.trans ?_ (Memref.read_access_unit_zero (Elt Ideal) main_v56 hz' (fun a => by rw [congrFun hz' a]; simp) (res4 V c)).symm
  exact outs4_last_eq V c

theorem val4 (c : Dev nD) :
    (dat4 (F := Ideal) V c).arrAt 3 cfg4.N = Cert.Spec.colSum (V c main_v54) (V c main_v13) (V c main_v55) :=
  (dat4 V c).arrAt_eq_of_cover 3 (res4 V c) (flushed4_eq V c) fun i =>
    ⟨t4_9, (flush4_3 t4_9).mpr rfl, by
      show i ∈ ((View.whole main_v56).slice (win4_3.rect t4_9)).set
      rw [View.set_slice_whole, Rect.mem_set_unit]
      intro a
      have hlo : win4_3.index t4_9 a * win4_3.size a = 0 := by fin_cases a <;> decide +kernel
      have hsz : win4_3.xsize (grid4.coords t4_9) a = S1x128.size a := by fin_cases a <;> decide +kernel
      show win4_3.index t4_9 a * win4_3.size a ≤ (i a : ℕ) ∧ (i a : ℕ) < win4_3.index t4_9 a * win4_3.size a + win4_3.xsize (grid4.coords t4_9) a
      rw [hlo, hsz, Nat.zero_add]
      exact ⟨Nat.zero_le _, (i a).isLt⟩⟩

end Final

end Cert.KernelIdeal.Hand

end
-- ==== Proof.KI.Val5.lean ====
import proofs.«408734_j33483565039990_3_alg».proof.Proof.KI.Reg5
import proofs.«408734_j33483565039990_3_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueLayout
import Idealize.ShloMosaic.Lib.ValueIdxCoords
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

section Pieces

variable {F : FTy → Type} [FloatOps F]

theorem hz5 : (![0, 0] : Fin 2 → Nat) = fun _ => 0 := funext fun a => by fin_cases a <;> rfl

theorem sout5_B_eq (c : Dev nD) (i : grid5.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond5_0 i) (hc1 : ¬cond5_1 i)
    (x0 : Vec F S5000x128 .f32) (x1 : Vec F S5000x1 .f32) (x2 : Vec F S1x128 .f32) (x3 : Vec F S1x128 .f32) (xs0 : Vec F S1x128 .f32) :
    sout5_B_0 c i arg1 harg1 arg2 harg2 arg3 harg3 arg4 harg4 arg5 harg5 arg6 harg6 hc0 hc1 x0 x1 x2 x3 xs0 = k5_pay2 x0 x1 x2 x3 xs0 := by
  unfold sout5_B_0
  rw [View.read_writes_eq_canon _ _ _ (scover5_B_0 c i arg1 harg1 arg2 harg2 arg3 harg3 arg4 harg4 arg5 harg5 arg6 harg6 hc0 hc1 x0 x1 x2 x3 xs0)]
  unfold kernelRun5_B
  dsimp only
  sl_unfold_words
  rw [View.canon_unit_zero hz5]
  simp only [View.readAt_eq_ld, harg1.read_unread, harg2.read_unread, harg3.read_unread, harg4.read_unread, harg5.read_unread, harg6.read_unread, View.ld_unit_zero (S := S5000x128) hz5, View.ld_unit_zero (S := S5000x1) hz5, View.ld_unit_zero (S := S1x128) hz5, View.readCov_unit_zero (S := S1x128) _ hz5]

theorem sout5_C_eq (c : Dev nD) (i : grid5.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond5_0 i) (hc1 : cond5_1 i)
    (x0 : Vec F S5000x128 .f32) (x1 : Vec F S5000x1 .f32) (x2 : Vec F S1x128 .f32) (x3 : Vec F S1x128 .f32) (xs0 : Vec F S1x128 .f32) :
    sout5_C_0 c i arg1 harg1 arg2 harg2 arg3 harg3 arg4 harg4 arg5 harg5 arg6 harg6 hc0 hc1 x0 x1 x2 x3 xs0 = k5_pay2 x0 x1 x2 x3 xs0 := by
  unfold sout5_C_0
  rw [View.read_writes_eq_canon _ _ _ (scover5_C_0 c i arg1 harg1 arg2 harg2 arg3 harg3 arg4 harg4 arg5 harg5 arg6 harg6 hc0 hc1 x0 x1 x2 x3 xs0)]
  unfold kernelRun5_C
  dsimp only
  sl_unfold_words
  rw [View.canon_unit_zero hz5]
  simp only [View.readAt_eq_ld, harg1.read_unread, harg2.read_unread, harg3.read_unread, harg4.read_unread, harg5.read_unread, harg6.read_unread, View.ld_unit_zero (S := S5000x128) hz5, View.ld_unit_zero (S := S5000x1) hz5, View.ld_unit_zero (S := S1x128) hz5, View.readCov_unit_zero (S := S1x128) _ hz5]

theorem out5_C_eq (c : Dev nD) (i : grid5.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond5_0 i) (hc1 : cond5_1 i)
    (x0 : Vec F S5000x128 .f32) (x1 : Vec F S5000x1 .f32) (x2 : Vec F S1x128 .f32) (x3 : Vec F S1x128 .f32) (xs0 : Vec F S1x128 .f32) :
    out5_C_4 c i arg1 harg1 arg2 harg2 arg3 harg3 arg4 harg4 arg5 harg5 arg6 harg6 hc0 hc1 x0 x1 x2 x3 xs0 = k5_pay2 x0 x1 x2 x3 xs0 := by
  unfold out5_C_4
  rw [View.read_writes_eq_canon _ _ _ (cover5_C_4 c i arg1 harg1 arg2 harg2 arg3 harg3 arg4 harg4 arg5 harg5 arg6 harg6 hc0 hc1 x0 x1 x2 x3 xs0)]
  unfold kernelRun5_C
  dsimp only
  sl_unfold_words
  rw [View.canon_unit_zero hz5]
  simp only [View.readAt_eq_ld, harg1.read_unread, harg2.read_unread, harg3.read_unread, harg4.read_unread, harg5.read_unread, harg6.read_unread, View.ld_unit_zero (S := S5000x128) hz5, View.ld_unit_zero (S := S5000x1) hz5, View.ld_unit_zero (S := S1x128) hz5, View.readCov_unit_zero (S := S1x128) _ hz5]

theorem sout5_A_eq (c : Dev nD) (i : grid5.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond5_0 i) (hc1 : ¬cond5_1 i)
    (x0 : Vec F S5000x128 .f32) (x1 : Vec F S5000x1 .f32) (x2 : Vec F S1x128 .f32) (x3 : Vec F S1x128 .f32) :
    sout5_A_0 c i arg1 harg1 arg2 harg2 arg3 harg3 arg4 harg4 arg5 harg5 arg6 harg6 hc0 hc1 x0 x1 x2 x3 = k5_pay2 x0 x1 x2 x3 (k5_pay1 (F := F)) := by
  unfold sout5_A_0
  rw [View.read_writes_eq_canon _ _ _ (scover5_A_0 c i arg1 harg1 arg2 harg2 arg3 harg3 arg4 harg4 arg5 harg5 arg6 harg6 hc0 hc1 x0 x1 x2 x3)]
  unfold kernelRun5_A
  dsimp only
  sl_unfold_words
  rw [View.canon_cons_unit_zero (S := S1x128) hz5, View.readCov_unit_zero (S := S1x128) _ hz5]
  simp only [View.readAt_eq_ld, harg1.read_unread, harg2.read_unread, harg3.read_unread, harg4.read_unread, harg5.read_unread, harg6.read_unread, View.ld_unit_zero (S := S5000x128) hz5, View.ld_unit_zero (S := S5000x1) hz5, View.ld_unit_zero (S := S1x128) hz5, View.readCov_unit_zero (S := S1x128) _ hz5]

end Pieces

theorem bcastCol5_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

def tileSq5 (x0 : Vec Ideal S5000x128 .f32) (x1 : Vec Ideal S5000x1 .f32) (x2 x3 : Vec Ideal S1x128 .f32) (q : Fin 128) : EReal :=
  ∑ r : Fin 5000, (x0 (ix2 r q) * x1 (ix2 r 0) + x2 (ix2 0 q) - x3 (ix2 0 q)) * (x0 (ix2 r q) * x1 (ix2 r 0) + x2 (ix2 0 q) - x3 (ix2 0 q))

theorem lift5_eq (h : Shape.Reduces S5000x128 [0] S128) (q : Fin 128) (r : Fin 5000) :
    h.lift (ix1 q) r = (ix2 r q : S5000x128.Idx) := by
  funext a
  match a with
  | ⟨0, _⟩ => rfl
  | ⟨1, _⟩ => rfl

theorem upd5_apply (x0 : Vec Ideal S5000x128 .f32) (x1 : Vec Ideal S5000x1 .f32) (x2 x3 acc : Vec Ideal S1x128 .f32) (q : Fin 128) :
    k5_pay2 (F := Ideal) x0 x1 x2 x3 acc (ix2 0 q) = acc (ix2 0 q) + tileSq5 x0 x1 x2 x3 q := by
  unfold k5_pay2
  dsimp only
  refine (congrFun (shapeCast_self _ _) (ix2 0 q)).trans ?_
  refine (addf_apply _ _ _).trans ?_
  refine congrArg (acc (ix2 0 q) + ·) ?_
  refine (shapeCast_a_1a_apply _ _ 0 q).trans ?_
  refine (Ideal.multiReduction_add_single _ _ _ _ _ (ix1 q)).trans ?_
  unfold tileSq5
  refine Finset.sum_congr rfl fun (r : Fin 5000) _ => ?_
  rw [lift5_eq reduces_S5000x128_S128 q r]
  simp only [mulf_apply, addf_apply, subf_apply, shapeCast_self, bcastCol5_apply, broadcastTo_1b_ab_apply]

theorem zero5_apply (j : S1x128.Idx) : k5_pay1 (F := Ideal) j = 0 := by
  unfold k5_pay1
  refine (congrFun (shapeCast_self _ _) j).trans ?_
  exact Ideal.ofBits_zero_f32

variable (V : (c : Dev nD) → (b : Ref sig .tc) → Buf (Elt Ideal) ((c : Thread nD τ).loc b))

abbrev blk5_0 (c : Dev nD) (t : Fin cfg5.N) : Vec Ideal S5000x128 .f32 := iblk5 V c 0 t
abbrev blk5_1 (c : Dev nD) (t : Fin cfg5.N) : Vec Ideal S5000x1 .f32 := iblk5 V c 1 t
abbrev blk5_2 (c : Dev nD) (t : Fin cfg5.N) : Vec Ideal S1x128 .f32 := iblk5 V c 2 t
abbrev blk5_3 (c : Dev nD) (t : Fin cfg5.N) : Vec Ideal S1x128 .f32 := iblk5 V c 3 t
abbrev arr5_0 (c : Dev nD) : Cert.Spec.M2 50000 128 := V c main_v54
abbrev arr5_1 (c : Dev nD) : Cert.Spec.M2 50000 1 := V c main_v13
abbrev arr5_2 (c : Dev nD) : Cert.Spec.M2 1 128 := V c main_v60
abbrev arr5_3 (c : Dev nD) : Cert.Spec.M2 1 128 := V c main_v61

theorem lt10_5 (t : Fin cfg5.N) : t.val < 10 := lt_of_lt_of_eq t.isLt N_5

theorem index5_0 : ∀ t : Fin cfg5.N, win5_0.index t 0 = t.val ∧ win5_0.index t 1 = 0 :=
  (by decide +kernel : ∀ t : Fin grid5.N, win5_0.index t 0 = t.val ∧ win5_0.index t 1 = 0)
theorem index5_1 : ∀ t : Fin cfg5.N, win5_1.index t 0 = t.val ∧ win5_1.index t 1 = 0 :=
  (by decide +kernel : ∀ t : Fin grid5.N, win5_1.index t 0 = t.val ∧ win5_1.index t 1 = 0)
theorem index5_2 : ∀ t : Fin cfg5.N, win5_2.index t 0 = 0 ∧ win5_2.index t 1 = 0 :=
  (by decide +kernel : ∀ t : Fin grid5.N, win5_2.index t 0 = 0 ∧ win5_2.index t 1 = 0)
theorem index5_3 : ∀ t : Fin cfg5.N, win5_3.index t 0 = 0 ∧ win5_3.index t 1 = 0 :=
  (by decide +kernel : ∀ t : Fin grid5.N, win5_3.index t 0 = 0 ∧ win5_3.index t 1 = 0)

theorem blk5_0_apply (c : Dev nD) (t : Fin cfg5.N) (r : Fin 5000) (q : Fin 128) :
    blk5_0 V c t (ix2 r q) = arr5_0 V c (ix2 (Cert.Spec.tileRow ⟨t.val, lt10_5 t⟩ r) q) := by
  have hi := index5_0 t
  unfold blk5_0 iblk5 arr5_0
  rw [View.read_apply]
  show V c main_v54 _ = V c main_v54 _
  congr 1
  funext a
  apply Fin.ext
  match a with
  | ⟨0, _⟩ => show win5_0.index t 0 * 5000 + 1 * r.val = 5000 * t.val + r.val; rw [hi.1]; omega
  | ⟨1, _⟩ => show win5_0.index t 1 * 128 + 1 * q.val = q.val; rw [hi.2]; omega

theorem blk5_1_apply (c : Dev nD) (t : Fin cfg5.N) (r : Fin 5000) :
    blk5_1 V c t (ix2 r 0) = arr5_1 V c (ix2 (Cert.Spec.tileRow ⟨t.val, lt10_5 t⟩ r) 0) := by
  have hi := index5_1 t
  unfold blk5_1 iblk5 arr5_1
  rw [View.read_apply]
  show V c main_v13 _ = V c main_v13 _
  congr 1
  funext a
  apply Fin.ext
  match a with
  | ⟨0, _⟩ => show win5_1.index t 0 * 5000 + 1 * r.val = 5000 * t.val + r.val; rw [hi.1]; omega
  | ⟨1, _⟩ => show win5_1.index t 1 * 1 + 1 * 0 = 0; rw [hi.2]

theorem blk5_2_apply (c : Dev nD) (t : Fin cfg5.N) (q : Fin 128) :
    blk5_2 V c t (ix2 0 q) = arr5_2 V c (ix2 0 q) := by
  have hi := index5_2 t
  unfold blk5_2 iblk5 arr5_2
  rw [View.read_apply]
  show V c main_v60 _ = V c main_v60 _
  congr 1
  funext a
  apply Fin.ext
  match a with
  | ⟨0, _⟩ => show win5_2.index t 0 * 1 + 1 * 0 = 0; rw [hi.1]
  | ⟨1, _⟩ => show win5_2.index t 1 * 128 + 1 * q.val = q.val; rw [hi.2]; omega

theorem blk5_3_apply (c : Dev nD) (t : Fin cfg5.N) (q : Fin 128) :
    blk5_3 V c t (ix2 0 q) = arr5_3 V c (ix2 0 q) := by
  have hi := index5_3 t
  unfold blk5_3 iblk5 arr5_3
  rw [View.read_apply]
  show V c main_v61 _ = V c main_v61 _
  congr 1
  funext a
  apply Fin.ext
  match a with
  | ⟨0, _⟩ => show win5_3.index t 0 * 1 + 1 * 0 = 0; rw [hi.1]
  | ⟨1, _⟩ => show win5_3.index t 1 * 128 + 1 * q.val = q.val; rw [hi.2]; omega

def term5 (c : Dev nD) (q : Fin 128) (n : ℕ) : EReal :=
  if h : n < 10 then
    ∑ r : Fin 5000, (Cert.Spec.postAgg (arr5_0 V c) (arr5_1 V c) (arr5_2 V c) (Cert.Spec.tileRow ⟨n, h⟩ r) q - arr5_3 V c (ix2 0 q))
      * (Cert.Spec.postAgg (arr5_0 V c) (arr5_1 V c) (arr5_2 V c) (Cert.Spec.tileRow ⟨n, h⟩ r) q - arr5_3 V c (ix2 0 q))
  else 0

theorem tile5_eq (c : Dev nD) (t : Fin cfg5.N) (q : Fin 128) :
    tileSq5 (blk5_0 V c t) (blk5_1 V c t) (blk5_2 V c t) (blk5_3 V c t) q = term5 V c q t.val := by
  unfold tileSq5 term5
  rw [dif_pos (lt10_5 t)]
  refine Finset.sum_congr rfl fun r _ => ?_
  rw [blk5_0_apply, blk5_1_apply, blk5_2_apply, blk5_3_apply]
  rfl

theorem scratch5_eq (c : Dev nD) (q : Fin 128) : ∀ (n : ℕ) (hn : n < cfg5.N),
    (outsAt5 V c n hn).2 (ix2 0 q) = ∑ k ∈ Finset.range (n + 1), term5 V c q k
  | 0, hn => by
    rw [outsAt5_A V c ⟨0, hn⟩ rfl (by show ¬(0 : ℕ) = 9; decide)]
    dsimp only
    refine (congrFun (sout5_A_eq (F := Ideal) c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) scM5_0 (Memref.isWhole_whole _) _ _ (blk5_0 V c ⟨0, hn⟩) (blk5_1 V c ⟨0, hn⟩) (blk5_2 V c ⟨0, hn⟩) (blk5_3 V c ⟨0, hn⟩)) (ix2 0 q)).trans ?_
    rw [upd5_apply, zero5_apply, zero_add, Finset.sum_range_one]
    exact tile5_eq V c ⟨0, hn⟩ q
  | n + 1, hn => by
    have ih := scratch5_eq c q n (Nat.lt_of_succ_lt hn)
    by_cases h1 : n + 1 = 9
    · rw [outsAt5_C V c ⟨n + 1, hn⟩ (Nat.succ_ne_zero n) h1]
      dsimp only
      refine (congrFun (sout5_C_eq (F := Ideal) c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) _ _ (blk5_0 V c ⟨n + 1, hn⟩) (blk5_1 V c ⟨n + 1, hn⟩) (blk5_2 V c ⟨n + 1, hn⟩) (blk5_3 V c ⟨n + 1, hn⟩) _) (ix2 0 q)).trans ?_
      rw [upd5_apply, Finset.sum_range_succ _ (n + 1)]
      show (outsAt5 V c n _).2 (ix2 0 q) + _ = _
      rw [ih]
      exact congrArg _ (tile5_eq V c ⟨n + 1, hn⟩ q)
    · rw [outsAt5_B V c ⟨n + 1, hn⟩ (Nat.succ_ne_zero n) h1]
      dsimp only
      refine (congrFun (sout5_B_eq (F := Ideal) c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) _ _ (blk5_0 V c ⟨n + 1, hn⟩) (blk5_1 V c ⟨n + 1, hn⟩) (blk5_2 V c ⟨n + 1, hn⟩) (blk5_3 V c ⟨n + 1, hn⟩) _) (ix2 0 q)).trans ?_
      rw [upd5_apply, Finset.sum_range_succ _ (n + 1)]
      show (outsAt5 V c n _).2 (ix2 0 q) + _ = _
      rw [ih]
      exact congrArg _ (tile5_eq V c ⟨n + 1, hn⟩ q)

theorem lt9_5 : 9 < cfg5.N := by rw [show cfg5.N = 10 from N_5]; decide

abbrev result5 (c : Dev nD) : Buf (Elt Ideal) ((c : Thread nD τ).loc main_v62) := (outsAt5 V c 9 lt9_5).1

theorem result5_apply (c : Dev nD) (q : Fin 128) :
    (outsAt5 V c 9 lt9_5).1 (ix2 0 q) = ∑ k ∈ Finset.range 10, term5 V c q k := by
  rw [outsAt5_C V c ⟨9, lt9_5⟩ (by show ¬(9 : ℕ) = 0; decide) rfl]
  dsimp only
  refine (congrFun (out5_C_eq (F := Ideal) c (grid5.coords ⟨9, lt9_5⟩) (ms5_0 ⟨9, lt9_5⟩) (hs5_0 ⟨9, lt9_5⟩) (ms5_1 ⟨9, lt9_5⟩) (hs5_1 ⟨9, lt9_5⟩) (ms5_2 ⟨9, lt9_5⟩) (hs5_2 ⟨9, lt9_5⟩) (ms5_3 ⟨9, lt9_5⟩) (hs5_3 ⟨9, lt9_5⟩) (ms5_4 ⟨9, lt9_5⟩) (hs5_4 ⟨9, lt9_5⟩) scM5_0 (Memref.isWhole_whole _) _ _ (blk5_0 V c ⟨9, lt9_5⟩) (blk5_1 V c ⟨9, lt9_5⟩) (blk5_2 V c ⟨9, lt9_5⟩) (blk5_3 V c ⟨9, lt9_5⟩) _) (ix2 0 q)).trans ?_
  rw [upd5_apply, Finset.sum_range_succ _ 9]
  show (outsAt5 V c 8 _).2 (ix2 0 q) + _ = _
  rw [scratch5_eq V c q 8]
  exact congrArg _ (tile5_eq V c ⟨9, lt9_5⟩ q)

theorem flushed5_eq (c : Dev nD) (t : Fin cfg5.N) (hf : (cfg5.win 4).flush t = true) :
    (dat5 V c).flushed 4 t = ((cfg5.win 4).blk t).view.read (Elt Ideal) (result5 V c) := by
  have h9 : t.val = 9 := by have := (flush5_4 t).mp hf; have := lt10_5 t; omega
  obtain rfl : t = t5_9 := Fin.ext h9
  show (cfg5.win 4).cut (grid5.coords t5_9) ((dat5 V c).after 4 t5_9) = _
  rw [after5_4]
  have hz' : (fun a => win5_4.index t5_9 a * main_v62.ty.shape.size a) = fun _ => 0 := funext fun a => by fin_cases a <;> decide
  exact (Memref.read_access_unit_zero (Elt Ideal) main_v62 hz' (fun a => by rw [congrFun hz' a]; simp) (result5 V c)).symm

theorem final5 (c : Dev nD) : (dat5 V c).arrAt 4 cfg5.N = result5 V c :=
  (dat5 V c).arrAt_eq_of_cover 4 (result5 V c) (flushed5_eq V c) fun i =>
    ⟨t5_9, (flush5_4 t5_9).mpr rfl, by
      show i ∈ ((View.whole main_v62).slice (win5_4.rect t5_9)).set
      rw [View.set_slice_whole, Rect.mem_set_unit]
      intro a
      have h0 : (i 0 : Nat) < 1 := (i 0).isLt
      have h1 : (i 1 : Nat) < 128 := (i 1).isLt
      match a with
      | ⟨0, _⟩ => show win5_4.index t5_9 0 * win5_4.size 0 ≤ (i 0 : Nat) ∧ (i 0 : Nat) < win5_4.index t5_9 0 * win5_4.size 0 + win5_4.xsize (grid5.coords t5_9) 0
                  rw [show win5_4.index t5_9 0 * win5_4.size 0 = 0 from by decide +kernel, show win5_4.xsize (grid5.coords t5_9) 0 = 1 from by decide +kernel]; omega
      | ⟨1, _⟩ => show win5_4.index t5_9 1 * win5_4.size 1 ≤ (i 1 : Nat) ∧ (i 1 : Nat) < win5_4.index t5_9 1 * win5_4.size 1 + win5_4.xsize (grid5.coords t5_9) 1
                  rw [show win5_4.index t5_9 1 * win5_4.size 1 = 0 from by decide +kernel, show win5_4.xsize (grid5.coords t5_9) 1 = 128 from by decide +kernel]; omega⟩

theorem val5 (c : Dev nD) :
    (dat5 (F := Ideal) V c).arrAt 4 cfg5.N = Cert.Spec.colSumSq (V c main_v54) (V c main_v13) (V c main_v60) (V c main_v61) := by
  refine (final5 V c).trans ?_
  funext j
  have hj : j = ix2 (0 : Fin 1) (Cert.Spec.colOf j) := by
    refine (eq_ix2 j).trans ?_
    refine congrArg₂ ix2 (Fin.ext ?_) rfl
    have := idx2_lt0 j
    show (j 0).val = 0
    omega
  rw [hj]
  refine (result5_apply V c (Cert.Spec.colOf j)).trans ?_
  unfold Cert.Spec.colSumSq
  refine (Fin.sum_univ_eq_sum_range (term5 V c (Cert.Spec.colOf j)) 10).symm.trans ?_
  refine Finset.sum_congr rfl fun t _ => ?_
  unfold term5
  rw [dif_pos t.isLt]
  rfl

end Cert.KernelIdeal.Hand

end
-- ==== Proof.KI.Val6.lean ====
import proofs.«408734_j33483565039990_3_alg».proof.Proof.KI.Reg6
import proofs.«408734_j33483565039990_3_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.StackMember
import Idealize.ShloMosaic.Lib.KernelVsHost
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem bcastCol6 {α : Type} (x : S5000x1.Idx → α) (h : S5000x1.Broadcasts S5000x128) (p : Fin 5000) (q : Fin 128) :
    broadcastTo S5000x128 x h (ix2 p q) = x (ix2 p 0) :=
  broadcastTo_apply x h (ix2 p q) (ix2 p 0) fun a => by
    match a with
    | ⟨0, _⟩ => rfl
    | ⟨1, _⟩ => rfl

theorem bcastRow6 {α : Type} (x : S1x128.Idx → α) (h : S1x128.Broadcasts S5000x128) (p : Fin 5000) (q : Fin 128) :
    broadcastTo S5000x128 x h (ix2 p q) = x (ix2 0 q) :=
  broadcastTo_apply x h (ix2 p q) (ix2 0 q) fun a => by
    match a with
    | ⟨0, _⟩ => rfl
    | ⟨1, _⟩ => rfl

def bnBlk6 (x0 : S5000x128.Idx → EReal) (x1 : S5000x1.Idx → EReal) (x2 x3 x4 x5 x6 : S1x128.Idx → EReal)
    (p : Fin 5000) (k : Fin 128) : EReal :=
  max ((x0 (ix2 p k) * x1 (ix2 p 0) + x2 (ix2 0 k) - x3 (ix2 0 k)) * x4 (ix2 0 k) * x5 (ix2 0 k) + x6 (ix2 0 k)) 0

theorem k6_pay1_apply (x0 : Vec Ideal S5000x128 .f32) (x1 : Vec Ideal S5000x1 .f32) (x2 x3 x4 x5 x6 : Vec Ideal S1x128 .f32)
    (x7 : Vec Ideal S128x128 .f32) (p : Fin 5000) (q : Fin 128) :
    k6_pay1 (F := Ideal) x0 x1 x2 x3 x4 x5 x6 x7 x1 (ix2 p q)
      = (∑ k : Fin 128, bnBlk6 x0 x1 x2 x3 x4 x5 x6 p k * x7 (ix2 k q)) * x1 (ix2 p 0) := by
  unfold k6_pay1
  simp only [shapeCast_self]
  rw [mulf_apply, bcastCol6]
  have hd : (dot_S5000x128_S128x128_S5000x128_1_0_0_1_n_n : DotDims S5000x128 S128x128 S5000x128) = DotDims.plain 5000 128 128 := rfl
  rw [hd, matmul_zero_eq_dotGeneral, StackMember.dotGeneral_plain_apply]
  congr 1
  refine Finset.sum_congr rfl fun k _ => ?_
  rw [truncf_apply, truncf_apply, maximumf_apply, addf_apply, mulf_apply, mulf_apply, subf_apply, addf_apply, mulf_apply,
    bcastCol6, bcastRow6, bcastRow6, bcastRow6, bcastRow6, bcastRow6, broadcast_apply]
  unfold bnBlk6
  congr 2
  exact Ideal.ofBits_zero_f32

theorem k6_pay1_spec (A0 : Cert.Spec.M2 50000 128) (A1 : Cert.Spec.M2 50000 1) (A2 A3 A4 A5 A6 : Cert.Spec.M2 1 128)
    (A7 : Cert.Spec.M2 128 128)
    (x0 : Vec Ideal S5000x128 .f32) (x1 : Vec Ideal S5000x1 .f32) (x2 x3 x4 x5 x6 : Vec Ideal S1x128 .f32)
    (x7 : Vec Ideal S128x128 .f32) (r : Fin 50000) (p : Fin 5000) (q : Fin 128)
    (h0 : ∀ k : Fin 128, x0 (ix2 p k) = A0 (ix2 r k)) (h1 : x1 (ix2 p 0) = A1 (ix2 r 0))
    (h2 : ∀ k : Fin 128, x2 (ix2 0 k) = A2 (ix2 0 k)) (h3 : ∀ k : Fin 128, x3 (ix2 0 k) = A3 (ix2 0 k))
    (h4 : ∀ k : Fin 128, x4 (ix2 0 k) = A4 (ix2 0 k)) (h5 : ∀ k : Fin 128, x5 (ix2 0 k) = A5 (ix2 0 k))
    (h6 : ∀ k : Fin 128, x6 (ix2 0 k) = A6 (ix2 0 k)) (h7 : ∀ k q : Fin 128, x7 (ix2 k q) = A7 (ix2 k q)) :
    k6_pay1 (F := Ideal) x0 x1 x2 x3 x4 x5 x6 x7 x1 (ix2 p q) = Cert.Spec.bnReluMatmul A0 A1 A2 A3 A4 A5 A6 A7 (ix2 r q) := by
  rw [k6_pay1_apply]
  unfold bnBlk6 Cert.Spec.bnReluMatmul Cert.Spec.bnRelu Cert.Spec.postAgg
  simp only [Cert.Spec.rowOf_ix2, Cert.Spec.colOf_ix2]
  rw [h1]
  congr 1
  exact Finset.sum_congr rfl fun k _ => by rw [h0 k, h2 k, h3 k, h4 k, h5 k, h6 k, h7 k q]

variable (V : (c : Dev nD) → (b : Ref sig .tc) → Buf (Elt Ideal) ((c : Thread nD τ).loc b))

theorem hz6 : (![0, 0] : Fin 2 → Nat) = fun _ => 0 := funext fun a => by fin_cases a <;> rfl

theorem idx_facts6 : ∀ t : Fin cfg6.N,
    win6_0.index t (0 : Fin 2) = t.val
    ∧ win6_0.index t (1 : Fin 2) = 0
    ∧ win6_1.index t (0 : Fin 2) = t.val
    ∧ win6_1.index t (1 : Fin 2) = 0
    ∧ win6_8.index t (0 : Fin 2) = t.val
    ∧ win6_8.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (0 : Fin 2) = 0
    ∧ win6_5.index t (1 : Fin 2) = 0
    ∧ win6_6.index t (0 : Fin 2) = 0
    ∧ win6_6.index t (1 : Fin 2) = 0
    ∧ win6_7.index t (0 : Fin 2) = 0
    ∧ win6_7.index t (1 : Fin 2) = 0 :=
  (by decide +kernel : ∀ t : Fin grid6.N, _)

theorem lt_N6 (t : Fin cfg6.N) : t.val < 10 := lt_of_lt_of_eq t.isLt N_6

theorem iblk6_0_apply (c : Dev nD) (t : Fin cfg6.N) (p : Fin 5000) (k : Fin 128) (r : Fin 50000) (hr : r.val = 5000 * t.val + p.val) :
    (iblk6 V c 0 t : Vec Ideal S5000x128 .f32) (ix2 p k) = (V c main_v54 : Cert.Spec.M2 50000 128) (ix2 r k) := by
  obtain ⟨e0a, e0b, e1a, e1b, e8a, e8b, e2a, e2b, e3a, e3b, e4a, e4b, e5a, e5b, e6a, e6b, e7a, e7b⟩ := idx_facts6 t
  unfold iblk6
  rw [View.read_apply]
  show V c main_v54 _ = V c main_v54 _
  congr 1
  funext a
  apply Fin.ext
  match a with
  | ⟨0, _⟩ => show win6_0.index t (0 : Fin 2) * 5000 + 1 * p.val = r.val; rw [e0a, hr]; omega
  | ⟨1, _⟩ => show win6_0.index t (1 : Fin 2) * 128 + 1 * k.val = k.val; rw [e0b]; omega

theorem iblk6_1_apply (c : Dev nD) (t : Fin cfg6.N) (p : Fin 5000) (r : Fin 50000) (hr : r.val = 5000 * t.val + p.val) :
    (iblk6 V c 1 t : Vec Ideal S5000x1 .f32) (ix2 p 0) = (V c main_v13 : Cert.Spec.M2 50000 1) (ix2 r 0) := by
  obtain ⟨e0a, e0b, e1a, e1b, e8a, e8b, e2a, e2b, e3a, e3b, e4a, e4b, e5a, e5b, e6a, e6b, e7a, e7b⟩ := idx_facts6 t
  unfold iblk6
  rw [View.read_apply]
  show V c main_v13 _ = V c main_v13 _
  congr 1
  funext a
  apply Fin.ext
  match a with
  | ⟨0, _⟩ => show win6_1.index t (0 : Fin 2) * 5000 + 1 * p.val = r.val; rw [e1a, hr]; omega
  | ⟨1, _⟩ => show win6_1.index t (1 : Fin 2) * 1 + 1 * 0 = 0; rw [e1b]

theorem iblk6_2_apply (c : Dev nD) (t : Fin cfg6.N) (k : Fin 128) :
    (iblk6 V c 2 t : Vec Ideal S1x128 .f32) (ix2 0 k) = (V c main_v69 : Cert.Spec.M2 1 128) (ix2 0 k) := by
  obtain ⟨e0a, e0b, e1a, e1b, e8a, e8b, e2a, e2b, e3a, e3b, e4a, e4b, e5a, e5b, e6a, e6b, e7a, e7b⟩ := idx_facts6 t
  unfold iblk6
  rw [View.read_apply]
  show V c main_v69 _ = V c main_v69 _
  congr 1
  funext a
  apply Fin.ext
  match a with
  | ⟨0, _⟩ => show win6_2.index t (0 : Fin 2) * 1 + 1 * 0 = 0; rw [e2a]
  | ⟨1, _⟩ => show win6_2.index t (1 : Fin 2) * 128 + 1 * k.val = k.val; rw [e2b]; omega

theorem iblk6_3_apply (c : Dev nD) (t : Fin cfg6.N) (k : Fin 128) :
    (iblk6 V c 3 t : Vec Ideal S1x128 .f32) (ix2 0 k) = (V c main_v70 : Cert.Spec.M2 1 128) (ix2 0 k) := by
  obtain ⟨e0a, e0b, e1a, e1b, e8a, e8b, e2a, e2b, e3a, e3b, e4a, e4b, e5a, e5b, e6a, e6b, e7a, e7b⟩ := idx_facts6 t
  unfold iblk6
  rw [View.read_apply]
  show V c main_v70 _ = V c main_v70 _
  congr 1
  funext a
  apply Fin.ext
  match a with
  | ⟨0, _⟩ => show win6_3.index t (0 : Fin 2) * 1 + 1 * 0 = 0; rw [e3a]
  | ⟨1, _⟩ => show win6_3.index t (1 : Fin 2) * 128 + 1 * k.val = k.val; rw [e3b]; omega

theorem iblk6_4_apply (c : Dev nD) (t : Fin cfg6.N) (k : Fin 128) :
    (iblk6 V c 4 t : Vec Ideal S1x128 .f32) (ix2 0 k) = (V c main_v71 : Cert.Spec.M2 1 128) (ix2 0 k) := by
  obtain ⟨e0a, e0b, e1a, e1b, e8a, e8b, e2a, e2b, e3a, e3b, e4a, e4b, e5a, e5b, e6a, e6b, e7a, e7b⟩ := idx_facts6 t
  unfold iblk6
  rw [View.read_apply]
  show V c main_v71 _ = V c main_v71 _
  congr 1
  funext a
  apply Fin.ext
  match a with
  | ⟨0, _⟩ => show win6_4.index t (0 : Fin 2) * 1 + 1 * 0 = 0; rw [e4a]
  | ⟨1, _⟩ => show win6_4.index t (1 : Fin 2) * 128 + 1 * k.val = k.val; rw [e4b]; omega

theorem iblk6_5_apply (c : Dev nD) (t : Fin cfg6.N) (k : Fin 128) :
    (iblk6 V c 5 t : Vec Ideal S1x128 .f32) (ix2 0 k) = (V c main_v72 : Cert.Spec.M2 1 128) (ix2 0 k) := by
  obtain ⟨e0a, e0b, e1a, e1b, e8a, e8b, e2a, e2b, e3a, e3b, e4a, e4b, e5a, e5b, e6a, e6b, e7a, e7b⟩ := idx_facts6 t
  unfold iblk6
  rw [View.read_apply]
  show V c main_v72 _ = V c main_v72 _
  congr 1
  funext a
  apply Fin.ext
  match a with
  | ⟨0, _⟩ => show win6_5.index t (0 : Fin 2) * 1 + 1 * 0 = 0; rw [e5a]
  | ⟨1, _⟩ => show win6_5.index t (1 : Fin 2) * 128 + 1 * k.val = k.val; rw [e5b]; omega

theorem iblk6_6_apply (c : Dev nD) (t : Fin cfg6.N) (k : Fin 128) :
    (iblk6 V c 6 t : Vec Ideal S1x128 .f32) (ix2 0 k) = (V c main_v73 : Cert.Spec.M2 1 128) (ix2 0 k) := by
  obtain ⟨e0a, e0b, e1a, e1b, e8a, e8b, e2a, e2b, e3a, e3b, e4a, e4b, e5a, e5b, e6a, e6b, e7a, e7b⟩ := idx_facts6 t
  unfold iblk6
  rw [View.read_apply]
  show V c main_v73 _ = V c main_v73 _
  congr 1
  funext a
  apply Fin.ext
  match a with
  | ⟨0, _⟩ => show win6_6.index t (0 : Fin 2) * 1 + 1 * 0 = 0; rw [e6a]
  | ⟨1, _⟩ => show win6_6.index t (1 : Fin 2) * 128 + 1 * k.val = k.val; rw [e6b]; omega

theorem iblk6_7_apply (c : Dev nD) (t : Fin cfg6.N) (k q : Fin 128) :
    (iblk6 V c 7 t : Vec Ideal S128x128 .f32) (ix2 k q) = (V c main_arg10 : Cert.Spec.M2 128 128) (ix2 k q) := by
  obtain ⟨e0a, e0b, e1a, e1b, e8a, e8b, e2a, e2b, e3a, e3b, e4a, e4b, e5a, e5b, e6a, e6b, e7a, e7b⟩ := idx_facts6 t
  unfold iblk6
  rw [View.read_apply]
  show V c main_arg10 _ = V c main_arg10 _
  congr 1
  funext a
  apply Fin.ext
  match a with
  | ⟨0, _⟩ => show win6_7.index t (0 : Fin 2) * 128 + 1 * k.val = k.val; rw [e7a]; omega
  | ⟨1, _⟩ => show win6_7.index t (1 : Fin 2) * 128 + 1 * q.val = q.val; rw [e7b]; omega

abbrev G6 (c : Dev nD) : Cert.Spec.M2 50000 128 :=
  Cert.Spec.bnReluMatmul (V c main_v54) (V c main_v13) (V c main_v69) (V c main_v70) (V c main_v71) (V c main_v72) (V c main_v73) (V c main_arg10)

set_option maxHeartbeats 1000000 in

theorem flushed6_8_eq (c : Dev nD) (t : Fin cfg6.N) :
    (dat6 (F := Ideal) V c).flushed 8 t = ((cfg6.win 8).blk t).view.read (Elt Ideal) (G6 V c) := by
  show (cfg6.win 8).cut (grid6.coords t) ((dat6 (F := Ideal) V c).after 8 t) = _
  rw [after6_8]
  unfold out6_8
  rw [View.canon_unit_zero hz6]
  simp only [View.ld_unit_zero (S := S5000x128) hz6, View.ld_unit_zero (S := S5000x1) hz6, View.ld_unit_zero (S := S1x128) hz6,
    View.ld_unit_zero (S := S128x128) hz6]
  funext j
  obtain ⟨p, q, rfl⟩ : ∃ (p : Fin 5000) (q : Fin 128), j = ix2 p q := ⟨j 0, j 1, eq_ix2 j⟩
  have ht := lt_N6 t
  obtain ⟨e0a, e0b, e1a, e1b, e8a, e8b, e2a, e2b, e3a, e3b, e4a, e4b, e5a, e5b, e6a, e6b, e7a, e7b⟩ := idx_facts6 t
  have hemb : ((cfg6.win 8).blk t).view.emb (ix2 p q) = (ix2 (⟨5000 * t.val + p.val, by omega⟩ : Fin 50000) q : S50000x128.Idx) := by
    funext a
    apply Fin.ext
    match a with
    | ⟨0, _⟩ => show win6_8.index t (0 : Fin 2) * 5000 + 1 * p.val = 5000 * t.val + p.val; rw [e8a]; omega
    | ⟨1, _⟩ => show win6_8.index t (1 : Fin 2) * 128 + 1 * q.val = q.val; rw [e8b]; omega
  rw [View.read_apply, hemb]
  exact k6_pay1_spec (V c main_v54) (V c main_v13) (V c main_v69) (V c main_v70) (V c main_v71) (V c main_v72) (V c main_v73) (V c main_arg10)
    (iblk6 V c 0 t) (iblk6 V c 1 t) (iblk6 V c 2 t) (iblk6 V c 3 t) (iblk6 V c 4 t) (iblk6 V c 5 t) (iblk6 V c 6 t) (iblk6 V c 7 t)
    ⟨5000 * t.val + p.val, by omega⟩ p q
    (fun k => iblk6_0_apply V c t p k _ rfl) (iblk6_1_apply V c t p _ rfl)
    (fun k => iblk6_2_apply V c t k) (fun k => iblk6_3_apply V c t k) (fun k => iblk6_4_apply V c t k)
    (fun k => iblk6_5_apply V c t k) (fun k => iblk6_6_apply V c t k) (fun k q => iblk6_7_apply V c t k q)

set_option maxHeartbeats 1000000 in

theorem val6 (c : Dev nD) :
    (dat6 (F := Ideal) V c).arrAt 8 cfg6.N = Cert.Spec.bnReluMatmul (V c main_v54) (V c main_v13) (V c main_v69) (V c main_v70) (V c main_v71) (V c main_v72) (V c main_v73) (V c main_arg10) :=
  (dat6 (F := Ideal) V c).arrAt_eq_of_cover 8 (G6 V c) (fun t _ => flushed6_8_eq V c t) fun i => by
    obtain ⟨i0, i1, rfl⟩ : ∃ (i0 : Fin 50000) (i1 : Fin 128), i = (ix2 i0 i1 : S50000x128.Idx) := ⟨i 0, i 1, eq_ix2 i⟩
    have hi0 : i0.val < 50000 := i0.isLt
    have hi1 : i1.val < 128 := i1.isLt
    have hT : i0.val / 5000 < cfg6.N := by rw [show cfg6.N = 10 from N_6]; omega
    obtain ⟨e0a, e0b, e1a, e1b, e8a, e8b, -⟩ := idx_facts6 ⟨i0.val / 5000, hT⟩
    refine ⟨⟨i0.val / 5000, hT⟩, flush6_8 _, ?_⟩
    show (ix2 i0 i1 : S50000x128.Idx) ∈ ((View.whole main_v74).slice (win6_8.rect ⟨i0.val / 5000, hT⟩)).set
    rw [View.set_slice_whole, Rect.mem_set_unit]
    intro a
    match a with
    | ⟨0, _⟩ =>
      show win6_8.index ⟨i0.val / 5000, hT⟩ (0 : Fin 2) * 5000 ≤ i0.val ∧ i0.val < win6_8.index ⟨i0.val / 5000, hT⟩ (0 : Fin 2) * 5000 + 5000
      rw [e8a]
      show i0.val / 5000 * 5000 ≤ i0.val ∧ i0.val < i0.val / 5000 * 5000 + 5000
      omega
    | ⟨1, _⟩ =>
      show win6_8.index ⟨i0.val / 5000, hT⟩ (1 : Fin 2) * 128 ≤ i1.val ∧ i1.val < win6_8.index ⟨i0.val / 5000, hT⟩ (1 : Fin 2) * 128 + 128
      rw [e8b]
      omega

end Cert.KernelIdeal.Hand

end
-- ==== Proof.LibMatProduct.lean ====
import Idealize.ShloMosaic.Lib.StackMember
import Idealize.ShloMosaic.Lib.ValueLayout

noncomputable section

namespace Cert.Lib.MatProduct

open Idealize.ShloMosaic Idealize.ShloMosaic.ValueIdx

variable {M K N : Nat}

def matProd (l : (⟨2, ![M, K]⟩ : Shape).Idx → EReal) (r : (⟨2, ![K, N]⟩ : Shape).Idx → EReal) :
    (⟨2, ![M, N]⟩ : Shape).Idx → EReal :=
  fun i => ∑ k : Fin K, l (ix2 ⟨(i 0).val, idx2_lt0 i⟩ k) * r (ix2 k ⟨(i 1).val, idx2_lt1 i⟩)

theorem matProd_ix2 (l : (⟨2, ![M, K]⟩ : Shape).Idx → EReal) (r : (⟨2, ![K, N]⟩ : Shape).Idx → EReal) (a : Fin M) (b : Fin N) :
    matProd l r (ix2 a b) = ∑ k : Fin K, l (ix2 a k) * r (ix2 k b) := rfl

theorem dotGeneral_plain_eq {φ₁ φ₂ : FTy} (prec : Option ContractPrecision) (A : FVec Ideal ⟨2, ![M, K]⟩ φ₁)
    (B : FVec Ideal ⟨2, ![K, N]⟩ φ₂) : Host.dotGeneral (DotDims.plain M K N) prec A B = matProd A B := by
  funext i
  obtain ⟨a, b, rfl⟩ : ∃ (a : Fin M) (b : Fin N), i = ix2 a b := ⟨i 0, i 1, eq_ix2 i⟩
  rw [StackMember.dotGeneral_plain_apply, matProd_ix2]

theorem matmul_plain_zero_eq {φ₁ φ₂ : FTy} (prec : Option ContractPrecision) (A : FVec Ideal ⟨2, ![M, K]⟩ φ₁)
    (B : FVec Ideal ⟨2, ![K, N]⟩ φ₂) :
    matmul (DotDims.plain M K N) prec A B (constant ⟨2, ![M, N]⟩ .f32 0x00000000#32) = matProd A B := by
  rw [matmul_zero_eq_dotGeneral, dotGeneral_plain_eq]

theorem matProd_block {M' N' : Nat} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (p : Fin M') (q : Fin N') (a : Fin M) (b : Fin N)
    (hl : ∀ k : Fin K, l' (ix2 p k) = l (ix2 a k)) (hr : ∀ k : Fin K, r' (ix2 k q) = r (ix2 k b)) :
    matProd l' r' (ix2 p q) = matProd l r (ix2 a b) := by
  rw [matProd_ix2, matProd_ix2]
  exact Finset.sum_congr rfl fun k _ => by rw [hl k, hr k]

theorem matProd_block_idx {M' N' : Nat} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j : (⟨2, ![M', N']⟩ : Shape).Idx) (i : (⟨2, ![M, N]⟩ : Shape).Idx)
    (hl : ∀ k : Fin K, l' (ix2 ⟨(j 0).val, idx2_lt0 j⟩ k) = l (ix2 ⟨(i 0).val, idx2_lt0 i⟩ k))
    (hr : ∀ k : Fin K, r' (ix2 k ⟨(j 1).val, idx2_lt1 j⟩) = r (ix2 k ⟨(i 1).val, idx2_lt1 i⟩)) :
    matProd l' r' j = matProd l r i := by
  unfold matProd
  exact Finset.sum_congr rfl fun k _ => by rw [hl k, hr k]

theorem matProd_congr_right (l : (⟨2, ![M, K]⟩ : Shape).Idx → EReal) (r r' : (⟨2, ![K, N]⟩ : Shape).Idx → EReal)
    (h : ∀ (k : Fin K) (b : Fin N), r (ix2 k b) = r' (ix2 k b)) : matProd l r = matProd l r' := by
  funext i
  obtain ⟨a, b, rfl⟩ : ∃ (a : Fin M) (b : Fin N), i = ix2 a b := ⟨i 0, i 1, eq_ix2 i⟩
  rw [matProd_ix2, matProd_ix2]
  exact Finset.sum_congr rfl fun k _ => by rw [h k b]

end Cert.Lib.MatProduct

end
-- ==== Proof.KI.Val7.lean ====
import proofs.«408734_j33483565039990_3_alg».proof.Proof.KI.Reg7
import proofs.«408734_j33483565039990_3_alg».proof.Proof.Spec
import proofs.«408734_j33483565039990_3_alg».proof.Proof.LibMatProduct
import Idealize.ShloMosaic.Lib.Pipeline.Value
import Idealize.ShloMosaic.Lib.ValueLayout
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (V : (c : Dev nD) → (b : Ref sig .tc) → Buf (Elt Ideal) ((c : Thread nD τ).loc b))

theorem hz7 : (![0, 0] : Fin 2 → Nat) = fun _ => 0 := funext fun a => by fin_cases a <;> rfl

theorem bcast_col7 {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

theorem pay7_1_apply (v0 : Vec Ideal S5000x128 .f32) (v2 : Vec Ideal S5000x1 .f32) (v6 : Vec Ideal S1x128 .f32)
    (v13 : Vec Ideal S128x1 .f32) (v16 : Vec Ideal S1x1 .f32) (p : Fin 5000) :
    k7_pay1 (F := Ideal) v0 v2 v6 v13 v16 (ix2 p (0 : Fin 1))
      = (∑ k : Fin 128, max (v0 (ix2 p k) * v2 (ix2 p (0 : Fin 1)) + v6 (ix2 (0 : Fin 1) k)) 0 * v13 (ix2 k (0 : Fin 1)))
        + v16 (ix2 (0 : Fin 1) (0 : Fin 1)) := by
  unfold k7_pay1
  simp only [shapeCast_self]
  rw [addf_apply, show dot_S5000x128_S128x1_S5000x1_1_0_0_1_n_n = DotDims.plain 5000 128 1 from rfl,
    Cert.Lib.MatProduct.matmul_plain_zero_eq, Cert.Lib.MatProduct.matProd_ix2, broadcastTo_1b_ab_apply]
  congr 1
  refine Finset.sum_congr rfl fun k _ => ?_
  rw [truncf_apply, truncf_apply, maximumf_apply, addf_apply, mulf_apply, bcast_col7,
    broadcastTo_1b_ab_apply, broadcast_apply, Ideal.ofBits_def, Ideal.ofBits_zero_f32]

theorem pay7_2_apply (v0 : Vec Ideal S5000x128 .f32) (v2 : Vec Ideal S5000x1 .f32) (v6 : Vec Ideal S1x128 .f32)
    (v13 : Vec Ideal S128x1 .f32) (v16 : Vec Ideal S1x1 .f32) (j : S5000x1.Idx) :
    k7_pay2 (F := Ideal) v0 v2 v6 v13 v16 j = Ideal.logistic (k7_pay1 (F := Ideal) v0 v2 v6 v13 v16 j) := rfl

theorem idx_facts7 : ∀ t : Fin cfg7.N,
    (win7_0.index t (0 : Fin 2) = t.val ∧ win7_0.index t (1 : Fin 2) = 0)
    ∧ (win7_1.index t (0 : Fin 2) = t.val ∧ win7_1.index t (1 : Fin 2) = 0)
    ∧ (win7_2.index t (0 : Fin 2) = 0 ∧ win7_2.index t (1 : Fin 2) = 0)
    ∧ (win7_3.index t (0 : Fin 2) = 0 ∧ win7_3.index t (1 : Fin 2) = 0)
    ∧ (win7_4.index t (0 : Fin 2) = 0 ∧ win7_4.index t (1 : Fin 2) = 0)
    ∧ (win7_5.index t (0 : Fin 2) = t.val ∧ win7_5.index t (1 : Fin 2) = 0)
    ∧ (win7_6.index t (0 : Fin 2) = t.val ∧ win7_6.index t (1 : Fin 2) = 0) :=
  (by decide +kernel : ∀ t : Fin grid7.N, _)

theorem iblk7_0_apply (c : Dev nD) (t : Fin cfg7.N) (p : Fin 5000) (k : Fin 128) (r : Fin 50000)
    (hr : r.val = 5000 * t.val + p.val) :
    (iblk7 V c 0 t : Vec Ideal S5000x128 .f32) (ix2 p k) = (V c main_v84 : S50000x128.Idx → Elt Ideal .f32) (ix2 r k) := by
  obtain ⟨⟨e0, e1⟩, -⟩ := idx_facts7 t
  unfold iblk7
  rw [View.read_apply]
  show V c main_v84 _ = V c main_v84 _
  congr 1
  funext a
  apply Fin.ext
  match a with
  | ⟨0, _⟩ => show win7_0.index t (0 : Fin 2) * 5000 + 1 * p.val = r.val; rw [e0, hr]; omega
  | ⟨1, _⟩ => show win7_0.index t (1 : Fin 2) * 128 + 1 * k.val = k.val; rw [e1]; omega

theorem iblk7_1_apply (c : Dev nD) (t : Fin cfg7.N) (p : Fin 5000) (r : Fin 50000)
    (hr : r.val = 5000 * t.val + p.val) :
    (iblk7 V c 1 t : Vec Ideal S5000x1 .f32) (ix2 p (0 : Fin 1)) = (V c main_v13 : S50000x1.Idx → Elt Ideal .f32) (ix2 r (0 : Fin 1)) := by
  obtain ⟨-, ⟨e0, e1⟩, -⟩ := idx_facts7 t
  unfold iblk7
  rw [View.read_apply]
  show V c main_v13 _ = V c main_v13 _
  congr 1
  funext a
  apply Fin.ext
  match a with
  | ⟨0, _⟩ => show win7_1.index t (0 : Fin 2) * 5000 + 1 * p.val = r.val; rw [e0, hr]; omega
  | ⟨1, _⟩ => show win7_1.index t (1 : Fin 2) * 1 + 1 * 0 = 0; rw [e1]

theorem iblk7_2_apply (c : Dev nD) (t : Fin cfg7.N) (k : Fin 128) :
    (iblk7 V c 2 t : Vec Ideal S1x128 .f32) (ix2 (0 : Fin 1) k) = (V c main_v85 : S1x128.Idx → Elt Ideal .f32) (ix2 (0 : Fin 1) k) := by
  obtain ⟨-, -, ⟨e0, e1⟩, -⟩ := idx_facts7 t
  unfold iblk7
  rw [View.read_apply]
  show V c main_v85 _ = V c main_v85 _
  congr 1
  funext a
  apply Fin.ext
  match a with
  | ⟨0, _⟩ => show win7_2.index t (0 : Fin 2) * 1 + 1 * 0 = 0; rw [e0]
  | ⟨1, _⟩ => show win7_2.index t (1 : Fin 2) * 128 + 1 * k.val = k.val; rw [e1]; omega

theorem iblk7_3_apply (c : Dev nD) (t : Fin cfg7.N) (k : Fin 128) :
    (iblk7 V c 3 t : Vec Ideal S128x1 .f32) (ix2 k (0 : Fin 1)) = (V c main_arg12 : S128x1.Idx → Elt Ideal .f32) (ix2 k (0 : Fin 1)) := by
  obtain ⟨-, -, -, ⟨e0, e1⟩, -⟩ := idx_facts7 t
  unfold iblk7
  rw [View.read_apply]
  show V c main_arg12 _ = V c main_arg12 _
  congr 1
  funext a
  apply Fin.ext
  match a with
  | ⟨0, _⟩ => show win7_3.index t (0 : Fin 2) * 128 + 1 * k.val = k.val; rw [e0]; omega
  | ⟨1, _⟩ => show win7_3.index t (1 : Fin 2) * 1 + 1 * 0 = 0; rw [e1]

theorem iblk7_4_apply (c : Dev nD) (t : Fin cfg7.N) :
    (iblk7 V c 4 t : Vec Ideal S1x1 .f32) (ix2 (0 : Fin 1) (0 : Fin 1)) = (V c main_v86 : S1x1.Idx → Elt Ideal .f32) (ix2 (0 : Fin 1) (0 : Fin 1)) := by
  obtain ⟨-, -, -, -, ⟨e0, e1⟩, -⟩ := idx_facts7 t
  unfold iblk7
  rw [View.read_apply]
  show V c main_v86 _ = V c main_v86 _
  congr 1
  funext a
  apply Fin.ext
  match a with
  | ⟨0, _⟩ => show win7_4.index t (0 : Fin 2) * 1 + 1 * 0 = 0; rw [e0]
  | ⟨1, _⟩ => show win7_4.index t (1 : Fin 2) * 1 + 1 * 0 = 0; rw [e1]

abbrev head7 (c : Dev nD) : Cert.Spec.M2 50000 1 :=
  Cert.Spec.headOut (V c main_v84) (V c main_v13) (V c main_v85) (V c main_arg12) (V c main_v86)

theorem pay7_blocks (c : Dev nD) (t : Fin cfg7.N) (p : Fin 5000) (r : Fin 50000) (hr : r.val = 5000 * t.val + p.val) :
    k7_pay1 (F := Ideal) (iblk7 V c 0 t) (iblk7 V c 1 t) (iblk7 V c 2 t) (iblk7 V c 3 t) (iblk7 V c 4 t) (ix2 p (0 : Fin 1))
      = head7 V c (ix2 r (0 : Fin 1)) := by
  refine (pay7_1_apply (iblk7 V c 0 t) (iblk7 V c 1 t) (iblk7 V c 2 t) (iblk7 V c 3 t) (iblk7 V c 4 t) p).trans ?_
  unfold head7 Cert.Spec.headOut Cert.Spec.postAgg
  simp only [Cert.Spec.rowOf_ix2]
  refine congrArg₂ (· + ·) (Finset.sum_congr rfl fun k _ => ?_) (iblk7_4_apply V c t)
  exact congrArg₂ (· * ·)
    (congrArg (max · 0) (congrArg₂ (· + ·)
      (congrArg₂ (· * ·) (iblk7_0_apply V c t p k r hr) (iblk7_1_apply V c t p r hr)) (iblk7_2_apply V c t k)))
    (iblk7_3_apply V c t k)

theorem emb7_5 (t : Fin cfg7.N) (p : Fin 5000) (r : Fin 50000) (hr : r.val = 5000 * t.val + p.val) :
    ((cfg7.win 5).blk t).view.emb (ix2 p (0 : Fin 1)) = ix2 r (0 : Fin 1) := by
  obtain ⟨-, -, -, -, -, ⟨e0, e1⟩, -⟩ := idx_facts7 t
  funext a
  apply Fin.ext
  match a with
  | ⟨0, _⟩ => show win7_5.index t (0 : Fin 2) * 5000 + 1 * p.val = r.val; rw [e0, hr]; omega
  | ⟨1, _⟩ => show win7_5.index t (1 : Fin 2) * 1 + 1 * 0 = 0; rw [e1]

theorem emb7_6 (t : Fin cfg7.N) (p : Fin 5000) (r : Fin 50000) (hr : r.val = 5000 * t.val + p.val) :
    ((cfg7.win 6).blk t).view.emb (ix2 p (0 : Fin 1)) = ix2 r (0 : Fin 1) := by
  obtain ⟨-, -, -, -, -, -, ⟨e0, e1⟩⟩ := idx_facts7 t
  funext a
  apply Fin.ext
  match a with
  | ⟨0, _⟩ => show win7_6.index t (0 : Fin 2) * 5000 + 1 * p.val = r.val; rw [e0, hr]; omega
  | ⟨1, _⟩ => show win7_6.index t (1 : Fin 2) * 1 + 1 * 0 = 0; rw [e1]

theorem row_lt7 (t : Fin cfg7.N) (p : Fin 5000) : 5000 * t.val + p.val < 50000 := by
  have hN : cfg7.N = 10 := N_7
  have := t.isLt; have := p.isLt; omega

theorem flushed7_5_eq (c : Dev nD) (t : Fin cfg7.N) :
    (dat7 V c).flushed 5 t = ((cfg7.win 5).blk t).view.read (Elt Ideal) (head7 V c) := by
  show (cfg7.win 5).cut (grid7.coords t) ((dat7 V c).after 5 t) = _
  rw [after7_5]
  unfold out7_5
  rw [View.canon_unit_zero hz7]
  simp only [View.ld_unit_zero (S := S5000x128) hz7, View.ld_unit_zero (S := S5000x1) hz7, View.ld_unit_zero (S := S1x128) hz7,
    View.ld_unit_zero (S := S128x1) hz7, View.ld_unit_zero (S := S1x1) hz7]
  funext j
  obtain ⟨p, q, rfl⟩ : ∃ (p : Fin 5000) (q : Fin 1), j = ix2 p q := ⟨j 0, j 1, eq_ix2 j⟩
  obtain rfl : q = 0 := Subsingleton.elim _ _
  show k7_pay1 (F := Ideal) (iblk7 V c 0 t) (iblk7 V c 1 t) (iblk7 V c 2 t) (iblk7 V c 3 t) (iblk7 V c 4 t) (ix2 p (0 : Fin 1))
    = head7 V c (((cfg7.win 5).blk t).view.emb (ix2 p (0 : Fin 1)))
  rw [emb7_5 t p ⟨5000 * t.val + p.val, row_lt7 t p⟩ rfl]
  exact pay7_blocks V c t p _ rfl

theorem flushed7_6_eq (c : Dev nD) (t : Fin cfg7.N) :
    (dat7 V c).flushed 6 t = ((cfg7.win 6).blk t).view.read (Elt Ideal)
      (Cert.Spec.headSig (V c main_v84) (V c main_v13) (V c main_v85) (V c main_arg12) (V c main_v86)) := by
  show (cfg7.win 6).cut (grid7.coords t) ((dat7 V c).after 6 t) = _
  rw [after7_6]
  unfold out7_6
  rw [View.canon_unit_zero hz7]
  simp only [View.ld_unit_zero (S := S5000x128) hz7, View.ld_unit_zero (S := S5000x1) hz7, View.ld_unit_zero (S := S1x128) hz7,
    View.ld_unit_zero (S := S128x1) hz7, View.ld_unit_zero (S := S1x1) hz7]
  funext j
  obtain ⟨p, q, rfl⟩ : ∃ (p : Fin 5000) (q : Fin 1), j = ix2 p q := ⟨j 0, j 1, eq_ix2 j⟩
  obtain rfl : q = 0 := Subsingleton.elim _ _
  show k7_pay2 (F := Ideal) (iblk7 V c 0 t) (iblk7 V c 1 t) (iblk7 V c 2 t) (iblk7 V c 3 t) (iblk7 V c 4 t) (ix2 p (0 : Fin 1))
    = Ideal.logistic (head7 V c (((cfg7.win 6).blk t).view.emb (ix2 p (0 : Fin 1))))
  rw [emb7_6 t p ⟨5000 * t.val + p.val, row_lt7 t p⟩ rfl, pay7_2_apply]
  exact congrArg Ideal.logistic (pay7_blocks V c t p _ rfl)

theorem cover7_5 (i : S50000x1.Idx) :
    ∃ t : Fin cfg7.N, (cfg7.win 5).flush t = true ∧ i ∈ ((cfg7.win 5).blk t).view.set := by
  have hN : cfg7.N = 10 := N_7
  have hi0 : (i 0).val < 50000 := (i 0).isLt
  have hi1 : (i 1).val < 1 := (i 1).isLt
  have ht : (i 0).val / 5000 < cfg7.N := by rw [hN]; omega
  obtain ⟨-, -, -, -, -, ⟨e0, e1⟩, -⟩ := idx_facts7 ⟨(i 0).val / 5000, ht⟩
  refine ⟨⟨(i 0).val / 5000, ht⟩, flush7_5 _, ?_⟩
  show i ∈ ((View.whole main_v87_0).slice (win7_5.rect ⟨(i 0).val / 5000, ht⟩)).set
  rw [View.set_slice_whole, Rect.mem_set_unit]
  intro a
  match a with
  | ⟨0, _⟩ =>
    show win7_5.index ⟨(i 0).val / 5000, ht⟩ (0 : Fin 2) * 5000 ≤ (i 0).val
      ∧ (i 0).val < win7_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win7_5.index ⟨(i 0).val / 5000, ht⟩ (1 : Fin 2) * 1 ≤ (i 1).val
      ∧ (i 1).val < win7_5.index ⟨(i 0).val / 5000, ht⟩ (1 : Fin 2) * 1 + 1
    rw [e1]; omega

theorem cover7_6 (i : S50000x1.Idx) :
    ∃ t : Fin cfg7.N, (cfg7.win 6).flush t = true ∧ i ∈ ((cfg7.win 6).blk t).view.set := by
  have hN : cfg7.N = 10 := N_7
  have hi0 : (i 0).val < 50000 := (i 0).isLt
  have hi1 : (i 1).val < 1 := (i 1).isLt
  have ht : (i 0).val / 5000 < cfg7.N := by rw [hN]; omega
  obtain ⟨-, -, -, -, -, -, ⟨e0, e1⟩⟩ := idx_facts7 ⟨(i 0).val / 5000, ht⟩
  refine ⟨⟨(i 0).val / 5000, ht⟩, flush7_6 _, ?_⟩
  show i ∈ ((View.whole main_v87_1).slice (win7_6.rect ⟨(i 0).val / 5000, ht⟩)).set
  rw [View.set_slice_whole, Rect.mem_set_unit]
  intro a
  match a with
  | ⟨0, _⟩ =>
    show win7_6.index ⟨(i 0).val / 5000, ht⟩ (0 : Fin 2) * 5000 ≤ (i 0).val
      ∧ (i 0).val < win7_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win7_6.index ⟨(i 0).val / 5000, ht⟩ (1 : Fin 2) * 1 ≤ (i 1).val
      ∧ (i 1).val < win7_6.index ⟨(i 0).val / 5000, ht⟩ (1 : Fin 2) * 1 + 1
    rw [e1]; omega

theorem val7_out (c : Dev nD) :
    (dat7 (F := Ideal) V c).arrAt 5 cfg7.N = Cert.Spec.headOut (V c main_v84) (V c main_v13) (V c main_v85) (V c main_arg12) (V c main_v86) :=
  (dat7 V c).arrAt_eq_of_cover 5 (head7 V c) (fun t _ => flushed7_5_eq V c t) cover7_5

theorem val7_sig (c : Dev nD) :
    (dat7 (F := Ideal) V c).arrAt 6 cfg7.N = Cert.Spec.headSig (V c main_v84) (V c main_v13) (V c main_v85) (V c main_arg12) (V c main_v86) :=
  (dat7 V c).arrAt_eq_of_cover 6 (Cert.Spec.headSig (V c main_v84) (V c main_v13) (V c main_v85) (V c main_arg12) (V c main_v86))
    (fun t _ => flushed7_6_eq V c t) cover7_6

end Cert.KernelIdeal.Hand

end
-- ==== Proof.MathSpec.lean ====
import Idealize.ShloMosaic.PureOps.Ideal
import Idealize.ShloMosaic.Lib.ValueIdx
import proofs.«408734_j33483565039990_3_alg».proof.Proof.Spec

noncomputable section

open scoped BigOperators

namespace Cert.MathSpec

open Idealize.ShloMosaic Idealize.ShloMosaic.ValueIdx Cert.Spec

abbrev V1 (n : Nat) : Type := (⟨1, ![n]⟩ : Shape).Idx → EReal

def elt1 {n : Nat} (i : (⟨1, ![n]⟩ : Shape).Idx) : Fin n := ⟨(i 0).val, (i 0).isLt⟩
@[simp] theorem elt1_ix1 {n : Nat} (a : Fin n) : elt1 (ix1 a) = a := rfl

def rowVec {n : Nat} (v : V1 n) : M2 1 n := fun j => v (ix1 (colOf j))

structure Graph where
  src : Fin 850000 → Fin 50000
  dst : Fin 850000 → ℤ
  dstRow : Fin 850000 → Fin 50000

def msgWord (ei : (⟨2, ![2, 800000]⟩ : Shape).Idx → BitVec 32) (r : Fin 2) (e : Fin 850000) : BitVec 32 :=
  if h : e.val < 800000 then ei (ix2 r ⟨e.val, h⟩) else BitVec.ofNat 32 (e.val - 800000)

def wrap (w : BitVec 32) : BitVec 32 := if BitVec.slt w 0#32 then w + 50000#32 else w

def lookupRow (w : BitVec 32) : Fin 50000 := ⟨min (wrap w).toInt.toNat 49999, by omega⟩

def graphOf (ei : (⟨2, ![2, 800000]⟩ : Shape).Idx → BitVec 32) : Graph where
  src e := lookupRow (msgWord ei 0 e)
  dst e := (msgWord ei 1 e).toInt
  dstRow e := lookupRow (msgWord ei 1 e)

variable (G : Graph)

def inDeg (p : Fin 50000) : ℕ := (Finset.univ.filter fun e : Fin 850000 => G.dst e = (p.val : ℤ)).card

def c50000 : EReal := Ideal.ofBits .f32 0x47435000#32
def epsBN : EReal := Ideal.ofBits .f32 0x3727C5AC#32
def cOne : EReal := Ideal.ofBits .f32 0x3F800000#32

structure Params where
  x : M2 50000 64
  W1 : M2 64 128
  b1 : V1 128
  g1 : V1 128
  bt1 : V1 128
  W2 : M2 128 128
  b2 : V1 128
  g2 : V1 128
  bt2 : V1 128
  W3 : M2 128 128
  b3 : V1 128
  fcW : M2 128 1
  fcb : V1 1

def dinvK : M2 50000 1 := fun j => Ideal.rsqrt (((BitVec.ofNat 32 (inDeg G (rowOf j))).toInt : ℝ) : EReal)

def aggK (ht : M2 50000 128) : M2 50000 128 :=
  fun j => ∑ e : Fin 850000, if G.dst e = ((rowOf j).val : ℤ) then ht (ix2 (G.src e) (colOf j)) else 0

def meanOf (s : M2 1 128) : M2 1 128 := fun j => Ideal.div (s (ix2 0 (colOf j))) c50000

def invStdOf (sq : M2 1 128) : M2 1 128 := fun j => Ideal.rsqrt (Ideal.div (sq (ix2 0 (colOf j))) c50000 + epsBN)

def nextK (A : M2 50000 128) (b g bt : V1 128) (W : M2 128 128) : M2 50000 128 :=
  let d := dinvK G
  let mean := meanOf (colSum A d (rowVec b))
  let inv := invStdOf (colSumSq A d (rowVec b) mean)
  bnReluMatmul A d (rowVec b) mean inv (rowVec g) (rowVec bt) W

def agg3K (P : Params) : M2 50000 128 :=
  let A1 := aggK G (scaledMatmul P.x P.W1 (dinvK G))
  let A2 := aggK G (nextK G A1 P.b1 P.g1 P.bt1 P.W2)
  aggK G (nextK G A2 P.b2 P.g2 P.bt2 P.W3)

def kOut (P : Params) : M2 50000 1 := headOut (agg3K G P) (dinvK G) (rowVec P.b3) P.fcW (rowVec P.fcb)

def kSig (P : Params) : M2 50000 1 := headSig (agg3K G P) (dinvK G) (rowVec P.b3) P.fcW (rowVec P.fcb)

def dinvR : V1 50000 := fun i => Ideal.rsqrt (∑ e : Fin 850000, if G.dst e = ((elt1 i).val : ℤ) then cOne else 0)

def mm {K N : Nat} (y : M2 50000 K) (W : M2 K N) : M2 50000 N :=
  fun j => ∑ k : Fin K, y (ix2 (rowOf j) k) * W (ix2 k (colOf j))

def convR (h : M2 50000 128) (b : V1 128) : M2 50000 128 :=
  fun j => (∑ e : Fin 850000, if G.dst e = ((rowOf j).val : ℤ)
      then h (ix2 (G.src e) (colOf j)) * (dinvR G (ix1 (G.src e)) * dinvR G (ix1 (G.dstRow e))) else 0)
    + b (ix1 (colOf j))

def meanR (a : M2 50000 128) (q : Fin 128) : EReal := Ideal.div (∑ p : Fin 50000, a (ix2 p q)) c50000

def varR (a : M2 50000 128) (q : Fin 128) : EReal :=
  Ideal.div (∑ p : Fin 50000, (a (ix2 p q) - meanR a q) * (a (ix2 p q) - meanR a q)) c50000

def bnReluR (a : M2 50000 128) (g bt : V1 128) : M2 50000 128 :=
  fun j => max ((a j - meanR a (colOf j)) * Ideal.rsqrt (varR a (colOf j) + epsBN) * g (ix1 (colOf j)) + bt (ix1 (colOf j))) 0

def conv3R (P : Params) : M2 50000 128 :=
  let y1 := bnReluR (convR G (mm P.x P.W1) P.b1) P.g1 P.bt1
  let y2 := bnReluR (convR G (mm y1 P.W2) P.b2) P.g2 P.bt2
  convR G (mm y2 P.W3) P.b3

def rOut (P : Params) : M2 50000 1 :=
  fun j => (∑ k : Fin 128, max (conv3R G P (ix2 (rowOf j) k)) 0 * P.fcW (ix2 k 0)) + P.fcb (ix1 0)

def rSig (P : Params) : M2 50000 1 := fun j => Ideal.logistic (rOut G P j)

structure Graph.Good : Prop where
  loop : ∀ p : Fin 50000, ∃ e : Fin 850000, G.dst e = (p.val : ℤ)
  row : ∀ (e : Fin 850000) (p : Fin 50000), G.dst e = (p.val : ℤ) → G.dstRow e = p

end Cert.MathSpec

end
-- ==== Proof.LibRowGather.lean ====
import Idealize.ShloMosaic.Lib.ValueIdx

noncomputable section

namespace Cert.Lib.RowGather

open Idealize.ShloMosaic Idealize.ShloMosaic.ValueIdx

variable {α : Type}

abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section Coordinates

variable {N C E w : Nat} (wf : GatherDims.WF ⟨2, ![N, C]⟩ ⟨2, ![E, 1]⟩ ⟨2, ![E, C]⟩ [1] [0] [] [0] [] 1 ![1, C])
  (idx : IVec ⟨2, ![E, 1]⟩ w) (e : Fin E) (k : Fin C)

theorem coord_row :
    (rowDims N C E wf).start (ix2 e k) idx (0 : Fin 2) + (rowDims N C E wf).batchCoord (ix2 e k) (0 : Fin 2)
      + (rowDims N C E wf).offCoord (ix2 e k) (0 : Fin 2)
      = min (idx (ix2 e ⟨0, Nat.one_pos⟩)).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N C E wf).startIndexMap from List.mem_singleton.mpr rfl)]
  have hsi : (rowDims N C E wf).siIdx (ix2 e k) ⟨List.idxOf (0 : Fin 2) (rowDims N C E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

theorem coord_col :
    (rowDims N C E wf).start (ix2 e k) idx (1 : Fin 2) + (rowDims N C E wf).batchCoord (ix2 e k) (1 : Fin 2)
      + (rowDims N C E wf).offCoord (ix2 e k) (1 : Fin 2) = k.val := by
  rw [GatherDims.batchCoord_eq_zero _ _ _ List.not_mem_nil]
  have hs : (rowDims N C E wf).start (ix2 e k) idx (1 : Fin 2) = 0 := by
    unfold GatherDims.start
    rw [dif_neg (fun h => absurd (congrArg Fin.val (List.mem_singleton.mp h)) Nat.one_ne_zero)]
  rw [hs]
  simp only [Nat.add_zero, Nat.zero_add]
  rfl

end Coordinates

theorem rowGather_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N C E wf) x idx (ix2 e k)
      = x (ix2 ⟨min (idx (ix2 e ⟨0, Nat.one_pos⟩)).toInt.toNat (N - 1), by omega⟩ k) := by
  unfold Host.gather
  congr 1
  funext a
  refine Fin.ext ?_
  match a with
  | ⟨0, _⟩ => exact coord_row wf idx e k
  | ⟨1, _⟩ => exact coord_col wf idx e k

end Cert.Lib.RowGather

end
-- ==== Proof.LibRowScatter.lean ====
import Idealize.ShloMosaic.PureOps.Ideal
import Idealize.ShloMosaic.PureOps.Contract
import Idealize.ShloMosaic.Lib.ValueIdx

noncomputable section

open scoped BigOperators

namespace Cert.Lib.RowScatter

open Idealize.ShloMosaic Idealize.ShloMosaic.ValueIdx

theorem sum_filter_of_iff {ι M : Type*} [AddCommMonoid M] (s : Finset ι) (P Q : ι → Prop) [DecidablePred P] [DecidablePred Q]
    (h : ∀ j, P j ↔ Q j) (f : ι → M) : ∑ j ∈ s.filter P, f j = ∑ j ∈ s, if Q j then f j else 0 := by
  rw [Finset.sum_filter]
  refine Finset.sum_congr rfl fun j _ => ?_
  by_cases hq : Q j
  · rw [if_pos hq, if_pos ((h j).mpr hq)]
  · rw [if_neg hq, if_neg (mt (h j).mp hq)]

abbrev putRowDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)

theorem putRow_start0 (j : (⟨2, ![R, C]⟩ : Shape).Idx) (idx : IVec ⟨2, ![R, 1]⟩ w) :
    (putRowDims N R C wf).start j idx 0 = (idx (ix2 (⟨(j 0).val, idx2_lt0 j⟩ : Fin R) (0 : Fin 1))).toInt := by
  unfold ScatterDims.start
  rw [dif_pos (show (0 : Fin 2) ∈ (putRowDims N R C wf).scatterDimsToOperandDims from List.mem_singleton.mpr rfl)]
  have hsi : (putRowDims N R C wf).siIdx j ⟨List.idxOf (0 : Fin 2) (putRowDims N R C wf).scatterDimsToOperandDims,
      List.idxOf_lt_length_iff.2 (List.mem_singleton.mpr rfl)⟩ = ix2 (⟨(j 0).val, idx2_lt0 j⟩ : Fin R) (0 : Fin 1) := by
    funext b; refine Fin.ext ?_
    match b with
    | ⟨0, _⟩ => rfl
    | ⟨1, _⟩ => rfl
  rw [hsi]

theorem putRow_start1 (j : (⟨2, ![R, C]⟩ : Shape).Idx) (idx : IVec ⟨2, ![R, 1]⟩ w) :
    (putRowDims N R C wf).start j idx 1 = 0 := by
  unfold ScatterDims.start
  rw [dif_neg]
  intro h
  exact absurd (List.mem_singleton.mp h) (show (1 : Fin 2) ≠ 0 by decide)

theorem putRow_window0 (j : (⟨2, ![R, C]⟩ : Shape).Idx) : (putRowDims N R C wf).window j 0 = 0 := by
  unfold ScatterDims.window
  rw [dif_neg]
  simp [ScatterDims.sKept, Shape.kept, List.mem_filter, List.mem_finRange]

theorem putRow_window1 (j : (⟨2, ![R, C]⟩ : Shape).Idx) : (putRowDims N R C wf).window j 1 = (j 1).val := by
  unfold ScatterDims.window
  have hm : (1 : Fin 2) ∈ (putRowDims N R C wf).sKept := by
    simp [ScatterDims.sKept, Shape.kept, List.mem_filter, List.mem_finRange]
  rw [dif_pos hm]
  rfl

theorem putRow_resultIdx?_eq_some_iff (j : (⟨2, ![R, C]⟩ : Shape).Idx) (idx : IVec ⟨2, ![R, 1]⟩ w)
    (i : (⟨2, ![N, C]⟩ : Shape).Idx) :
    (putRowDims N R C wf).resultIdx? j idx = some i
      ↔ (idx (ix2 (⟨(j 0).val, idx2_lt0 j⟩ : Fin R) (0 : Fin 1))).toInt = ((i 0).val : ℤ) ∧ (j 1).val = (i 1).val := by
  have hi0 := idx2_lt0 i
  have hi1 := idx2_lt1 i
  have hj1 := idx2_lt1 j
  have hall : ∀ P : Fin 2 → Prop, (∀ a, P a) ↔ P 0 ∧ P 1 := fun P =>
    ⟨fun h => ⟨h 0, h 1⟩, fun h a => by
      match a with
      | ⟨0, _⟩ => exact h.1
      | ⟨1, _⟩ => exact h.2⟩
  have hs0 : (⟨2, ![N, C]⟩ : Shape).size 0 = N := rfl
  have hs1 : (⟨2, ![N, C]⟩ : Shape).size 1 = C := rfl
  unfold ScatterDims.resultIdx?
  by_cases h : ∀ a : Fin (⟨2, ![N, C]⟩ : Shape).rank, 0 ≤ (putRowDims N R C wf).start j idx a + (putRowDims N R C wf).window j a ∧
      (putRowDims N R C wf).start j idx a + (putRowDims N R C wf).window j a < (⟨2, ![N, C]⟩ : Shape).size a
  · rw [dif_pos h]
    have h0 := h 0
    have h1 := h 1
    rw [putRow_start0, putRow_window0] at h0
    rw [putRow_start1, putRow_window1] at h1
    constructor
    · intro he
      have e := Option.some.inj he
      have e0 := congrArg (fun k : (⟨2, ![N, C]⟩ : Shape).Idx => (k 0).val) e
      have e1 := congrArg (fun k : (⟨2, ![N, C]⟩ : Shape).Idx => (k 1).val) e
      simp only [putRow_start0, putRow_window0, putRow_start1, putRow_window1] at e0 e1
      constructor <;> omega
    · rintro ⟨he0, he1⟩
      congr 1
      funext a
      refine Fin.ext ?_
      match a with
      | ⟨0, _⟩ =>
        show ((putRowDims N R C wf).start j idx 0 + (putRowDims N R C wf).window j 0).toNat = (i 0).val
        rw [putRow_start0, putRow_window0]
        omega
      | ⟨1, _⟩ =>
        show ((putRowDims N R C wf).start j idx 1 + (putRowDims N R C wf).window j 1).toNat = (i 1).val
        rw [putRow_start1, putRow_window1]
        omega
  · rw [dif_neg h]
    constructor
    · intro he; exact absurd he (by simp)
    · rintro ⟨he0, he1⟩
      exfalso
      apply h
      rw [hall]
      rw [putRow_start0, putRow_window0, putRow_start1, putRow_window1, hs0, hs1]
      omega

theorem hostScatterAdd_rows_apply (x : (⟨2, ![N, C]⟩ : Shape).Idx → EReal) (idx : IVec ⟨2, ![R, 1]⟩ w)
    (upd : (⟨2, ![R, C]⟩ : Shape).Idx → EReal) (p : Fin N) (q : Fin C) :
    Ideal.hostScatterAdd (putRowDims N R C wf) x idx upd (ix2 p q)
      = x (ix2 p q) + ∑ n : Fin R, if (idx (ix2 n (0 : Fin 1))).toInt = (p.val : ℤ) then upd (ix2 n q) else 0 := by
  unfold Ideal.hostScatterAdd
  congr 1
  rw [sum_filter_of_iff _ _ _ (fun j => putRow_resultIdx?_eq_some_iff wf j idx (ix2 p q)), sum_idx2]
  refine Finset.sum_congr rfl fun n _ => ?_
  by_cases hn : (idx (ix2 n (0 : Fin 1))).toInt = (p.val : ℤ)
  · rw [if_pos hn, Finset.sum_eq_single q]
    · exact if_pos ⟨hn, rfl⟩
    · intro b _ hb
      exact if_neg fun hc => hb (Fin.ext hc.2)
    · intro hq; exact absurd (Finset.mem_univ q) hq
  · rw [if_neg hn]
    exact Finset.sum_eq_zero fun b _ => if_neg fun hc => hn hc.1

end Cert.Lib.RowScatter

end
-- ==== Proof.LibHostIndex.lean ====
import Idealize.ShloMosaic.PureOps.Ideal
import Idealize.ShloMosaic.PureOps.Contract
import Idealize.ShloMosaic.Lib.ValueIdx

noncomputable section

open scoped BigOperators

namespace Cert.Lib.HostIndex

open Idealize.ShloMosaic Idealize.ShloMosaic.ValueIdx

theorem idx1_lt {n : Nat} (j : (⟨1, ![n]⟩ : Shape).Idx) : (j 0).val < n := (j 0).isLt

def idxEquiv1 {n : Nat} : (⟨1, ![n]⟩ : Shape).Idx ≃ Fin n where
  toFun i := ⟨(i 0).val, idx1_lt i⟩
  invFun a := ix1 a
  left_inv i := (eq_ix1 i).symm
  right_inv _ := rfl

theorem sum_filter_idx1 {M : Type*} [AddCommMonoid M] {n : Nat} (p : (⟨1, ![n]⟩ : Shape).Idx → Prop) [DecidablePred p]
    (f : (⟨1, ![n]⟩ : Shape).Idx → M) :
    ∑ j ∈ Finset.univ.filter p, f j = ∑ e ∈ Finset.univ.filter (fun e : Fin n => p (ix1 e)), f (ix1 e) := by
  rw [Finset.sum_filter, Finset.sum_filter, ← Equiv.sum_comp (idxEquiv1 (n := n)).symm]
  rfl

theorem card_filter_idx1 {n : Nat} (p : (⟨1, ![n]⟩ : Shape).Idx → Prop) [DecidablePred p] :
    (Finset.univ.filter p).card = (Finset.univ.filter (fun e : Fin n => p (ix1 e))).card := by
  rw [Finset.card_eq_sum_ones, Finset.card_eq_sum_ones]
  exact sum_filter_idx1 p fun _ => 1

section Take
variable {α : Type}

abbrev take1Dims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

theorem gather_take1_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (take1Dims N R wf) x idx y
      = x (ix1 ⟨min (idx (ix2 (⟨(y 0).val, idx1_lt y⟩ : Fin R) (0 : Fin 1))).toInt.toNat (N - 1), by omega⟩) := by
  unfold Host.gather
  congr 1
  funext a
  obtain rfl : a = 0 := Subsingleton.elim _ _
  refine Fin.ext ?_
  show (take1Dims N R wf).start y idx 0 + (take1Dims N R wf).batchCoord y 0 + (take1Dims N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N R wf).startIndexMap from List.mem_singleton.mpr rfl)]
  have hsi : (take1Dims N R wf).siIdx y ⟨List.idxOf (0 : Fin 1) (take1Dims N R wf).startIndexMap,
      List.idxOf_lt_length_iff.2 (List.mem_singleton.mpr rfl)⟩ = ix2 (⟨(y 0).val, idx1_lt y⟩ : Fin R) (0 : Fin 1) := by
    funext b; refine Fin.ext ?_
    match b with
    | ⟨0, _⟩ => rfl
    | ⟨1, _⟩ => rfl
  rw [hsi]
  rfl

end Take

section Put

abbrev put1Dims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

variable {N R w : Nat} (wf : ScatterDims.WF ⟨1, ![N]⟩ ⟨2, ![R, 1]⟩ ⟨1, ![R]⟩ [] [0] [0] 1)

theorem put1_start (j : (⟨1, ![R]⟩ : Shape).Idx) (idx : IVec ⟨2, ![R, 1]⟩ w) :
    (put1Dims N R wf).start j idx 0 = (idx (ix2 (⟨(j 0).val, idx1_lt j⟩ : Fin R) (0 : Fin 1))).toInt := by
  unfold ScatterDims.start
  rw [dif_pos (show (0 : Fin 1) ∈ (put1Dims N R wf).scatterDimsToOperandDims from List.mem_singleton.mpr rfl)]
  have hsi : (put1Dims N R wf).siIdx j ⟨List.idxOf (0 : Fin 1) (put1Dims N R wf).scatterDimsToOperandDims,
      List.idxOf_lt_length_iff.2 (List.mem_singleton.mpr rfl)⟩ = ix2 (⟨(j 0).val, idx1_lt j⟩ : Fin R) (0 : Fin 1) := by
    funext b; refine Fin.ext ?_
    match b with
    | ⟨0, _⟩ => rfl
    | ⟨1, _⟩ => rfl
  rw [hsi]

theorem put1_window (j : (⟨1, ![R]⟩ : Shape).Idx) : (put1Dims N R wf).window j 0 = 0 := by
  unfold ScatterDims.window
  rw [dif_neg]
  simp [ScatterDims.sKept, Shape.kept, List.mem_filter, List.mem_finRange]

theorem put1_resultIdx?_eq_some_iff (j : (⟨1, ![R]⟩ : Shape).Idx) (idx : IVec ⟨2, ![R, 1]⟩ w) (i : (⟨1, ![N]⟩ : Shape).Idx) :
    (put1Dims N R wf).resultIdx? j idx = some i
      ↔ (idx (ix2 (⟨(j 0).val, idx1_lt j⟩ : Fin R) (0 : Fin 1))).toInt = ((i 0).val : ℤ) := by
  have hi := idx1_lt i
  unfold ScatterDims.resultIdx?
  have hall : ∀ P : Fin 1 → Prop, (∀ a, P a) ↔ P 0 := fun P =>
    ⟨fun h => h 0, fun h a => by obtain rfl : a = 0 := Subsingleton.elim _ _; exact h⟩
  by_cases h : ∀ a : Fin (⟨1, ![N]⟩ : Shape).rank, 0 ≤ (put1Dims N R wf).start j idx a + (put1Dims N R wf).window j a ∧
      (put1Dims N R wf).start j idx a + (put1Dims N R wf).window j a < (⟨1, ![N]⟩ : Shape).size a
  · rw [dif_pos h]
    have h0 := h 0
    rw [put1_start, put1_window] at h0
    constructor
    · intro he
      have := congrArg (fun o : Option (⟨1, ![N]⟩ : Shape).Idx => o.map fun k => (k 0).val) he
      simp only [Option.map_some] at this
      have e := Option.some.inj this
      simp only [put1_start, put1_window] at e
      omega
    · intro he
      congr 1
      funext a
      obtain rfl : a = 0 := Subsingleton.elim _ _
      refine Fin.ext ?_
      show ((put1Dims N R wf).start j idx 0 + (put1Dims N R wf).window j 0).toNat = (i 0).val
      rw [put1_start, put1_window]
      omega
  · rw [dif_neg h]
    constructor
    · intro he; exact absurd he (by simp)
    · intro he
      exfalso
      apply h
      intro a
      obtain rfl : a = 0 := Subsingleton.elim _ _
      rw [put1_start, put1_window]
      have : (⟨1, ![N]⟩ : Shape).size 0 = N := rfl
      rw [this]
      omega

end Put

section Fold
variable {α ι κ : Type} [DecidableEq ι]

theorem foldl_step_apply (step : (ι → α) → κ → ι → α) (g : κ → Option ι) (f : α → α → α) (upd : κ → α)
    (hstep : ∀ r n i, step r n i = if g n = some i then f (r i) (upd n) else r i) (i : ι) :
    ∀ (l : List κ) (x : ι → α),
      (l.foldl step x) i = l.foldl (fun a n => if g n = some i then f a (upd n) else a) (x i)
  | [], _ => rfl
  | n :: l, x => by
    rw [List.foldl_cons, List.foldl_cons, foldl_step_apply step g f upd hstep i l, hstep]

theorem foldl_count (p : κ → Prop) [DecidablePred p] :
    ∀ (l : List κ) (a : BitVec 32),
      l.foldl (fun a n => if p n then a + 1#32 else a) a = a + BitVec.ofNat 32 (l.countP fun n => decide (p n))
  | [], a => by simp
  | n :: l, a => by
    rw [List.foldl_cons, foldl_count p l, List.countP_cons]
    by_cases h : p n
    · simp only [h, if_true, decide_true]
      rw [BitVec.add_assoc]
      congr 1
      apply BitVec.eq_of_toNat_eq
      simp [BitVec.toNat_add, BitVec.toNat_ofNat, Nat.add_comm]
    · simp [h]

end Fold

theorem countP_finRange {n : Nat} (p : Fin n → Prop) [DecidablePred p] :
    (List.finRange n).countP (fun k => decide (p k)) = (Finset.univ.filter p).card := by
  rw [List.countP_eq_length_filter]
  have : (Finset.univ.filter p : Finset (Fin n)) = ((List.finRange n).filter fun k => decide (p k)).toFinset := by
    ext k; simp
  rw [this, List.toFinset_card_of_nodup ((List.nodup_finRange n).filter _)]

section IntScatter
variable {s si u : Shape} {w : Nat}

theorem scatter_apply (d : ScatterDims s si u) (f : BitVec 32 → BitVec 32 → BitVec 32) (x : s.Idx → BitVec 32)
    (idx : IVec si w) (upd : u.Idx → BitVec 32) (i : s.Idx) :
    Host.scatter d f x idx upd i
      = (List.finRange u.numel).foldl (fun a n => if d.resultIdx? (u.rowMajor.symm n) idx = some i
          then f a (upd (u.rowMajor.symm n)) else a) (x i) := by
  unfold Host.scatter
  refine foldl_step_apply _ (fun n => d.resultIdx? (u.rowMajor.symm n) idx) f (fun n => upd (u.rowMajor.symm n)) ?_ i _ x
  intro r n i'
  cases hg : d.resultIdx? (u.rowMajor.symm n) idx with
  | none => simp
  | some i₀ =>
    by_cases h : i' = i₀
    · subst h; simp
    · have h' : ¬ (i₀ = i') := fun e => h e.symm
      simp [h, h']

theorem scatter_ones_apply (d : ScatterDims s si u) (idx : IVec si w) (i : s.Idx) :
    Host.scatter d IntOp.addi (fun _ => 0#32) idx (fun _ => 1#32) i
      = BitVec.ofNat 32 (Finset.univ.filter fun j : u.Idx => d.resultIdx? j idx = some i).card := by
  rw [scatter_apply]
  show (List.finRange u.numel).foldl (fun a n => if d.resultIdx? (u.rowMajor.symm n) idx = some i then a + 1#32 else a) 0#32 = _
  rw [foldl_count (fun n => d.resultIdx? (u.rowMajor.symm n) idx = some i), countP_finRange, BitVec.zero_add]
  congr 1
  exact Finset.card_bij (fun n _ => u.rowMajor.symm n) (fun n hn => by simpa using hn)
    (fun a _ b _ h => u.rowMajor.symm.injective h)
    (fun j hj => ⟨u.rowMajor j, by simpa using hj, by simp⟩)

end IntScatter

end Cert.Lib.HostIndex

end
-- ==== Proof.LibUnitAxis.lean ====
import Idealize.ShloMosaic.Lib.Pipeline.Value
import Idealize.ShloMosaic.Lib.ValueIdx

noncomputable section

namespace Cert.Lib.UnitAxis

open Idealize.ShloMosaic Idealize.ShloMosaic.ValueIdx

variable {α : Type}

theorem reshape_col_eq_broadcastInDim {n : Nat} (y : (⟨1, ![n]⟩ : Shape).Idx → α)
    (h : (⟨1, ![n]⟩ : Shape).ShapeCasts ⟨2, ![n, 1]⟩) (hb : (⟨1, ![n]⟩ : Shape).BroadcastsInDim ⟨2, ![n, 1]⟩ ![0]) :
    shapeCast ⟨2, ![n, 1]⟩ y h = broadcastInDim ⟨2, ![n, 1]⟩ ![0] hb y := by
  funext i
  have hi0 : (i 0).val < n := (i 0).isLt
  have hi1 : (i 1).val < 1 := (i 1).isLt
  have e1 := shapeCast_apply y h i (ix1 (⟨(i 0).val, hi0⟩ : Fin n)) (by
    rw [Shape.rowMajor_val_two, Shape.rowMajor_val_one]; show (i 0).val = (i 0).val * 1 + (i 1).val; omega)
  have e2 := broadcastInDim_apply ![0] hb y i (ix1 (⟨(i 0).val, hi0⟩ : Fin n)) (by
    intro a
    match a with
    | ⟨0, _⟩ =>
      show (i 0).val = if n = 1 then 0 else (i 0).val
      split
      · omega
      · rfl)
  exact e1.trans e2.symm

theorem reshape_row_eq_broadcastInDim {n : Nat} (y : (⟨1, ![n]⟩ : Shape).Idx → α)
    (h : (⟨1, ![n]⟩ : Shape).ShapeCasts ⟨2, ![1, n]⟩) (hb : (⟨1, ![n]⟩ : Shape).BroadcastsInDim ⟨2, ![1, n]⟩ ![1]) :
    shapeCast ⟨2, ![1, n]⟩ y h = broadcastInDim ⟨2, ![1, n]⟩ ![1] hb y := by
  funext i
  have hi0 : (i 0).val < 1 := (i 0).isLt
  have hi1 : (i 1).val < n := (i 1).isLt
  have e1 := shapeCast_apply y h i (ix1 (⟨(i 1).val, hi1⟩ : Fin n)) (by
    rw [Shape.rowMajor_val_two, Shape.rowMajor_val_one]; show (i 1).val = (i 0).val * n + (i 1).val
    have : (i 0).val = 0 := by omega
    rw [this]; omega)
  have e2 := broadcastInDim_apply ![1] hb y i (ix1 (⟨(i 1).val, hi1⟩ : Fin n)) (by
    intro a
    match a with
    | ⟨0, _⟩ =>
      show (i 1).val = if n = 1 then 0 else (i 1).val
      split
      · omega
      · rfl)
  exact e1.trans e2.symm

end Cert.Lib.UnitAxis

end
-- ==== Proof.KI.HostGraph.lean ====
import proofs.«408734_j33483565039990_3_alg».proof.Proof.KI.Fold
import proofs.«408734_j33483565039990_3_alg».proof.Proof.MathSpec
import proofs.«408734_j33483565039990_3_alg».proof.Proof.LibRowGather
import proofs.«408734_j33483565039990_3_alg».proof.Proof.LibRowScatter
import proofs.«408734_j33483565039990_3_alg».proof.Proof.LibHostIndex
import proofs.«408734_j33483565039990_3_alg».proof.Proof.LibUnitAxis
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.Lib.IdealHost
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

theorem msgConcat_apply (ei : S2x800000.Idx → BitVec 32) (r : Fin 2) (k : ℕ) (hk : k = r.val) (e : Fin 850000)
    (hs : S2x800000.Slices ![k, 0] S1x800000) (hc : S1x800000.ShapeCasts S800000)
    (hcat : Shape.Concatenates [S800000, S50000] S850000 0) :
    concatenate S850000 0 [⟨S800000, shapeCast S800000 (extractStridedSlice S1x800000 ![k, 0] ei hs) hc⟩,
        ⟨S50000, iotaInDim S50000 32 0⟩] hcat (ix1 e) = Cert.MathSpec.msgWord ei r e := by
  unfold Cert.MathSpec.msgWord
  by_cases h : e.val < 800000
  · rw [dif_pos h]
    rw [concatenate_pair_apply_left (t := S850000) (s₁ := S800000) (s₂ := S50000) (0 : Fin 1) _ _ hcat (ix1 e) rfl
      (ix1 (⟨e.val, h⟩ : Fin 800000)) (by intro b; match b with | ⟨0, _⟩ => rfl)]
    rw [shapeCast_apply _ hc (ix1 (⟨e.val, h⟩ : Fin 800000)) (ix2 (0 : Fin 1) (⟨e.val, h⟩ : Fin 800000))
      (by rw [Shape.rowMajor_val_two, Shape.rowMajor_val_one]; show 0 * 800000 + e.val = e.val; omega)]
    rw [extractStridedSlice_apply _ ei hs _ (ix2 r (⟨e.val, h⟩ : Fin 800000))
      (by intro a; match a with
        | ⟨0, _⟩ => show r.val = k + 0; omega
        | ⟨1, _⟩ => show e.val = 0 + e.val; omega)]
  · rw [dif_neg h]
    have he := e.isLt
    rw [concatenate_pair_apply_right (t := S850000) (s₁ := S800000) (s₂ := S50000) (0 : Fin 1) _ _ hcat (ix1 e) rfl rfl
      (ix1 (⟨e.val - 800000, by omega⟩ : Fin 50000))
      (by intro b hb; match b with | ⟨0, _⟩ => exact absurd rfl hb)
      (by show e.val - 800000 + 800000 = e.val; omega)]
    rfl

theorem bcastCol_apply {α : Type} (v : S850000.Idx → α) (hb : S850000.BroadcastsInDim S850000x1 (![0] : Fin 1 → Fin S850000x1.rank))
    (n : Fin 850000) (z : Fin 1) : broadcastInDim S850000x1 ![0] hb v (ix2 n z) = v (ix1 n) :=
  broadcastInDim_apply ![0] hb v (ix2 n z) (ix1 n) (by
    intro a
    match a with
    | ⟨0, _⟩ => show n.val = if (850000 : ℕ) = 1 then 0 else n.val; rw [if_neg (by omega)])

theorem select_wrap (w : BitVec 32) :
    Scalar.select (IntOp.cmpi .slt w 0#32) (IntOp.addi w 50000#32) w = Cert.MathSpec.wrap w := by
  cases h : BitVec.slt w 0#32 <;> simp [Cert.MathSpec.wrap, Scalar.select, IntOp.cmpi, IntOp.addi, h]

theorem wrapArr_apply {s : Shape} (srcA z0 z1 : s.Idx → BitVec 32) (i : s.Idx) :
    select (cmpi .slt srcA z0) (addi srcA z1) srcA i
      = Scalar.select (IntOp.cmpi .slt (srcA i) (z0 i)) (IntOp.addi (srcA i) (z1 i)) (srcA i) := rfl

theorem scatterAddRows_apply {N R C w : Nat} (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (p : Fin N) (q : Fin C) :
    Host.scatterAdd (F := Ideal) (φ := .f32) (Cert.Lib.RowScatter.putRowDims N R C wf) x idx upd (ix2 p q)
      = x (ix2 p q) + ∑ n : Fin R, if (idx (ix2 n (0 : Fin 1))).toInt = (p.val : ℤ) then upd (ix2 n q) else 0 :=
  Cert.Lib.RowScatter.hostScatterAdd_rows_apply wf x idx upd p q

theorem rsqrt_sitofp_apply {s : Shape} (x : IVec s 32) (i : s.Idx) :
    Host.rsqrt (F := Ideal) (sitofp (F := Ideal) .f32 x) i = Ideal.rsqrt (((x i).toInt : ℝ) : EReal) := rfl

theorem aggK_apply (G : Cert.MathSpec.Graph) (ht : Cert.Spec.M2 50000 128) (p : Fin 50000) (q : Fin 128) :
    Cert.MathSpec.aggK G ht (ix2 p q) = ∑ e : Fin 850000, if G.dst e = (p.val : ℤ) then ht (ix2 (G.src e) q) else 0 := rfl

theorem dinvK_apply (G : Cert.MathSpec.Graph) (p : Fin 50000) (z : Fin 1) :
    Cert.MathSpec.dinvK G (ix2 p z) = Ideal.rsqrt (((BitVec.ofNat 32 (Cert.MathSpec.inDeg G p)).toInt : ℝ) : EReal) := rfl

theorem aggHost_eq (ei : S2x800000.Idx → BitVec 32) (ht : Cert.Spec.M2 50000 128) (srcA dstA : S850000.Idx → BitVec 32)
    (hs : ∀ e : Fin 850000, srcA (ix1 e) = Cert.MathSpec.msgWord ei 0 e)
    (hd : ∀ e : Fin 850000, dstA (ix1 e) = Cert.MathSpec.msgWord ei 1 e) :
    (Host.scatterAdd (F := Ideal) scatter_S50000x128_S850000x1_S850000x128_1_0_0_1
        (broadcastInDim S50000x128 ![] bcast_S_S50000x128 (constant (F := Ideal) S_ .f32 0x00000000#32))
        (broadcastInDim S850000x1 ![0] bcast_S850000_S850000x1_0 dstA)
        (Host.gather gather_S50000x128_S850000x1_S850000x128_1_0_n_n_0_1_1128 ht
          (broadcastInDim S850000x1 ![0] bcast_S850000_S850000x1_0
            (select (cmpi .slt srcA (broadcastInDim S850000 ![] bcast_S_S850000 (constantI S_ 32 0#32)))
              (addi srcA (broadcastInDim S850000 ![] bcast_S_S850000 (constantI S_ 32 50000#32))) srcA)))
      : Cert.Spec.M2 50000 128)
      = Cert.MathSpec.aggK (Cert.MathSpec.graphOf ei) ht := by
  have hS : scatter_S50000x128_S850000x1_S850000x128_1_0_0_1
      = Cert.Lib.RowScatter.putRowDims 50000 850000 128 scatter_S50000x128_S850000x1_S850000x128_1_0_0_1_wf := rfl
  have hG : gather_S50000x128_S850000x1_S850000x128_1_0_n_n_0_1_1128
      = Cert.Lib.RowGather.rowDims 50000 128 850000 gather_S50000x128_S850000x1_S850000x128_1_0_n_n_0_1_1128_wf := rfl
  rw [hS, hG]
  funext j
  obtain ⟨p, q, rfl⟩ : ∃ p q, j = ix2 p q := ⟨Cert.Spec.rowOf j, Cert.Spec.colOf j, (Cert.Spec.ix2_rowOf_colOf j).symm⟩
  rw [scatterAddRows_apply, aggK_apply]
  rw [broadcastInDim_scalar_apply, constant_apply, Ideal.ofBits_zero_f32, zero_add]
  refine Finset.sum_congr rfl fun n _ => ?_
  have hw : broadcastInDim S850000x1 ![0] bcast_S850000_S850000x1_0
      (select (cmpi .slt srcA (broadcastInDim S850000 ![] bcast_S_S850000 (constantI S_ 32 0#32)))
        (addi srcA (broadcastInDim S850000 ![] bcast_S_S850000 (constantI S_ 32 50000#32))) srcA)
      (ix2 n ⟨0, Nat.one_pos⟩) = Cert.MathSpec.wrap (Cert.MathSpec.msgWord ei 0 n) := by
    rw [bcastCol_apply, wrapArr_apply, broadcastInDim_scalar_apply, broadcastInDim_scalar_apply, constantI_apply,
      constantI_apply, hs n]
    exact select_wrap _
  rw [bcastCol_apply, hd n, Cert.Lib.RowGather.rowGather_apply (N := 50000) (by omega)]
  simp only [hw]
  rfl

theorem degHost_eq (ei : S2x800000.Idx → BitVec 32) (dstA : S850000.Idx → BitVec 32)
    (hd : ∀ e : Fin 850000, dstA (ix1 e) = Cert.MathSpec.msgWord ei 1 e) (p : Fin 50000) :
    Host.scatter scatter_S50000_S850000x1_S850000_n_0_0_1 IntOp.addi
        (broadcastInDim S50000 ![] bcast_S_S50000 (constantI S_ 32 0#32))
        (broadcastInDim S850000x1 ![0] bcast_S850000_S850000x1_0 dstA)
        (broadcastInDim S850000 ![] bcast_S_S850000 (constantI S_ 32 1#32)) (ix1 p)
      = BitVec.ofNat 32 (Cert.MathSpec.inDeg (Cert.MathSpec.graphOf ei) p) := by
  have hP : scatter_S50000_S850000x1_S850000_n_0_0_1
      = Cert.Lib.HostIndex.put1Dims 50000 850000 scatter_S50000_S850000x1_S850000_n_0_0_1_wf := rfl
  have h0 : broadcastInDim S50000 ![] bcast_S_S50000 (constantI S_ 32 0#32) = fun _ => 0#32 :=
    funext fun i => by rw [broadcastInDim_scalar_apply, constantI_apply]
  have h1 : broadcastInDim S850000 ![] bcast_S_S850000 (constantI S_ 32 1#32) = fun _ => 1#32 :=
    funext fun i => by rw [broadcastInDim_scalar_apply, constantI_apply]
  rw [hP, h0, h1, Cert.Lib.HostIndex.scatter_ones_apply]
  refine congrArg (BitVec.ofNat 32) ?_
  rw [Finset.filter_congr (fun j _ => Cert.Lib.HostIndex.put1_resultIdx?_eq_some_iff _ j _ (ix1 p)),
    Cert.Lib.HostIndex.card_filter_idx1]
  unfold Cert.MathSpec.inDeg
  refine congrArg Finset.card (Finset.filter_congr fun e _ => ?_)
  show (broadcastInDim S850000x1 ![0] bcast_S850000_S850000x1_0 dstA (ix2 e (0 : Fin 1))).toInt = (p.val : ℤ)
    ↔ (Cert.MathSpec.graphOf ei).dst e = (p.val : ℤ)
  rw [bcastCol_apply, hd e]
  rfl

variable (m : (ℓ : Loc nD τ sig) → Buf (Elt Ideal) ℓ)

abbrev msgArr (c : Dev nD) (k : ℕ) (hs : S2x800000.Slices ![k, 0] S1x800000) : S850000.Idx → BitVec 32 :=
  concatenate S850000 0 [⟨S800000, shapeCast S800000 (extractStridedSlice S1x800000 ![k, 0]
      (m ((c : Thread nD τ).loc main_arg1)) hs) shapeCasts_S1x800000_S800000⟩,
    ⟨S50000, iotaInDim S50000 32 0⟩] concatenates_S800000_S50000_S850000_d0

theorem U1_v3_eq (c : Dev nD) :
    (U1 (F := Ideal) m c main_v3 : S850000.Idx → BitVec 32) = msgArr m c 0 slices_S2x800000_S1x800000_0_0 := by
  show StableHlo.after hostOps0 _ (Proc.devRef .tc main_v3) = _
  after_results
  rfl

theorem U1_v6_eq (c : Dev nD) :
    (U1 (F := Ideal) m c main_v6 : S850000.Idx → BitVec 32) = msgArr m c 1 slices_S2x800000_S1x800000_1_0 := by
  show StableHlo.after hostOps0 _ (Proc.devRef .tc main_v6) = _
  after_results
  rfl

theorem U1_src (c : Dev nD) (e : Fin 850000) :
    (U1 (F := Ideal) m c main_v3 : S850000.Idx → BitVec 32) (ix1 e)
      = Cert.MathSpec.msgWord (m ((c : Thread nD τ).loc main_arg1)) 0 e := by
  rw [U1_v3_eq]
  exact msgConcat_apply _ 0 0 rfl e _ _ _

theorem U1_dst (c : Dev nD) (e : Fin 850000) :
    (U1 (F := Ideal) m c main_v6 : S850000.Idx → BitVec 32) (ix1 e)
      = Cert.MathSpec.msgWord (m ((c : Thread nD τ).loc main_arg1)) 1 e := by
  rw [U1_v6_eq]
  exact msgConcat_apply _ 1 1 rfl e _ _ _

theorem U1_dinv (c : Dev nD) :
    (U1 (F := Ideal) m c main_v13 : Cert.Spec.M2 50000 1)
      = Cert.MathSpec.dinvK (Cert.MathSpec.graphOf (m ((c : Thread nD τ).loc main_arg1))) := by
  have e13 : (U1 (F := Ideal) m c main_v13 : S50000x1.Idx → EReal) =
      shapeCast S50000x1 (Host.rsqrt (F := Ideal) (sitofp (F := Ideal) .f32
        (Host.scatter scatter_S50000_S850000x1_S850000_n_0_0_1 IntOp.addi
          (broadcastInDim S50000 ![] bcast_S_S50000 (constantI S_ 32 0#32))
          (broadcastInDim S850000x1 ![0] bcast_S850000_S850000x1_0 (msgArr m c 1 slices_S2x800000_S1x800000_1_0))
          (broadcastInDim S850000 ![] bcast_S_S850000 (constantI S_ 32 1#32))))) shapeCasts_S50000_S50000x1 := by
    show StableHlo.after hostOps0 _ (Proc.devRef .tc main_v13) = _
    after_results
    rfl
  rw [e13]
  funext j
  obtain ⟨p, z, rfl⟩ : ∃ p z, j = ix2 p z := ⟨Cert.Spec.rowOf j, Cert.Spec.colOf j, (Cert.Spec.ix2_rowOf_colOf j).symm⟩
  have hz : z.val = 0 := by omega
  rw [shapeCast_apply _ shapeCasts_S50000_S50000x1 (ix2 p z) (ix1 p)
    (by rw [Shape.rowMajor_val_two, Shape.rowMajor_val_one]; show p.val = p.val * 1 + z.val; omega)]
  rw [rsqrt_sitofp_apply, dinvK_apply,
    degHost_eq (m ((c : Thread nD τ).loc main_arg1)) _ (fun e => msgConcat_apply _ 1 1 rfl e _ _ _) p]

end Cert.KernelIdeal.Hand
end
-- ==== Proof.KI.Chain.lean ====
import proofs.«408734_j33483565039990_3_alg».proof.Proof.KI.Fold
import proofs.«408734_j33483565039990_3_alg».proof.Proof.KI.Val0
import proofs.«408734_j33483565039990_3_alg».proof.Proof.KI.Val1
import proofs.«408734_j33483565039990_3_alg».proof.Proof.KI.Val2
import proofs.«408734_j33483565039990_3_alg».proof.Proof.KI.Val3
import proofs.«408734_j33483565039990_3_alg».proof.Proof.KI.Val4
import proofs.«408734_j33483565039990_3_alg».proof.Proof.KI.Val5
import proofs.«408734_j33483565039990_3_alg».proof.Proof.KI.Val6
import proofs.«408734_j33483565039990_3_alg».proof.Proof.KI.Val7
import proofs.«408734_j33483565039990_3_alg».proof.Proof.KI.HostGraph
import proofs.«408734_j33483565039990_3_alg».proof.Proof.MathSpec
import Idealize.ShloMosaic.Lib.IdealHost
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators
open Cert.Spec Cert.MathSpec

variable (m : (ℓ : Loc nD τ sig) → Buf (Elt Ideal) ℓ)

abbrev Gr (c : Dev nD) : Graph := graphOf (m ((c : Thread nD τ).loc main_arg1))

def paramsOf (c : Dev nD) : Params :=
  ⟨m ((c : Thread nD τ).loc main_arg0), m ((c : Thread nD τ).loc main_arg2), m ((c : Thread nD τ).loc main_arg3),
   m ((c : Thread nD τ).loc main_arg4), m ((c : Thread nD τ).loc main_arg5), m ((c : Thread nD τ).loc main_arg6),
   m ((c : Thread nD τ).loc main_arg7), m ((c : Thread nD τ).loc main_arg8), m ((c : Thread nD τ).loc main_arg9),
   m ((c : Thread nD τ).loc main_arg10), m ((c : Thread nD τ).loc main_arg11), m ((c : Thread nD τ).loc main_arg12),
   m ((c : Thread nD τ).loc main_arg13)⟩

namespace Chain

theorem shapeCast_row {n : Nat} (v : V1 n) (h : (⟨1, ![n]⟩ : Shape).ShapeCasts ⟨2, ![1, n]⟩) :
    shapeCast ⟨2, ![1, n]⟩ v h = rowVec v := by
  funext j
  have hj0 : (j 0).val < 1 := (j 0).isLt
  refine shapeCast_apply v h j (ix1 (colOf j)) ?_
  rw [Shape.rowMajor_val_two, Shape.rowMajor_val_one]
  show (j 1).val = (j 0).val * n + (j 1).val
  have : (j 0).val = 0 := by omega
  rw [this]; omega

theorem shapeCast_vec {n : Nat} (s : M2 1 n) (h : (⟨2, ![1, n]⟩ : Shape).ShapeCasts ⟨1, ![n]⟩) (i : (⟨1, ![n]⟩ : Shape).Idx) :
    shapeCast ⟨1, ![n]⟩ s h i = s (ix2 0 (elt1 i)) := by
  refine shapeCast_apply s h i (ix2 0 (elt1 i)) ?_
  rw [Shape.rowMajor_val_two, Shape.rowMajor_val_one]
  show 0 * n + (i 0).val = (i 0).val
  omega

theorem mean_stretch (s : M2 1 128) (h1 : (⟨2, ![1, 128]⟩ : Shape).ShapeCasts ⟨1, ![128]⟩)
    (h2 : (⟨1, ![128]⟩ : Shape).ShapeCasts ⟨2, ![1, 128]⟩) (hb : (⟨0, ![]⟩ : Shape).BroadcastsInDim ⟨1, ![128]⟩ ![]) :
    shapeCast ⟨2, ![1, 128]⟩ (Host.divf (F := Ideal) (φ := .f32) (shapeCast ⟨1, ![128]⟩ s h1)
      (broadcastInDim ⟨1, ![128]⟩ ![] hb (constant (F := Ideal) ⟨0, ![]⟩ .f32 0x47435000#32))) h2 = meanOf s := by
  rw [shapeCast_row]
  funext j
  show Ideal.div (shapeCast ⟨1, ![128]⟩ s h1 (ix1 (colOf j)))
    (broadcastInDim ⟨1, ![128]⟩ ![] hb (constant (F := Ideal) ⟨0, ![]⟩ .f32 0x47435000#32) (ix1 (colOf j))) = _
  rw [shapeCast_vec, broadcastInDim_scalar_apply]
  rfl

theorem invStd_stretch (s : M2 1 128) (h1 : (⟨2, ![1, 128]⟩ : Shape).ShapeCasts ⟨1, ![128]⟩)
    (h2 : (⟨1, ![128]⟩ : Shape).ShapeCasts ⟨2, ![1, 128]⟩) (hb : (⟨0, ![]⟩ : Shape).BroadcastsInDim ⟨1, ![128]⟩ ![]) :
    shapeCast ⟨2, ![1, 128]⟩ (Host.rsqrt (F := Ideal) (φ := .f32) (addf (Host.divf (shapeCast ⟨1, ![128]⟩ s h1)
      (broadcastInDim ⟨1, ![128]⟩ ![] hb (constant (F := Ideal) ⟨0, ![]⟩ .f32 0x47435000#32)))
      (broadcastInDim ⟨1, ![128]⟩ ![] hb (constant (F := Ideal) ⟨0, ![]⟩ .f32 0x3727C5AC#32)))) h2 = invStdOf s := by
  rw [shapeCast_row]
  funext j
  show Ideal.rsqrt (Ideal.div (shapeCast ⟨1, ![128]⟩ s h1 (ix1 (colOf j)))
    (broadcastInDim ⟨1, ![128]⟩ ![] hb (constant (F := Ideal) ⟨0, ![]⟩ .f32 0x47435000#32) (ix1 (colOf j)))
    + broadcastInDim ⟨1, ![128]⟩ ![] hb (constant (F := Ideal) ⟨0, ![]⟩ .f32 0x3727C5AC#32) (ix1 (colOf j))) = _
  rw [shapeCast_vec, broadcastInDim_scalar_apply, broadcastInDim_scalar_apply]
  rfl

def H1 (c : Dev nD) : M2 50000 128 := scaledMatmul (paramsOf m c).x (paramsOf m c).W1 (dinvK (Gr m c))

def A1 (c : Dev nD) : M2 50000 128 := aggK (Gr m c) (H1 m c)

def H2 (c : Dev nD) : M2 50000 128 := nextK (Gr m c) (A1 m c) (paramsOf m c).b1 (paramsOf m c).g1 (paramsOf m c).bt1 (paramsOf m c).W2

def A2 (c : Dev nD) : M2 50000 128 := aggK (Gr m c) (H2 m c)

def H3 (c : Dev nD) : M2 50000 128 := nextK (Gr m c) (A2 m c) (paramsOf m c).b2 (paramsOf m c).g2 (paramsOf m c).bt2 (paramsOf m c).W3

def A3 (c : Dev nD) : M2 50000 128 := aggK (Gr m c) (H3 m c)

theorem A3_eq (c : Dev nD) : A3 m c = agg3K (Gr m c) (paramsOf m c) := rfl

def aggHost (srcA dstA : S850000.Idx → BitVec 32) (ht : M2 50000 128) : M2 50000 128 :=
  (Host.scatterAdd (F := Ideal) scatter_S50000x128_S850000x1_S850000x128_1_0_0_1
        (broadcastInDim S50000x128 ![] bcast_S_S50000x128 (constant (F := Ideal) S_ .f32 0x00000000#32))
        (broadcastInDim S850000x1 ![0] bcast_S850000_S850000x1_0 dstA)
        (Host.gather gather_S50000x128_S850000x1_S850000x128_1_0_n_n_0_1_1128 ht
          (broadcastInDim S850000x1 ![0] bcast_S850000_S850000x1_0
            (select (cmpi .slt srcA (broadcastInDim S850000 ![] bcast_S_S850000 (constantI S_ 32 0#32)))
              (addi srcA (broadcastInDim S850000 ![] bcast_S_S850000 (constantI S_ 32 50000#32))) srcA))))

theorem U1_arg0 (c : Dev nD) : U1 (F := Ideal) m c main_arg0 = m ((c : Thread nD τ).loc main_arg0) :=
  (U1_of m c main_arg0 (by decide)).trans <| rfl

theorem U1_arg2 (c : Dev nD) : U1 (F := Ideal) m c main_arg2 = m ((c : Thread nD τ).loc main_arg2) :=
  (U1_of m c main_arg2 (by decide)).trans <| rfl

theorem U2_arg3 (c : Dev nD) : U2 (F := Ideal) m c main_arg3 = m ((c : Thread nD τ).loc main_arg3) :=
  (U2_of m c main_arg3 (by decide)).trans <| (U1_of m c main_arg3 (by decide)).trans <| rfl

theorem U4_arg3 (c : Dev nD) : U4 (F := Ideal) m c main_arg3 = m ((c : Thread nD τ).loc main_arg3) :=
  (U4_of m c main_arg3 (by decide)).trans <| (U3_of m c main_arg3 (by decide)).trans <| (U2_of m c main_arg3 (by decide)).trans <| (U1_of m c main_arg3 (by decide)).trans <| rfl

theorem U6_arg3 (c : Dev nD) : U6 (F := Ideal) m c main_arg3 = m ((c : Thread nD τ).loc main_arg3) :=
  (U6_of m c main_arg3 (by decide)).trans <| (U5_of m c main_arg3 (by decide)).trans <| (U4_of m c main_arg3 (by decide)).trans <| (U3_of m c main_arg3 (by decide)).trans <| (U2_of m c main_arg3 (by decide)).trans <| (U1_of m c main_arg3 (by decide)).trans <| rfl

theorem U6_arg4 (c : Dev nD) : U6 (F := Ideal) m c main_arg4 = m ((c : Thread nD τ).loc main_arg4) :=
  (U6_of m c main_arg4 (by decide)).trans <| (U5_of m c main_arg4 (by decide)).trans <| (U4_of m c main_arg4 (by decide)).trans <| (U3_of m c main_arg4 (by decide)).trans <| (U2_of m c main_arg4 (by decide)).trans <| (U1_of m c main_arg4 (by decide)).trans <| rfl

theorem U6_arg5 (c : Dev nD) : U6 (F := Ideal) m c main_arg5 = m ((c : Thread nD τ).loc main_arg5) :=
  (U6_of m c main_arg5 (by decide)).trans <| (U5_of m c main_arg5 (by decide)).trans <| (U4_of m c main_arg5 (by decide)).trans <| (U3_of m c main_arg5 (by decide)).trans <| (U2_of m c main_arg5 (by decide)).trans <| (U1_of m c main_arg5 (by decide)).trans <| rfl

theorem U7_arg6 (c : Dev nD) : U7 (F := Ideal) m c main_arg6 = m ((c : Thread nD τ).loc main_arg6) :=
  (U7_of m c main_arg6 (by decide)).trans <| (U6_of m c main_arg6 (by decide)).trans <| (U5_of m c main_arg6 (by decide)).trans <| (U4_of m c main_arg6 (by decide)).trans <| (U3_of m c main_arg6 (by decide)).trans <| (U2_of m c main_arg6 (by decide)).trans <| (U1_of m c main_arg6 (by decide)).trans <| rfl

theorem U8_arg7 (c : Dev nD) : U8 (F := Ideal) m c main_arg7 = m ((c : Thread nD τ).loc main_arg7) :=
  (U8_of m c main_arg7 (by decide)).trans <| (U7_of m c main_arg7 (by decide)).trans <| (U6_of m c main_arg7 (by decide)).trans <| (U5_of m c main_arg7 (by decide)).trans <| (U4_of m c main_arg7 (by decide)).trans <| (U3_of m c main_arg7 (by decide)).trans <| (U2_of m c main_arg7 (by decide)).trans <| (U1_of m c main_arg7 (by decide)).trans <| rfl

theorem U10_arg7 (c : Dev nD) : U10 (F := Ideal) m c main_arg7 = m ((c : Thread nD τ).loc main_arg7) :=
  (U10_of m c main_arg7 (by decide)).trans <| (U9_of m c main_arg7 (by decide)).trans <| (U8_of m c main_arg7 (by decide)).trans <| (U7_of m c main_arg7 (by decide)).trans <| (U6_of m c main_arg7 (by decide)).trans <| (U5_of m c main_arg7 (by decide)).trans <| (U4_of m c main_arg7 (by decide)).trans <| (U3_of m c main_arg7 (by decide)).trans <| (U2_of m c main_arg7 (by decide)).trans <| (U1_of m c main_arg7 (by decide)).trans <| rfl

theorem U12_arg7 (c : Dev nD) : U12 (F := Ideal) m c main_arg7 = m ((c : Thread nD τ).loc main_arg7) :=
  (U12_of m c main_arg7 (by decide)).trans <| (U11_of m c main_arg7 (by decide)).trans <| (U10_of m c main_arg7 (by decide)).trans <| (U9_of m c main_arg7 (by decide)).trans <| (U8_of m c main_arg7 (by decide)).trans <| (U7_of m c main_arg7 (by decide)).trans <| (U6_of m c main_arg7 (by decide)).trans <| (U5_of m c main_arg7 (by decide)).trans <| (U4_of m c main_arg7 (by decide)).trans <| (U3_of m c main_arg7 (by decide)).trans <| (U2_of m c main_arg7 (by decide)).trans <| (U1_of m c main_arg7 (by decide)).trans <| rfl

theorem U12_arg8 (c : Dev nD) : U12 (F := Ideal) m c main_arg8 = m ((c : Thread nD τ).loc main_arg8) :=
  (U12_of m c main_arg8 (by decide)).trans <| (U11_of m c main_arg8 (by decide)).trans <| (U10_of m c main_arg8 (by decide)).trans <| (U9_of m c main_arg8 (by decide)).trans <| (U8_of m c main_arg8 (by decide)).trans <| (U7_of m c main_arg8 (by decide)).trans <| (U6_of m c main_arg8 (by decide)).trans <| (U5_of m c main_arg8 (by decide)).trans <| (U4_of m c main_arg8 (by decide)).trans <| (U3_of m c main_arg8 (by decide)).trans <| (U2_of m c main_arg8 (by decide)).trans <| (U1_of m c main_arg8 (by decide)).trans <| rfl

theorem U12_arg9 (c : Dev nD) : U12 (F := Ideal) m c main_arg9 = m ((c : Thread nD τ).loc main_arg9) :=
  (U12_of m c main_arg9 (by decide)).trans <| (U11_of m c main_arg9 (by decide)).trans <| (U10_of m c main_arg9 (by decide)).trans <| (U9_of m c main_arg9 (by decide)).trans <| (U8_of m c main_arg9 (by decide)).trans <| (U7_of m c main_arg9 (by decide)).trans <| (U6_of m c main_arg9 (by decide)).trans <| (U5_of m c main_arg9 (by decide)).trans <| (U4_of m c main_arg9 (by decide)).trans <| (U3_of m c main_arg9 (by decide)).trans <| (U2_of m c main_arg9 (by decide)).trans <| (U1_of m c main_arg9 (by decide)).trans <| rfl

theorem U13_arg10 (c : Dev nD) : U13 (F := Ideal) m c main_arg10 = m ((c : Thread nD τ).loc main_arg10) :=
  (U13_of m c main_arg10 (by decide)).trans <| (U12_of m c main_arg10 (by decide)).trans <| (U11_of m c main_arg10 (by decide)).trans <| (U10_of m c main_arg10 (by decide)).trans <| (U9_of m c main_arg10 (by decide)).trans <| (U8_of m c main_arg10 (by decide)).trans <| (U7_of m c main_arg10 (by decide)).trans <| (U6_of m c main_arg10 (by decide)).trans <| (U5_of m c main_arg10 (by decide)).trans <| (U4_of m c main_arg10 (by decide)).trans <| (U3_of m c main_arg10 (by decide)).trans <| (U2_of m c main_arg10 (by decide)).trans <| (U1_of m c main_arg10 (by decide)).trans <| rfl

theorem U14_arg11 (c : Dev nD) : U14 (F := Ideal) m c main_arg11 = m ((c : Thread nD τ).loc main_arg11) :=
  (U14_of m c main_arg11 (by decide)).trans <| (U13_of m c main_arg11 (by decide)).trans <| (U12_of m c main_arg11 (by decide)).trans <| (U11_of m c main_arg11 (by decide)).trans <| (U10_of m c main_arg11 (by decide)).trans <| (U9_of m c main_arg11 (by decide)).trans <| (U8_of m c main_arg11 (by decide)).trans <| (U7_of m c main_arg11 (by decide)).trans <| (U6_of m c main_arg11 (by decide)).trans <| (U5_of m c main_arg11 (by decide)).trans <| (U4_of m c main_arg11 (by decide)).trans <| (U3_of m c main_arg11 (by decide)).trans <| (U2_of m c main_arg11 (by decide)).trans <| (U1_of m c main_arg11 (by decide)).trans <| rfl

theorem U14_arg13 (c : Dev nD) : U14 (F := Ideal) m c main_arg13 = m ((c : Thread nD τ).loc main_arg13) :=
  (U14_of m c main_arg13 (by decide)).trans <| (U13_of m c main_arg13 (by decide)).trans <| (U12_of m c main_arg13 (by decide)).trans <| (U11_of m c main_arg13 (by decide)).trans <| (U10_of m c main_arg13 (by decide)).trans <| (U9_of m c main_arg13 (by decide)).trans <| (U8_of m c main_arg13 (by decide)).trans <| (U7_of m c main_arg13 (by decide)).trans <| (U6_of m c main_arg13 (by decide)).trans <| (U5_of m c main_arg13 (by decide)).trans <| (U4_of m c main_arg13 (by decide)).trans <| (U3_of m c main_arg13 (by decide)).trans <| (U2_of m c main_arg13 (by decide)).trans <| (U1_of m c main_arg13 (by decide)).trans <| rfl

theorem U15_arg12 (c : Dev nD) : U15 (F := Ideal) m c main_arg12 = m ((c : Thread nD τ).loc main_arg12) :=
  (U15_of m c main_arg12 (by decide)).trans <| (U14_of m c main_arg12 (by decide)).trans <| (U13_of m c main_arg12 (by decide)).trans <| (U12_of m c main_arg12 (by decide)).trans <| (U11_of m c main_arg12 (by decide)).trans <| (U10_of m c main_arg12 (by decide)).trans <| (U9_of m c main_arg12 (by decide)).trans <| (U8_of m c main_arg12 (by decide)).trans <| (U7_of m c main_arg12 (by decide)).trans <| (U6_of m c main_arg12 (by decide)).trans <| (U5_of m c main_arg12 (by decide)).trans <| (U4_of m c main_arg12 (by decide)).trans <| (U3_of m c main_arg12 (by decide)).trans <| (U2_of m c main_arg12 (by decide)).trans <| (U1_of m c main_arg12 (by decide)).trans <| rfl

theorem U3_v13 (c : Dev nD) : U3 (F := Ideal) m c main_v13 = U1 (F := Ideal) m c main_v13 :=
  (U3_of m c main_v13 (by decide)).trans <| (U2_of m c main_v13 (by decide))

theorem U5_v13 (c : Dev nD) : U5 (F := Ideal) m c main_v13 = U1 (F := Ideal) m c main_v13 :=
  (U5_of m c main_v13 (by decide)).trans <| (U4_of m c main_v13 (by decide)).trans <| (U3_of m c main_v13 (by decide)).trans <| (U2_of m c main_v13 (by decide))

theorem U7_v13 (c : Dev nD) : U7 (F := Ideal) m c main_v13 = U1 (F := Ideal) m c main_v13 :=
  (U7_of m c main_v13 (by decide)).trans <| (U6_of m c main_v13 (by decide)).trans <| (U5_of m c main_v13 (by decide)).trans <| (U4_of m c main_v13 (by decide)).trans <| (U3_of m c main_v13 (by decide)).trans <| (U2_of m c main_v13 (by decide))

theorem U9_v13 (c : Dev nD) : U9 (F := Ideal) m c main_v13 = U1 (F := Ideal) m c main_v13 :=
  (U9_of m c main_v13 (by decide)).trans <| (U8_of m c main_v13 (by decide)).trans <| (U7_of m c main_v13 (by decide)).trans <| (U6_of m c main_v13 (by decide)).trans <| (U5_of m c main_v13 (by decide)).trans <| (U4_of m c main_v13 (by decide)).trans <| (U3_of m c main_v13 (by decide)).trans <| (U2_of m c main_v13 (by decide))

theorem U11_v13 (c : Dev nD) : U11 (F := Ideal) m c main_v13 = U1 (F := Ideal) m c main_v13 :=
  (U11_of m c main_v13 (by decide)).trans <| (U10_of m c main_v13 (by decide)).trans <| (U9_of m c main_v13 (by decide)).trans <| (U8_of m c main_v13 (by decide)).trans <| (U7_of m c main_v13 (by decide)).trans <| (U6_of m c main_v13 (by decide)).trans <| (U5_of m c main_v13 (by decide)).trans <| (U4_of m c main_v13 (by decide)).trans <| (U3_of m c main_v13 (by decide)).trans <| (U2_of m c main_v13 (by decide))

theorem U13_v13 (c : Dev nD) : U13 (F := Ideal) m c main_v13 = U1 (F := Ideal) m c main_v13 :=
  (U13_of m c main_v13 (by decide)).trans <| (U12_of m c main_v13 (by decide)).trans <| (U11_of m c main_v13 (by decide)).trans <| (U10_of m c main_v13 (by decide)).trans <| (U9_of m c main_v13 (by decide)).trans <| (U8_of m c main_v13 (by decide)).trans <| (U7_of m c main_v13 (by decide)).trans <| (U6_of m c main_v13 (by decide)).trans <| (U5_of m c main_v13 (by decide)).trans <| (U4_of m c main_v13 (by decide)).trans <| (U3_of m c main_v13 (by decide)).trans <| (U2_of m c main_v13 (by decide))

theorem U15_v13 (c : Dev nD) : U15 (F := Ideal) m c main_v13 = U1 (F := Ideal) m c main_v13 :=
  (U15_of m c main_v13 (by decide)).trans <| (U14_of m c main_v13 (by decide)).trans <| (U13_of m c main_v13 (by decide)).trans <| (U12_of m c main_v13 (by decide)).trans <| (U11_of m c main_v13 (by decide)).trans <| (U10_of m c main_v13 (by decide)).trans <| (U9_of m c main_v13 (by decide)).trans <| (U8_of m c main_v13 (by decide)).trans <| (U7_of m c main_v13 (by decide)).trans <| (U6_of m c main_v13 (by decide)).trans <| (U5_of m c main_v13 (by decide)).trans <| (U4_of m c main_v13 (by decide)).trans <| (U3_of m c main_v13 (by decide)).trans <| (U2_of m c main_v13 (by decide))

theorem U2_v3 (c : Dev nD) : U2 (F := Ideal) m c main_v3 = U1 (F := Ideal) m c main_v3 :=
  (U2_of m c main_v3 (by decide))

theorem U8_v3 (c : Dev nD) : U8 (F := Ideal) m c main_v3 = U1 (F := Ideal) m c main_v3 :=
  (U8_of m c main_v3 (by decide)).trans <| (U7_of m c main_v3 (by decide)).trans <| (U6_of m c main_v3 (by decide)).trans <| (U5_of m c main_v3 (by decide)).trans <| (U4_of m c main_v3 (by decide)).trans <| (U3_of m c main_v3 (by decide)).trans <| (U2_of m c main_v3 (by decide))

theorem U14_v3 (c : Dev nD) : U14 (F := Ideal) m c main_v3 = U1 (F := Ideal) m c main_v3 :=
  (U14_of m c main_v3 (by decide)).trans <| (U13_of m c main_v3 (by decide)).trans <| (U12_of m c main_v3 (by decide)).trans <| (U11_of m c main_v3 (by decide)).trans <| (U10_of m c main_v3 (by decide)).trans <| (U9_of m c main_v3 (by decide)).trans <| (U8_of m c main_v3 (by decide)).trans <| (U7_of m c main_v3 (by decide)).trans <| (U6_of m c main_v3 (by decide)).trans <| (U5_of m c main_v3 (by decide)).trans <| (U4_of m c main_v3 (by decide)).trans <| (U3_of m c main_v3 (by decide)).trans <| (U2_of m c main_v3 (by decide))

theorem U2_v6 (c : Dev nD) : U2 (F := Ideal) m c main_v6 = U1 (F := Ideal) m c main_v6 :=
  (U2_of m c main_v6 (by decide))

theorem U8_v6 (c : Dev nD) : U8 (F := Ideal) m c main_v6 = U1 (F := Ideal) m c main_v6 :=
  (U8_of m c main_v6 (by decide)).trans <| (U7_of m c main_v6 (by decide)).trans <| (U6_of m c main_v6 (by decide)).trans <| (U5_of m c main_v6 (by decide)).trans <| (U4_of m c main_v6 (by decide)).trans <| (U3_of m c main_v6 (by decide)).trans <| (U2_of m c main_v6 (by decide))

theorem U14_v6 (c : Dev nD) : U14 (F := Ideal) m c main_v6 = U1 (F := Ideal) m c main_v6 :=
  (U14_of m c main_v6 (by decide)).trans <| (U13_of m c main_v6 (by decide)).trans <| (U12_of m c main_v6 (by decide)).trans <| (U11_of m c main_v6 (by decide)).trans <| (U10_of m c main_v6 (by decide)).trans <| (U9_of m c main_v6 (by decide)).trans <| (U8_of m c main_v6 (by decide)).trans <| (U7_of m c main_v6 (by decide)).trans <| (U6_of m c main_v6 (by decide)).trans <| (U5_of m c main_v6 (by decide)).trans <| (U4_of m c main_v6 (by decide)).trans <| (U3_of m c main_v6 (by decide)).trans <| (U2_of m c main_v6 (by decide))

theorem U5_v24 (c : Dev nD) : U5 (F := Ideal) m c main_v24 = U3 (F := Ideal) m c main_v24 :=
  (U5_of m c main_v24 (by decide)).trans <| (U4_of m c main_v24 (by decide))

theorem U7_v24 (c : Dev nD) : U7 (F := Ideal) m c main_v24 = U3 (F := Ideal) m c main_v24 :=
  (U7_of m c main_v24 (by decide)).trans <| (U6_of m c main_v24 (by decide)).trans <| (U5_of m c main_v24 (by decide)).trans <| (U4_of m c main_v24 (by decide))

theorem U6_v29 (c : Dev nD) : U6 (F := Ideal) m c main_v29 = U5 (F := Ideal) m c main_v29 :=
  (U6_of m c main_v29 (by decide))

theorem U11_v54 (c : Dev nD) : U11 (F := Ideal) m c main_v54 = U9 (F := Ideal) m c main_v54 :=
  (U11_of m c main_v54 (by decide)).trans <| (U10_of m c main_v54 (by decide))

theorem U13_v54 (c : Dev nD) : U13 (F := Ideal) m c main_v54 = U9 (F := Ideal) m c main_v54 :=
  (U13_of m c main_v54 (by decide)).trans <| (U12_of m c main_v54 (by decide)).trans <| (U11_of m c main_v54 (by decide)).trans <| (U10_of m c main_v54 (by decide))

theorem U12_v59 (c : Dev nD) : U12 (F := Ideal) m c main_v59 = U11 (F := Ideal) m c main_v59 :=
  (U12_of m c main_v59 (by decide))

theorem U1_d (c : Dev nD) : (U1 (F := Ideal) m c main_v13 : M2 50000 1) = dinvK (Gr m c) := U1_dinv m c

theorem U2_v14_reg (c : Dev nD) : (U2 (F := Ideal) m c main_v14) = scaledMatmul (U1 (F := Ideal) m c main_arg0) (U1 (F := Ideal) m c main_arg2) (U1 (F := Ideal) m c main_v13) := by
  simp only [U2, Function.update_self]
  exact val0 (E0 m) c

theorem U2_v14 (c : Dev nD) : ((U2 (F := Ideal) m c main_v14) : M2 50000 128) = H1 m c := by
  rw [U2_v14_reg, U1_arg0, U1_arg2, U1_d]
  rfl

theorem U3_v24_term (c : Dev nD) : ((U3 (F := Ideal) m c main_v24) : M2 50000 128) = aggHost (U2 (F := Ideal) m c main_v3) (U2 (F := Ideal) m c main_v6) (U2 (F := Ideal) m c main_v14) := by
  show StableHlo.after hostOps1 _ (Proc.devRef .tc main_v24) = _; after_results_simp; rfl

theorem U3_v24 (c : Dev nD) : ((U3 (F := Ideal) m c main_v24) : M2 50000 128) = A1 m c := by
  rw [U3_v24_term, U2_v14]
  exact aggHost_eq (m ((c : Thread nD τ).loc main_arg1)) (H1 m c) _ _ (fun e => by rw [U2_v3]; exact U1_src m c e) (fun e => by rw [U2_v6]; exact U1_dst m c e)

theorem U3_v25 (c : Dev nD) : ((U3 (F := Ideal) m c main_v25) : M2 1 128) = rowVec (paramsOf m c).b1 := by
  have e : ((U3 (F := Ideal) m c main_v25) : M2 1 128) = shapeCast S1x128 ((U2 (F := Ideal) m c main_arg3) : V1 128) shapeCasts_S128_S1x128 := by
    show StableHlo.after hostOps1 _ (Proc.devRef .tc main_v25) = _; after_results; rfl
  rw [e, U2_arg3]; exact shapeCast_row _ _

theorem U4_v26_reg (c : Dev nD) : (U4 (F := Ideal) m c main_v26) = colSum (U3 (F := Ideal) m c main_v24) (U3 (F := Ideal) m c main_v13) (U3 (F := Ideal) m c main_v25) := by
  simp only [U4, Function.update_self]
  exact val1 (E1 m) c

theorem U4_v26 (c : Dev nD) : ((U4 (F := Ideal) m c main_v26) : M2 1 128) = colSum (A1 m c) (dinvK (Gr m c)) (rowVec (paramsOf m c).b1) := by
  rw [U4_v26_reg, U3_v24, U3_v13, U1_d, U3_v25]

theorem U5_v29 (c : Dev nD) : ((U5 (F := Ideal) m c main_v29) : V1 128) = (Host.divf (F := Ideal) (φ := .f32) (shapeCast S128 ((U4 (F := Ideal) m c main_v26) : M2 1 128) shapeCasts_S1x128_S128) (broadcastInDim S128 ![] bcast_S_S128 (constant (F := Ideal) S_ .f32 0x47435000#32))) := by
  show StableHlo.after hostOps2 _ (Proc.devRef .tc main_v29) = _; after_results; rfl

theorem U5_v31 (c : Dev nD) : ((U5 (F := Ideal) m c main_v31) : M2 1 128) = (meanOf (colSum (A1 m c) (dinvK (Gr m c)) (rowVec (paramsOf m c).b1))) := by
  have e : ((U5 (F := Ideal) m c main_v31) : M2 1 128) = shapeCast S1x128 (Host.divf (F := Ideal) (φ := .f32) (shapeCast S128 ((U4 (F := Ideal) m c main_v26) : M2 1 128) shapeCasts_S1x128_S128) (broadcastInDim S128 ![] bcast_S_S128 (constant (F := Ideal) S_ .f32 0x47435000#32))) shapeCasts_S128_S1x128 := by
    show StableHlo.after hostOps2 _ (Proc.devRef .tc main_v31) = _; after_results; rfl
  rw [e, U4_v26]; exact mean_stretch _ _ _ _

theorem U5_v30 (c : Dev nD) : ((U5 (F := Ideal) m c main_v30) : M2 1 128) = rowVec (paramsOf m c).b1 := by
  have e : ((U5 (F := Ideal) m c main_v30) : M2 1 128) = shapeCast S1x128 ((U4 (F := Ideal) m c main_arg3) : V1 128) shapeCasts_S128_S1x128 := by
    show StableHlo.after hostOps2 _ (Proc.devRef .tc main_v30) = _; after_results; rfl
  rw [e, U4_arg3]; exact shapeCast_row _ _

theorem U6_v32_reg (c : Dev nD) : (U6 (F := Ideal) m c main_v32) = colSumSq (U5 (F := Ideal) m c main_v24) (U5 (F := Ideal) m c main_v13) (U5 (F := Ideal) m c main_v30) (U5 (F := Ideal) m c main_v31) := by
  simp only [U6, Function.update_self]
  exact val2 (E2 m) c

theorem U6_v32 (c : Dev nD) : ((U6 (F := Ideal) m c main_v32) : M2 1 128) = (colSumSq (A1 m c) (dinvK (Gr m c)) (rowVec (paramsOf m c).b1) (meanOf (colSum (A1 m c) (dinvK (Gr m c)) (rowVec (paramsOf m c).b1)))) := by
  rw [U6_v32_reg, U5_v24, U3_v24, U5_v13, U1_d, U5_v30, U5_v31]

theorem U7_v39 (c : Dev nD) : ((U7 (F := Ideal) m c main_v39) : M2 1 128) = rowVec (paramsOf m c).b1 := by
  have e : ((U7 (F := Ideal) m c main_v39) : M2 1 128) = shapeCast S1x128 ((U6 (F := Ideal) m c main_arg3) : V1 128) shapeCasts_S128_S1x128 := by
    show StableHlo.after hostOps3 _ (Proc.devRef .tc main_v39) = _; after_results; rfl
  rw [e, U6_arg3]; exact shapeCast_row _ _

theorem U7_v40 (c : Dev nD) : ((U7 (F := Ideal) m c main_v40) : M2 1 128) = (meanOf (colSum (A1 m c) (dinvK (Gr m c)) (rowVec (paramsOf m c).b1))) := by
  have e : ((U7 (F := Ideal) m c main_v40) : M2 1 128) = shapeCast S1x128 ((U6 (F := Ideal) m c main_v29) : V1 128) shapeCasts_S128_S1x128 := by
    show StableHlo.after hostOps3 _ (Proc.devRef .tc main_v40) = _; after_results; rfl
  rw [e, U6_v29, U5_v29, U4_v26]; exact mean_stretch _ _ _ _

theorem U7_v41 (c : Dev nD) : ((U7 (F := Ideal) m c main_v41) : M2 1 128) = invStdOf (colSumSq (A1 m c) (dinvK (Gr m c)) (rowVec (paramsOf m c).b1) (meanOf (colSum (A1 m c) (dinvK (Gr m c)) (rowVec (paramsOf m c).b1)))) := by
  have e : ((U7 (F := Ideal) m c main_v41) : M2 1 128) = shapeCast S1x128 (Host.rsqrt (F := Ideal) (φ := .f32) (addf (Host.divf (shapeCast S128 ((U6 (F := Ideal) m c main_v32) : M2 1 128) shapeCasts_S1x128_S128) (broadcastInDim S128 ![] bcast_S_S128 (constant (F := Ideal) S_ .f32 0x47435000#32))) (broadcastInDim S128 ![] bcast_S_S128 (constant (F := Ideal) S_ .f32 0x3727C5AC#32)))) shapeCasts_S128_S1x128 := by
    show StableHlo.after hostOps3 _ (Proc.devRef .tc main_v41) = _; after_results; rfl
  rw [e, U6_v32]; exact invStd_stretch _ _ _ _

theorem U7_v42 (c : Dev nD) : ((U7 (F := Ideal) m c main_v42) : M2 1 128) = rowVec (paramsOf m c).g1 := by
  have e : ((U7 (F := Ideal) m c main_v42) : M2 1 128) = shapeCast S1x128 ((U6 (F := Ideal) m c main_arg4) : V1 128) shapeCasts_S128_S1x128 := by
    show StableHlo.after hostOps3 _ (Proc.devRef .tc main_v42) = _; after_results; rfl
  rw [e, U6_arg4]; exact shapeCast_row _ _

theorem U7_v43 (c : Dev nD) : ((U7 (F := Ideal) m c main_v43) : M2 1 128) = rowVec (paramsOf m c).bt1 := by
  have e : ((U7 (F := Ideal) m c main_v43) : M2 1 128) = shapeCast S1x128 ((U6 (F := Ideal) m c main_arg5) : V1 128) shapeCasts_S128_S1x128 := by
    show StableHlo.after hostOps3 _ (Proc.devRef .tc main_v43) = _; after_results; rfl
  rw [e, U6_arg5]; exact shapeCast_row _ _

theorem U8_v44_reg (c : Dev nD) : (U8 (F := Ideal) m c main_v44) = bnReluMatmul (U7 (F := Ideal) m c main_v24) (U7 (F := Ideal) m c main_v13) (U7 (F := Ideal) m c main_v39) (U7 (F := Ideal) m c main_v40) (U7 (F := Ideal) m c main_v41) (U7 (F := Ideal) m c main_v42) (U7 (F := Ideal) m c main_v43) (U7 (F := Ideal) m c main_arg6) := by
  simp only [U8, Function.update_self]
  exact val3 (E3 m) c

theorem U8_v44 (c : Dev nD) : ((U8 (F := Ideal) m c main_v44) : M2 50000 128) = H2 m c := by
  rw [U8_v44_reg, U7_v24, U3_v24, U7_v13, U1_d, U7_v39, U7_v40, U7_v41, U7_v42, U7_v43, U7_arg6]
  rfl

theorem U9_v54_term (c : Dev nD) : ((U9 (F := Ideal) m c main_v54) : M2 50000 128) = aggHost (U8 (F := Ideal) m c main_v3) (U8 (F := Ideal) m c main_v6) (U8 (F := Ideal) m c main_v44) := by
  show StableHlo.after hostOps4 _ (Proc.devRef .tc main_v54) = _; after_results_simp; rfl

theorem U9_v54 (c : Dev nD) : ((U9 (F := Ideal) m c main_v54) : M2 50000 128) = A2 m c := by
  rw [U9_v54_term, U8_v44]
  exact aggHost_eq (m ((c : Thread nD τ).loc main_arg1)) (H2 m c) _ _ (fun e => by rw [U8_v3]; exact U1_src m c e) (fun e => by rw [U8_v6]; exact U1_dst m c e)

theorem U9_v55 (c : Dev nD) : ((U9 (F := Ideal) m c main_v55) : M2 1 128) = rowVec (paramsOf m c).b2 := by
  have e : ((U9 (F := Ideal) m c main_v55) : M2 1 128) = shapeCast S1x128 ((U8 (F := Ideal) m c main_arg7) : V1 128) shapeCasts_S128_S1x128 := by
    show StableHlo.after hostOps4 _ (Proc.devRef .tc main_v55) = _; after_results; rfl
  rw [e, U8_arg7]; exact shapeCast_row _ _

theorem U10_v56_reg (c : Dev nD) : (U10 (F := Ideal) m c main_v56) = colSum (U9 (F := Ideal) m c main_v54) (U9 (F := Ideal) m c main_v13) (U9 (F := Ideal) m c main_v55) := by
  simp only [U10, Function.update_self]
  exact val4 (E4 m) c

theorem U10_v56 (c : Dev nD) : ((U10 (F := Ideal) m c main_v56) : M2 1 128) = colSum (A2 m c) (dinvK (Gr m c)) (rowVec (paramsOf m c).b2) := by
  rw [U10_v56_reg, U9_v54, U9_v13, U1_d, U9_v55]

theorem U11_v59 (c : Dev nD) : ((U11 (F := Ideal) m c main_v59) : V1 128) = (Host.divf (F := Ideal) (φ := .f32) (shapeCast S128 ((U10 (F := Ideal) m c main_v56) : M2 1 128) shapeCasts_S1x128_S128) (broadcastInDim S128 ![] bcast_S_S128 (constant (F := Ideal) S_ .f32 0x47435000#32))) := by
  show StableHlo.after hostOps5 _ (Proc.devRef .tc main_v59) = _; after_results; rfl

theorem U11_v61 (c : Dev nD) : ((U11 (F := Ideal) m c main_v61) : M2 1 128) = (meanOf (colSum (A2 m c) (dinvK (Gr m c)) (rowVec (paramsOf m c).b2))) := by
  have e : ((U11 (F := Ideal) m c main_v61) : M2 1 128) = shapeCast S1x128 (Host.divf (F := Ideal) (φ := .f32) (shapeCast S128 ((U10 (F := Ideal) m c main_v56) : M2 1 128) shapeCasts_S1x128_S128) (broadcastInDim S128 ![] bcast_S_S128 (constant (F := Ideal) S_ .f32 0x47435000#32))) shapeCasts_S128_S1x128 := by
    show StableHlo.after hostOps5 _ (Proc.devRef .tc main_v61) = _; after_results; rfl
  rw [e, U10_v56]; exact mean_stretch _ _ _ _

theorem U11_v60 (c : Dev nD) : ((U11 (F := Ideal) m c main_v60) : M2 1 128) = rowVec (paramsOf m c).b2 := by
  have e : ((U11 (F := Ideal) m c main_v60) : M2 1 128) = shapeCast S1x128 ((U10 (F := Ideal) m c main_arg7) : V1 128) shapeCasts_S128_S1x128 := by
    show StableHlo.after hostOps5 _ (Proc.devRef .tc main_v60) = _; after_results; rfl
  rw [e, U10_arg7]; exact shapeCast_row _ _

theorem U12_v62_reg (c : Dev nD) : (U12 (F := Ideal) m c main_v62) = colSumSq (U11 (F := Ideal) m c main_v54) (U11 (F := Ideal) m c main_v13) (U11 (F := Ideal) m c main_v60) (U11 (F := Ideal) m c main_v61) := by
  simp only [U12, Function.update_self]
  exact val5 (E5 m) c

theorem U12_v62 (c : Dev nD) : ((U12 (F := Ideal) m c main_v62) : M2 1 128) = (colSumSq (A2 m c) (dinvK (Gr m c)) (rowVec (paramsOf m c).b2) (meanOf (colSum (A2 m c) (dinvK (Gr m c)) (rowVec (paramsOf m c).b2)))) := by
  rw [U12_v62_reg, U11_v54, U9_v54, U11_v13, U1_d, U11_v60, U11_v61]

theorem U13_v69 (c : Dev nD) : ((U13 (F := Ideal) m c main_v69) : M2 1 128) = rowVec (paramsOf m c).b2 := by
  have e : ((U13 (F := Ideal) m c main_v69) : M2 1 128) = shapeCast S1x128 ((U12 (F := Ideal) m c main_arg7) : V1 128) shapeCasts_S128_S1x128 := by
    show StableHlo.after hostOps6 _ (Proc.devRef .tc main_v69) = _; after_results; rfl
  rw [e, U12_arg7]; exact shapeCast_row _ _

theorem U13_v70 (c : Dev nD) : ((U13 (F := Ideal) m c main_v70) : M2 1 128) = (meanOf (colSum (A2 m c) (dinvK (Gr m c)) (rowVec (paramsOf m c).b2))) := by
  have e : ((U13 (F := Ideal) m c main_v70) : M2 1 128) = shapeCast S1x128 ((U12 (F := Ideal) m c main_v59) : V1 128) shapeCasts_S128_S1x128 := by
    show StableHlo.after hostOps6 _ (Proc.devRef .tc main_v70) = _; after_results; rfl
  rw [e, U12_v59, U11_v59, U10_v56]; exact mean_stretch _ _ _ _

theorem U13_v71 (c : Dev nD) : ((U13 (F := Ideal) m c main_v71) : M2 1 128) = invStdOf (colSumSq (A2 m c) (dinvK (Gr m c)) (rowVec (paramsOf m c).b2) (meanOf (colSum (A2 m c) (dinvK (Gr m c)) (rowVec (paramsOf m c).b2)))) := by
  have e : ((U13 (F := Ideal) m c main_v71) : M2 1 128) = shapeCast S1x128 (Host.rsqrt (F := Ideal) (φ := .f32) (addf (Host.divf (shapeCast S128 ((U12 (F := Ideal) m c main_v62) : M2 1 128) shapeCasts_S1x128_S128) (broadcastInDim S128 ![] bcast_S_S128 (constant (F := Ideal) S_ .f32 0x47435000#32))) (broadcastInDim S128 ![] bcast_S_S128 (constant (F := Ideal) S_ .f32 0x3727C5AC#32)))) shapeCasts_S128_S1x128 := by
    show StableHlo.after hostOps6 _ (Proc.devRef .tc main_v71) = _; after_results; rfl
  rw [e, U12_v62]; exact invStd_stretch _ _ _ _

theorem U13_v72 (c : Dev nD) : ((U13 (F := Ideal) m c main_v72) : M2 1 128) = rowVec (paramsOf m c).g2 := by
  have e : ((U13 (F := Ideal) m c main_v72) : M2 1 128) = shapeCast S1x128 ((U12 (F := Ideal) m c main_arg8) : V1 128) shapeCasts_S128_S1x128 := by
    show StableHlo.after hostOps6 _ (Proc.devRef .tc main_v72) = _; after_results; rfl
  rw [e, U12_arg8]; exact shapeCast_row _ _

theorem U13_v73 (c : Dev nD) : ((U13 (F := Ideal) m c main_v73) : M2 1 128) = rowVec (paramsOf m c).bt2 := by
  have e : ((U13 (F := Ideal) m c main_v73) : M2 1 128) = shapeCast S1x128 ((U12 (F := Ideal) m c main_arg9) : V1 128) shapeCasts_S128_S1x128 := by
    show StableHlo.after hostOps6 _ (Proc.devRef .tc main_v73) = _; after_results; rfl
  rw [e, U12_arg9]; exact shapeCast_row _ _

theorem U14_v74_reg (c : Dev nD) : (U14 (F := Ideal) m c main_v74) = bnReluMatmul (U13 (F := Ideal) m c main_v54) (U13 (F := Ideal) m c main_v13) (U13 (F := Ideal) m c main_v69) (U13 (F := Ideal) m c main_v70) (U13 (F := Ideal) m c main_v71) (U13 (F := Ideal) m c main_v72) (U13 (F := Ideal) m c main_v73) (U13 (F := Ideal) m c main_arg10) := by
  simp only [U14, Function.update_self]
  exact val6 (E6 m) c

theorem U14_v74 (c : Dev nD) : ((U14 (F := Ideal) m c main_v74) : M2 50000 128) = H3 m c := by
  rw [U14_v74_reg, U13_v54, U9_v54, U13_v13, U1_d, U13_v69, U13_v70, U13_v71, U13_v72, U13_v73, U13_arg10]
  rfl

theorem U15_v84_term (c : Dev nD) : ((U15 (F := Ideal) m c main_v84) : M2 50000 128) = aggHost (U14 (F := Ideal) m c main_v3) (U14 (F := Ideal) m c main_v6) (U14 (F := Ideal) m c main_v74) := by
  show StableHlo.after hostOps7 _ (Proc.devRef .tc main_v84) = _; after_results_simp; rfl

theorem U15_v84 (c : Dev nD) : ((U15 (F := Ideal) m c main_v84) : M2 50000 128) = A3 m c := by
  rw [U15_v84_term, U14_v74]
  exact aggHost_eq (m ((c : Thread nD τ).loc main_arg1)) (H3 m c) _ _ (fun e => by rw [U14_v3]; exact U1_src m c e) (fun e => by rw [U14_v6]; exact U1_dst m c e)

theorem U15_v85 (c : Dev nD) : ((U15 (F := Ideal) m c main_v85) : M2 1 128) = rowVec (paramsOf m c).b3 := by
  have e : ((U15 (F := Ideal) m c main_v85) : M2 1 128) = shapeCast S1x128 ((U14 (F := Ideal) m c main_arg11) : V1 128) shapeCasts_S128_S1x128 := by
    show StableHlo.after hostOps7 _ (Proc.devRef .tc main_v85) = _; after_results; rfl
  rw [e, U14_arg11]; exact shapeCast_row _ _

theorem U15_v86 (c : Dev nD) : ((U15 (F := Ideal) m c main_v86) : M2 1 1) = rowVec (paramsOf m c).fcb := by
  have e : ((U15 (F := Ideal) m c main_v86) : M2 1 1) = shapeCast S1x1 ((U14 (F := Ideal) m c main_arg13) : V1 1) shapeCasts_S1_S1x1 := by
    show StableHlo.after hostOps7 _ (Proc.devRef .tc main_v86) = _; after_results; rfl
  rw [e, U14_arg13]; exact shapeCast_row _ _

theorem U16_out_reg (c : Dev nD) : (U16 (F := Ideal) m c main_v87_0) = headOut (U15 (F := Ideal) m c main_v84) (U15 (F := Ideal) m c main_v13) (U15 (F := Ideal) m c main_v85) (U15 (F := Ideal) m c main_arg12) (U15 (F := Ideal) m c main_v86) := by
  simp only [U16, Function.update_of_ne (StableHlo.devRef_ne_of_ne (by decide) : (Proc.devRef .tc main_v87_0 : DevRef τ sig) ≠ Proc.devRef .tc main_v87_1), Function.update_self]
  exact val7_out (E7 m) c

theorem U16_sig_reg (c : Dev nD) : (U16 (F := Ideal) m c main_v87_1) = headSig (U15 (F := Ideal) m c main_v84) (U15 (F := Ideal) m c main_v13) (U15 (F := Ideal) m c main_v85) (U15 (F := Ideal) m c main_arg12) (U15 (F := Ideal) m c main_v86) := by
  simp only [U16, Function.update_self]
  exact val7_sig (E7 m) c

end Chain

open Chain

theorem kernel_out (c : Dev nD) :
    (U16 (F := Ideal) m c main_v87_0 : Cert.Spec.M2 50000 1)
      = Cert.MathSpec.kOut (Cert.MathSpec.graphOf (m ((c : Thread nD τ).loc main_arg1))) (paramsOf m c) := by
  rw [U16_out_reg, U15_v84, U15_v13, U1_d, U15_v85, U15_arg12, U15_v86, A3_eq]
  rfl

theorem kernel_sig (c : Dev nD) :
    (U16 (F := Ideal) m c main_v87_1 : Cert.Spec.M2 50000 1)
      = Cert.MathSpec.kSig (Cert.MathSpec.graphOf (m ((c : Thread nD τ).loc main_arg1))) (paramsOf m c) := by
  rw [U16_sig_reg, U15_v84, U15_v13, U1_d, U15_v85, U15_arg12, U15_v86, A3_eq]
  rfl

end Cert.KernelIdeal.Hand

end
-- ==== Proof.Ref.ReadP.lean ====
import proofs.«408734_j33483565039990_3_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

def val_main_v0 : (⟨S50000, .i32⟩ : BufTy).Contents (Elt F) :=
  iotaInDim S50000 32 0

def val_main_v1 (x1 : (⟨S2x800000, .i32⟩ : BufTy).Contents (Elt F)) : (⟨S1x800000, .i32⟩ : BufTy).Contents (Elt F) :=
  extractStridedSlice S1x800000 ![0, 0] (x1) slices_S2x800000_S1x800000_0_0

def val_main_v2 (x1 : (⟨S2x800000, .i32⟩ : BufTy).Contents (Elt F)) : (⟨S800000, .i32⟩ : BufTy).Contents (Elt F) :=
  shapeCast _ (val_main_v1 (F := F) x1) shapeCasts_S1x800000_S800000

def val_main_v3 (x1 : (⟨S2x800000, .i32⟩ : BufTy).Contents (Elt F)) : (⟨S850000, .i32⟩ : BufTy).Contents (Elt F) :=
  concatenate S850000 0 [⟨S800000, (val_main_v2 (F := F) x1)⟩, ⟨S50000, (val_main_v0 (F := F))⟩] concatenates_S800000_S50000_S850000_d0

def val_main_v4 (x1 : (⟨S2x800000, .i32⟩ : BufTy).Contents (Elt F)) : (⟨S1x800000, .i32⟩ : BufTy).Contents (Elt F) :=
  extractStridedSlice S1x800000 ![1, 0] (x1) slices_S2x800000_S1x800000_1_0

def val_main_v5 (x1 : (⟨S2x800000, .i32⟩ : BufTy).Contents (Elt F)) : (⟨S800000, .i32⟩ : BufTy).Contents (Elt F) :=
  shapeCast _ (val_main_v4 (F := F) x1) shapeCasts_S1x800000_S800000

def val_main_v6 (x1 : (⟨S2x800000, .i32⟩ : BufTy).Contents (Elt F)) : (⟨S850000, .i32⟩ : BufTy).Contents (Elt F) :=
  concatenate S850000 0 [⟨S800000, (val_main_v5 (F := F) x1)⟩, ⟨S50000, (val_main_v0 (F := F))⟩] concatenates_S800000_S50000_S850000_d0

def val_main_cst : (⟨S_, .f32⟩ : BufTy).Contents (Elt F) :=
  constant S_ .f32 0x3F800000#32

def val_main_v7 : (⟨S850000, .f32⟩ : BufTy).Contents (Elt F) :=
  broadcastInDim S850000 ![] bcast_S_S850000 (val_main_cst (F := F))

def val_main_cst_0 : (⟨S_, .f32⟩ : BufTy).Contents (Elt F) :=
  constant S_ .f32 0x00000000#32

def val_main_v8 : (⟨S50000, .f32⟩ : BufTy).Contents (Elt F) :=
  broadcastInDim S50000 ![] bcast_S_S50000 (val_main_cst_0 (F := F))

def val_main_v9 (x1 : (⟨S2x800000, .i32⟩ : BufTy).Contents (Elt F)) : (⟨S850000x1, .i32⟩ : BufTy).Contents (Elt F) :=
  broadcastInDim S850000x1 ![0] bcast_S850000_S850000x1_0 (val_main_v6 (F := F) x1)

def val_main_v10 (x1 : (⟨S2x800000, .i32⟩ : BufTy).Contents (Elt F)) : (⟨S50000, .f32⟩ : BufTy).Contents (Elt F) :=
  Host.scatterAdd scatter_S50000_S850000x1_S850000_n_0_0_1 (val_main_v8 (F := F)) (val_main_v9 (F := F) x1) (val_main_v7 (F := F))

def val_main_v11 (x1 : (⟨S2x800000, .i32⟩ : BufTy).Contents (Elt F)) : (⟨S50000, .f32⟩ : BufTy).Contents (Elt F) :=
  Host.rsqrt (val_main_v10 (F := F) x1)

def val_main_v12 (x0 : (⟨S50000x64, .f32⟩ : BufTy).Contents (Elt F)) (x2 : (⟨S64x128, .f32⟩ : BufTy).Contents (Elt F)) : (⟨S50000x128, .f32⟩ : BufTy).Contents (Elt F) :=
  Host.dotGeneral dot_S50000x64_S64x128_S50000x128_1_0_0_1_n_n none (x0) (x2)
theorem lhs_main_v12_0 (i : S50000x128.Idx) (q : dot_S50000x64_S64x128_S50000x128_1_0_0_1_n_n.contr.Idx) :
    (dot_S50000x64_S64x128_S50000x128_1_0_0_1_n_n.lhsIdx i q 0).val = (i 0).val := by
  unfold DotDims.lhsIdx
  rw [dif_neg (show ¬(0 : Fin S50000x64.rank) ∈ dot_S50000x64_S64x128_S50000x128_1_0_0_1_n_n.lhsBatch by decide), dif_pos (show (0 : Fin S50000x64.rank) ∈ dot_S50000x64_S64x128_S50000x128_1_0_0_1_n_n.lhsNonContracting by decide)]
  rfl
theorem lhs_main_v12_1 (i : S50000x128.Idx) (q : dot_S50000x64_S64x128_S50000x128_1_0_0_1_n_n.contr.Idx) :
    (dot_S50000x64_S64x128_S50000x128_1_0_0_1_n_n.lhsIdx i q 1).val = (q ⟨0, by decide⟩).val :=
  dot_S50000x64_S64x128_S50000x128_1_0_0_1_n_n.lhsIdx_val_of_single rfl i q
theorem rhs_main_v12_0 (i : S50000x128.Idx) (q : dot_S50000x64_S64x128_S50000x128_1_0_0_1_n_n.contr.Idx) :
    (dot_S50000x64_S64x128_S50000x128_1_0_0_1_n_n.rhsIdx i q 0).val = (q ⟨0, by decide⟩).val :=
  dot_S50000x64_S64x128_S50000x128_1_0_0_1_n_n.rhsIdx_val_of_single rfl i q
theorem rhs_main_v12_1 (i : S50000x128.Idx) (q : dot_S50000x64_S64x128_S50000x128_1_0_0_1_n_n.contr.Idx) :
    (dot_S50000x64_S64x128_S50000x128_1_0_0_1_n_n.rhsIdx i q 1).val = (i 1).val := by
  unfold DotDims.rhsIdx
  rw [dif_neg (show ¬(1 : Fin S64x128.rank) ∈ dot_S50000x64_S64x128_S50000x128_1_0_0_1_n_n.rhsBatch by decide), dif_pos (show (1 : Fin S64x128.rank) ∈ dot_S50000x64_S64x128_S50000x128_1_0_0_1_n_n.rhsNonContracting by decide)]
  rfl
abbrev lidx_main_v12 (i : S50000x128.Idx) (k : Fin 64) : S50000x64.Idx := fun a => match a with
  | ⟨0, _⟩ => ⟨(i 0).val, (i 0).isLt⟩
  | ⟨1, _⟩ => ⟨k.val, k.isLt⟩
abbrev ridx_main_v12 (i : S50000x128.Idx) (k : Fin 64) : S64x128.Idx := fun a => match a with
  | ⟨0, _⟩ => ⟨k.val, k.isLt⟩
  | ⟨1, _⟩ => ⟨(i 1).val, (i 1).isLt⟩

theorem val_main_v12_apply (x0 : (⟨S50000x64, .f32⟩ : BufTy).Contents (Elt Ideal)) (x2 : (⟨S64x128, .f32⟩ : BufTy).Contents (Elt Ideal)) (i : S50000x128.Idx) :
    val_main_v12 (F := Ideal) x0 x2 i = ∑ k : Fin 64, x0 (lidx_main_v12 i k) * x2 (ridx_main_v12 i k) := by
  unfold val_main_v12
  simp only [Host.dotGeneral]
  rw [Ideal.dotGeneral_apply, ← Equiv.sum_comp (ValueIdx.contrEquiv1 dot_S50000x64_S64x128_S50000x128_1_0_0_1_n_n 64 rfl rfl).symm]
  refine Finset.sum_congr rfl fun k _ => ?_
  have hk := ValueIdx.contrEquiv1_symm_val dot_S50000x64_S64x128_S50000x128_1_0_0_1_n_n 64 rfl rfl k
  have el : dot_S50000x64_S64x128_S50000x128_1_0_0_1_n_n.lhsIdx i ((ValueIdx.contrEquiv1 dot_S50000x64_S64x128_S50000x128_1_0_0_1_n_n 64 rfl rfl).symm k) = lidx_main_v12 i k := funext fun a => Fin.ext (by
    match a with
    | ⟨0, _⟩ => exact lhs_main_v12_0 _ _
    | ⟨1, _⟩ => exact (lhs_main_v12_1 _ _).trans hk)
  have er : dot_S50000x64_S64x128_S50000x128_1_0_0_1_n_n.rhsIdx i ((ValueIdx.contrEquiv1 dot_S50000x64_S64x128_S50000x128_1_0_0_1_n_n 64 rfl rfl).symm k) = ridx_main_v12 i k := funext fun a => Fin.ext (by
    match a with
    | ⟨0, _⟩ => exact (rhs_main_v12_0 _ _).trans hk
    | ⟨1, _⟩ => exact rhs_main_v12_1 _ _)
  rw [el, er]

def val_main_c : (⟨S_, .i32⟩ : BufTy).Contents (Elt F) :=
  constantI S_ 32 0#32

def val_main_v13 : (⟨S850000, .i32⟩ : BufTy).Contents (Elt F) :=
  broadcastInDim S850000 ![] bcast_S_S850000 (val_main_c (F := F))

def val_main_v14 (x1 : (⟨S2x800000, .i32⟩ : BufTy).Contents (Elt F)) : (⟨S850000, .i1⟩ : BufTy).Contents (Elt F) :=
  cmpi .slt (val_main_v3 (F := F) x1) (val_main_v13 (F := F))

def val_main_c_1 : (⟨S_, .i32⟩ : BufTy).Contents (Elt F) :=
  constantI S_ 32 50000#32

def val_main_v15 : (⟨S850000, .i32⟩ : BufTy).Contents (Elt F) :=
  broadcastInDim S850000 ![] bcast_S_S850000 (val_main_c_1 (F := F))

def val_main_v16 (x1 : (⟨S2x800000, .i32⟩ : BufTy).Contents (Elt F)) : (⟨S850000, .i32⟩ : BufTy).Contents (Elt F) :=
  addi (val_main_v3 (F := F) x1) (val_main_v15 (F := F))

def val_main_v17 (x1 : (⟨S2x800000, .i32⟩ : BufTy).Contents (Elt F)) : (⟨S850000, .i32⟩ : BufTy).Contents (Elt F) :=
  select (val_main_v14 (F := F) x1) (val_main_v16 (F := F) x1) (val_main_v3 (F := F) x1)

def val_main_v18 (x1 : (⟨S2x800000, .i32⟩ : BufTy).Contents (Elt F)) : (⟨S850000x1, .i32⟩ : BufTy).Contents (Elt F) :=
  broadcastInDim S850000x1 ![0] bcast_S850000_S850000x1_0 (val_main_v17 (F := F) x1)

def val_main_v19 (x1 : (⟨S2x800000, .i32⟩ : BufTy).Contents (Elt F)) : (⟨S850000, .f32⟩ : BufTy).Contents (Elt F) :=
  Host.gather gather_S50000_S850000x1_S850000_n_0_n_n_0_1_1 (val_main_v11 (F := F) x1) (val_main_v18 (F := F) x1)

def val_main_c_2 : (⟨S_, .i32⟩ : BufTy).Contents (Elt F) :=
  constantI S_ 32 0#32

def val_main_v20 : (⟨S850000, .i32⟩ : BufTy).Contents (Elt F) :=
  broadcastInDim S850000 ![] bcast_S_S850000 (val_main_c_2 (F := F))

def val_main_v21 (x1 : (⟨S2x800000, .i32⟩ : BufTy).Contents (Elt F)) : (⟨S850000, .i1⟩ : BufTy).Contents (Elt F) :=
  cmpi .slt (val_main_v6 (F := F) x1) (val_main_v20 (F := F))

def val_main_c_3 : (⟨S_, .i32⟩ : BufTy).Contents (Elt F) :=
  constantI S_ 32 50000#32

def val_main_v22 : (⟨S850000, .i32⟩ : BufTy).Contents (Elt F) :=
  broadcastInDim S850000 ![] bcast_S_S850000 (val_main_c_3 (F := F))

def val_main_v23 (x1 : (⟨S2x800000, .i32⟩ : BufTy).Contents (Elt F)) : (⟨S850000, .i32⟩ : BufTy).Contents (Elt F) :=
  addi (val_main_v6 (F := F) x1) (val_main_v22 (F := F))

def val_main_v24 (x1 : (⟨S2x800000, .i32⟩ : BufTy).Contents (Elt F)) : (⟨S850000, .i32⟩ : BufTy).Contents (Elt F) :=
  select (val_main_v21 (F := F) x1) (val_main_v23 (F := F) x1) (val_main_v6 (F := F) x1)

def val_main_v25 (x1 : (⟨S2x800000, .i32⟩ : BufTy).Contents (Elt F)) : (⟨S850000x1, .i32⟩ : BufTy).Contents (Elt F) :=
  broadcastInDim S850000x1 ![0] bcast_S850000_S850000x1_0 (val_main_v24 (F := F) x1)

def val_main_v26 (x1 : (⟨S2x800000, .i32⟩ : BufTy).Contents (Elt F)) : (⟨S850000, .f32⟩ : BufTy).Contents (Elt F) :=
  Host.gather gather_S50000_S850000x1_S850000_n_0_n_n_0_1_1 (val_main_v11 (F := F) x1) (val_main_v25 (F := F) x1)

def val_main_v27 (x1 : (⟨S2x800000, .i32⟩ : BufTy).Contents (Elt F)) : (⟨S850000, .f32⟩ : BufTy).Contents (Elt F) :=
  mulf (val_main_v19 (F := F) x1) (val_main_v26 (F := F) x1)

def val_main_c_4 : (⟨S_, .i32⟩ : BufTy).Contents (Elt F) :=
  constantI S_ 32 0#32

def val_main_v28 : (⟨S850000, .i32⟩ : BufTy).Contents (Elt F) :=
  broadcastInDim S850000 ![] bcast_S_S850000 (val_main_c_4 (F := F))

def val_main_v29 (x1 : (⟨S2x800000, .i32⟩ : BufTy).Contents (Elt F)) : (⟨S850000, .i1⟩ : BufTy).Contents (Elt F) :=
  cmpi .slt (val_main_v3 (F := F) x1) (val_main_v28 (F := F))

def val_main_c_5 : (⟨S_, .i32⟩ : BufTy).Contents (Elt F) :=
  constantI S_ 32 50000#32

def val_main_v30 : (⟨S850000, .i32⟩ : BufTy).Contents (Elt F) :=
  broadcastInDim S850000 ![] bcast_S_S850000 (val_main_c_5 (F := F))

def val_main_v31 (x1 : (⟨S2x800000, .i32⟩ : BufTy).Contents (Elt F)) : (⟨S850000, .i32⟩ : BufTy).Contents (Elt F) :=
  addi (val_main_v3 (F := F) x1) (val_main_v30 (F := F))

def val_main_v32 (x1 : (⟨S2x800000, .i32⟩ : BufTy).Contents (Elt F)) : (⟨S850000, .i32⟩ : BufTy).Contents (Elt F) :=
  select (val_main_v29 (F := F) x1) (val_main_v31 (F := F) x1) (val_main_v3 (F := F) x1)

def val_main_v33 (x1 : (⟨S2x800000, .i32⟩ : BufTy).Contents (Elt F)) : (⟨S850000x1, .i32⟩ : BufTy).Contents (Elt F) :=
  broadcastInDim S850000x1 ![0] bcast_S850000_S850000x1_0 (val_main_v32 (F := F) x1)

def val_main_v34 (x0 : (⟨S50000x64, .f32⟩ : BufTy).Contents (Elt F)) (x1 : (⟨S2x800000, .i32⟩ : BufTy).Contents (Elt F)) (x2 : (⟨S64x128, .f32⟩ : BufTy).Contents (Elt F)) : (⟨S850000x128, .f32⟩ : BufTy).Contents (Elt F) :=
  Host.gather gather_S50000x128_S850000x1_S850000x128_1_0_n_n_0_1_1128 (val_main_v12 (F := F) x0 x2) (val_main_v33 (F := F) x1)

def val_main_v35 (x1 : (⟨S2x800000, .i32⟩ : BufTy).Contents (Elt F)) : (⟨S850000x1, .f32⟩ : BufTy).Contents (Elt F) :=
  broadcastInDim S850000x1 ![0] bcast_S850000_S850000x1_0 (val_main_v27 (F := F) x1)

def val_main_v36 (x1 : (⟨S2x800000, .i32⟩ : BufTy).Contents (Elt F)) : (⟨S850000x128, .f32⟩ : BufTy).Contents (Elt F) :=
  broadcastInDim S850000x128 ![0, 1] bcast_S850000x1_S850000x128_0_1 (val_main_v35 (F := F) x1)

def val_main_v37 (x0 : (⟨S50000x64, .f32⟩ : BufTy).Contents (Elt F)) (x1 : (⟨S2x800000, .i32⟩ : BufTy).Contents (Elt F)) (x2 : (⟨S64x128, .f32⟩ : BufTy).Contents (Elt F)) : (⟨S850000x128, .f32⟩ : BufTy).Contents (Elt F) :=
  mulf (val_main_v34 (F := F) x0 x1 x2) (val_main_v36 (F := F) x1)

def val_main_cst_6 : (⟨S_, .f32⟩ : BufTy).Contents (Elt F) :=
  constant S_ .f32 0x00000000#32

def val_main_v38 : (⟨S50000x128, .f32⟩ : BufTy).Contents (Elt F) :=
  broadcastInDim S50000x128 ![] bcast_S_S50000x128 (val_main_cst_6 (F := F))

def val_main_v39 (x1 : (⟨S2x800000, .i32⟩ : BufTy).Contents (Elt F)) : (⟨S850000x1, .i32⟩ : BufTy).Contents (Elt F) :=
  broadcastInDim S850000x1 ![0] bcast_S850000_S850000x1_0 (val_main_v6 (F := F) x1)

def val_main_v40 (x0 : (⟨S50000x64, .f32⟩ : BufTy).Contents (Elt F)) (x1 : (⟨S2x800000, .i32⟩ : BufTy).Contents (Elt F)) (x2 : (⟨S64x128, .f32⟩ : BufTy).Contents (Elt F)) : (⟨S50000x128, .f32⟩ : BufTy).Contents (Elt F) :=
  Host.scatterAdd scatter_S50000x128_S850000x1_S850000x128_1_0_0_1 (val_main_v38 (F := F)) (val_main_v39 (F := F) x1) (val_main_v37 (F := F) x0 x1 x2)

def val_main_v41 (x3 : (⟨S128, .f32⟩ : BufTy).Contents (Elt F)) : (⟨S1x128, .f32⟩ : BufTy).Contents (Elt F) :=
  broadcastInDim S1x128 ![1] bcast_S128_S1x128_1 (x3)

def val_main_v42 (x3 : (⟨S128, .f32⟩ : BufTy).Contents (Elt F)) : (⟨S50000x128, .f32⟩ : BufTy).Contents (Elt F) :=
  broadcastInDim S50000x128 ![0, 1] bcast_S1x128_S50000x128_0_1 (val_main_v41 (F := F) x3)

def val_main_v43 (x0 : (⟨S50000x64, .f32⟩ : BufTy).Contents (Elt F)) (x1 : (⟨S2x800000, .i32⟩ : BufTy).Contents (Elt F)) (x2 : (⟨S64x128, .f32⟩ : BufTy).Contents (Elt F)) (x3 : (⟨S128, .f32⟩ : BufTy).Contents (Elt F)) : (⟨S50000x128, .f32⟩ : BufTy).Contents (Elt F) :=
  addf (val_main_v40 (F := F) x0 x1 x2) (val_main_v42 (F := F) x3)

def val_main_cst_7 : (⟨S_, .f32⟩ : BufTy).Contents (Elt F) :=
  constant S_ .f32 0x00000000#32

def val_main_v44 (x0 : (⟨S50000x64, .f32⟩ : BufTy).Contents (Elt F)) (x1 : (⟨S2x800000, .i32⟩ : BufTy).Contents (Elt F)) (x2 : (⟨S64x128, .f32⟩ : BufTy).Contents (Elt F)) (x3 : (⟨S128, .f32⟩ : BufTy).Contents (Elt F)) : (⟨S128, .f32⟩ : BufTy).Contents (Elt F) :=
  Host.reduceAdd (val_main_v43 (F := F) x0 x1 x2 x3) (val_main_cst_7 (F := F)) reducesTo_S50000x128_S128_d0 h_S_

def val_main_cst_8 : (⟨S_, .f32⟩ : BufTy).Contents (Elt F) :=
  constant S_ .f32 0x47435000#32

def val_main_v45 : (⟨S128, .f32⟩ : BufTy).Contents (Elt F) :=
  broadcastInDim S128 ![] bcast_S_S128 (val_main_cst_8 (F := F))

def val_main_v46 (x0 : (⟨S50000x64, .f32⟩ : BufTy).Contents (Elt F)) (x1 : (⟨S2x800000, .i32⟩ : BufTy).Contents (Elt F)) (x2 : (⟨S64x128, .f32⟩ : BufTy).Contents (Elt F)) (x3 : (⟨S128, .f32⟩ : BufTy).Contents (Elt F)) : (⟨S128, .f32⟩ : BufTy).Contents (Elt F) :=
  Host.divf (val_main_v44 (F := F) x0 x1 x2 x3) (val_main_v45 (F := F))

def val_main_v47 (x0 : (⟨S50000x64, .f32⟩ : BufTy).Contents (Elt F)) (x1 : (⟨S2x800000, .i32⟩ : BufTy).Contents (Elt F)) (x2 : (⟨S64x128, .f32⟩ : BufTy).Contents (Elt F)) (x3 : (⟨S128, .f32⟩ : BufTy).Contents (Elt F)) : (⟨S1x128, .f32⟩ : BufTy).Contents (Elt F) :=
  broadcastInDim S1x128 ![1] bcast_S128_S1x128_1 (val_main_v46 (F := F) x0 x1 x2 x3)

def val_main_v48 (x0 : (⟨S50000x64, .f32⟩ : BufTy).Contents (Elt F)) (x1 : (⟨S2x800000, .i32⟩ : BufTy).Contents (Elt F)) (x2 : (⟨S64x128, .f32⟩ : BufTy).Contents (Elt F)) (x3 : (⟨S128, .f32⟩ : BufTy).Contents (Elt F)) : (⟨S50000x128, .f32⟩ : BufTy).Contents (Elt F) :=
  broadcastInDim S50000x128 ![0, 1] bcast_S1x128_S50000x128_0_1 (val_main_v47 (F := F) x0 x1 x2 x3)

def val_main_v49 (x0 : (⟨S50000x64, .f32⟩ : BufTy).Contents (Elt F)) (x1 : (⟨S2x800000, .i32⟩ : BufTy).Contents (Elt F)) (x2 : (⟨S64x128, .f32⟩ : BufTy).Contents (Elt F)) (x3 : (⟨S128, .f32⟩ : BufTy).Contents (Elt F)) : (⟨S50000x128, .f32⟩ : BufTy).Contents (Elt F) :=
  subf (val_main_v43 (F := F) x0 x1 x2 x3) (val_main_v48 (F := F) x0 x1 x2 x3)

def val_main_v50 (x0 : (⟨S50000x64, .f32⟩ : BufTy).Contents (Elt F)) (x1 : (⟨S2x800000, .i32⟩ : BufTy).Contents (Elt F)) (x2 : (⟨S64x128, .f32⟩ : BufTy).Contents (Elt F)) (x3 : (⟨S128, .f32⟩ : BufTy).Contents (Elt F)) : (⟨S50000x128, .f32⟩ : BufTy).Contents (Elt F) :=
  mulf (val_main_v49 (F := F) x0 x1 x2 x3) (val_main_v49 (F := F) x0 x1 x2 x3)

def val_main_cst_9 : (⟨S_, .f32⟩ : BufTy).Contents (Elt F) :=
  constant S_ .f32 0x00000000#32

def val_main_v51 (x0 : (⟨S50000x64, .f32⟩ : BufTy).Contents (Elt F)) (x1 : (⟨S2x800000, .i32⟩ : BufTy).Contents (Elt F)) (x2 : (⟨S64x128, .f32⟩ : BufTy).Contents (Elt F)) (x3 : (⟨S128, .f32⟩ : BufTy).Contents (Elt F)) : (⟨S128, .f32⟩ : BufTy).Contents (Elt F) :=
  Host.reduceAdd (val_main_v50 (F := F) x0 x1 x2 x3) (val_main_cst_9 (F := F)) reducesTo_S50000x128_S128_d0 h_S_

def val_main_cst_10 : (⟨S_, .f32⟩ : BufTy).Contents (Elt F) :=
  constant S_ .f32 0x47435000#32

def val_main_v52 : (⟨S128, .f32⟩ : BufTy).Contents (Elt F) :=
  broadcastInDim S128 ![] bcast_S_S128 (val_main_cst_10 (F := F))

def val_main_v53 (x0 : (⟨S50000x64, .f32⟩ : BufTy).Contents (Elt F)) (x1 : (⟨S2x800000, .i32⟩ : BufTy).Contents (Elt F)) (x2 : (⟨S64x128, .f32⟩ : BufTy).Contents (Elt F)) (x3 : (⟨S128, .f32⟩ : BufTy).Contents (Elt F)) : (⟨S128, .f32⟩ : BufTy).Contents (Elt F) :=
  Host.divf (val_main_v51 (F := F) x0 x1 x2 x3) (val_main_v52 (F := F))

def val_main_v54 (x0 : (⟨S50000x64, .f32⟩ : BufTy).Contents (Elt F)) (x1 : (⟨S2x800000, .i32⟩ : BufTy).Contents (Elt F)) (x2 : (⟨S64x128, .f32⟩ : BufTy).Contents (Elt F)) (x3 : (⟨S128, .f32⟩ : BufTy).Contents (Elt F)) : (⟨S1x128, .f32⟩ : BufTy).Contents (Elt F) :=
  broadcastInDim S1x128 ![1] bcast_S128_S1x128_1 (val_main_v46 (F := F) x0 x1 x2 x3)

def val_main_v55 (x0 : (⟨S50000x64, .f32⟩ : BufTy).Contents (Elt F)) (x1 : (⟨S2x800000, .i32⟩ : BufTy).Contents (Elt F)) (x2 : (⟨S64x128, .f32⟩ : BufTy).Contents (Elt F)) (x3 : (⟨S128, .f32⟩ : BufTy).Contents (Elt F)) : (⟨S50000x128, .f32⟩ : BufTy).Contents (Elt F) :=
  broadcastInDim S50000x128 ![0, 1] bcast_S1x128_S50000x128_0_1 (val_main_v54 (F := F) x0 x1 x2 x3)

def val_main_v56 (x0 : (⟨S50000x64, .f32⟩ : BufTy).Contents (Elt F)) (x1 : (⟨S2x800000, .i32⟩ : BufTy).Contents (Elt F)) (x2 : (⟨S64x128, .f32⟩ : BufTy).Contents (Elt F)) (x3 : (⟨S128, .f32⟩ : BufTy).Contents (Elt F)) : (⟨S50000x128, .f32⟩ : BufTy).Contents (Elt F) :=
  subf (val_main_v43 (F := F) x0 x1 x2 x3) (val_main_v55 (F := F) x0 x1 x2 x3)

def val_main_cst_11 : (⟨S_, .f32⟩ : BufTy).Contents (Elt F) :=
  constant S_ .f32 0x3727C5AC#32

def val_main_v57 : (⟨S128, .f32⟩ : BufTy).Contents (Elt F) :=
  broadcastInDim S128 ![] bcast_S_S128 (val_main_cst_11 (F := F))

def val_main_v58 (x0 : (⟨S50000x64, .f32⟩ : BufTy).Contents (Elt F)) (x1 : (⟨S2x800000, .i32⟩ : BufTy).Contents (Elt F)) (x2 : (⟨S64x128, .f32⟩ : BufTy).Contents (Elt F)) (x3 : (⟨S128, .f32⟩ : BufTy).Contents (Elt F)) : (⟨S128, .f32⟩ : BufTy).Contents (Elt F) :=
  addf (val_main_v53 (F := F) x0 x1 x2 x3) (val_main_v57 (F := F))

def val_main_v59 (x0 : (⟨S50000x64, .f32⟩ : BufTy).Contents (Elt F)) (x1 : (⟨S2x800000, .i32⟩ : BufTy).Contents (Elt F)) (x2 : (⟨S64x128, .f32⟩ : BufTy).Contents (Elt F)) (x3 : (⟨S128, .f32⟩ : BufTy).Contents (Elt F)) : (⟨S128, .f32⟩ : BufTy).Contents (Elt F) :=
  Host.rsqrt (val_main_v58 (F := F) x0 x1 x2 x3)

def val_main_v60 (x0 : (⟨S50000x64, .f32⟩ : BufTy).Contents (Elt F)) (x1 : (⟨S2x800000, .i32⟩ : BufTy).Contents (Elt F)) (x2 : (⟨S64x128, .f32⟩ : BufTy).Contents (Elt F)) (x3 : (⟨S128, .f32⟩ : BufTy).Contents (Elt F)) : (⟨S1x128, .f32⟩ : BufTy).Contents (Elt F) :=
  broadcastInDim S1x128 ![1] bcast_S128_S1x128_1 (val_main_v59 (F := F) x0 x1 x2 x3)

def val_main_v61 (x0 : (⟨S50000x64, .f32⟩ : BufTy).Contents (Elt F)) (x1 : (⟨S2x800000, .i32⟩ : BufTy).Contents (Elt F)) (x2 : (⟨S64x128, .f32⟩ : BufTy).Contents (Elt F)) (x3 : (⟨S128, .f32⟩ : BufTy).Contents (Elt F)) : (⟨S50000x128, .f32⟩ : BufTy).Contents (Elt F) :=
  broadcastInDim S50000x128 ![0, 1] bcast_S1x128_S50000x128_0_1 (val_main_v60 (F := F) x0 x1 x2 x3)

def val_main_v62 (x0 : (⟨S50000x64, .f32⟩ : BufTy).Contents (Elt F)) (x1 : (⟨S2x800000, .i32⟩ : BufTy).Contents (Elt F)) (x2 : (⟨S64x128, .f32⟩ : BufTy).Contents (Elt F)) (x3 : (⟨S128, .f32⟩ : BufTy).Contents (Elt F)) : (⟨S50000x128, .f32⟩ : BufTy).Contents (Elt F) :=
  mulf (val_main_v56 (F := F) x0 x1 x2 x3) (val_main_v61 (F := F) x0 x1 x2 x3)

def val_main_v63 (x4 : (⟨S128, .f32⟩ : BufTy).Contents (Elt F)) : (⟨S1x128, .f32⟩ : BufTy).Contents (Elt F) :=
  broadcastInDim S1x128 ![1] bcast_S128_S1x128_1 (x4)

def val_main_v64 (x4 : (⟨S128, .f32⟩ : BufTy).Contents (Elt F)) : (⟨S50000x128, .f32⟩ : BufTy).Contents (Elt F) :=
  broadcastInDim S50000x128 ![0, 1] bcast_S1x128_S50000x128_0_1 (val_main_v63 (F := F) x4)

def val_main_v65 (x0 : (⟨S50000x64, .f32⟩ : BufTy).Contents (Elt F)) (x1 : (⟨S2x800000, .i32⟩ : BufTy).Contents (Elt F)) (x2 : (⟨S64x128, .f32⟩ : BufTy).Contents (Elt F)) (x3 x4 : (⟨S128, .f32⟩ : BufTy).Contents (Elt F)) : (⟨S50000x128, .f32⟩ : BufTy).Contents (Elt F) :=
  mulf (val_main_v62 (F := F) x0 x1 x2 x3) (val_main_v64 (F := F) x4)

def val_main_v66 (x5 : (⟨S128, .f32⟩ : BufTy).Contents (Elt F)) : (⟨S1x128, .f32⟩ : BufTy).Contents (Elt F) :=
  broadcastInDim S1x128 ![1] bcast_S128_S1x128_1 (x5)

def val_main_v67 (x5 : (⟨S128, .f32⟩ : BufTy).Contents (Elt F)) : (⟨S50000x128, .f32⟩ : BufTy).Contents (Elt F) :=
  broadcastInDim S50000x128 ![0, 1] bcast_S1x128_S50000x128_0_1 (val_main_v66 (F := F) x5)

def val_main_v68 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) : (⟨S50000x128, .f32⟩ : BufTy).Contents (Elt F) :=
  addf (val_main_v65 (F := F) x0 x1 x2 x3 x4) (val_main_v67 (F := F) x5)

def val_main_call0_cst : (⟨S_, .f32⟩ : BufTy).Contents (Elt F) :=
  constant S_ .f32 0x00000000#32

def val_main_call0_v0 : (⟨S50000x128, .f32⟩ : BufTy).Contents (Elt F) :=
  broadcastInDim S50000x128 ![] bcast_S_S50000x128 (val_main_call0_cst (F := F))

def val_main_v69 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) : (⟨S50000x128, .f32⟩ : BufTy).Contents (Elt F) :=
  maximumf (val_main_v68 (F := F) x0 x1 x2 x3 x4 x5) (val_main_call0_v0 (F := F))

def val_main_v70 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) : (⟨S50000x128, .f32⟩ : BufTy).Contents (Elt F) :=
  Host.dotGeneral dot_S50000x128_S128x128_S50000x128_1_0_0_1_n_n none (val_main_v69 (F := F) x0 x1 x2 x3 x4 x5) (x6)
theorem lhs_main_v70_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs_main_v70_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rhs_main_v70_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rhs_main_v70_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl
abbrev lidx_main_v70 (i : S50000x128.Idx) (k : Fin 128) : S50000x128.Idx := fun a => match a with
  | ⟨0, _⟩ => ⟨(i 0).val, (i 0).isLt⟩
  | ⟨1, _⟩ => ⟨k.val, k.isLt⟩
abbrev ridx_main_v70 (i : S50000x128.Idx) (k : Fin 128) : S128x128.Idx := fun a => match a with
  | ⟨0, _⟩ => ⟨k.val, k.isLt⟩
  | ⟨1, _⟩ => ⟨(i 1).val, (i 1).isLt⟩

theorem val_main_v70_apply (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 x4 x5 : (⟨S128, .f32⟩ : BufTy).Contents (Elt Ideal)) (x6 : (⟨S128x128, .f32⟩ : BufTy).Contents (Elt Ideal)) (i : S50000x128.Idx) :
    val_main_v70 (F := Ideal) x0 x1 x2 x3 x4 x5 x6 i = ∑ k : Fin 128, (val_main_v69 (F := Ideal) x0 x1 x2 x3 x4 x5) (lidx_main_v70 i k) * x6 (ridx_main_v70 i k) := by
  unfold val_main_v70
  generalize val_main_v69 (F := Ideal) x0 x1 x2 x3 x4 x5 = y0
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = lidx_main_v70 i k := funext fun a => Fin.ext (by
    match a with
    | ⟨0, _⟩ => exact lhs_main_v70_0 _ _
    | ⟨1, _⟩ => exact (lhs_main_v70_1 _ _).trans hk)
  have er : dot_S50000x128_S128x128_S50000x128_1_0_0_1_n_n.rhsIdx i ((ValueIdx.contrEquiv1 dot_S50000x128_S128x128_S50000x128_1_0_0_1_n_n 128 rfl rfl).symm k) = ridx_main_v70 i k := funext fun a => Fin.ext (by
    match a with
    | ⟨0, _⟩ => exact (rhs_main_v70_0 _ _).trans hk
    | ⟨1, _⟩ => exact rhs_main_v70_1 _ _)
  rw [el, er]

def val_main_c_12 : (⟨S_, .i32⟩ : BufTy).Contents (Elt F) :=
  constantI S_ 32 0#32

def val_main_v71 : (⟨S850000, .i32⟩ : BufTy).Contents (Elt F) :=
  broadcastInDim S850000 ![] bcast_S_S850000 (val_main_c_12 (F := F))

def val_main_v72 (x1 : (⟨S2x800000, .i32⟩ : BufTy).Contents (Elt F)) : (⟨S850000, .i1⟩ : BufTy).Contents (Elt F) :=
  cmpi .slt (val_main_v3 (F := F) x1) (val_main_v71 (F := F))

def val_main_c_13 : (⟨S_, .i32⟩ : BufTy).Contents (Elt F) :=
  constantI S_ 32 50000#32

def val_main_v73 : (⟨S850000, .i32⟩ : BufTy).Contents (Elt F) :=
  broadcastInDim S850000 ![] bcast_S_S850000 (val_main_c_13 (F := F))

def val_main_v74 (x1 : (⟨S2x800000, .i32⟩ : BufTy).Contents (Elt F)) : (⟨S850000, .i32⟩ : BufTy).Contents (Elt F) :=
  addi (val_main_v3 (F := F) x1) (val_main_v73 (F := F))

def val_main_v75 (x1 : (⟨S2x800000, .i32⟩ : BufTy).Contents (Elt F)) : (⟨S850000, .i32⟩ : BufTy).Contents (Elt F) :=
  select (val_main_v72 (F := F) x1) (val_main_v74 (F := F) x1) (val_main_v3 (F := F) x1)

def val_main_v76 (x1 : (⟨S2x800000, .i32⟩ : BufTy).Contents (Elt F)) : (⟨S850000x1, .i32⟩ : BufTy).Contents (Elt F) :=
  broadcastInDim S850000x1 ![0] bcast_S850000_S850000x1_0 (val_main_v75 (F := F) x1)

def val_main_v77 (x1 : (⟨S2x800000, .i32⟩ : BufTy).Contents (Elt F)) : (⟨S850000, .f32⟩ : BufTy).Contents (Elt F) :=
  Host.gather gather_S50000_S850000x1_S850000_n_0_n_n_0_1_1 (val_main_v11 (F := F) x1) (val_main_v76 (F := F) x1)

def val_main_c_14 : (⟨S_, .i32⟩ : BufTy).Contents (Elt F) :=
  constantI S_ 32 0#32

def val_main_v78 : (⟨S850000, .i32⟩ : BufTy).Contents (Elt F) :=
  broadcastInDim S850000 ![] bcast_S_S850000 (val_main_c_14 (F := F))

def val_main_v79 (x1 : (⟨S2x800000, .i32⟩ : BufTy).Contents (Elt F)) : (⟨S850000, .i1⟩ : BufTy).Contents (Elt F) :=
  cmpi .slt (val_main_v6 (F := F) x1) (val_main_v78 (F := F))

def val_main_c_15 : (⟨S_, .i32⟩ : BufTy).Contents (Elt F) :=
  constantI S_ 32 50000#32

def val_main_v80 : (⟨S850000, .i32⟩ : BufTy).Contents (Elt F) :=
  broadcastInDim S850000 ![] bcast_S_S850000 (val_main_c_15 (F := F))

def val_main_v81 (x1 : (⟨S2x800000, .i32⟩ : BufTy).Contents (Elt F)) : (⟨S850000, .i32⟩ : BufTy).Contents (Elt F) :=
  addi (val_main_v6 (F := F) x1) (val_main_v80 (F := F))

def val_main_v82 (x1 : (⟨S2x800000, .i32⟩ : BufTy).Contents (Elt F)) : (⟨S850000, .i32⟩ : BufTy).Contents (Elt F) :=
  select (val_main_v79 (F := F) x1) (val_main_v81 (F := F) x1) (val_main_v6 (F := F) x1)

def val_main_v83 (x1 : (⟨S2x800000, .i32⟩ : BufTy).Contents (Elt F)) : (⟨S850000x1, .i32⟩ : BufTy).Contents (Elt F) :=
  broadcastInDim S850000x1 ![0] bcast_S850000_S850000x1_0 (val_main_v82 (F := F) x1)

def val_main_v84 (x1 : (⟨S2x800000, .i32⟩ : BufTy).Contents (Elt F)) : (⟨S850000, .f32⟩ : BufTy).Contents (Elt F) :=
  Host.gather gather_S50000_S850000x1_S850000_n_0_n_n_0_1_1 (val_main_v11 (F := F) x1) (val_main_v83 (F := F) x1)

def val_main_v85 (x1 : (⟨S2x800000, .i32⟩ : BufTy).Contents (Elt F)) : (⟨S850000, .f32⟩ : BufTy).Contents (Elt F) :=
  mulf (val_main_v77 (F := F) x1) (val_main_v84 (F := F) x1)

def val_main_c_16 : (⟨S_, .i32⟩ : BufTy).Contents (Elt F) :=
  constantI S_ 32 0#32

def val_main_v86 : (⟨S850000, .i32⟩ : BufTy).Contents (Elt F) :=
  broadcastInDim S850000 ![] bcast_S_S850000 (val_main_c_16 (F := F))

def val_main_v87 (x1 : (⟨S2x800000, .i32⟩ : BufTy).Contents (Elt F)) : (⟨S850000, .i1⟩ : BufTy).Contents (Elt F) :=
  cmpi .slt (val_main_v3 (F := F) x1) (val_main_v86 (F := F))

def val_main_c_17 : (⟨S_, .i32⟩ : BufTy).Contents (Elt F) :=
  constantI S_ 32 50000#32

def val_main_v88 : (⟨S850000, .i32⟩ : BufTy).Contents (Elt F) :=
  broadcastInDim S850000 ![] bcast_S_S850000 (val_main_c_17 (F := F))

def val_main_v89 (x1 : (⟨S2x800000, .i32⟩ : BufTy).Contents (Elt F)) : (⟨S850000, .i32⟩ : BufTy).Contents (Elt F) :=
  addi (val_main_v3 (F := F) x1) (val_main_v88 (F := F))

def val_main_v90 (x1 : (⟨S2x800000, .i32⟩ : BufTy).Contents (Elt F)) : (⟨S850000, .i32⟩ : BufTy).Contents (Elt F) :=
  select (val_main_v87 (F := F) x1) (val_main_v89 (F := F) x1) (val_main_v3 (F := F) x1)

def val_main_v91 (x1 : (⟨S2x800000, .i32⟩ : BufTy).Contents (Elt F)) : (⟨S850000x1, .i32⟩ : BufTy).Contents (Elt F) :=
  broadcastInDim S850000x1 ![0] bcast_S850000_S850000x1_0 (val_main_v90 (F := F) x1)

def val_main_v92 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) : (⟨S850000x128, .f32⟩ : BufTy).Contents (Elt F) :=
  Host.gather gather_S50000x128_S850000x1_S850000x128_1_0_n_n_0_1_1128 (val_main_v70 (F := F) x0 x1 x2 x3 x4 x5 x6) (val_main_v91 (F := F) x1)

def val_main_v93 (x1 : (⟨S2x800000, .i32⟩ : BufTy).Contents (Elt F)) : (⟨S850000x1, .f32⟩ : BufTy).Contents (Elt F) :=
  broadcastInDim S850000x1 ![0] bcast_S850000_S850000x1_0 (val_main_v85 (F := F) x1)

def val_main_v94 (x1 : (⟨S2x800000, .i32⟩ : BufTy).Contents (Elt F)) : (⟨S850000x128, .f32⟩ : BufTy).Contents (Elt F) :=
  broadcastInDim S850000x128 ![0, 1] bcast_S850000x1_S850000x128_0_1 (val_main_v93 (F := F) x1)

def val_main_v95 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) : (⟨S850000x128, .f32⟩ : BufTy).Contents (Elt F) :=
  mulf (val_main_v92 (F := F) x0 x1 x2 x3 x4 x5 x6) (val_main_v94 (F := F) x1)

def val_main_cst_18 : (⟨S_, .f32⟩ : BufTy).Contents (Elt F) :=
  constant S_ .f32 0x00000000#32

def val_main_v96 : (⟨S50000x128, .f32⟩ : BufTy).Contents (Elt F) :=
  broadcastInDim S50000x128 ![] bcast_S_S50000x128 (val_main_cst_18 (F := F))

def val_main_v97 (x1 : (⟨S2x800000, .i32⟩ : BufTy).Contents (Elt F)) : (⟨S850000x1, .i32⟩ : BufTy).Contents (Elt F) :=
  broadcastInDim S850000x1 ![0] bcast_S850000_S850000x1_0 (val_main_v6 (F := F) x1)

def val_main_v98 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) : (⟨S50000x128, .f32⟩ : BufTy).Contents (Elt F) :=
  Host.scatterAdd scatter_S50000x128_S850000x1_S850000x128_1_0_0_1 (val_main_v96 (F := F)) (val_main_v97 (F := F) x1) (val_main_v95 (F := F) x0 x1 x2 x3 x4 x5 x6)

def val_main_v99 (x7 : (⟨S128, .f32⟩ : BufTy).Contents (Elt F)) : (⟨S1x128, .f32⟩ : BufTy).Contents (Elt F) :=
  broadcastInDim S1x128 ![1] bcast_S128_S1x128_1 (x7)

def val_main_v100 (x7 : (⟨S128, .f32⟩ : BufTy).Contents (Elt F)) : (⟨S50000x128, .f32⟩ : BufTy).Contents (Elt F) :=
  broadcastInDim S50000x128 ![0, 1] bcast_S1x128_S50000x128_0_1 (val_main_v99 (F := F) x7)

def val_main_v101 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 : (⟨S128, .f32⟩ : BufTy).Contents (Elt F)) : (⟨S50000x128, .f32⟩ : BufTy).Contents (Elt F) :=
  addf (val_main_v98 (F := F) x0 x1 x2 x3 x4 x5 x6) (val_main_v100 (F := F) x7)

def val_main_cst_19 : (⟨S_, .f32⟩ : BufTy).Contents (Elt F) :=
  constant S_ .f32 0x00000000#32

def val_main_v102 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 : (⟨S128, .f32⟩ : BufTy).Contents (Elt F)) : (⟨S128, .f32⟩ : BufTy).Contents (Elt F) :=
  Host.reduceAdd (val_main_v101 (F := F) x0 x1 x2 x3 x4 x5 x6 x7) (val_main_cst_19 (F := F)) reducesTo_S50000x128_S128_d0 h_S_

def val_main_cst_20 : (⟨S_, .f32⟩ : BufTy).Contents (Elt F) :=
  constant S_ .f32 0x47435000#32

def val_main_v103 : (⟨S128, .f32⟩ : BufTy).Contents (Elt F) :=
  broadcastInDim S128 ![] bcast_S_S128 (val_main_cst_20 (F := F))

def val_main_v104 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 : (⟨S128, .f32⟩ : BufTy).Contents (Elt F)) : (⟨S128, .f32⟩ : BufTy).Contents (Elt F) :=
  Host.divf (val_main_v102 (F := F) x0 x1 x2 x3 x4 x5 x6 x7) (val_main_v103 (F := F))

def val_main_v105 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 : (⟨S128, .f32⟩ : BufTy).Contents (Elt F)) : (⟨S1x128, .f32⟩ : BufTy).Contents (Elt F) :=
  broadcastInDim S1x128 ![1] bcast_S128_S1x128_1 (val_main_v104 (F := F) x0 x1 x2 x3 x4 x5 x6 x7)

def val_main_v106 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 : (⟨S128, .f32⟩ : BufTy).Contents (Elt F)) : (⟨S50000x128, .f32⟩ : BufTy).Contents (Elt F) :=
  broadcastInDim S50000x128 ![0, 1] bcast_S1x128_S50000x128_0_1 (val_main_v105 (F := F) x0 x1 x2 x3 x4 x5 x6 x7)

def val_main_v107 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 : (⟨S128, .f32⟩ : BufTy).Contents (Elt F)) : (⟨S50000x128, .f32⟩ : BufTy).Contents (Elt F) :=
  subf (val_main_v101 (F := F) x0 x1 x2 x3 x4 x5 x6 x7) (val_main_v106 (F := F) x0 x1 x2 x3 x4 x5 x6 x7)

def val_main_v108 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 : (⟨S128, .f32⟩ : BufTy).Contents (Elt F)) : (⟨S50000x128, .f32⟩ : BufTy).Contents (Elt F) :=
  mulf (val_main_v107 (F := F) x0 x1 x2 x3 x4 x5 x6 x7) (val_main_v107 (F := F) x0 x1 x2 x3 x4 x5 x6 x7)

def val_main_cst_21 : (⟨S_, .f32⟩ : BufTy).Contents (Elt F) :=
  constant S_ .f32 0x00000000#32

def val_main_v109 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 : (⟨S128, .f32⟩ : BufTy).Contents (Elt F)) : (⟨S128, .f32⟩ : BufTy).Contents (Elt F) :=
  Host.reduceAdd (val_main_v108 (F := F) x0 x1 x2 x3 x4 x5 x6 x7) (val_main_cst_21 (F := F)) reducesTo_S50000x128_S128_d0 h_S_

def val_main_cst_22 : (⟨S_, .f32⟩ : BufTy).Contents (Elt F) :=
  constant S_ .f32 0x47435000#32

def val_main_v110 : (⟨S128, .f32⟩ : BufTy).Contents (Elt F) :=
  broadcastInDim S128 ![] bcast_S_S128 (val_main_cst_22 (F := F))

def val_main_v111 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 : (⟨S128, .f32⟩ : BufTy).Contents (Elt F)) : (⟨S128, .f32⟩ : BufTy).Contents (Elt F) :=
  Host.divf (val_main_v109 (F := F) x0 x1 x2 x3 x4 x5 x6 x7) (val_main_v110 (F := F))

def val_main_v112 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 : (⟨S128, .f32⟩ : BufTy).Contents (Elt F)) : (⟨S1x128, .f32⟩ : BufTy).Contents (Elt F) :=
  broadcastInDim S1x128 ![1] bcast_S128_S1x128_1 (val_main_v104 (F := F) x0 x1 x2 x3 x4 x5 x6 x7)

def val_main_v113 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 : (⟨S128, .f32⟩ : BufTy).Contents (Elt F)) : (⟨S50000x128, .f32⟩ : BufTy).Contents (Elt F) :=
  broadcastInDim S50000x128 ![0, 1] bcast_S1x128_S50000x128_0_1 (val_main_v112 (F := F) x0 x1 x2 x3 x4 x5 x6 x7)

def val_main_v114 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 : (⟨S128, .f32⟩ : BufTy).Contents (Elt F)) : (⟨S50000x128, .f32⟩ : BufTy).Contents (Elt F) :=
  subf (val_main_v101 (F := F) x0 x1 x2 x3 x4 x5 x6 x7) (val_main_v113 (F := F) x0 x1 x2 x3 x4 x5 x6 x7)

def val_main_cst_23 : (⟨S_, .f32⟩ : BufTy).Contents (Elt F) :=
  constant S_ .f32 0x3727C5AC#32

def val_main_v115 : (⟨S128, .f32⟩ : BufTy).Contents (Elt F) :=
  broadcastInDim S128 ![] bcast_S_S128 (val_main_cst_23 (F := F))

def val_main_v116 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 : (⟨S128, .f32⟩ : BufTy).Contents (Elt F)) : (⟨S128, .f32⟩ : BufTy).Contents (Elt F) :=
  addf (val_main_v111 (F := F) x0 x1 x2 x3 x4 x5 x6 x7) (val_main_v115 (F := F))

def val_main_v117 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 : (⟨S128, .f32⟩ : BufTy).Contents (Elt F)) : (⟨S128, .f32⟩ : BufTy).Contents (Elt F) :=
  Host.rsqrt (val_main_v116 (F := F) x0 x1 x2 x3 x4 x5 x6 x7)

def val_main_v118 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 : (⟨S128, .f32⟩ : BufTy).Contents (Elt F)) : (⟨S1x128, .f32⟩ : BufTy).Contents (Elt F) :=
  broadcastInDim S1x128 ![1] bcast_S128_S1x128_1 (val_main_v117 (F := F) x0 x1 x2 x3 x4 x5 x6 x7)

def val_main_v119 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 : (⟨S128, .f32⟩ : BufTy).Contents (Elt F)) : (⟨S50000x128, .f32⟩ : BufTy).Contents (Elt F) :=
  broadcastInDim S50000x128 ![0, 1] bcast_S1x128_S50000x128_0_1 (val_main_v118 (F := F) x0 x1 x2 x3 x4 x5 x6 x7)

def val_main_v120 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 : (⟨S128, .f32⟩ : BufTy).Contents (Elt F)) : (⟨S50000x128, .f32⟩ : BufTy).Contents (Elt F) :=
  mulf (val_main_v114 (F := F) x0 x1 x2 x3 x4 x5 x6 x7) (val_main_v119 (F := F) x0 x1 x2 x3 x4 x5 x6 x7)

def val_main_v121 (x8 : (⟨S128, .f32⟩ : BufTy).Contents (Elt F)) : (⟨S1x128, .f32⟩ : BufTy).Contents (Elt F) :=
  broadcastInDim S1x128 ![1] bcast_S128_S1x128_1 (x8)

def val_main_v122 (x8 : (⟨S128, .f32⟩ : BufTy).Contents (Elt F)) : (⟨S50000x128, .f32⟩ : BufTy).Contents (Elt F) :=
  broadcastInDim S50000x128 ![0, 1] bcast_S1x128_S50000x128_0_1 (val_main_v121 (F := F) x8)

def val_main_v123 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 x8 : (⟨S128, .f32⟩ : BufTy).Contents (Elt F)) : (⟨S50000x128, .f32⟩ : BufTy).Contents (Elt F) :=
  mulf (val_main_v120 (F := F) x0 x1 x2 x3 x4 x5 x6 x7) (val_main_v122 (F := F) x8)

def val_main_v124 (x9 : (⟨S128, .f32⟩ : BufTy).Contents (Elt F)) : (⟨S1x128, .f32⟩ : BufTy).Contents (Elt F) :=
  broadcastInDim S1x128 ![1] bcast_S128_S1x128_1 (x9)

def val_main_v125 (x9 : (⟨S128, .f32⟩ : BufTy).Contents (Elt F)) : (⟨S50000x128, .f32⟩ : BufTy).Contents (Elt F) :=
  broadcastInDim S50000x128 ![0, 1] bcast_S1x128_S50000x128_0_1 (val_main_v124 (F := F) x9)

def val_main_v126 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 x8 x9 : (⟨S128, .f32⟩ : BufTy).Contents (Elt F)) : (⟨S50000x128, .f32⟩ : BufTy).Contents (Elt F) :=
  addf (val_main_v123 (F := F) x0 x1 x2 x3 x4 x5 x6 x7 x8) (val_main_v125 (F := F) x9)

def val_main_call1_cst : (⟨S_, .f32⟩ : BufTy).Contents (Elt F) :=
  constant S_ .f32 0x00000000#32

def val_main_call1_v0 : (⟨S50000x128, .f32⟩ : BufTy).Contents (Elt F) :=
  broadcastInDim S50000x128 ![] bcast_S_S50000x128 (val_main_call1_cst (F := F))

def val_main_v127 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 x8 x9 : (⟨S128, .f32⟩ : BufTy).Contents (Elt F)) : (⟨S50000x128, .f32⟩ : BufTy).Contents (Elt F) :=
  maximumf (val_main_v126 (F := F) x0 x1 x2 x3 x4 x5 x6 x7 x8 x9) (val_main_call1_v0 (F := F))

def val_main_v128 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 x8 x9 : (⟨S128, .f32⟩ : BufTy).Contents (Elt F)) (x10 : (⟨S128x128, .f32⟩ : BufTy).Contents (Elt F)) : (⟨S50000x128, .f32⟩ : BufTy).Contents (Elt F) :=
  Host.dotGeneral dot_S50000x128_S128x128_S50000x128_1_0_0_1_n_n none (val_main_v127 (F := F) x0 x1 x2 x3 x4 x5 x6 x7 x8 x9) (x10)
theorem lhs_main_v128_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs_main_v128_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rhs_main_v128_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rhs_main_v128_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl
abbrev lidx_main_v128 (i : S50000x128.Idx) (k : Fin 128) : S50000x128.Idx := fun a => match a with
  | ⟨0, _⟩ => ⟨(i 0).val, (i 0).isLt⟩
  | ⟨1, _⟩ => ⟨k.val, k.isLt⟩
abbrev ridx_main_v128 (i : S50000x128.Idx) (k : Fin 128) : S128x128.Idx := fun a => match a with
  | ⟨0, _⟩ => ⟨k.val, k.isLt⟩
  | ⟨1, _⟩ => ⟨(i 1).val, (i 1).isLt⟩

theorem val_main_v128_apply (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 x4 x5 : (⟨S128, .f32⟩ : BufTy).Contents (Elt Ideal)) (x6 : (⟨S128x128, .f32⟩ : BufTy).Contents (Elt Ideal)) (x7 x8 x9 : (⟨S128, .f32⟩ : BufTy).Contents (Elt Ideal)) (x10 : (⟨S128x128, .f32⟩ : BufTy).Contents (Elt Ideal)) (i : S50000x128.Idx) :
    val_main_v128 (F := Ideal) x0 x1 x2 x3 x4 x5 x6 x7 x8 x9 x10 i = ∑ k : Fin 128, (val_main_v127 (F := Ideal) x0 x1 x2 x3 x4 x5 x6 x7 x8 x9) (lidx_main_v128 i k) * x10 (ridx_main_v128 i k) := by
  unfold val_main_v128
  generalize val_main_v127 (F := Ideal) x0 x1 x2 x3 x4 x5 x6 x7 x8 x9 = y0
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = lidx_main_v128 i k := funext fun a => Fin.ext (by
    match a with
    | ⟨0, _⟩ => exact lhs_main_v128_0 _ _
    | ⟨1, _⟩ => exact (lhs_main_v128_1 _ _).trans hk)
  have er : dot_S50000x128_S128x128_S50000x128_1_0_0_1_n_n.rhsIdx i ((ValueIdx.contrEquiv1 dot_S50000x128_S128x128_S50000x128_1_0_0_1_n_n 128 rfl rfl).symm k) = ridx_main_v128 i k := funext fun a => Fin.ext (by
    match a with
    | ⟨0, _⟩ => exact (rhs_main_v128_0 _ _).trans hk
    | ⟨1, _⟩ => exact rhs_main_v128_1 _ _)
  rw [el, er]

def val_main_c_24 : (⟨S_, .i32⟩ : BufTy).Contents (Elt F) :=
  constantI S_ 32 0#32

def val_main_v129 : (⟨S850000, .i32⟩ : BufTy).Contents (Elt F) :=
  broadcastInDim S850000 ![] bcast_S_S850000 (val_main_c_24 (F := F))

def val_main_v130 (x1 : (⟨S2x800000, .i32⟩ : BufTy).Contents (Elt F)) : (⟨S850000, .i1⟩ : BufTy).Contents (Elt F) :=
  cmpi .slt (val_main_v3 (F := F) x1) (val_main_v129 (F := F))

def val_main_c_25 : (⟨S_, .i32⟩ : BufTy).Contents (Elt F) :=
  constantI S_ 32 50000#32

def val_main_v131 : (⟨S850000, .i32⟩ : BufTy).Contents (Elt F) :=
  broadcastInDim S850000 ![] bcast_S_S850000 (val_main_c_25 (F := F))

def val_main_v132 (x1 : (⟨S2x800000, .i32⟩ : BufTy).Contents (Elt F)) : (⟨S850000, .i32⟩ : BufTy).Contents (Elt F) :=
  addi (val_main_v3 (F := F) x1) (val_main_v131 (F := F))

def val_main_v133 (x1 : (⟨S2x800000, .i32⟩ : BufTy).Contents (Elt F)) : (⟨S850000, .i32⟩ : BufTy).Contents (Elt F) :=
  select (val_main_v130 (F := F) x1) (val_main_v132 (F := F) x1) (val_main_v3 (F := F) x1)

def val_main_v134 (x1 : (⟨S2x800000, .i32⟩ : BufTy).Contents (Elt F)) : (⟨S850000x1, .i32⟩ : BufTy).Contents (Elt F) :=
  broadcastInDim S850000x1 ![0] bcast_S850000_S850000x1_0 (val_main_v133 (F := F) x1)

def val_main_v135 (x1 : (⟨S2x800000, .i32⟩ : BufTy).Contents (Elt F)) : (⟨S850000, .f32⟩ : BufTy).Contents (Elt F) :=
  Host.gather gather_S50000_S850000x1_S850000_n_0_n_n_0_1_1 (val_main_v11 (F := F) x1) (val_main_v134 (F := F) x1)

def val_main_c_26 : (⟨S_, .i32⟩ : BufTy).Contents (Elt F) :=
  constantI S_ 32 0#32

def val_main_v136 : (⟨S850000, .i32⟩ : BufTy).Contents (Elt F) :=
  broadcastInDim S850000 ![] bcast_S_S850000 (val_main_c_26 (F := F))

def val_main_v137 (x1 : (⟨S2x800000, .i32⟩ : BufTy).Contents (Elt F)) : (⟨S850000, .i1⟩ : BufTy).Contents (Elt F) :=
  cmpi .slt (val_main_v6 (F := F) x1) (val_main_v136 (F := F))

def val_main_c_27 : (⟨S_, .i32⟩ : BufTy).Contents (Elt F) :=
  constantI S_ 32 50000#32

def val_main_v138 : (⟨S850000, .i32⟩ : BufTy).Contents (Elt F) :=
  broadcastInDim S850000 ![] bcast_S_S850000 (val_main_c_27 (F := F))

def val_main_v139 (x1 : (⟨S2x800000, .i32⟩ : BufTy).Contents (Elt F)) : (⟨S850000, .i32⟩ : BufTy).Contents (Elt F) :=
  addi (val_main_v6 (F := F) x1) (val_main_v138 (F := F))

def val_main_v140 (x1 : (⟨S2x800000, .i32⟩ : BufTy).Contents (Elt F)) : (⟨S850000, .i32⟩ : BufTy).Contents (Elt F) :=
  select (val_main_v137 (F := F) x1) (val_main_v139 (F := F) x1) (val_main_v6 (F := F) x1)

def val_main_v141 (x1 : (⟨S2x800000, .i32⟩ : BufTy).Contents (Elt F)) : (⟨S850000x1, .i32⟩ : BufTy).Contents (Elt F) :=
  broadcastInDim S850000x1 ![0] bcast_S850000_S850000x1_0 (val_main_v140 (F := F) x1)

def val_main_v142 (x1 : (⟨S2x800000, .i32⟩ : BufTy).Contents (Elt F)) : (⟨S850000, .f32⟩ : BufTy).Contents (Elt F) :=
  Host.gather gather_S50000_S850000x1_S850000_n_0_n_n_0_1_1 (val_main_v11 (F := F) x1) (val_main_v141 (F := F) x1)

def val_main_v143 (x1 : (⟨S2x800000, .i32⟩ : BufTy).Contents (Elt F)) : (⟨S850000, .f32⟩ : BufTy).Contents (Elt F) :=
  mulf (val_main_v135 (F := F) x1) (val_main_v142 (F := F) x1)

def val_main_c_28 : (⟨S_, .i32⟩ : BufTy).Contents (Elt F) :=
  constantI S_ 32 0#32

def val_main_v144 : (⟨S850000, .i32⟩ : BufTy).Contents (Elt F) :=
  broadcastInDim S850000 ![] bcast_S_S850000 (val_main_c_28 (F := F))

def val_main_v145 (x1 : (⟨S2x800000, .i32⟩ : BufTy).Contents (Elt F)) : (⟨S850000, .i1⟩ : BufTy).Contents (Elt F) :=
  cmpi .slt (val_main_v3 (F := F) x1) (val_main_v144 (F := F))

def val_main_c_29 : (⟨S_, .i32⟩ : BufTy).Contents (Elt F) :=
  constantI S_ 32 50000#32

def val_main_v146 : (⟨S850000, .i32⟩ : BufTy).Contents (Elt F) :=
  broadcastInDim S850000 ![] bcast_S_S850000 (val_main_c_29 (F := F))

def val_main_v147 (x1 : (⟨S2x800000, .i32⟩ : BufTy).Contents (Elt F)) : (⟨S850000, .i32⟩ : BufTy).Contents (Elt F) :=
  addi (val_main_v3 (F := F) x1) (val_main_v146 (F := F))

def val_main_v148 (x1 : (⟨S2x800000, .i32⟩ : BufTy).Contents (Elt F)) : (⟨S850000, .i32⟩ : BufTy).Contents (Elt F) :=
  select (val_main_v145 (F := F) x1) (val_main_v147 (F := F) x1) (val_main_v3 (F := F) x1)

def val_main_v149 (x1 : (⟨S2x800000, .i32⟩ : BufTy).Contents (Elt F)) : (⟨S850000x1, .i32⟩ : BufTy).Contents (Elt F) :=
  broadcastInDim S850000x1 ![0] bcast_S850000_S850000x1_0 (val_main_v148 (F := F) x1)

def val_main_v150 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 x8 x9 : (⟨S128, .f32⟩ : BufTy).Contents (Elt F)) (x10 : (⟨S128x128, .f32⟩ : BufTy).Contents (Elt F)) : (⟨S850000x128, .f32⟩ : BufTy).Contents (Elt F) :=
  Host.gather gather_S50000x128_S850000x1_S850000x128_1_0_n_n_0_1_1128 (val_main_v128 (F := F) x0 x1 x2 x3 x4 x5 x6 x7 x8 x9 x10) (val_main_v149 (F := F) x1)

def val_main_v151 (x1 : (⟨S2x800000, .i32⟩ : BufTy).Contents (Elt F)) : (⟨S850000x1, .f32⟩ : BufTy).Contents (Elt F) :=
  broadcastInDim S850000x1 ![0] bcast_S850000_S850000x1_0 (val_main_v143 (F := F) x1)

def val_main_v152 (x1 : (⟨S2x800000, .i32⟩ : BufTy).Contents (Elt F)) : (⟨S850000x128, .f32⟩ : BufTy).Contents (Elt F) :=
  broadcastInDim S850000x128 ![0, 1] bcast_S850000x1_S850000x128_0_1 (val_main_v151 (F := F) x1)

def val_main_v153 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 x8 x9 : (⟨S128, .f32⟩ : BufTy).Contents (Elt F)) (x10 : (⟨S128x128, .f32⟩ : BufTy).Contents (Elt F)) : (⟨S850000x128, .f32⟩ : BufTy).Contents (Elt F) :=
  mulf (val_main_v150 (F := F) x0 x1 x2 x3 x4 x5 x6 x7 x8 x9 x10) (val_main_v152 (F := F) x1)

def val_main_cst_30 : (⟨S_, .f32⟩ : BufTy).Contents (Elt F) :=
  constant S_ .f32 0x00000000#32

def val_main_v154 : (⟨S50000x128, .f32⟩ : BufTy).Contents (Elt F) :=
  broadcastInDim S50000x128 ![] bcast_S_S50000x128 (val_main_cst_30 (F := F))

def val_main_v155 (x1 : (⟨S2x800000, .i32⟩ : BufTy).Contents (Elt F)) : (⟨S850000x1, .i32⟩ : BufTy).Contents (Elt F) :=
  broadcastInDim S850000x1 ![0] bcast_S850000_S850000x1_0 (val_main_v6 (F := F) x1)

def val_main_v156 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 x8 x9 : (⟨S128, .f32⟩ : BufTy).Contents (Elt F)) (x10 : (⟨S128x128, .f32⟩ : BufTy).Contents (Elt F)) : (⟨S50000x128, .f32⟩ : BufTy).Contents (Elt F) :=
  Host.scatterAdd scatter_S50000x128_S850000x1_S850000x128_1_0_0_1 (val_main_v154 (F := F)) (val_main_v155 (F := F) x1) (val_main_v153 (F := F) x0 x1 x2 x3 x4 x5 x6 x7 x8 x9 x10)

def val_main_v157 (x11 : (⟨S128, .f32⟩ : BufTy).Contents (Elt F)) : (⟨S1x128, .f32⟩ : BufTy).Contents (Elt F) :=
  broadcastInDim S1x128 ![1] bcast_S128_S1x128_1 (x11)

def val_main_v158 (x11 : (⟨S128, .f32⟩ : BufTy).Contents (Elt F)) : (⟨S50000x128, .f32⟩ : BufTy).Contents (Elt F) :=
  broadcastInDim S50000x128 ![0, 1] bcast_S1x128_S50000x128_0_1 (val_main_v157 (F := F) x11)

def val_main_v159 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 x8 x9 : (⟨S128, .f32⟩ : BufTy).Contents (Elt F)) (x10 : (⟨S128x128, .f32⟩ : BufTy).Contents (Elt F)) (x11 : (⟨S128, .f32⟩ : BufTy).Contents (Elt F)) : (⟨S50000x128, .f32⟩ : BufTy).Contents (Elt F) :=
  addf (val_main_v156 (F := F) x0 x1 x2 x3 x4 x5 x6 x7 x8 x9 x10) (val_main_v158 (F := F) x11)

def val_main_call2_cst : (⟨S_, .f32⟩ : BufTy).Contents (Elt F) :=
  constant S_ .f32 0x00000000#32
theorem val_main_call2_cst_apply (i : S_.Idx) :
    val_main_call2_cst (F := F) i = FloatOps.ofBits .f32 0x00000000#32 := rfl

def val_main_call2_v0 : (⟨S50000x128, .f32⟩ : BufTy).Contents (Elt F) :=
  broadcastInDim S50000x128 ![] bcast_S_S50000x128 (val_main_call2_cst (F := F))
abbrev idx_main_call2_v0 (i : S50000x128.Idx) : S_.Idx := fun a => a.elim0
theorem val_main_call2_v0_apply (i : S50000x128.Idx) :
    val_main_call2_v0 (F := F) i = val_main_call2_cst (F := F) (idx_main_call2_v0 i) := by
  unfold val_main_call2_v0
  generalize val_main_call2_cst (F := F) = y
  exact broadcastInDim_apply _ bcast_S_S50000x128 y i (idx_main_call2_v0 i) (fun a => a.elim0)

def val_main_v160 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 x8 x9 : (⟨S128, .f32⟩ : BufTy).Contents (Elt F)) (x10 : (⟨S128x128, .f32⟩ : BufTy).Contents (Elt F)) (x11 : (⟨S128, .f32⟩ : BufTy).Contents (Elt F)) : (⟨S50000x128, .f32⟩ : BufTy).Contents (Elt F) :=
  maximumf (val_main_v159 (F := F) x0 x1 x2 x3 x4 x5 x6 x7 x8 x9 x10 x11) (val_main_call2_v0 (F := F))
theorem val_main_v160_apply (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 x8 x9 : (⟨S128, .f32⟩ : BufTy).Contents (Elt F)) (x10 : (⟨S128x128, .f32⟩ : BufTy).Contents (Elt F)) (x11 : (⟨S128, .f32⟩ : BufTy).Contents (Elt F)) (i : S50000x128.Idx) :
    val_main_v160 (F := F) x0 x1 x2 x3 x4 x5 x6 x7 x8 x9 x10 x11 i = FloatOps.maximumf (val_main_v159 (F := F) x0 x1 x2 x3 x4 x5 x6 x7 x8 x9 x10 x11 i) (val_main_call2_v0 (F := F) i) := rfl

def val_main_v161 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 x8 x9 : (⟨S128, .f32⟩ : BufTy).Contents (Elt F)) (x10 : (⟨S128x128, .f32⟩ : BufTy).Contents (Elt F)) (x11 : (⟨S128, .f32⟩ : BufTy).Contents (Elt F)) (x12 : (⟨S128x1, .f32⟩ : BufTy).Contents (Elt F)) : (⟨S50000x1, .f32⟩ : BufTy).Contents (Elt F) :=
  Host.dotGeneral dot_S50000x128_S128x1_S50000x1_1_0_0_1_n_n none (val_main_v160 (F := F) x0 x1 x2 x3 x4 x5 x6 x7 x8 x9 x10 x11) (x12)
theorem lhs_main_v161_0 (i : S50000x1.Idx) (q : dot_S50000x128_S128x1_S50000x1_1_0_0_1_n_n.contr.Idx) :
    (dot_S50000x128_S128x1_S50000x1_1_0_0_1_n_n.lhsIdx i q 0).val = (i 0).val := by
  unfold DotDims.lhsIdx
  rw [dif_neg (show ¬(0 : Fin S50000x128.rank) ∈ dot_S50000x128_S128x1_S50000x1_1_0_0_1_n_n.lhsBatch by decide), dif_pos (show (0 : Fin S50000x128.rank) ∈ dot_S50000x128_S128x1_S50000x1_1_0_0_1_n_n.lhsNonContracting by decide)]
  rfl
theorem lhs_main_v161_1 (i : S50000x1.Idx) (q : dot_S50000x128_S128x1_S50000x1_1_0_0_1_n_n.contr.Idx) :
    (dot_S50000x128_S128x1_S50000x1_1_0_0_1_n_n.lhsIdx i q 1).val = (q ⟨0, by decide⟩).val :=
  dot_S50000x128_S128x1_S50000x1_1_0_0_1_n_n.lhsIdx_val_of_single rfl i q
theorem rhs_main_v161_0 (i : S50000x1.Idx) (q : dot_S50000x128_S128x1_S50000x1_1_0_0_1_n_n.contr.Idx) :
    (dot_S50000x128_S128x1_S50000x1_1_0_0_1_n_n.rhsIdx i q 0).val = (q ⟨0, by decide⟩).val :=
  dot_S50000x128_S128x1_S50000x1_1_0_0_1_n_n.rhsIdx_val_of_single rfl i q
theorem rhs_main_v161_1 (i : S50000x1.Idx) (q : dot_S50000x128_S128x1_S50000x1_1_0_0_1_n_n.contr.Idx) :
    (dot_S50000x128_S128x1_S50000x1_1_0_0_1_n_n.rhsIdx i q 1).val = (i 1).val := by
  unfold DotDims.rhsIdx
  rw [dif_neg (show ¬(1 : Fin S128x1.rank) ∈ dot_S50000x128_S128x1_S50000x1_1_0_0_1_n_n.rhsBatch by decide), dif_pos (show (1 : Fin S128x1.rank) ∈ dot_S50000x128_S128x1_S50000x1_1_0_0_1_n_n.rhsNonContracting by decide)]
  rfl
abbrev lidx_main_v161 (i : S50000x1.Idx) (k : Fin 128) : S50000x128.Idx := fun a => match a with
  | ⟨0, _⟩ => ⟨(i 0).val, (i 0).isLt⟩
  | ⟨1, _⟩ => ⟨k.val, k.isLt⟩
abbrev ridx_main_v161 (i : S50000x1.Idx) (k : Fin 128) : S128x1.Idx := fun a => match a with
  | ⟨0, _⟩ => ⟨k.val, k.isLt⟩
  | ⟨1, _⟩ => ⟨(i 1).val, (i 1).isLt⟩

theorem val_main_v161_apply (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 x4 x5 : (⟨S128, .f32⟩ : BufTy).Contents (Elt Ideal)) (x6 : (⟨S128x128, .f32⟩ : BufTy).Contents (Elt Ideal)) (x7 x8 x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x1, .f32⟩ : BufTy).Contents (Elt Ideal)) (i : S50000x1.Idx) :
    val_main_v161 (F := Ideal) x0 x1 x2 x3 x4 x5 x6 x7 x8 x9 x10 x11 x12 i = ∑ k : Fin 128, (val_main_v160 (F := Ideal) x0 x1 x2 x3 x4 x5 x6 x7 x8 x9 x10 x11) (lidx_main_v161 i k) * x12 (ridx_main_v161 i k) := by
  unfold val_main_v161
  generalize val_main_v160 (F := Ideal) x0 x1 x2 x3 x4 x5 x6 x7 x8 x9 x10 x11 = y0
  simp only [Host.dotGeneral]
  rw [Ideal.dotGeneral_apply, ← Equiv.sum_comp (ValueIdx.contrEquiv1 dot_S50000x128_S128x1_S50000x1_1_0_0_1_n_n 128 rfl rfl).symm]
  refine Finset.sum_congr rfl fun k _ => ?_
  have hk := ValueIdx.contrEquiv1_symm_val dot_S50000x128_S128x1_S50000x1_1_0_0_1_n_n 128 rfl rfl k
  have el : dot_S50000x128_S128x1_S50000x1_1_0_0_1_n_n.lhsIdx i ((ValueIdx.contrEquiv1 dot_S50000x128_S128x1_S50000x1_1_0_0_1_n_n 128 rfl rfl).symm k) = lidx_main_v161 i k := funext fun a => Fin.ext (by
    match a with
    | ⟨0, _⟩ => exact lhs_main_v161_0 _ _
    | ⟨1, _⟩ => exact (lhs_main_v161_1 _ _).trans hk)
  have er : dot_S50000x128_S128x1_S50000x1_1_0_0_1_n_n.rhsIdx i ((ValueIdx.contrEquiv1 dot_S50000x128_S128x1_S50000x1_1_0_0_1_n_n 128 rfl rfl).symm k) = ridx_main_v161 i k := funext fun a => Fin.ext (by
    match a with
    | ⟨0, _⟩ => exact (rhs_main_v161_0 _ _).trans hk
    | ⟨1, _⟩ => exact rhs_main_v161_1 _ _)
  rw [el, er]

def val_main_v162 (x13 : (⟨S1, .f32⟩ : BufTy).Contents (Elt F)) : (⟨S1x1, .f32⟩ : BufTy).Contents (Elt F) :=
  broadcastInDim S1x1 ![1] bcast_S1_S1x1_1 (x13)
abbrev idx_main_v162 (i : S1x1.Idx) : S1.Idx := fun a => match a with
  | ⟨0, _⟩ => ⟨0, Nat.one_pos⟩
theorem val_main_v162_apply (x13 : (⟨S1, .f32⟩ : BufTy).Contents (Elt F)) (i : S1x1.Idx) :
    val_main_v162 (F := F) x13 i = x13 (idx_main_v162 i) := by
  unfold val_main_v162
  exact broadcastInDim_apply _ bcast_S1_S1x1_1 x13 i (idx_main_v162 i) (fun a => match a with
    | ⟨0, _⟩ => by show 0 = if (1 : Nat) = 1 then 0 else (i 1).val; rw [if_pos rfl])

def val_main_v163 (x13 : (⟨S1, .f32⟩ : BufTy).Contents (Elt F)) : (⟨S50000x1, .f32⟩ : BufTy).Contents (Elt F) :=
  broadcastInDim S50000x1 ![0, 1] bcast_S1x1_S50000x1_0_1 (val_main_v162 (F := F) x13)
abbrev idx_main_v163 (i : S50000x1.Idx) : S1x1.Idx := fun a => match a with
  | ⟨0, _⟩ => ⟨0, Nat.one_pos⟩
  | ⟨1, _⟩ => ⟨0, Nat.one_pos⟩
theorem val_main_v163_apply (x13 : (⟨S1, .f32⟩ : BufTy).Contents (Elt F)) (i : S50000x1.Idx) :
    val_main_v163 (F := F) x13 i = val_main_v162 (F := F) x13 (idx_main_v163 i) := by
  unfold val_main_v163
  generalize val_main_v162 (F := F) x13 = y
  exact broadcastInDim_apply _ bcast_S1x1_S50000x1_0_1 y i (idx_main_v163 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

def val_main_v164 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 x8 x9 : (⟨S128, .f32⟩ : BufTy).Contents (Elt F)) (x10 : (⟨S128x128, .f32⟩ : BufTy).Contents (Elt F)) (x11 : (⟨S128, .f32⟩ : BufTy).Contents (Elt F)) (x12 : (⟨S128x1, .f32⟩ : BufTy).Contents (Elt F)) (x13 : (⟨S1, .f32⟩ : BufTy).Contents (Elt F)) : (⟨S50000x1, .f32⟩ : BufTy).Contents (Elt F) :=
  addf (val_main_v161 (F := F) x0 x1 x2 x3 x4 x5 x6 x7 x8 x9 x10 x11 x12) (val_main_v163 (F := F) x13)
theorem val_main_v164_apply (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 x8 x9 : (⟨S128, .f32⟩ : BufTy).Contents (Elt F)) (x10 : (⟨S128x128, .f32⟩ : BufTy).Contents (Elt F)) (x11 : (⟨S128, .f32⟩ : BufTy).Contents (Elt F)) (x12 : (⟨S128x1, .f32⟩ : BufTy).Contents (Elt F)) (x13 : (⟨S1, .f32⟩ : BufTy).Contents (Elt F)) (i : S50000x1.Idx) :
    val_main_v164 (F := F) x0 x1 x2 x3 x4 x5 x6 x7 x8 x9 x10 x11 x12 x13 i = FloatOps.addf (val_main_v161 (F := F) x0 x1 x2 x3 x4 x5 x6 x7 x8 x9 x10 x11 x12 i) (val_main_v163 (F := F) x13 i) := rfl

def val_main_v165 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 x8 x9 : (⟨S128, .f32⟩ : BufTy).Contents (Elt F)) (x10 : (⟨S128x128, .f32⟩ : BufTy).Contents (Elt F)) (x11 : (⟨S128, .f32⟩ : BufTy).Contents (Elt F)) (x12 : (⟨S128x1, .f32⟩ : BufTy).Contents (Elt F)) (x13 : (⟨S1, .f32⟩ : BufTy).Contents (Elt F)) : (⟨S50000x1, .f32⟩ : BufTy).Contents (Elt F) :=
  Host.negf (val_main_v164 (F := F) x0 x1 x2 x3 x4 x5 x6 x7 x8 x9 x10 x11 x12 x13)
theorem val_main_v165_apply (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 x8 x9 : (⟨S128, .f32⟩ : BufTy).Contents (Elt F)) (x10 : (⟨S128x128, .f32⟩ : BufTy).Contents (Elt F)) (x11 : (⟨S128, .f32⟩ : BufTy).Contents (Elt F)) (x12 : (⟨S128x1, .f32⟩ : BufTy).Contents (Elt F)) (x13 : (⟨S1, .f32⟩ : BufTy).Contents (Elt F)) (i : S50000x1.Idx) :
    val_main_v165 (F := F) x0 x1 x2 x3 x4 x5 x6 x7 x8 x9 x10 x11 x12 x13 i = FloatOps.hostNegf (val_main_v164 (F := F) x0 x1 x2 x3 x4 x5 x6 x7 x8 x9 x10 x11 x12 x13 i) := rfl

def val_main_v166 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 x8 x9 : (⟨S128, .f32⟩ : BufTy).Contents (Elt F)) (x10 : (⟨S128x128, .f32⟩ : BufTy).Contents (Elt F)) (x11 : (⟨S128, .f32⟩ : BufTy).Contents (Elt F)) (x12 : (⟨S128x1, .f32⟩ : BufTy).Contents (Elt F)) (x13 : (⟨S1, .f32⟩ : BufTy).Contents (Elt F)) : (⟨S50000x1, .f32⟩ : BufTy).Contents (Elt F) :=
  Host.exp (val_main_v165 (F := F) x0 x1 x2 x3 x4 x5 x6 x7 x8 x9 x10 x11 x12 x13)
theorem val_main_v166_apply (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 x8 x9 : (⟨S128, .f32⟩ : BufTy).Contents (Elt F)) (x10 : (⟨S128x128, .f32⟩ : BufTy).Contents (Elt F)) (x11 : (⟨S128, .f32⟩ : BufTy).Contents (Elt F)) (x12 : (⟨S128x1, .f32⟩ : BufTy).Contents (Elt F)) (x13 : (⟨S1, .f32⟩ : BufTy).Contents (Elt F)) (i : S50000x1.Idx) :
    val_main_v166 (F := F) x0 x1 x2 x3 x4 x5 x6 x7 x8 x9 x10 x11 x12 x13 i = FloatOps.hostUnary .exp (val_main_v165 (F := F) x0 x1 x2 x3 x4 x5 x6 x7 x8 x9 x10 x11 x12 x13 i) := rfl

def val_main_cst_31 : (⟨S_, .f32⟩ : BufTy).Contents (Elt F) :=
  constant S_ .f32 0x3F800000#32
theorem val_main_cst_31_apply (i : S_.Idx) :
    val_main_cst_31 (F := F) i = FloatOps.ofBits .f32 0x3F800000#32 := rfl

def val_main_v167 : (⟨S50000x1, .f32⟩ : BufTy).Contents (Elt F) :=
  broadcastInDim S50000x1 ![] bcast_S_S50000x1 (val_main_cst_31 (F := F))
abbrev idx_main_v167 (i : S50000x1.Idx) : S_.Idx := fun a => a.elim0
theorem val_main_v167_apply (i : S50000x1.Idx) :
    val_main_v167 (F := F) i = val_main_cst_31 (F := F) (idx_main_v167 i) := by
  unfold val_main_v167
  generalize val_main_cst_31 (F := F) = y
  exact broadcastInDim_apply _ bcast_S_S50000x1 y i (idx_main_v167 i) (fun a => a.elim0)

def val_main_v168 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 x8 x9 : (⟨S128, .f32⟩ : BufTy).Contents (Elt F)) (x10 : (⟨S128x128, .f32⟩ : BufTy).Contents (Elt F)) (x11 : (⟨S128, .f32⟩ : BufTy).Contents (Elt F)) (x12 : (⟨S128x1, .f32⟩ : BufTy).Contents (Elt F)) (x13 : (⟨S1, .f32⟩ : BufTy).Contents (Elt F)) : (⟨S50000x1, .f32⟩ : BufTy).Contents (Elt F) :=
  addf (val_main_v167 (F := F)) (val_main_v166 (F := F) x0 x1 x2 x3 x4 x5 x6 x7 x8 x9 x10 x11 x12 x13)
theorem val_main_v168_apply (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 x8 x9 : (⟨S128, .f32⟩ : BufTy).Contents (Elt F)) (x10 : (⟨S128x128, .f32⟩ : BufTy).Contents (Elt F)) (x11 : (⟨S128, .f32⟩ : BufTy).Contents (Elt F)) (x12 : (⟨S128x1, .f32⟩ : BufTy).Contents (Elt F)) (x13 : (⟨S1, .f32⟩ : BufTy).Contents (Elt F)) (i : S50000x1.Idx) :
    val_main_v168 (F := F) x0 x1 x2 x3 x4 x5 x6 x7 x8 x9 x10 x11 x12 x13 i = FloatOps.addf (val_main_v167 (F := F) i) (val_main_v166 (F := F) x0 x1 x2 x3 x4 x5 x6 x7 x8 x9 x10 x11 x12 x13 i) := rfl

def val_main_cst_32 : (⟨S_, .f32⟩ : BufTy).Contents (Elt F) :=
  constant S_ .f32 0x3F800000#32
theorem val_main_cst_32_apply (i : S_.Idx) :
    val_main_cst_32 (F := F) i = FloatOps.ofBits .f32 0x3F800000#32 := rfl

def val_main_v169 : (⟨S50000x1, .f32⟩ : BufTy).Contents (Elt F) :=
  broadcastInDim S50000x1 ![] bcast_S_S50000x1 (val_main_cst_32 (F := F))
abbrev idx_main_v169 (i : S50000x1.Idx) : S_.Idx := fun a => a.elim0
theorem val_main_v169_apply (i : S50000x1.Idx) :
    val_main_v169 (F := F) i = val_main_cst_32 (F := F) (idx_main_v169 i) := by
  unfold val_main_v169
  generalize val_main_cst_32 (F := F) = y
  exact broadcastInDim_apply _ bcast_S_S50000x1 y i (idx_main_v169 i) (fun a => a.elim0)

def val_main_v170 (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 x8 x9 : (⟨S128, .f32⟩ : BufTy).Contents (Elt F)) (x10 : (⟨S128x128, .f32⟩ : BufTy).Contents (Elt F)) (x11 : (⟨S128, .f32⟩ : BufTy).Contents (Elt F)) (x12 : (⟨S128x1, .f32⟩ : BufTy).Contents (Elt F)) (x13 : (⟨S1, .f32⟩ : BufTy).Contents (Elt F)) : (⟨S50000x1, .f32⟩ : BufTy).Contents (Elt F) :=
  Host.divf (val_main_v169 (F := F)) (val_main_v168 (F := F) x0 x1 x2 x3 x4 x5 x6 x7 x8 x9 x10 x11 x12 x13)
theorem val_main_v170_apply (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 x8 x9 : (⟨S128, .f32⟩ : BufTy).Contents (Elt F)) (x10 : (⟨S128x128, .f32⟩ : BufTy).Contents (Elt F)) (x11 : (⟨S128, .f32⟩ : BufTy).Contents (Elt F)) (x12 : (⟨S128x1, .f32⟩ : BufTy).Contents (Elt F)) (x13 : (⟨S1, .f32⟩ : BufTy).Contents (Elt F)) (i : S50000x1.Idx) :
    val_main_v170 (F := F) x0 x1 x2 x3 x4 x5 x6 x7 x8 x9 x10 x11 x12 x13 i = FloatOps.hostDivf (val_main_v169 (F := F) i) (val_main_v168 (F := F) x0 x1 x2 x3 x4 x5 x6 x7 x8 x9 x10 x11 x12 x13 i) := rfl

end Cert.ReferenceIdeal.Read

end
-- ==== Proof.Ref.RunP.lean ====
import proofs.«408734_j33483565039990_3_alg».proof.Proof.Gen.ReferenceIdeal
import proofs.«408734_j33483565039990_3_alg».proof.Proof.Ref.ReadP
import Idealize.ShloMosaic.Lib.StableHlo.Run
import Idealize.ShloMosaic.Lib.Pipeline.Frame

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

abbrev ops1 : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000 ]

set_option maxRecDepth 8192 in
theorem ops1_sub : (ops1 : List (HloOp τ sig (Elt F))).Forall fun op => op.bufs ⊆ tcRefs τ sig :=
  ⟨nullary_bufs_sub .., unary_bufs_sub .., reshape_bufs_sub ..⟩
theorem ops1_fresh : (ops1 : List (HloOp τ sig (Elt F))).Forall fun op => op.fresh = ∅ := by
  simp only [List.Forall]; repeat' constructor
abbrev ops1_W : List (Ref sig .tc) := [main_v0, main_v1, main_v2]
theorem ops1_writes : (ops1 : List (HloOp τ sig (Elt F))).Forall fun op => op.writes ⊆ (ops1_W.map (Proc.devRef (τ := τ) .tc)).toFinset := by
  simp only [List.Forall]; refine ⟨?_, ?_, ?_⟩ <;> (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

abbrev ops2 : List (HloOp τ sig (Elt F)) :=
  [ binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000 ]

set_option maxRecDepth 8192 in
theorem ops2_sub : (ops2 : List (HloOp τ sig (Elt F))).Forall fun op => op.bufs ⊆ tcRefs τ sig :=
  ⟨binary_bufs_sub .., unary_bufs_sub .., reshape_bufs_sub ..⟩
theorem ops2_fresh : (ops2 : List (HloOp τ sig (Elt F))).Forall fun op => op.fresh = ∅ := by
  simp only [List.Forall]; repeat' constructor
abbrev ops2_W : List (Ref sig .tc) := [main_v3, main_v4, main_v5]
theorem ops2_writes : (ops2 : List (HloOp τ sig (Elt F))).Forall fun op => op.writes ⊆ (ops2_W.map (Proc.devRef (τ := τ) .tc)).toFinset := by
  simp only [List.Forall]; refine ⟨?_, ?_, ?_⟩ <;> (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

abbrev ops3 : List (HloOp τ sig (Elt F)) :=
  [ binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    unary main_v10 main_v11 (Host.rsqrt : (⟨S50000, .f32⟩ : BufTy).Contents (Elt F) → (⟨S50000, .f32⟩ : BufTy).Contents (Elt F)),
    binary main_arg0 main_arg2 main_v12 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    nullary main_c (constantI S_ 32 0#32),
    unary main_c main_v13 (broadcastInDim S850000 ![] bcast_S_S850000 : (⟨S_, .i32⟩ : BufTy).Contents (Elt F) → (⟨S850000, .i32⟩ : BufTy).Contents (Elt F)),
    binary main_v3 main_v13 main_v14 (cmpi .slt : (⟨S850000, .i32⟩ : BufTy).Contents (Elt F) → (⟨S850000, .i32⟩ : BufTy).Contents (Elt F) → (⟨S850000, .i1⟩ : BufTy).Contents (Elt F)),
    nullary main_c_1 (constantI S_ 32 50000#32),
    unary main_c_1 main_v15 (broadcastInDim S850000 ![] bcast_S_S850000 : (⟨S_, .i32⟩ : BufTy).Contents (Elt F) → (⟨S850000, .i32⟩ : BufTy).Contents (Elt F)) ]

set_option maxRecDepth 8192 in
theorem ops3_sub : (ops3 : List (HloOp τ sig (Elt F))).Forall fun op => op.bufs ⊆ tcRefs τ sig :=
  ⟨binary_bufs_sub .., nullary_bufs_sub .., unary_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub ..⟩
theorem ops3_fresh : (ops3 : List (HloOp τ sig (Elt F))).Forall fun op => op.fresh = ∅ := by
  simp only [List.Forall]; repeat' constructor
abbrev ops3_W : List (Ref sig .tc) := [main_v6, main_cst, main_v7, main_cst_0, main_v8, main_v9, main_v10, main_v11, main_v12, main_c, main_v13, main_v14, main_c_1, main_v15]
theorem ops3_writes : (ops3 : List (HloOp τ sig (Elt F))).Forall fun op => op.writes ⊆ (ops3_W.map (Proc.devRef (τ := τ) .tc)).toFinset := by
  simp only [List.Forall]; refine ⟨?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

abbrev ops4 : List (HloOp τ sig (Elt F)) :=
  [ binary main_v3 main_v15 main_v16 (addi : (⟨S850000, .i32⟩ : BufTy).Contents (Elt F) → (⟨S850000, .i32⟩ : BufTy).Contents (Elt F) → (⟨S850000, .i32⟩ : BufTy).Contents (Elt F)),
    ternary main_v14 main_v16 main_v3 main_v17 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v17 main_v18 (broadcastInDim S850000x1 ![0] bcast_S850000_S850000x1_0 : (⟨S850000, .i32⟩ : BufTy).Contents (Elt F) → (⟨S850000x1, .i32⟩ : BufTy).Contents (Elt F)),
    binary main_v11 main_v18 main_v19 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_2 (constantI S_ 32 0#32),
    unary main_c_2 main_v20 (broadcastInDim S850000 ![] bcast_S_S850000 : (⟨S_, .i32⟩ : BufTy).Contents (Elt F) → (⟨S850000, .i32⟩ : BufTy).Contents (Elt F)),
    binary main_v6 main_v20 main_v21 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v22 (broadcastInDim S850000 ![] bcast_S_S850000 : (⟨S_, .i32⟩ : BufTy).Contents (Elt F) → (⟨S850000, .i32⟩ : BufTy).Contents (Elt F)),
    binary main_v6 main_v22 main_v23 (addi : (⟨S850000, .i32⟩ : BufTy).Contents (Elt F) → (⟨S850000, .i32⟩ : BufTy).Contents (Elt F) → (⟨S850000, .i32⟩ : BufTy).Contents (Elt F)),
    ternary main_v21 main_v23 main_v6 main_v24 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v24 main_v25 (broadcastInDim S850000x1 ![0] bcast_S850000_S850000x1_0 : (⟨S850000, .i32⟩ : BufTy).Contents (Elt F) → (⟨S850000x1, .i32⟩ : BufTy).Contents (Elt F)),
    binary main_v11 main_v25 main_v26 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v19 main_v26 main_v27 (mulf : (⟨S850000, .f32⟩ : BufTy).Contents (Elt F) → (⟨S850000, .f32⟩ : BufTy).Contents (Elt F) → (⟨S850000, .f32⟩ : BufTy).Contents (Elt F)) ]

set_option maxRecDepth 8192 in
theorem ops4_sub : (ops4 : List (HloOp τ sig (Elt F))).Forall fun op => op.bufs ⊆ tcRefs τ sig :=
  ⟨binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem ops4_fresh : (ops4 : List (HloOp τ sig (Elt F))).Forall fun op => op.fresh = ∅ := by
  simp only [List.Forall]; repeat' constructor
abbrev ops4_W : List (Ref sig .tc) := [main_v16, main_v17, main_v18, main_v19, main_c_2, main_v20, main_v21, main_c_3, main_v22, main_v23, main_v24, main_v25, main_v26, main_v27]
theorem ops4_writes : (ops4 : List (HloOp τ sig (Elt F))).Forall fun op => op.writes ⊆ (ops4_W.map (Proc.devRef (τ := τ) .tc)).toFinset := by
  simp only [List.Forall]; refine ⟨?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

abbrev ops5 : List (HloOp τ sig (Elt F)) :=
  [ nullary main_c_4 (constantI S_ 32 0#32),
    unary main_c_4 main_v28 (broadcastInDim S850000 ![] bcast_S_S850000 : (⟨S_, .i32⟩ : BufTy).Contents (Elt F) → (⟨S850000, .i32⟩ : BufTy).Contents (Elt F)),
    binary main_v3 main_v28 main_v29 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v30 (broadcastInDim S850000 ![] bcast_S_S850000 : (⟨S_, .i32⟩ : BufTy).Contents (Elt F) → (⟨S850000, .i32⟩ : BufTy).Contents (Elt F)),
    binary main_v3 main_v30 main_v31 (addi : (⟨S850000, .i32⟩ : BufTy).Contents (Elt F) → (⟨S850000, .i32⟩ : BufTy).Contents (Elt F) → (⟨S850000, .i32⟩ : BufTy).Contents (Elt F)),
    ternary main_v29 main_v31 main_v3 main_v32 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v32 main_v33 (broadcastInDim S850000x1 ![0] bcast_S850000_S850000x1_0 : (⟨S850000, .i32⟩ : BufTy).Contents (Elt F) → (⟨S850000x1, .i32⟩ : BufTy).Contents (Elt F)),
    binary main_v12 main_v33 main_v34 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v27 main_v35 (broadcastInDim S850000x1 ![0] bcast_S850000_S850000x1_0 : (⟨S850000, .f32⟩ : BufTy).Contents (Elt F) → (⟨S850000x1, .f32⟩ : BufTy).Contents (Elt F)),
    unary main_v35 main_v36 (broadcastInDim S850000x128 ![0, 1] bcast_S850000x1_S850000x128_0_1 : (⟨S850000x1, .f32⟩ : BufTy).Contents (Elt F) → (⟨S850000x128, .f32⟩ : BufTy).Contents (Elt F)),
    binary main_v34 main_v36 main_v37 (mulf : (⟨S850000x128, .f32⟩ : BufTy).Contents (Elt F) → (⟨S850000x128, .f32⟩ : BufTy).Contents (Elt F) → (⟨S850000x128, .f32⟩ : BufTy).Contents (Elt F)),
    nullary main_cst_6 (constant S_ .f32 0x00000000#32),
    unary main_cst_6 main_v38 (broadcastInDim S50000x128 ![] bcast_S_S50000x128 : (⟨S_, .f32⟩ : BufTy).Contents (Elt F) → (⟨S50000x128, .f32⟩ : BufTy).Contents (Elt F)) ]

set_option maxRecDepth 8192 in
theorem ops5_sub : (ops5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub ..⟩
theorem ops5_fresh : (ops5 : List (HloOp τ sig (Elt F))).Forall fun op => op.fresh = ∅ := by
  simp only [List.Forall]; repeat' constructor
abbrev ops5_W : List (Ref sig .tc) := [main_c_4, main_v28, main_v29, main_c_5, main_v30, main_v31, main_v32, main_v33, main_v34, main_v35, main_v36, main_v37, main_cst_6, main_v38]
theorem ops5_writes : (ops5 : List (HloOp τ sig (Elt F))).Forall fun op => op.writes ⊆ (ops5_W.map (Proc.devRef (τ := τ) .tc)).toFinset := by
  simp only [List.Forall]; refine ⟨?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

abbrev ops6 : List (HloOp τ sig (Elt F)) :=
  [ unary main_v6 main_v39 (broadcastInDim S850000x1 ![0] bcast_S850000_S850000x1_0 : (⟨S850000, .i32⟩ : BufTy).Contents (Elt F) → (⟨S850000x1, .i32⟩ : BufTy).Contents (Elt F)),
    ternary main_v38 main_v39 main_v37 main_v40 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v41 (broadcastInDim S1x128 ![1] bcast_S128_S1x128_1 : (⟨S128, .f32⟩ : BufTy).Contents (Elt F) → (⟨S1x128, .f32⟩ : BufTy).Contents (Elt F)),
    unary main_v41 main_v42 (broadcastInDim S50000x128 ![0, 1] bcast_S1x128_S50000x128_0_1 : (⟨S1x128, .f32⟩ : BufTy).Contents (Elt F) → (⟨S50000x128, .f32⟩ : BufTy).Contents (Elt F)),
    binary main_v40 main_v42 main_v43 (addf : (⟨S50000x128, .f32⟩ : BufTy).Contents (Elt F) → (⟨S50000x128, .f32⟩ : BufTy).Contents (Elt F) → (⟨S50000x128, .f32⟩ : BufTy).Contents (Elt F)),
    nullary main_cst_7 (constant S_ .f32 0x00000000#32),
    binary main_v43 main_cst_7 main_v44 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_8 (constant S_ .f32 0x47435000#32),
    unary main_cst_8 main_v45 (broadcastInDim S128 ![] bcast_S_S128 : (⟨S_, .f32⟩ : BufTy).Contents (Elt F) → (⟨S128, .f32⟩ : BufTy).Contents (Elt F)),
    binary main_v44 main_v45 main_v46 (Host.divf : (⟨S128, .f32⟩ : BufTy).Contents (Elt F) → (⟨S128, .f32⟩ : BufTy).Contents (Elt F) → (⟨S128, .f32⟩ : BufTy).Contents (Elt F)),
    unary main_v46 main_v47 (broadcastInDim S1x128 ![1] bcast_S128_S1x128_1 : (⟨S128, .f32⟩ : BufTy).Contents (Elt F) → (⟨S1x128, .f32⟩ : BufTy).Contents (Elt F)),
    unary main_v47 main_v48 (broadcastInDim S50000x128 ![0, 1] bcast_S1x128_S50000x128_0_1 : (⟨S1x128, .f32⟩ : BufTy).Contents (Elt F) → (⟨S50000x128, .f32⟩ : BufTy).Contents (Elt F)),
    binary main_v43 main_v48 main_v49 (subf : (⟨S50000x128, .f32⟩ : BufTy).Contents (Elt F) → (⟨S50000x128, .f32⟩ : BufTy).Contents (Elt F) → (⟨S50000x128, .f32⟩ : BufTy).Contents (Elt F)),
    binary main_v49 main_v49 main_v50 (mulf : (⟨S50000x128, .f32⟩ : BufTy).Contents (Elt F) → (⟨S50000x128, .f32⟩ : BufTy).Contents (Elt F) → (⟨S50000x128, .f32⟩ : BufTy).Contents (Elt F)) ]

set_option maxRecDepth 8192 in
theorem ops6_sub : (ops6 : List (HloOp τ sig (Elt F))).Forall fun op => op.bufs ⊆ tcRefs τ sig :=
  ⟨unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub ..⟩
theorem ops6_fresh : (ops6 : List (HloOp τ sig (Elt F))).Forall fun op => op.fresh = ∅ := by
  simp only [List.Forall]; repeat' constructor
abbrev ops6_W : List (Ref sig .tc) := [main_v39, main_v40, main_v41, main_v42, main_v43, main_cst_7, main_v44, main_cst_8, main_v45, main_v46, main_v47, main_v48, main_v49, main_v50]
theorem ops6_writes : (ops6 : List (HloOp τ sig (Elt F))).Forall fun op => op.writes ⊆ (ops6_W.map (Proc.devRef (τ := τ) .tc)).toFinset := by
  simp only [List.Forall]; refine ⟨?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

abbrev ops7 : List (HloOp τ sig (Elt F)) :=
  [ nullary main_cst_9 (constant S_ .f32 0x00000000#32),
    binary main_v50 main_cst_9 main_v51 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_10 (constant S_ .f32 0x47435000#32),
    unary main_cst_10 main_v52 (broadcastInDim S128 ![] bcast_S_S128 : (⟨S_, .f32⟩ : BufTy).Contents (Elt F) → (⟨S128, .f32⟩ : BufTy).Contents (Elt F)),
    binary main_v51 main_v52 main_v53 (Host.divf : (⟨S128, .f32⟩ : BufTy).Contents (Elt F) → (⟨S128, .f32⟩ : BufTy).Contents (Elt F) → (⟨S128, .f32⟩ : BufTy).Contents (Elt F)),
    unary main_v46 main_v54 (broadcastInDim S1x128 ![1] bcast_S128_S1x128_1 : (⟨S128, .f32⟩ : BufTy).Contents (Elt F) → (⟨S1x128, .f32⟩ : BufTy).Contents (Elt F)),
    unary main_v54 main_v55 (broadcastInDim S50000x128 ![0, 1] bcast_S1x128_S50000x128_0_1 : (⟨S1x128, .f32⟩ : BufTy).Contents (Elt F) → (⟨S50000x128, .f32⟩ : BufTy).Contents (Elt F)),
    binary main_v43 main_v55 main_v56 (subf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x3727C5AC#32),
    unary main_cst_11 main_v57 (broadcastInDim S128 ![] bcast_S_S128 : (⟨S_, .f32⟩ : BufTy).Contents (Elt F) → (⟨S128, .f32⟩ : BufTy).Contents (Elt F)),
    binary main_v53 main_v57 main_v58 (addf : (⟨S128, .f32⟩ : BufTy).Contents (Elt F) → (⟨S128, .f32⟩ : BufTy).Contents (Elt F) → (⟨S128, .f32⟩ : BufTy).Contents (Elt F)),
    unary main_v58 main_v59 (Host.rsqrt : (⟨S128, .f32⟩ : BufTy).Contents (Elt F) → (⟨S128, .f32⟩ : BufTy).Contents (Elt F)),
    unary main_v59 main_v60 (broadcastInDim S1x128 ![1] bcast_S128_S1x128_1 : (⟨S128, .f32⟩ : BufTy).Contents (Elt F) → (⟨S1x128, .f32⟩ : BufTy).Contents (Elt F)),
    unary main_v60 main_v61 (broadcastInDim S50000x128 ![0, 1] bcast_S1x128_S50000x128_0_1 : (⟨S1x128, .f32⟩ : BufTy).Contents (Elt F) → (⟨S50000x128, .f32⟩ : BufTy).Contents (Elt F)) ]

set_option maxRecDepth 8192 in
theorem ops7_sub : (ops7 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub ..⟩
theorem ops7_fresh : (ops7 : List (HloOp τ sig (Elt F))).Forall fun op => op.fresh = ∅ := by
  simp only [List.Forall]; repeat' constructor
abbrev ops7_W : List (Ref sig .tc) := [main_cst_9, main_v51, main_cst_10, main_v52, main_v53, main_v54, main_v55, main_v56, main_cst_11, main_v57, main_v58, main_v59, main_v60, main_v61]
theorem ops7_writes : (ops7 : List (HloOp τ sig (Elt F))).Forall fun op => op.writes ⊆ (ops7_W.map (Proc.devRef (τ := τ) .tc)).toFinset := by
  simp only [List.Forall]; refine ⟨?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

abbrev ops8 : List (HloOp τ sig (Elt F)) :=
  [ binary main_v56 main_v61 main_v62 (mulf : (⟨S50000x128, .f32⟩ : BufTy).Contents (Elt F) → (⟨S50000x128, .f32⟩ : BufTy).Contents (Elt F) → (⟨S50000x128, .f32⟩ : BufTy).Contents (Elt F)),
    unary main_arg4 main_v63 (broadcastInDim S1x128 ![1] bcast_S128_S1x128_1 : (⟨S128, .f32⟩ : BufTy).Contents (Elt F) → (⟨S1x128, .f32⟩ : BufTy).Contents (Elt F)),
    unary main_v63 main_v64 (broadcastInDim S50000x128 ![0, 1] bcast_S1x128_S50000x128_0_1 : (⟨S1x128, .f32⟩ : BufTy).Contents (Elt F) → (⟨S50000x128, .f32⟩ : BufTy).Contents (Elt F)),
    binary main_v62 main_v64 main_v65 (mulf : (⟨S50000x128, .f32⟩ : BufTy).Contents (Elt F) → (⟨S50000x128, .f32⟩ : BufTy).Contents (Elt F) → (⟨S50000x128, .f32⟩ : BufTy).Contents (Elt F)),
    unary main_arg5 main_v66 (broadcastInDim S1x128 ![1] bcast_S128_S1x128_1 : (⟨S128, .f32⟩ : BufTy).Contents (Elt F) → (⟨S1x128, .f32⟩ : BufTy).Contents (Elt F)),
    unary main_v66 main_v67 (broadcastInDim S50000x128 ![0, 1] bcast_S1x128_S50000x128_0_1 : (⟨S1x128, .f32⟩ : BufTy).Contents (Elt F) → (⟨S50000x128, .f32⟩ : BufTy).Contents (Elt F)),
    binary main_v65 main_v67 main_v68 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v68) (TRef.of (T := ⟨S50000x128, .f32⟩) main_call0_v0) (TRef.of (T := ⟨S50000x128, .f32⟩) main_v69) maximumf,
    binary main_v69 main_arg6 main_v70 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_12 (constantI S_ 32 0#32),
    unary main_c_12 main_v71 (broadcastInDim S850000 ![] bcast_S_S850000 : (⟨S_, .i32⟩ : BufTy).Contents (Elt F) → (⟨S850000, .i32⟩ : BufTy).Contents (Elt F)),
    binary main_v3 main_v71 main_v72 (cmpi .slt : (⟨S850000, .i32⟩ : BufTy).Contents (Elt F) → (⟨S850000, .i32⟩ : BufTy).Contents (Elt F) → (⟨S850000, .i1⟩ : BufTy).Contents (Elt F)) ]

set_option maxRecDepth 8192 in
theorem ops8_sub : (ops8 : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub ..⟩
theorem ops8_fresh : (ops8 : List (HloOp τ sig (Elt F))).Forall fun op => op.fresh = ∅ := by
  simp only [List.Forall]; repeat' constructor
abbrev ops8_W : List (Ref sig .tc) := [main_v62, main_v63, main_v64, main_v65, main_v66, main_v67, main_v68, main_call0_cst, main_call0_v0, main_v69, main_v70, main_c_12, main_v71, main_v72]
theorem ops8_writes : (ops8 : List (HloOp τ sig (Elt F))).Forall fun op => op.writes ⊆ (ops8_W.map (Proc.devRef (τ := τ) .tc)).toFinset := by
  simp only [List.Forall]; refine ⟨?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

abbrev ops9 : List (HloOp τ sig (Elt F)) :=
  [ nullary main_c_13 (constantI S_ 32 50000#32),
    unary main_c_13 main_v73 (broadcastInDim S850000 ![] bcast_S_S850000 : (⟨S_, .i32⟩ : BufTy).Contents (Elt F) → (⟨S850000, .i32⟩ : BufTy).Contents (Elt F)),
    binary main_v3 main_v73 main_v74 (addi : (⟨S850000, .i32⟩ : BufTy).Contents (Elt F) → (⟨S850000, .i32⟩ : BufTy).Contents (Elt F) → (⟨S850000, .i32⟩ : BufTy).Contents (Elt F)),
    ternary main_v72 main_v74 main_v3 main_v75 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v75 main_v76 (broadcastInDim S850000x1 ![0] bcast_S850000_S850000x1_0 : (⟨S850000, .i32⟩ : BufTy).Contents (Elt F) → (⟨S850000x1, .i32⟩ : BufTy).Contents (Elt F)),
    binary main_v11 main_v76 main_v77 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_14 (constantI S_ 32 0#32),
    unary main_c_14 main_v78 (broadcastInDim S850000 ![] bcast_S_S850000 : (⟨S_, .i32⟩ : BufTy).Contents (Elt F) → (⟨S850000, .i32⟩ : BufTy).Contents (Elt F)),
    binary main_v6 main_v78 main_v79 (cmpi .slt : (⟨S850000, .i32⟩ : BufTy).Contents (Elt F) → (⟨S850000, .i32⟩ : BufTy).Contents (Elt F) → (⟨S850000, .i1⟩ : BufTy).Contents (Elt F)),
    nullary main_c_15 (constantI S_ 32 50000#32),
    unary main_c_15 main_v80 (broadcastInDim S850000 ![] bcast_S_S850000 : (⟨S_, .i32⟩ : BufTy).Contents (Elt F) → (⟨S850000, .i32⟩ : BufTy).Contents (Elt F)),
    binary main_v6 main_v80 main_v81 (addi : (⟨S850000, .i32⟩ : BufTy).Contents (Elt F) → (⟨S850000, .i32⟩ : BufTy).Contents (Elt F) → (⟨S850000, .i32⟩ : BufTy).Contents (Elt F)),
    ternary main_v79 main_v81 main_v6 main_v82 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v82 main_v83 (broadcastInDim S850000x1 ![0] bcast_S850000_S850000x1_0 : (⟨S850000, .i32⟩ : BufTy).Contents (Elt F) → (⟨S850000x1, .i32⟩ : BufTy).Contents (Elt F)) ]

set_option maxRecDepth 8192 in
theorem ops9_sub : (ops9 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩
theorem ops9_fresh : (ops9 : List (HloOp τ sig (Elt F))).Forall fun op => op.fresh = ∅ := by
  simp only [List.Forall]; repeat' constructor
abbrev ops9_W : List (Ref sig .tc) := [main_c_13, main_v73, main_v74, main_v75, main_v76, main_v77, main_c_14, main_v78, main_v79, main_c_15, main_v80, main_v81, main_v82, main_v83]
theorem ops9_writes : (ops9 : List (HloOp τ sig (Elt F))).Forall fun op => op.writes ⊆ (ops9_W.map (Proc.devRef (τ := τ) .tc)).toFinset := by
  simp only [List.Forall]; refine ⟨?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

abbrev ops10 : List (HloOp τ sig (Elt F)) :=
  [ binary main_v11 main_v83 main_v84 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v77 main_v84 main_v85 (mulf : (⟨S850000, .f32⟩ : BufTy).Contents (Elt F) → (⟨S850000, .f32⟩ : BufTy).Contents (Elt F) → (⟨S850000, .f32⟩ : BufTy).Contents (Elt F)),
    nullary main_c_16 (constantI S_ 32 0#32),
    unary main_c_16 main_v86 (broadcastInDim S850000 ![] bcast_S_S850000 : (⟨S_, .i32⟩ : BufTy).Contents (Elt F) → (⟨S850000, .i32⟩ : BufTy).Contents (Elt F)),
    binary main_v3 main_v86 main_v87 (cmpi .slt : (⟨S850000, .i32⟩ : BufTy).Contents (Elt F) → (⟨S850000, .i32⟩ : BufTy).Contents (Elt F) → (⟨S850000, .i1⟩ : BufTy).Contents (Elt F)),
    nullary main_c_17 (constantI S_ 32 50000#32),
    unary main_c_17 main_v88 (broadcastInDim S850000 ![] bcast_S_S850000 : (⟨S_, .i32⟩ : BufTy).Contents (Elt F) → (⟨S850000, .i32⟩ : BufTy).Contents (Elt F)),
    binary main_v3 main_v88 main_v89 (addi : (⟨S850000, .i32⟩ : BufTy).Contents (Elt F) → (⟨S850000, .i32⟩ : BufTy).Contents (Elt F) → (⟨S850000, .i32⟩ : BufTy).Contents (Elt F)),
    ternary main_v87 main_v89 main_v3 main_v90 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v90 main_v91 (broadcastInDim S850000x1 ![0] bcast_S850000_S850000x1_0 : (⟨S850000, .i32⟩ : BufTy).Contents (Elt F) → (⟨S850000x1, .i32⟩ : BufTy).Contents (Elt F)),
    binary main_v70 main_v91 main_v92 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v85 main_v93 (broadcastInDim S850000x1 ![0] bcast_S850000_S850000x1_0 : (⟨S850000, .f32⟩ : BufTy).Contents (Elt F) → (⟨S850000x1, .f32⟩ : BufTy).Contents (Elt F)),
    unary main_v93 main_v94 (broadcastInDim S850000x128 ![0, 1] bcast_S850000x1_S850000x128_0_1 : (⟨S850000x1, .f32⟩ : BufTy).Contents (Elt F) → (⟨S850000x128, .f32⟩ : BufTy).Contents (Elt F)),
    binary main_v92 main_v94 main_v95 (mulf : (⟨S850000x128, .f32⟩ : BufTy).Contents (Elt F) → (⟨S850000x128, .f32⟩ : BufTy).Contents (Elt F) → (⟨S850000x128, .f32⟩ : BufTy).Contents (Elt F)) ]

set_option maxRecDepth 8192 in
theorem ops10_sub : (ops10 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub ..⟩
theorem ops10_fresh : (ops10 : List (HloOp τ sig (Elt F))).Forall fun op => op.fresh = ∅ := by
  simp only [List.Forall]; repeat' constructor
abbrev ops10_W : List (Ref sig .tc) := [main_v84, main_v85, main_c_16, main_v86, main_v87, main_c_17, main_v88, main_v89, main_v90, main_v91, main_v92, main_v93, main_v94, main_v95]
theorem ops10_writes : (ops10 : List (HloOp τ sig (Elt F))).Forall fun op => op.writes ⊆ (ops10_W.map (Proc.devRef (τ := τ) .tc)).toFinset := by
  simp only [List.Forall]; refine ⟨?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

abbrev ops11 : List (HloOp τ sig (Elt F)) :=
  [ nullary main_cst_18 (constant S_ .f32 0x00000000#32),
    unary main_cst_18 main_v96 (broadcastInDim S50000x128 ![] bcast_S_S50000x128 : (⟨S_, .f32⟩ : BufTy).Contents (Elt F) → (⟨S50000x128, .f32⟩ : BufTy).Contents (Elt F)),
    unary main_v6 main_v97 (broadcastInDim S850000x1 ![0] bcast_S850000_S850000x1_0 : (⟨S850000, .i32⟩ : BufTy).Contents (Elt F) → (⟨S850000x1, .i32⟩ : BufTy).Contents (Elt F)),
    ternary main_v96 main_v97 main_v95 main_v98 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg7 main_v99 (broadcastInDim S1x128 ![1] bcast_S128_S1x128_1 : (⟨S128, .f32⟩ : BufTy).Contents (Elt F) → (⟨S1x128, .f32⟩ : BufTy).Contents (Elt F)),
    unary main_v99 main_v100 (broadcastInDim S50000x128 ![0, 1] bcast_S1x128_S50000x128_0_1 : (⟨S1x128, .f32⟩ : BufTy).Contents (Elt F) → (⟨S50000x128, .f32⟩ : BufTy).Contents (Elt F)),
    binary main_v98 main_v100 main_v101 (addf : (⟨S50000x128, .f32⟩ : BufTy).Contents (Elt F) → (⟨S50000x128, .f32⟩ : BufTy).Contents (Elt F) → (⟨S50000x128, .f32⟩ : BufTy).Contents (Elt F)),
    nullary main_cst_19 (constant S_ .f32 0x00000000#32),
    binary main_v101 main_cst_19 main_v102 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_20 (constant S_ .f32 0x47435000#32),
    unary main_cst_20 main_v103 (broadcastInDim S128 ![] bcast_S_S128 : (⟨S_, .f32⟩ : BufTy).Contents (Elt F) → (⟨S128, .f32⟩ : BufTy).Contents (Elt F)),
    binary main_v102 main_v103 main_v104 (Host.divf : (⟨S128, .f32⟩ : BufTy).Contents (Elt F) → (⟨S128, .f32⟩ : BufTy).Contents (Elt F) → (⟨S128, .f32⟩ : BufTy).Contents (Elt F)),
    unary main_v104 main_v105 (broadcastInDim S1x128 ![1] bcast_S128_S1x128_1 : (⟨S128, .f32⟩ : BufTy).Contents (Elt F) → (⟨S1x128, .f32⟩ : BufTy).Contents (Elt F)),
    unary main_v105 main_v106 (broadcastInDim S50000x128 ![0, 1] bcast_S1x128_S50000x128_0_1 : (⟨S1x128, .f32⟩ : BufTy).Contents (Elt F) → (⟨S50000x128, .f32⟩ : BufTy).Contents (Elt F)) ]

set_option maxRecDepth 8192 in
theorem ops11_sub : (ops11 : List (HloOp τ sig (Elt F))).Forall fun op => op.bufs ⊆ tcRefs τ sig :=
  ⟨nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub ..⟩
theorem ops11_fresh : (ops11 : List (HloOp τ sig (Elt F))).Forall fun op => op.fresh = ∅ := by
  simp only [List.Forall]; repeat' constructor
abbrev ops11_W : List (Ref sig .tc) := [main_cst_18, main_v96, main_v97, main_v98, main_v99, main_v100, main_v101, main_cst_19, main_v102, main_cst_20, main_v103, main_v104, main_v105, main_v106]
theorem ops11_writes : (ops11 : List (HloOp τ sig (Elt F))).Forall fun op => op.writes ⊆ (ops11_W.map (Proc.devRef (τ := τ) .tc)).toFinset := by
  simp only [List.Forall]; refine ⟨?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

abbrev ops12 : List (HloOp τ sig (Elt F)) :=
  [ binary main_v101 main_v106 main_v107 (subf : (⟨S50000x128, .f32⟩ : BufTy).Contents (Elt F) → (⟨S50000x128, .f32⟩ : BufTy).Contents (Elt F) → (⟨S50000x128, .f32⟩ : BufTy).Contents (Elt F)),
    binary main_v107 main_v107 main_v108 (mulf : (⟨S50000x128, .f32⟩ : BufTy).Contents (Elt F) → (⟨S50000x128, .f32⟩ : BufTy).Contents (Elt F) → (⟨S50000x128, .f32⟩ : BufTy).Contents (Elt F)),
    nullary main_cst_21 (constant S_ .f32 0x00000000#32),
    binary main_v108 main_cst_21 main_v109 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_22 (constant S_ .f32 0x47435000#32),
    unary main_cst_22 main_v110 (broadcastInDim S128 ![] bcast_S_S128 : (⟨S_, .f32⟩ : BufTy).Contents (Elt F) → (⟨S128, .f32⟩ : BufTy).Contents (Elt F)),
    binary main_v109 main_v110 main_v111 (Host.divf : (⟨S128, .f32⟩ : BufTy).Contents (Elt F) → (⟨S128, .f32⟩ : BufTy).Contents (Elt F) → (⟨S128, .f32⟩ : BufTy).Contents (Elt F)),
    unary main_v104 main_v112 (broadcastInDim S1x128 ![1] bcast_S128_S1x128_1 : (⟨S128, .f32⟩ : BufTy).Contents (Elt F) → (⟨S1x128, .f32⟩ : BufTy).Contents (Elt F)),
    unary main_v112 main_v113 (broadcastInDim S50000x128 ![0, 1] bcast_S1x128_S50000x128_0_1 : (⟨S1x128, .f32⟩ : BufTy).Contents (Elt F) → (⟨S50000x128, .f32⟩ : BufTy).Contents (Elt F)),
    binary main_v101 main_v113 main_v114 (subf : (⟨S50000x128, .f32⟩ : BufTy).Contents (Elt F) → (⟨S50000x128, .f32⟩ : BufTy).Contents (Elt F) → (⟨S50000x128, .f32⟩ : BufTy).Contents (Elt F)),
    nullary main_cst_23 (constant S_ .f32 0x3727C5AC#32),
    unary main_cst_23 main_v115 (broadcastInDim S128 ![] bcast_S_S128 : (⟨S_, .f32⟩ : BufTy).Contents (Elt F) → (⟨S128, .f32⟩ : BufTy).Contents (Elt F)),
    binary main_v111 main_v115 main_v116 (addf : (⟨S128, .f32⟩ : BufTy).Contents (Elt F) → (⟨S128, .f32⟩ : BufTy).Contents (Elt F) → (⟨S128, .f32⟩ : BufTy).Contents (Elt F)),
    unary main_v116 main_v117 (Host.rsqrt : (⟨S128, .f32⟩ : BufTy).Contents (Elt F) → (⟨S128, .f32⟩ : BufTy).Contents (Elt F)) ]

set_option maxRecDepth 8192 in
theorem ops12_sub : (ops12 : List (HloOp τ sig (Elt F))).Forall fun op => op.bufs ⊆ tcRefs τ sig :=
  ⟨binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub ..⟩
theorem ops12_fresh : (ops12 : List (HloOp τ sig (Elt F))).Forall fun op => op.fresh = ∅ := by
  simp only [List.Forall]; repeat' constructor
abbrev ops12_W : List (Ref sig .tc) := [main_v107, main_v108, main_cst_21, main_v109, main_cst_22, main_v110, main_v111, main_v112, main_v113, main_v114, main_cst_23, main_v115, main_v116, main_v117]
theorem ops12_writes : (ops12 : List (HloOp τ sig (Elt F))).Forall fun op => op.writes ⊆ (ops12_W.map (Proc.devRef (τ := τ) .tc)).toFinset := by
  simp only [List.Forall]; refine ⟨?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

abbrev ops13 : List (HloOp τ sig (Elt F)) :=
  [ unary main_v117 main_v118 (broadcastInDim S1x128 ![1] bcast_S128_S1x128_1 : (⟨S128, .f32⟩ : BufTy).Contents (Elt F) → (⟨S1x128, .f32⟩ : BufTy).Contents (Elt F)),
    unary main_v118 main_v119 (broadcastInDim S50000x128 ![0, 1] bcast_S1x128_S50000x128_0_1 : (⟨S1x128, .f32⟩ : BufTy).Contents (Elt F) → (⟨S50000x128, .f32⟩ : BufTy).Contents (Elt F)),
    binary main_v114 main_v119 main_v120 (mulf : (⟨S50000x128, .f32⟩ : BufTy).Contents (Elt F) → (⟨S50000x128, .f32⟩ : BufTy).Contents (Elt F) → (⟨S50000x128, .f32⟩ : BufTy).Contents (Elt F)),
    unary main_arg8 main_v121 (broadcastInDim S1x128 ![1] bcast_S128_S1x128_1 : (⟨S128, .f32⟩ : BufTy).Contents (Elt F) → (⟨S1x128, .f32⟩ : BufTy).Contents (Elt F)),
    unary main_v121 main_v122 (broadcastInDim S50000x128 ![0, 1] bcast_S1x128_S50000x128_0_1 : (⟨S1x128, .f32⟩ : BufTy).Contents (Elt F) → (⟨S50000x128, .f32⟩ : BufTy).Contents (Elt F)),
    binary main_v120 main_v122 main_v123 (mulf : (⟨S50000x128, .f32⟩ : BufTy).Contents (Elt F) → (⟨S50000x128, .f32⟩ : BufTy).Contents (Elt F) → (⟨S50000x128, .f32⟩ : BufTy).Contents (Elt F)),
    unary main_arg9 main_v124 (broadcastInDim S1x128 ![1] bcast_S128_S1x128_1 : (⟨S128, .f32⟩ : BufTy).Contents (Elt F) → (⟨S1x128, .f32⟩ : BufTy).Contents (Elt F)),
    unary main_v124 main_v125 (broadcastInDim S50000x128 ![0, 1] bcast_S1x128_S50000x128_0_1 : (⟨S1x128, .f32⟩ : BufTy).Contents (Elt F) → (⟨S50000x128, .f32⟩ : BufTy).Contents (Elt F)),
    binary main_v123 main_v125 main_v126 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v126) (TRef.of (T := ⟨S50000x128, .f32⟩) main_call1_v0) (TRef.of (T := ⟨S50000x128, .f32⟩) main_v127) maximumf,
    binary main_v127 main_arg10 main_v128 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_24 (constantI S_ 32 0#32) ]

set_option maxRecDepth 8192 in
theorem ops13_sub : (ops13 : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub ..⟩
theorem ops13_fresh : (ops13 : List (HloOp τ sig (Elt F))).Forall fun op => op.fresh = ∅ := by
  simp only [List.Forall]; repeat' constructor
abbrev ops13_W : List (Ref sig .tc) := [main_v118, main_v119, main_v120, main_v121, main_v122, main_v123, main_v124, main_v125, main_v126, main_call1_cst, main_call1_v0, main_v127, main_v128, main_c_24]
theorem ops13_writes : (ops13 : List (HloOp τ sig (Elt F))).Forall fun op => op.writes ⊆ (ops13_W.map (Proc.devRef (τ := τ) .tc)).toFinset := by
  simp only [List.Forall]; refine ⟨?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

abbrev ops14 : List (HloOp τ sig (Elt F)) :=
  [ unary main_c_24 main_v129 (broadcastInDim S850000 ![] bcast_S_S850000 : (⟨S_, .i32⟩ : BufTy).Contents (Elt F) → (⟨S850000, .i32⟩ : BufTy).Contents (Elt F)),
    binary main_v3 main_v129 main_v130 (cmpi .slt : (⟨S850000, .i32⟩ : BufTy).Contents (Elt F) → (⟨S850000, .i32⟩ : BufTy).Contents (Elt F) → (⟨S850000, .i1⟩ : BufTy).Contents (Elt F)),
    nullary main_c_25 (constantI S_ 32 50000#32),
    unary main_c_25 main_v131 (broadcastInDim S850000 ![] bcast_S_S850000 : (⟨S_, .i32⟩ : BufTy).Contents (Elt F) → (⟨S850000, .i32⟩ : BufTy).Contents (Elt F)),
    binary main_v3 main_v131 main_v132 (addi : (⟨S850000, .i32⟩ : BufTy).Contents (Elt F) → (⟨S850000, .i32⟩ : BufTy).Contents (Elt F) → (⟨S850000, .i32⟩ : BufTy).Contents (Elt F)),
    ternary main_v130 main_v132 main_v3 main_v133 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v133 main_v134 (broadcastInDim S850000x1 ![0] bcast_S850000_S850000x1_0 : (⟨S850000, .i32⟩ : BufTy).Contents (Elt F) → (⟨S850000x1, .i32⟩ : BufTy).Contents (Elt F)),
    binary main_v11 main_v134 main_v135 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_26 (constantI S_ 32 0#32),
    unary main_c_26 main_v136 (broadcastInDim S850000 ![] bcast_S_S850000 : (⟨S_, .i32⟩ : BufTy).Contents (Elt F) → (⟨S850000, .i32⟩ : BufTy).Contents (Elt F)),
    binary main_v6 main_v136 main_v137 (cmpi .slt : (⟨S850000, .i32⟩ : BufTy).Contents (Elt F) → (⟨S850000, .i32⟩ : BufTy).Contents (Elt F) → (⟨S850000, .i1⟩ : BufTy).Contents (Elt F)),
    nullary main_c_27 (constantI S_ 32 50000#32),
    unary main_c_27 main_v138 (broadcastInDim S850000 ![] bcast_S_S850000 : (⟨S_, .i32⟩ : BufTy).Contents (Elt F) → (⟨S850000, .i32⟩ : BufTy).Contents (Elt F)),
    binary main_v6 main_v138 main_v139 (addi : (⟨S850000, .i32⟩ : BufTy).Contents (Elt F) → (⟨S850000, .i32⟩ : BufTy).Contents (Elt F) → (⟨S850000, .i32⟩ : BufTy).Contents (Elt F)) ]

set_option maxRecDepth 8192 in
theorem ops14_sub : (ops14 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub ..⟩
theorem ops14_fresh : (ops14 : List (HloOp τ sig (Elt F))).Forall fun op => op.fresh = ∅ := by
  simp only [List.Forall]; repeat' constructor
abbrev ops14_W : List (Ref sig .tc) := [main_v129, main_v130, main_c_25, main_v131, main_v132, main_v133, main_v134, main_v135, main_c_26, main_v136, main_v137, main_c_27, main_v138, main_v139]
theorem ops14_writes : (ops14 : List (HloOp τ sig (Elt F))).Forall fun op => op.writes ⊆ (ops14_W.map (Proc.devRef (τ := τ) .tc)).toFinset := by
  simp only [List.Forall]; refine ⟨?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

abbrev ops15 : List (HloOp τ sig (Elt F)) :=
  [ ternary main_v137 main_v139 main_v6 main_v140 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v140 main_v141 (broadcastInDim S850000x1 ![0] bcast_S850000_S850000x1_0 : (⟨S850000, .i32⟩ : BufTy).Contents (Elt F) → (⟨S850000x1, .i32⟩ : BufTy).Contents (Elt F)),
    binary main_v11 main_v141 main_v142 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v135 main_v142 main_v143 (mulf : (⟨S850000, .f32⟩ : BufTy).Contents (Elt F) → (⟨S850000, .f32⟩ : BufTy).Contents (Elt F) → (⟨S850000, .f32⟩ : BufTy).Contents (Elt F)),
    nullary main_c_28 (constantI S_ 32 0#32),
    unary main_c_28 main_v144 (broadcastInDim S850000 ![] bcast_S_S850000 : (⟨S_, .i32⟩ : BufTy).Contents (Elt F) → (⟨S850000, .i32⟩ : BufTy).Contents (Elt F)),
    binary main_v3 main_v144 main_v145 (cmpi .slt : (⟨S850000, .i32⟩ : BufTy).Contents (Elt F) → (⟨S850000, .i32⟩ : BufTy).Contents (Elt F) → (⟨S850000, .i1⟩ : BufTy).Contents (Elt F)),
    nullary main_c_29 (constantI S_ 32 50000#32),
    unary main_c_29 main_v146 (broadcastInDim S850000 ![] bcast_S_S850000 : (⟨S_, .i32⟩ : BufTy).Contents (Elt F) → (⟨S850000, .i32⟩ : BufTy).Contents (Elt F)),
    binary main_v3 main_v146 main_v147 (addi : (⟨S850000, .i32⟩ : BufTy).Contents (Elt F) → (⟨S850000, .i32⟩ : BufTy).Contents (Elt F) → (⟨S850000, .i32⟩ : BufTy).Contents (Elt F)),
    ternary main_v145 main_v147 main_v3 main_v148 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v148 main_v149 (broadcastInDim S850000x1 ![0] bcast_S850000_S850000x1_0 : (⟨S850000, .i32⟩ : BufTy).Contents (Elt F) → (⟨S850000x1, .i32⟩ : BufTy).Contents (Elt F)),
    binary main_v128 main_v149 main_v150 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v143 main_v151 (broadcastInDim S850000x1 ![0] bcast_S850000_S850000x1_0 : (⟨S850000, .f32⟩ : BufTy).Contents (Elt F) → (⟨S850000x1, .f32⟩ : BufTy).Contents (Elt F)) ]

set_option maxRecDepth 8192 in
theorem ops15_sub : (ops15 : List (HloOp τ sig (Elt F))).Forall fun op => op.bufs ⊆ tcRefs τ sig :=
  ⟨ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub ..⟩
theorem ops15_fresh : (ops15 : List (HloOp τ sig (Elt F))).Forall fun op => op.fresh = ∅ := by
  simp only [List.Forall]; repeat' constructor
abbrev ops15_W : List (Ref sig .tc) := [main_v140, main_v141, main_v142, main_v143, main_c_28, main_v144, main_v145, main_c_29, main_v146, main_v147, main_v148, main_v149, main_v150, main_v151]
theorem ops15_writes : (ops15 : List (HloOp τ sig (Elt F))).Forall fun op => op.writes ⊆ (ops15_W.map (Proc.devRef (τ := τ) .tc)).toFinset := by
  simp only [List.Forall]; refine ⟨?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

abbrev ops16 : List (HloOp τ sig (Elt F)) :=
  [ unary main_v151 main_v152 (broadcastInDim S850000x128 ![0, 1] bcast_S850000x1_S850000x128_0_1 : (⟨S850000x1, .f32⟩ : BufTy).Contents (Elt F) → (⟨S850000x128, .f32⟩ : BufTy).Contents (Elt F)),
    binary main_v150 main_v152 main_v153 (mulf : (⟨S850000x128, .f32⟩ : BufTy).Contents (Elt F) → (⟨S850000x128, .f32⟩ : BufTy).Contents (Elt F) → (⟨S850000x128, .f32⟩ : BufTy).Contents (Elt F)),
    nullary main_cst_30 (constant S_ .f32 0x00000000#32),
    unary main_cst_30 main_v154 (broadcastInDim S50000x128 ![] bcast_S_S50000x128 : (⟨S_, .f32⟩ : BufTy).Contents (Elt F) → (⟨S50000x128, .f32⟩ : BufTy).Contents (Elt F)),
    unary main_v6 main_v155 (broadcastInDim S850000x1 ![0] bcast_S850000_S850000x1_0 : (⟨S850000, .i32⟩ : BufTy).Contents (Elt F) → (⟨S850000x1, .i32⟩ : BufTy).Contents (Elt F)),
    ternary main_v154 main_v155 main_v153 main_v156 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg11 main_v157 (broadcastInDim S1x128 ![1] bcast_S128_S1x128_1 : (⟨S128, .f32⟩ : BufTy).Contents (Elt F) → (⟨S1x128, .f32⟩ : BufTy).Contents (Elt F)),
    unary main_v157 main_v158 (broadcastInDim S50000x128 ![0, 1] bcast_S1x128_S50000x128_0_1 : (⟨S1x128, .f32⟩ : BufTy).Contents (Elt F) → (⟨S50000x128, .f32⟩ : BufTy).Contents (Elt F)),
    binary main_v156 main_v158 main_v159 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v159) (TRef.of (T := ⟨S50000x128, .f32⟩) main_call2_v0) (TRef.of (T := ⟨S50000x128, .f32⟩) main_v160) maximumf,
    binary main_v160 main_arg12 main_v161 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    unary main_arg13 main_v162 (broadcastInDim S1x1 ![1] bcast_S1_S1x1_1 : (⟨S1, .f32⟩ : BufTy).Contents (Elt F) → (⟨S1x1, .f32⟩ : BufTy).Contents (Elt F)) ]

set_option maxRecDepth 8192 in
theorem ops16_sub : (ops16 : List (HloOp τ sig (Elt F))).Forall fun op => op.bufs ⊆ tcRefs τ sig :=
  ⟨unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub ..⟩
theorem ops16_fresh : (ops16 : List (HloOp τ sig (Elt F))).Forall fun op => op.fresh = ∅ := by
  simp only [List.Forall]; repeat' constructor
abbrev ops16_W : List (Ref sig .tc) := [main_v152, main_v153, main_cst_30, main_v154, main_v155, main_v156, main_v157, main_v158, main_v159, main_call2_cst, main_call2_v0, main_v160, main_v161, main_v162]
theorem ops16_writes : (ops16 : List (HloOp τ sig (Elt F))).Forall fun op => op.writes ⊆ (ops16_W.map (Proc.devRef (τ := τ) .tc)).toFinset := by
  simp only [List.Forall]; refine ⟨?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

abbrev ops17 : List (HloOp τ sig (Elt F)) :=
  [ unary main_v162 main_v163 (broadcastInDim S50000x1 ![0, 1] bcast_S1x1_S50000x1_0_1 : (⟨S1x1, .f32⟩ : BufTy).Contents (Elt F) → (⟨S50000x1, .f32⟩ : BufTy).Contents (Elt F)),
    binary main_v161 main_v163 main_v164 (addf : (⟨S50000x1, .f32⟩ : BufTy).Contents (Elt F) → (⟨S50000x1, .f32⟩ : BufTy).Contents (Elt F) → (⟨S50000x1, .f32⟩ : BufTy).Contents (Elt F)),
    unary main_v164 main_v165 (Host.negf : (⟨S50000x1, .f32⟩ : BufTy).Contents (Elt F) → (⟨S50000x1, .f32⟩ : BufTy).Contents (Elt F)),
    unary main_v165 main_v166 (Host.exp : (⟨S50000x1, .f32⟩ : BufTy).Contents (Elt F) → (⟨S50000x1, .f32⟩ : BufTy).Contents (Elt F)),
    nullary main_cst_31 (constant S_ .f32 0x3F800000#32),
    unary main_cst_31 main_v167 (broadcastInDim S50000x1 ![] bcast_S_S50000x1 : (⟨S_, .f32⟩ : BufTy).Contents (Elt F) → (⟨S50000x1, .f32⟩ : BufTy).Contents (Elt F)),
    binary main_v167 main_v166 main_v168 (addf : (⟨S50000x1, .f32⟩ : BufTy).Contents (Elt F) → (⟨S50000x1, .f32⟩ : BufTy).Contents (Elt F) → (⟨S50000x1, .f32⟩ : BufTy).Contents (Elt F)),
    nullary main_cst_32 (constant S_ .f32 0x3F800000#32),
    unary main_cst_32 main_v169 (broadcastInDim S50000x1 ![] bcast_S_S50000x1 : (⟨S_, .f32⟩ : BufTy).Contents (Elt F) → (⟨S50000x1, .f32⟩ : BufTy).Contents (Elt F)),
    binary main_v169 main_v168 main_v170 (Host.divf : (⟨S50000x1, .f32⟩ : BufTy).Contents (Elt F) → (⟨S50000x1, .f32⟩ : BufTy).Contents (Elt F) → (⟨S50000x1, .f32⟩ : BufTy).Contents (Elt F)) ]

set_option maxRecDepth 8192 in
theorem ops17_sub : (ops17 : List (HloOp τ sig (Elt F))).Forall fun op => op.bufs ⊆ tcRefs τ sig :=
  ⟨unary_bufs_sub .., binary_bufs_sub .., unary_bufs_sub .., unary_bufs_sub .., nullary_bufs_sub .., unary_bufs_sub .., binary_bufs_sub .., nullary_bufs_sub .., unary_bufs_sub .., binary_bufs_sub ..⟩
theorem ops17_fresh : (ops17 : List (HloOp τ sig (Elt F))).Forall fun op => op.fresh = ∅ := by
  simp only [List.Forall]; repeat' constructor
abbrev ops17_W : List (Ref sig .tc) := [main_v163, main_v164, main_v165, main_v166, main_cst_31, main_v167, main_v168, main_cst_32, main_v169, main_v170]
theorem ops17_writes : (ops17 : List (HloOp τ sig (Elt F))).Forall fun op => op.writes ⊆ (ops17_W.map (Proc.devRef (τ := τ) .tc)).toFinset := by
  simp only [List.Forall]; refine ⟨?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

abbrev ops : List (HloOp τ sig (Elt F)) := ops1 ++ (ops2 ++ (ops3 ++ (ops4 ++ (ops5 ++ (ops6 ++ (ops7 ++ (ops8 ++ (ops9 ++ (ops10 ++ (ops11 ++ (ops12 ++ (ops13 ++ (ops14 ++ (ops15 ++ (ops16 ++ (ops17))))))))))))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by
  refine List.forall_iff_forall_mem.mpr fun op h => ?_
  simp only [ops, List.mem_append] at h
  rcases h with h | h | h | h | h | h | h | h | h | h | h | h | h | h | h | h | h
  · exact List.forall_iff_forall_mem.mp ops1_sub op h
  · exact List.forall_iff_forall_mem.mp ops2_sub op h
  · exact List.forall_iff_forall_mem.mp ops3_sub op h
  · exact List.forall_iff_forall_mem.mp ops4_sub op h
  · exact List.forall_iff_forall_mem.mp ops5_sub op h
  · exact List.forall_iff_forall_mem.mp ops6_sub op h
  · exact List.forall_iff_forall_mem.mp ops7_sub op h
  · exact List.forall_iff_forall_mem.mp ops8_sub op h
  · exact List.forall_iff_forall_mem.mp ops9_sub op h
  · exact List.forall_iff_forall_mem.mp ops10_sub op h
  · exact List.forall_iff_forall_mem.mp ops11_sub op h
  · exact List.forall_iff_forall_mem.mp ops12_sub op h
  · exact List.forall_iff_forall_mem.mp ops13_sub op h
  · exact List.forall_iff_forall_mem.mp ops14_sub op h
  · exact List.forall_iff_forall_mem.mp ops15_sub op h
  · exact List.forall_iff_forall_mem.mp ops16_sub op h
  · exact List.forall_iff_forall_mem.mp ops17_sub op h
theorem ops_fresh : ∀ op ∈ (ops : List (HloOp τ sig (Elt F))), op.fresh = ∅ := by
  intro op h
  simp only [ops, List.mem_append] at h
  rcases h with h | h | h | h | h | h | h | h | h | h | h | h | h | h | h | h | h
  · exact List.forall_iff_forall_mem.mp ops1_fresh op h
  · exact List.forall_iff_forall_mem.mp ops2_fresh op h
  · exact List.forall_iff_forall_mem.mp ops3_fresh op h
  · exact List.forall_iff_forall_mem.mp ops4_fresh op h
  · exact List.forall_iff_forall_mem.mp ops5_fresh op h
  · exact List.forall_iff_forall_mem.mp ops6_fresh op h
  · exact List.forall_iff_forall_mem.mp ops7_fresh op h
  · exact List.forall_iff_forall_mem.mp ops8_fresh op h
  · exact List.forall_iff_forall_mem.mp ops9_fresh op h
  · exact List.forall_iff_forall_mem.mp ops10_fresh op h
  · exact List.forall_iff_forall_mem.mp ops11_fresh op h
  · exact List.forall_iff_forall_mem.mp ops12_fresh op h
  · exact List.forall_iff_forall_mem.mp ops13_fresh op h
  · exact List.forall_iff_forall_mem.mp ops14_fresh op h
  · exact List.forall_iff_forall_mem.mp ops15_fresh op h
  · exact List.forall_iff_forall_mem.mp ops16_fresh op h
  · exact List.forall_iff_forall_mem.mp ops17_fresh op h

def W0 (m : (ℓ : Loc nD τ sig) → Buf (Elt F) ℓ) (c : Dev nD) : Valuation τ sig (Elt F) := launchContents m c

def W1 (m : (ℓ : Loc nD τ sig) → Buf (Elt F) ℓ) (c : Dev nD) : Valuation τ sig (Elt F) := after ops1 (W0 m c)
theorem W1_of (m : (ℓ : Loc nD τ sig) → Buf (Elt F) ℓ) (c : Dev nD) (r : Ref sig .tc) (h : r ∉ ops1_W) : W1 m c (Proc.devRef .tc r) = W0 m c (Proc.devRef .tc r) :=
  after_of_writes_sub ops1 _ ops1_writes h

def W2 (m : (ℓ : Loc nD τ sig) → Buf (Elt F) ℓ) (c : Dev nD) : Valuation τ sig (Elt F) := after ops2 (W1 m c)
theorem W2_of (m : (ℓ : Loc nD τ sig) → Buf (Elt F) ℓ) (c : Dev nD) (r : Ref sig .tc) (h : r ∉ ops2_W) : W2 m c (Proc.devRef .tc r) = W1 m c (Proc.devRef .tc r) :=
  after_of_writes_sub ops2 _ ops2_writes h

def W3 (m : (ℓ : Loc nD τ sig) → Buf (Elt F) ℓ) (c : Dev nD) : Valuation τ sig (Elt F) := after ops3 (W2 m c)
theorem W3_of (m : (ℓ : Loc nD τ sig) → Buf (Elt F) ℓ) (c : Dev nD) (r : Ref sig .tc) (h : r ∉ ops3_W) : W3 m c (Proc.devRef .tc r) = W2 m c (Proc.devRef .tc r) :=
  after_of_writes_sub ops3 _ ops3_writes h

def W4 (m : (ℓ : Loc nD τ sig) → Buf (Elt F) ℓ) (c : Dev nD) : Valuation τ sig (Elt F) := after ops4 (W3 m c)
theorem W4_of (m : (ℓ : Loc nD τ sig) → Buf (Elt F) ℓ) (c : Dev nD) (r : Ref sig .tc) (h : r ∉ ops4_W) : W4 m c (Proc.devRef .tc r) = W3 m c (Proc.devRef .tc r) :=
  after_of_writes_sub ops4 _ ops4_writes h

def W5 (m : (ℓ : Loc nD τ sig) → Buf (Elt F) ℓ) (c : Dev nD) : Valuation τ sig (Elt F) := after ops5 (W4 m c)
theorem W5_of (m : (ℓ : Loc nD τ sig) → Buf (Elt F) ℓ) (c : Dev nD) (r : Ref sig .tc) (h : r ∉ ops5_W) : W5 m c (Proc.devRef .tc r) = W4 m c (Proc.devRef .tc r) :=
  after_of_writes_sub ops5 _ ops5_writes h

def W6 (m : (ℓ : Loc nD τ sig) → Buf (Elt F) ℓ) (c : Dev nD) : Valuation τ sig (Elt F) := after ops6 (W5 m c)
theorem W6_of (m : (ℓ : Loc nD τ sig) → Buf (Elt F) ℓ) (c : Dev nD) (r : Ref sig .tc) (h : r ∉ ops6_W) : W6 m c (Proc.devRef .tc r) = W5 m c (Proc.devRef .tc r) :=
  after_of_writes_sub ops6 _ ops6_writes h

def W7 (m : (ℓ : Loc nD τ sig) → Buf (Elt F) ℓ) (c : Dev nD) : Valuation τ sig (Elt F) := after ops7 (W6 m c)
theorem W7_of (m : (ℓ : Loc nD τ sig) → Buf (Elt F) ℓ) (c : Dev nD) (r : Ref sig .tc) (h : r ∉ ops7_W) : W7 m c (Proc.devRef .tc r) = W6 m c (Proc.devRef .tc r) :=
  after_of_writes_sub ops7 _ ops7_writes h

def W8 (m : (ℓ : Loc nD τ sig) → Buf (Elt F) ℓ) (c : Dev nD) : Valuation τ sig (Elt F) := after ops8 (W7 m c)
theorem W8_of (m : (ℓ : Loc nD τ sig) → Buf (Elt F) ℓ) (c : Dev nD) (r : Ref sig .tc) (h : r ∉ ops8_W) : W8 m c (Proc.devRef .tc r) = W7 m c (Proc.devRef .tc r) :=
  after_of_writes_sub ops8 _ ops8_writes h

def W9 (m : (ℓ : Loc nD τ sig) → Buf (Elt F) ℓ) (c : Dev nD) : Valuation τ sig (Elt F) := after ops9 (W8 m c)
theorem W9_of (m : (ℓ : Loc nD τ sig) → Buf (Elt F) ℓ) (c : Dev nD) (r : Ref sig .tc) (h : r ∉ ops9_W) : W9 m c (Proc.devRef .tc r) = W8 m c (Proc.devRef .tc r) :=
  after_of_writes_sub ops9 _ ops9_writes h

def W10 (m : (ℓ : Loc nD τ sig) → Buf (Elt F) ℓ) (c : Dev nD) : Valuation τ sig (Elt F) := after ops10 (W9 m c)
theorem W10_of (m : (ℓ : Loc nD τ sig) → Buf (Elt F) ℓ) (c : Dev nD) (r : Ref sig .tc) (h : r ∉ ops10_W) : W10 m c (Proc.devRef .tc r) = W9 m c (Proc.devRef .tc r) :=
  after_of_writes_sub ops10 _ ops10_writes h

def W11 (m : (ℓ : Loc nD τ sig) → Buf (Elt F) ℓ) (c : Dev nD) : Valuation τ sig (Elt F) := after ops11 (W10 m c)
theorem W11_of (m : (ℓ : Loc nD τ sig) → Buf (Elt F) ℓ) (c : Dev nD) (r : Ref sig .tc) (h : r ∉ ops11_W) : W11 m c (Proc.devRef .tc r) = W10 m c (Proc.devRef .tc r) :=
  after_of_writes_sub ops11 _ ops11_writes h

def W12 (m : (ℓ : Loc nD τ sig) → Buf (Elt F) ℓ) (c : Dev nD) : Valuation τ sig (Elt F) := after ops12 (W11 m c)
theorem W12_of (m : (ℓ : Loc nD τ sig) → Buf (Elt F) ℓ) (c : Dev nD) (r : Ref sig .tc) (h : r ∉ ops12_W) : W12 m c (Proc.devRef .tc r) = W11 m c (Proc.devRef .tc r) :=
  after_of_writes_sub ops12 _ ops12_writes h

def W13 (m : (ℓ : Loc nD τ sig) → Buf (Elt F) ℓ) (c : Dev nD) : Valuation τ sig (Elt F) := after ops13 (W12 m c)
theorem W13_of (m : (ℓ : Loc nD τ sig) → Buf (Elt F) ℓ) (c : Dev nD) (r : Ref sig .tc) (h : r ∉ ops13_W) : W13 m c (Proc.devRef .tc r) = W12 m c (Proc.devRef .tc r) :=
  after_of_writes_sub ops13 _ ops13_writes h

def W14 (m : (ℓ : Loc nD τ sig) → Buf (Elt F) ℓ) (c : Dev nD) : Valuation τ sig (Elt F) := after ops14 (W13 m c)
theorem W14_of (m : (ℓ : Loc nD τ sig) → Buf (Elt F) ℓ) (c : Dev nD) (r : Ref sig .tc) (h : r ∉ ops14_W) : W14 m c (Proc.devRef .tc r) = W13 m c (Proc.devRef .tc r) :=
  after_of_writes_sub ops14 _ ops14_writes h

def W15 (m : (ℓ : Loc nD τ sig) → Buf (Elt F) ℓ) (c : Dev nD) : Valuation τ sig (Elt F) := after ops15 (W14 m c)
theorem W15_of (m : (ℓ : Loc nD τ sig) → Buf (Elt F) ℓ) (c : Dev nD) (r : Ref sig .tc) (h : r ∉ ops15_W) : W15 m c (Proc.devRef .tc r) = W14 m c (Proc.devRef .tc r) :=
  after_of_writes_sub ops15 _ ops15_writes h

def W16 (m : (ℓ : Loc nD τ sig) → Buf (Elt F) ℓ) (c : Dev nD) : Valuation τ sig (Elt F) := after ops16 (W15 m c)
theorem W16_of (m : (ℓ : Loc nD τ sig) → Buf (Elt F) ℓ) (c : Dev nD) (r : Ref sig .tc) (h : r ∉ ops16_W) : W16 m c (Proc.devRef .tc r) = W15 m c (Proc.devRef .tc r) :=
  after_of_writes_sub ops16 _ ops16_writes h

def W17 (m : (ℓ : Loc nD τ sig) → Buf (Elt F) ℓ) (c : Dev nD) : Valuation τ sig (Elt F) := after ops17 (W16 m c)
theorem W17_of (m : (ℓ : Loc nD τ sig) → Buf (Elt F) ℓ) (c : Dev nD) (r : Ref sig .tc) (h : r ∉ ops17_W) : W17 m c (Proc.devRef .tc r) = W16 m c (Proc.devRef .tc r) :=
  after_of_writes_sub ops17 _ ops17_writes h

theorem after_ops (m : (ℓ : Loc nD τ sig) → Buf (Elt F) ℓ) (c : Dev nD) : after ops (launchContents m c) = W17 m c := by
  simp only [ops, StableHlo.after_append]
  rfl

variable (m : (ℓ : Loc nD τ sig) → Buf (Elt F) ℓ) (c : Dev nD)

abbrev args : List (Ref sig .tc) := [main_arg0, main_arg1, main_arg2, main_arg3, main_arg4, main_arg5, main_arg6, main_arg7, main_arg8, main_arg9, main_arg10, main_arg11, main_arg12, main_arg13]
theorem W0_arg (r : Ref sig .tc) : W0 m c (Proc.devRef .tc r) = m ((c.tc : Thread nD τ).loc r) := rfl

theorem W1_arg (r : Ref sig .tc) (h : r ∈ args) : W1 m c (Proc.devRef .tc r) = m ((c.tc : Thread nD τ).loc r) :=
  (W1_of m c r (by revert r; decide)).trans (W0_arg m c r)
theorem W1_main_v0 : W1 m c (Proc.devRef .tc main_v0) = Read.val_main_v0 (F := F) := by
  show after ops1 (W0 m c) (Proc.devRef .tc main_v0) = _
  after_results
  rfl
theorem W1_main_v2 : W1 m c (Proc.devRef .tc main_v2) = Read.val_main_v2 (F := F) (m ((c.tc : Thread nD τ).loc main_arg1)) := by
  show after ops1 (W0 m c) (Proc.devRef .tc main_v2) = _
  after_results
  rw [W0_arg m c main_arg1]
  rfl

theorem W2_arg (r : Ref sig .tc) (h : r ∈ args) : W2 m c (Proc.devRef .tc r) = m ((c.tc : Thread nD τ).loc r) :=
  (W2_of m c r (by revert r; decide)).trans (W1_arg m c r h)
theorem W2_main_v0 : W2 m c (Proc.devRef .tc main_v0) = Read.val_main_v0 (F := F) :=
  (W2_of m c main_v0 (by decide)).trans (W1_main_v0 m c)
theorem W2_main_v3 : W2 m c (Proc.devRef .tc main_v3) = Read.val_main_v3 (F := F) (m ((c.tc : Thread nD τ).loc main_arg1)) := by
  show after ops2 (W1 m c) (Proc.devRef .tc main_v3) = _
  after_results
  rw [W1_main_v0 m c, W1_main_v2 m c]
  rfl
theorem W2_main_v5 : W2 m c (Proc.devRef .tc main_v5) = Read.val_main_v5 (F := F) (m ((c.tc : Thread nD τ).loc main_arg1)) := by
  show after ops2 (W1 m c) (Proc.devRef .tc main_v5) = _
  after_results
  rw [W1_arg m c main_arg1 (by decide)]
  rfl

theorem W3_arg (r : Ref sig .tc) (h : r ∈ args) : W3 m c (Proc.devRef .tc r) = m ((c.tc : Thread nD τ).loc r) :=
  (W3_of m c r (by revert r; decide)).trans (W2_arg m c r h)
theorem W3_main_v3 : W3 m c (Proc.devRef .tc main_v3) = Read.val_main_v3 (F := F) (m ((c.tc : Thread nD τ).loc main_arg1)) :=
  (W3_of m c main_v3 (by decide)).trans (W2_main_v3 m c)
theorem W3_main_v6 : W3 m c (Proc.devRef .tc main_v6) = Read.val_main_v6 (F := F) (m ((c.tc : Thread nD τ).loc main_arg1)) := by
  show after ops3 (W2 m c) (Proc.devRef .tc main_v6) = _
  after_results
  rw [W2_main_v0 m c, W2_main_v5 m c]
  rfl
theorem W3_main_v11 : W3 m c (Proc.devRef .tc main_v11) = Read.val_main_v11 (F := F) (m ((c.tc : Thread nD τ).loc main_arg1)) := by
  show after ops3 (W2 m c) (Proc.devRef .tc main_v11) = _
  after_results
  rw [W2_main_v0 m c, W2_main_v5 m c]
  rfl
theorem W3_main_v12 : W3 m c (Proc.devRef .tc main_v12) = Read.val_main_v12 (F := F) (m ((c.tc : Thread nD τ).loc main_arg0)) (m ((c.tc : Thread nD τ).loc main_arg2)) := by
  show after ops3 (W2 m c) (Proc.devRef .tc main_v12) = _
  after_results
  rw [W2_arg m c main_arg0 (by decide), W2_arg m c main_arg2 (by decide)]
  rfl
theorem W3_main_v14 : W3 m c (Proc.devRef .tc main_v14) = Read.val_main_v14 (F := F) (m ((c.tc : Thread nD τ).loc main_arg1)) := by
  show after ops3 (W2 m c) (Proc.devRef .tc main_v14) = _
  after_results
  rw [W2_main_v3 m c]
  rfl
theorem W3_main_v15 : W3 m c (Proc.devRef .tc main_v15) = Read.val_main_v15 (F := F) := by
  show after ops3 (W2 m c) (Proc.devRef .tc main_v15) = _
  after_results
  rfl

theorem W4_arg (r : Ref sig .tc) (h : r ∈ args) : W4 m c (Proc.devRef .tc r) = m ((c.tc : Thread nD τ).loc r) :=
  (W4_of m c r (by revert r; decide)).trans (W3_arg m c r h)
theorem W4_main_v3 : W4 m c (Proc.devRef .tc main_v3) = Read.val_main_v3 (F := F) (m ((c.tc : Thread nD τ).loc main_arg1)) :=
  (W4_of m c main_v3 (by decide)).trans (W3_main_v3 m c)
theorem W4_main_v6 : W4 m c (Proc.devRef .tc main_v6) = Read.val_main_v6 (F := F) (m ((c.tc : Thread nD τ).loc main_arg1)) :=
  (W4_of m c main_v6 (by decide)).trans (W3_main_v6 m c)
theorem W4_main_v11 : W4 m c (Proc.devRef .tc main_v11) = Read.val_main_v11 (F := F) (m ((c.tc : Thread nD τ).loc main_arg1)) :=
  (W4_of m c main_v11 (by decide)).trans (W3_main_v11 m c)
theorem W4_main_v12 : W4 m c (Proc.devRef .tc main_v12) = Read.val_main_v12 (F := F) (m ((c.tc : Thread nD τ).loc main_arg0)) (m ((c.tc : Thread nD τ).loc main_arg2)) :=
  (W4_of m c main_v12 (by decide)).trans (W3_main_v12 m c)
theorem W4_main_v27 : W4 m c (Proc.devRef .tc main_v27) = Read.val_main_v27 (F := F) (m ((c.tc : Thread nD τ).loc main_arg1)) := by
  show after ops4 (W3 m c) (Proc.devRef .tc main_v27) = _
  after_results
  rw [W3_main_v3 m c, W3_main_v6 m c, W3_main_v11 m c, W3_main_v14 m c, W3_main_v15 m c]
  rfl

theorem W5_arg (r : Ref sig .tc) (h : r ∈ args) : W5 m c (Proc.devRef .tc r) = m ((c.tc : Thread nD τ).loc r) :=
  (W5_of m c r (by revert r; decide)).trans (W4_arg m c r h)
theorem W5_main_v3 : W5 m c (Proc.devRef .tc main_v3) = Read.val_main_v3 (F := F) (m ((c.tc : Thread nD τ).loc main_arg1)) :=
  (W5_of m c main_v3 (by decide)).trans (W4_main_v3 m c)
theorem W5_main_v6 : W5 m c (Proc.devRef .tc main_v6) = Read.val_main_v6 (F := F) (m ((c.tc : Thread nD τ).loc main_arg1)) :=
  (W5_of m c main_v6 (by decide)).trans (W4_main_v6 m c)
theorem W5_main_v11 : W5 m c (Proc.devRef .tc main_v11) = Read.val_main_v11 (F := F) (m ((c.tc : Thread nD τ).loc main_arg1)) :=
  (W5_of m c main_v11 (by decide)).trans (W4_main_v11 m c)
theorem W5_main_v37 : W5 m c (Proc.devRef .tc main_v37) = Read.val_main_v37 (F := F) (m ((c.tc : Thread nD τ).loc main_arg0)) (m ((c.tc : Thread nD τ).loc main_arg1)) (m ((c.tc : Thread nD τ).loc main_arg2)) := by
  show after ops5 (W4 m c) (Proc.devRef .tc main_v37) = _
  after_results
  rw [W4_main_v3 m c, W4_main_v12 m c, W4_main_v27 m c]
  rfl
theorem W5_main_v38 : W5 m c (Proc.devRef .tc main_v38) = Read.val_main_v38 (F := F) := by
  show after ops5 (W4 m c) (Proc.devRef .tc main_v38) = _
  after_results
  rfl

theorem W6_arg (r : Ref sig .tc) (h : r ∈ args) : W6 m c (Proc.devRef .tc r) = m ((c.tc : Thread nD τ).loc r) :=
  (W6_of m c r (by revert r; decide)).trans (W5_arg m c r h)
theorem W6_main_v3 : W6 m c (Proc.devRef .tc main_v3) = Read.val_main_v3 (F := F) (m ((c.tc : Thread nD τ).loc main_arg1)) :=
  (W6_of m c main_v3 (by decide)).trans (W5_main_v3 m c)
theorem W6_main_v6 : W6 m c (Proc.devRef .tc main_v6) = Read.val_main_v6 (F := F) (m ((c.tc : Thread nD τ).loc main_arg1)) :=
  (W6_of m c main_v6 (by decide)).trans (W5_main_v6 m c)
theorem W6_main_v11 : W6 m c (Proc.devRef .tc main_v11) = Read.val_main_v11 (F := F) (m ((c.tc : Thread nD τ).loc main_arg1)) :=
  (W6_of m c main_v11 (by decide)).trans (W5_main_v11 m c)
theorem W6_main_v43 : W6 m c (Proc.devRef .tc main_v43) = Read.val_main_v43 (F := F) (m ((c.tc : Thread nD τ).loc main_arg0)) (m ((c.tc : Thread nD τ).loc main_arg1)) (m ((c.tc : Thread nD τ).loc main_arg2)) (m ((c.tc : Thread nD τ).loc main_arg3)) := by
  show after ops6 (W5 m c) (Proc.devRef .tc main_v43) = _
  after_results
  rw [W5_arg m c main_arg3 (by decide), W5_main_v6 m c, W5_main_v37 m c, W5_main_v38 m c]
  rfl
theorem W6_main_v46 : W6 m c (Proc.devRef .tc main_v46) = Read.val_main_v46 (F := F) (m ((c.tc : Thread nD τ).loc main_arg0)) (m ((c.tc : Thread nD τ).loc main_arg1)) (m ((c.tc : Thread nD τ).loc main_arg2)) (m ((c.tc : Thread nD τ).loc main_arg3)) := by
  show after ops6 (W5 m c) (Proc.devRef .tc main_v46) = _
  after_results
  rw [W5_arg m c main_arg3 (by decide), W5_main_v6 m c, W5_main_v37 m c, W5_main_v38 m c]
  rfl
theorem W6_main_v50 : W6 m c (Proc.devRef .tc main_v50) = Read.val_main_v50 (F := F) (m ((c.tc : Thread nD τ).loc main_arg0)) (m ((c.tc : Thread nD τ).loc main_arg1)) (m ((c.tc : Thread nD τ).loc main_arg2)) (m ((c.tc : Thread nD τ).loc main_arg3)) := by
  show after ops6 (W5 m c) (Proc.devRef .tc main_v50) = _
  after_results
  rw [W5_arg m c main_arg3 (by decide), W5_main_v6 m c, W5_main_v37 m c, W5_main_v38 m c]
  rfl

theorem W7_arg (r : Ref sig .tc) (h : r ∈ args) : W7 m c (Proc.devRef .tc r) = m ((c.tc : Thread nD τ).loc r) :=
  (W7_of m c r (by revert r; decide)).trans (W6_arg m c r h)
theorem W7_main_v3 : W7 m c (Proc.devRef .tc main_v3) = Read.val_main_v3 (F := F) (m ((c.tc : Thread nD τ).loc main_arg1)) :=
  (W7_of m c main_v3 (by decide)).trans (W6_main_v3 m c)
theorem W7_main_v6 : W7 m c (Proc.devRef .tc main_v6) = Read.val_main_v6 (F := F) (m ((c.tc : Thread nD τ).loc main_arg1)) :=
  (W7_of m c main_v6 (by decide)).trans (W6_main_v6 m c)
theorem W7_main_v11 : W7 m c (Proc.devRef .tc main_v11) = Read.val_main_v11 (F := F) (m ((c.tc : Thread nD τ).loc main_arg1)) :=
  (W7_of m c main_v11 (by decide)).trans (W6_main_v11 m c)
theorem W7_main_v56 : W7 m c (Proc.devRef .tc main_v56) = Read.val_main_v56 (F := F) (m ((c.tc : Thread nD τ).loc main_arg0)) (m ((c.tc : Thread nD τ).loc main_arg1)) (m ((c.tc : Thread nD τ).loc main_arg2)) (m ((c.tc : Thread nD τ).loc main_arg3)) := by
  show after ops7 (W6 m c) (Proc.devRef .tc main_v56) = _
  after_results
  rw [W6_main_v43 m c, W6_main_v46 m c]
  rfl
theorem W7_main_v61 : W7 m c (Proc.devRef .tc main_v61) = Read.val_main_v61 (F := F) (m ((c.tc : Thread nD τ).loc main_arg0)) (m ((c.tc : Thread nD τ).loc main_arg1)) (m ((c.tc : Thread nD τ).loc main_arg2)) (m ((c.tc : Thread nD τ).loc main_arg3)) := by
  show after ops7 (W6 m c) (Proc.devRef .tc main_v61) = _
  after_results
  rw [W6_main_v50 m c]
  rfl

theorem W8_arg (r : Ref sig .tc) (h : r ∈ args) : W8 m c (Proc.devRef .tc r) = m ((c.tc : Thread nD τ).loc r) :=
  (W8_of m c r (by revert r; decide)).trans (W7_arg m c r h)
theorem W8_main_v3 : W8 m c (Proc.devRef .tc main_v3) = Read.val_main_v3 (F := F) (m ((c.tc : Thread nD τ).loc main_arg1)) :=
  (W8_of m c main_v3 (by decide)).trans (W7_main_v3 m c)
theorem W8_main_v6 : W8 m c (Proc.devRef .tc main_v6) = Read.val_main_v6 (F := F) (m ((c.tc : Thread nD τ).loc main_arg1)) :=
  (W8_of m c main_v6 (by decide)).trans (W7_main_v6 m c)
theorem W8_main_v11 : W8 m c (Proc.devRef .tc main_v11) = Read.val_main_v11 (F := F) (m ((c.tc : Thread nD τ).loc main_arg1)) :=
  (W8_of m c main_v11 (by decide)).trans (W7_main_v11 m c)
theorem W8_main_v70 : W8 m c (Proc.devRef .tc main_v70) = Read.val_main_v70 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show after ops8 (W7 m c) (Proc.devRef .tc main_v70) = _
  after_results
  rw [W7_arg m c main_arg4 (by decide), W7_arg m c main_arg5 (by decide), W7_arg m c main_arg6 (by decide), W7_main_v56 m c, W7_main_v61 m c]
  try simp only [TRef.ofBuf, TRef.toBuf, cast_eq]
  rfl
theorem W8_main_v72 : W8 m c (Proc.devRef .tc main_v72) = Read.val_main_v72 (F := F) (m ((c.tc : Thread nD τ).loc main_arg1)) := by
  show after ops8 (W7 m c) (Proc.devRef .tc main_v72) = _
  after_results
  rw [W7_main_v3 m c]
  rfl

theorem W9_arg (r : Ref sig .tc) (h : r ∈ args) : W9 m c (Proc.devRef .tc r) = m ((c.tc : Thread nD τ).loc r) :=
  (W9_of m c r (by revert r; decide)).trans (W8_arg m c r h)
theorem W9_main_v3 : W9 m c (Proc.devRef .tc main_v3) = Read.val_main_v3 (F := F) (m ((c.tc : Thread nD τ).loc main_arg1)) :=
  (W9_of m c main_v3 (by decide)).trans (W8_main_v3 m c)
theorem W9_main_v6 : W9 m c (Proc.devRef .tc main_v6) = Read.val_main_v6 (F := F) (m ((c.tc : Thread nD τ).loc main_arg1)) :=
  (W9_of m c main_v6 (by decide)).trans (W8_main_v6 m c)
theorem W9_main_v11 : W9 m c (Proc.devRef .tc main_v11) = Read.val_main_v11 (F := F) (m ((c.tc : Thread nD τ).loc main_arg1)) :=
  (W9_of m c main_v11 (by decide)).trans (W8_main_v11 m c)
theorem W9_main_v70 : W9 m c (Proc.devRef .tc main_v70) = Read.val_main_v70 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (W9_of m c main_v70 (by decide)).trans (W8_main_v70 m c)
theorem W9_main_v77 : W9 m c (Proc.devRef .tc main_v77) = Read.val_main_v77 (F := F) (m ((c.tc : Thread nD τ).loc main_arg1)) := by
  show after ops9 (W8 m c) (Proc.devRef .tc main_v77) = _
  after_results
  rw [W8_main_v3 m c, W8_main_v11 m c, W8_main_v72 m c]
  rfl
theorem W9_main_v83 : W9 m c (Proc.devRef .tc main_v83) = Read.val_main_v83 (F := F) (m ((c.tc : Thread nD τ).loc main_arg1)) := by
  show after ops9 (W8 m c) (Proc.devRef .tc main_v83) = _
  after_results
  rw [W8_main_v6 m c]
  rfl

theorem W10_arg (r : Ref sig .tc) (h : r ∈ args) : W10 m c (Proc.devRef .tc r) = m ((c.tc : Thread nD τ).loc r) :=
  (W10_of m c r (by revert r; decide)).trans (W9_arg m c r h)
theorem W10_main_v3 : W10 m c (Proc.devRef .tc main_v3) = Read.val_main_v3 (F := F) (m ((c.tc : Thread nD τ).loc main_arg1)) :=
  (W10_of m c main_v3 (by decide)).trans (W9_main_v3 m c)
theorem W10_main_v6 : W10 m c (Proc.devRef .tc main_v6) = Read.val_main_v6 (F := F) (m ((c.tc : Thread nD τ).loc main_arg1)) :=
  (W10_of m c main_v6 (by decide)).trans (W9_main_v6 m c)
theorem W10_main_v11 : W10 m c (Proc.devRef .tc main_v11) = Read.val_main_v11 (F := F) (m ((c.tc : Thread nD τ).loc main_arg1)) :=
  (W10_of m c main_v11 (by decide)).trans (W9_main_v11 m c)
theorem W10_main_v95 : W10 m c (Proc.devRef .tc main_v95) = Read.val_main_v95 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show after ops10 (W9 m c) (Proc.devRef .tc main_v95) = _
  after_results
  rw [W9_main_v3 m c, W9_main_v11 m c, W9_main_v70 m c, W9_main_v77 m c, W9_main_v83 m c]
  rfl

theorem W11_arg (r : Ref sig .tc) (h : r ∈ args) : W11 m c (Proc.devRef .tc r) = m ((c.tc : Thread nD τ).loc r) :=
  (W11_of m c r (by revert r; decide)).trans (W10_arg m c r h)
theorem W11_main_v3 : W11 m c (Proc.devRef .tc main_v3) = Read.val_main_v3 (F := F) (m ((c.tc : Thread nD τ).loc main_arg1)) :=
  (W11_of m c main_v3 (by decide)).trans (W10_main_v3 m c)
theorem W11_main_v6 : W11 m c (Proc.devRef .tc main_v6) = Read.val_main_v6 (F := F) (m ((c.tc : Thread nD τ).loc main_arg1)) :=
  (W11_of m c main_v6 (by decide)).trans (W10_main_v6 m c)
theorem W11_main_v11 : W11 m c (Proc.devRef .tc main_v11) = Read.val_main_v11 (F := F) (m ((c.tc : Thread nD τ).loc main_arg1)) :=
  (W11_of m c main_v11 (by decide)).trans (W10_main_v11 m c)
theorem W11_main_v101 : W11 m c (Proc.devRef .tc main_v101) = Read.val_main_v101 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show after ops11 (W10 m c) (Proc.devRef .tc main_v101) = _
  after_results
  rw [W10_arg m c main_arg7 (by decide), W10_main_v6 m c, W10_main_v95 m c]
  rfl
theorem W11_main_v104 : W11 m c (Proc.devRef .tc main_v104) = Read.val_main_v104 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show after ops11 (W10 m c) (Proc.devRef .tc main_v104) = _
  after_results
  rw [W10_arg m c main_arg7 (by decide), W10_main_v6 m c, W10_main_v95 m c]
  rfl
theorem W11_main_v106 : W11 m c (Proc.devRef .tc main_v106) = Read.val_main_v106 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show after ops11 (W10 m c) (Proc.devRef .tc main_v106) = _
  after_results
  rw [W10_arg m c main_arg7 (by decide), W10_main_v6 m c, W10_main_v95 m c]
  rfl

theorem W12_arg (r : Ref sig .tc) (h : r ∈ args) : W12 m c (Proc.devRef .tc r) = m ((c.tc : Thread nD τ).loc r) :=
  (W12_of m c r (by revert r; decide)).trans (W11_arg m c r h)
theorem W12_main_v3 : W12 m c (Proc.devRef .tc main_v3) = Read.val_main_v3 (F := F) (m ((c.tc : Thread nD τ).loc main_arg1)) :=
  (W12_of m c main_v3 (by decide)).trans (W11_main_v3 m c)
theorem W12_main_v6 : W12 m c (Proc.devRef .tc main_v6) = Read.val_main_v6 (F := F) (m ((c.tc : Thread nD τ).loc main_arg1)) :=
  (W12_of m c main_v6 (by decide)).trans (W11_main_v6 m c)
theorem W12_main_v11 : W12 m c (Proc.devRef .tc main_v11) = Read.val_main_v11 (F := F) (m ((c.tc : Thread nD τ).loc main_arg1)) :=
  (W12_of m c main_v11 (by decide)).trans (W11_main_v11 m c)
theorem W12_main_v114 : W12 m c (Proc.devRef .tc main_v114) = Read.val_main_v114 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show after ops12 (W11 m c) (Proc.devRef .tc main_v114) = _
  after_results
  rw [W11_main_v101 m c, W11_main_v104 m c]
  rfl
theorem W12_main_v117 : W12 m c (Proc.devRef .tc main_v117) = Read.val_main_v117 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show after ops12 (W11 m c) (Proc.devRef .tc main_v117) = _
  after_results
  rw [W11_main_v101 m c, W11_main_v106 m c]
  rfl

theorem W13_arg (r : Ref sig .tc) (h : r ∈ args) : W13 m c (Proc.devRef .tc r) = m ((c.tc : Thread nD τ).loc r) :=
  (W13_of m c r (by revert r; decide)).trans (W12_arg m c r h)
theorem W13_main_v3 : W13 m c (Proc.devRef .tc main_v3) = Read.val_main_v3 (F := F) (m ((c.tc : Thread nD τ).loc main_arg1)) :=
  (W13_of m c main_v3 (by decide)).trans (W12_main_v3 m c)
theorem W13_main_v6 : W13 m c (Proc.devRef .tc main_v6) = Read.val_main_v6 (F := F) (m ((c.tc : Thread nD τ).loc main_arg1)) :=
  (W13_of m c main_v6 (by decide)).trans (W12_main_v6 m c)
theorem W13_main_v11 : W13 m c (Proc.devRef .tc main_v11) = Read.val_main_v11 (F := F) (m ((c.tc : Thread nD τ).loc main_arg1)) :=
  (W13_of m c main_v11 (by decide)).trans (W12_main_v11 m c)
theorem W13_main_v128 : W13 m c (Proc.devRef .tc main_v128) = Read.val_main_v128 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  show after ops13 (W12 m c) (Proc.devRef .tc main_v128) = _
  after_results
  rw [W12_arg m c main_arg8 (by decide), W12_arg m c main_arg9 (by decide), W12_arg m c main_arg10 (by decide), W12_main_v114 m c, W12_main_v117 m c]
  try simp only [TRef.ofBuf, TRef.toBuf, cast_eq]
  rfl
theorem W13_main_c_24 : W13 m c (Proc.devRef .tc main_c_24) = Read.val_main_c_24 (F := F) := by
  show after ops13 (W12 m c) (Proc.devRef .tc main_c_24) = _
  after_results
  rfl

theorem W14_arg (r : Ref sig .tc) (h : r ∈ args) : W14 m c (Proc.devRef .tc r) = m ((c.tc : Thread nD τ).loc r) :=
  (W14_of m c r (by revert r; decide)).trans (W13_arg m c r h)
theorem W14_main_v3 : W14 m c (Proc.devRef .tc main_v3) = Read.val_main_v3 (F := F) (m ((c.tc : Thread nD τ).loc main_arg1)) :=
  (W14_of m c main_v3 (by decide)).trans (W13_main_v3 m c)
theorem W14_main_v6 : W14 m c (Proc.devRef .tc main_v6) = Read.val_main_v6 (F := F) (m ((c.tc : Thread nD τ).loc main_arg1)) :=
  (W14_of m c main_v6 (by decide)).trans (W13_main_v6 m c)
theorem W14_main_v11 : W14 m c (Proc.devRef .tc main_v11) = Read.val_main_v11 (F := F) (m ((c.tc : Thread nD τ).loc main_arg1)) :=
  (W14_of m c main_v11 (by decide)).trans (W13_main_v11 m c)
theorem W14_main_v128 : W14 m c (Proc.devRef .tc main_v128) = Read.val_main_v128 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (W14_of m c main_v128 (by decide)).trans (W13_main_v128 m c)
theorem W14_main_v135 : W14 m c (Proc.devRef .tc main_v135) = Read.val_main_v135 (F := F) (m ((c.tc : Thread nD τ).loc main_arg1)) := by
  show after ops14 (W13 m c) (Proc.devRef .tc main_v135) = _
  after_results
  rw [W13_main_v3 m c, W13_main_v11 m c, W13_main_c_24 m c]
  rfl
theorem W14_main_v137 : W14 m c (Proc.devRef .tc main_v137) = Read.val_main_v137 (F := F) (m ((c.tc : Thread nD τ).loc main_arg1)) := by
  show after ops14 (W13 m c) (Proc.devRef .tc main_v137) = _
  after_results
  rw [W13_main_v6 m c]
  rfl
theorem W14_main_v139 : W14 m c (Proc.devRef .tc main_v139) = Read.val_main_v139 (F := F) (m ((c.tc : Thread nD τ).loc main_arg1)) := by
  show after ops14 (W13 m c) (Proc.devRef .tc main_v139) = _
  after_results
  rw [W13_main_v6 m c]
  rfl

theorem W15_arg (r : Ref sig .tc) (h : r ∈ args) : W15 m c (Proc.devRef .tc r) = m ((c.tc : Thread nD τ).loc r) :=
  (W15_of m c r (by revert r; decide)).trans (W14_arg m c r h)
theorem W15_main_v6 : W15 m c (Proc.devRef .tc main_v6) = Read.val_main_v6 (F := F) (m ((c.tc : Thread nD τ).loc main_arg1)) :=
  (W15_of m c main_v6 (by decide)).trans (W14_main_v6 m c)
theorem W15_main_v150 : W15 m c (Proc.devRef .tc main_v150) = Read.val_main_v150 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  show after ops15 (W14 m c) (Proc.devRef .tc main_v150) = _
  after_results
  rw [W14_main_v3 m c, W14_main_v128 m c]
  rfl
theorem W15_main_v151 : W15 m c (Proc.devRef .tc main_v151) = Read.val_main_v151 (F := F) (m ((c.tc : Thread nD τ).loc main_arg1)) := by
  show after ops15 (W14 m c) (Proc.devRef .tc main_v151) = _
  after_results
  rw [W14_main_v6 m c, W14_main_v11 m c, W14_main_v135 m c, W14_main_v137 m c, W14_main_v139 m c]
  rfl

theorem W16_arg (r : Ref sig .tc) (h : r ∈ args) : W16 m c (Proc.devRef .tc r) = m ((c.tc : Thread nD τ).loc r) :=
  (W16_of m c r (by revert r; decide)).trans (W15_arg m c r h)
theorem W16_main_v161 : W16 m c (Proc.devRef .tc main_v161) = Read.val_main_v161 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  show after ops16 (W15 m c) (Proc.devRef .tc main_v161) = _
  after_results
  rw [W15_arg m c main_arg11 (by decide), W15_arg m c main_arg12 (by decide), W15_main_v6 m c, W15_main_v150 m c, W15_main_v151 m c]
  try simp only [TRef.ofBuf, TRef.toBuf, cast_eq]
  rfl
theorem W16_main_v162 : W16 m c (Proc.devRef .tc main_v162) = Read.val_main_v162 (F := F) (m ((c.tc : Thread nD τ).loc main_arg13)) := by
  show after ops16 (W15 m c) (Proc.devRef .tc main_v162) = _
  after_results
  rw [W15_arg m c main_arg13 (by decide)]
  rfl

theorem W17_arg (r : Ref sig .tc) (h : r ∈ args) : W17 m c (Proc.devRef .tc r) = m ((c.tc : Thread nD τ).loc r) :=
  (W17_of m c r (by revert r; decide)).trans (W16_arg m c r h)
theorem W17_main_v164 : W17 m c (Proc.devRef .tc main_v164) = Read.val_main_v164 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  show after ops17 (W16 m c) (Proc.devRef .tc main_v164) = _
  after_results
  rw [W16_main_v161 m c, W16_main_v162 m c]
  rfl
theorem W17_main_v170 : W17 m c (Proc.devRef .tc main_v170) = Read.val_main_v170 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  show after ops17 (W16 m c) (Proc.devRef .tc main_v170) = _
  after_results
  rw [W16_main_v161 m c, W16_main_v162 m c]
  rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v164) = Read.val_main_v164 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v170) = Read.val_main_v170 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v164).trans ((congrFun (after_ops m c) _).trans (W17_main_v164 m c)),
      (h c main_v170).trans ((congrFun (after_ops m c) _).trans (W17_main_v170 m c)),
      (h c main_arg0).trans ((congrFun (after_ops m c) _).trans (W17_arg m c main_arg0 (by decide))),
      (h c main_arg1).trans ((congrFun (after_ops m c) _).trans (W17_arg m c main_arg1 (by decide))),
      (h c main_arg2).trans ((congrFun (after_ops m c) _).trans (W17_arg m c main_arg2 (by decide))),
      (h c main_arg3).trans ((congrFun (after_ops m c) _).trans (W17_arg m c main_arg3 (by decide))),
      (h c main_arg4).trans ((congrFun (after_ops m c) _).trans (W17_arg m c main_arg4 (by decide))),
      (h c main_arg5).trans ((congrFun (after_ops m c) _).trans (W17_arg m c main_arg5 (by decide))),
      (h c main_arg6).trans ((congrFun (after_ops m c) _).trans (W17_arg m c main_arg6 (by decide))),
      (h c main_arg7).trans ((congrFun (after_ops m c) _).trans (W17_arg m c main_arg7 (by decide))),
      (h c main_arg8).trans ((congrFun (after_ops m c) _).trans (W17_arg m c main_arg8 (by decide))),
      (h c main_arg9).trans ((congrFun (after_ops m c) _).trans (W17_arg m c main_arg9 (by decide))),
      (h c main_arg10).trans ((congrFun (after_ops m c) _).trans (W17_arg m c main_arg10 (by decide))),
      (h c main_arg11).trans ((congrFun (after_ops m c) _).trans (W17_arg m c main_arg11 (by decide))),
      (h c main_arg12).trans ((congrFun (after_ops m c) _).trans (W17_arg m c main_arg12 (by decide))),
      (h c main_arg13).trans ((congrFun (after_ops m c) _).trans (W17_arg m c main_arg13 (by decide)))⟩)
    (run_seq scopedRefs_eq scopedSems_eq defs main (fun _ => ops) main_eq (fun _ => ops_sub) m ρ (fun _ => ops_fresh))

end Cert.ReferenceIdeal.ValueP

end
-- ==== Proof.Ref.RefRun.lean ====
import proofs.«408734_j33483565039990_3_alg».proof.Proof.Ref.ReadP
-- ==== Proof.LibFlatScatter.lean ====
import Idealize.ShloMosaic.PureOps.Ideal
import Idealize.ShloMosaic.PureOps.Contract
import Idealize.ShloMosaic.Lib.ValueIdx
import proofs.«408734_j33483565039990_3_alg».proof.Proof.LibHostIndex
import proofs.«408734_j33483565039990_3_alg».proof.Proof.LibRowScatter

noncomputable section

open scoped BigOperators

namespace Cert.Lib.FlatScatter

open Idealize.ShloMosaic Idealize.ShloMosaic.ValueIdx Cert.Lib.HostIndex

variable {N R w : Nat} (wf : ScatterDims.WF ⟨1, ![N]⟩ ⟨2, ![R, 1]⟩ ⟨1, ![R]⟩ [] [0] [0] 1)

theorem hostScatterAdd_flat_apply (x : (⟨1, ![N]⟩ : Shape).Idx → EReal) (idx : IVec ⟨2, ![R, 1]⟩ w)
    (upd : (⟨1, ![R]⟩ : Shape).Idx → EReal) (i : (⟨1, ![N]⟩ : Shape).Idx) :
    Ideal.hostScatterAdd (put1Dims N R wf) x idx upd i
      = x i + ∑ n : Fin R, if (idx (ix2 n (0 : Fin 1))).toInt = ((i 0).val : ℤ) then upd (ix1 n) else 0 := by
  unfold Ideal.hostScatterAdd
  congr 1
  rw [Cert.Lib.RowScatter.sum_filter_of_iff _ _ _ (fun j => put1_resultIdx?_eq_some_iff wf j idx i),
    ← Equiv.sum_comp (idxEquiv1 (n := R)).symm]
  rfl

end Cert.Lib.FlatScatter

end
-- ==== Proof.Ref.GraphCore.lean ====
import proofs.«408734_j33483565039990_3_alg».proof.ReferenceIdeal
import proofs.«408734_j33483565039990_3_alg».proof.Proof.Gen.ReferenceIdeal
import proofs.«408734_j33483565039990_3_alg».proof.Proof.MathSpec
import proofs.«408734_j33483565039990_3_alg».proof.Proof.LibRowGather
import proofs.«408734_j33483565039990_3_alg».proof.Proof.LibHostIndex
import proofs.«408734_j33483565039990_3_alg».proof.Proof.LibRowScatter
import proofs.«408734_j33483565039990_3_alg».proof.Proof.LibFlatScatter
import Idealize.ShloMosaic.Lib.Pipeline.Value
import Idealize.ShloMosaic.Lib.ValueIdx
import Idealize.ShloMosaic.Lib.StableHlo.Predicate
import Idealize.ShloMosaic.PureOps.Ideal.Laws

set_option maxRecDepth 16384

noncomputable section

open scoped BigOperators

namespace Cert.ReferenceIdeal.RefValue

open Cert.ReferenceIdeal Cert.ReferenceIdeal.Gen
open Idealize.ShloMosaic Idealize.ShloMosaic.TcCoe Idealize.ShloMosaic.ValueIdx Idealize.ShloMosaic.StableHlo
open Cert.Spec Cert.MathSpec

variable {F : FTy → Type} [FloatOps F]
variable {α : Type}

theorem bcastE_const (c : BitVec 32) (i : S850000.Idx) :
    broadcastInDim S850000 ![] bcast_S_S850000 (constantI S_ 32 c) i = c :=
  broadcastInDim_apply _ bcast_S_S850000 (constantI S_ 32 c) i (fun a => a.elim0) (fun a => a.elim0)

def wrapText (s : IVec S850000 32) : IVec S850000 32 :=
  select (cmpi .slt s (broadcastInDim S850000 ![] bcast_S_S850000 (constantI S_ 32 0#32)))
    (addi s (broadcastInDim S850000 ![] bcast_S_S850000 (constantI S_ 32 50000#32))) s

theorem wrapText_apply (s : IVec S850000 32) (i : S850000.Idx) : wrapText s i = wrap (s i) := by
  show Scalar.select (IntOp.cmpi .slt (s i) (broadcastInDim S850000 ![] bcast_S_S850000 (constantI S_ 32 0#32) i))
    (IntOp.addi (s i) (broadcastInDim S850000 ![] bcast_S_S850000 (constantI S_ 32 50000#32) i)) (s i) = wrap (s i)
  rw [bcastE_const, bcastE_const]
  unfold Scalar.select IntOp.cmpi IntOp.addi wrap
  cases h : (s i).slt 0#32 <;> simp [h]

theorem row0_apply (ei : IVec S2x800000 32) (k : Fin 800000) :
    shapeCast S800000 (extractStridedSlice S1x800000 ![0, 0] ei slices_S2x800000_S1x800000_0_0) shapeCasts_S1x800000_S800000 (ix1 k)
      = ei (ix2 0 k) := by
  refine (shapeCast_apply _ shapeCasts_S1x800000_S800000 (ix1 k) (ix2 (0 : Fin 1) k) ?_).trans ?_
  · rewrite [Shape.rowMajor_val_two, Shape.rowMajor_val_one]
    show 0 * 800000 + k.val = k.val
    omega
  · exact extractStridedSlice_apply ![0, 0] ei slices_S2x800000_S1x800000_0_0 (ix2 (0 : Fin 1) k) (ix2 (0 : Fin 2) k)
      (fun a => match a with
        | ⟨0, _⟩ => by show (0 : Nat) = 0 + 0; rfl
        | ⟨1, _⟩ => by show k.val = 0 + k.val; omega)

theorem row1_apply (ei : IVec S2x800000 32) (k : Fin 800000) :
    shapeCast S800000 (extractStridedSlice S1x800000 ![1, 0] ei slices_S2x800000_S1x800000_1_0) shapeCasts_S1x800000_S800000 (ix1 k)
      = ei (ix2 1 k) := by
  refine (shapeCast_apply _ shapeCasts_S1x800000_S800000 (ix1 k) (ix2 (0 : Fin 1) k) ?_).trans ?_
  · rewrite [Shape.rowMajor_val_two, Shape.rowMajor_val_one]
    show 0 * 800000 + k.val = k.val
    omega
  · exact extractStridedSlice_apply ![1, 0] ei slices_S2x800000_S1x800000_1_0 (ix2 (0 : Fin 1) k) (ix2 (1 : Fin 2) k)
      (fun a => match a with
        | ⟨0, _⟩ => by show (1 : Nat) = 1 + 0; rfl
        | ⟨1, _⟩ => by show k.val = 0 + k.val; omega)

theorem join_apply (v : IVec S800000 32) (e : Fin 850000) :
    concatenate S850000 0 [⟨S800000, v⟩, ⟨S50000, iotaInDim S50000 32 0⟩] concatenates_S800000_S50000_S850000_d0 (ix1 e)
      = if h : e.val < 800000 then v (ix1 ⟨e.val, h⟩) else BitVec.ofNat 32 (e.val - 800000) := by
  by_cases h : e.val < 800000
  · rw [dif_pos h]
    exact concatenate_pair_apply_left (0 : Fin S850000.rank) v (iotaInDim S50000 32 0) concatenates_S800000_S50000_S850000_d0
      (ix1 e) rfl (ix1 ⟨e.val, h⟩) (fun b => by obtain rfl : b = 0 := Subsingleton.elim _ _; rfl)
  · rw [dif_neg h]
    have h2 : e.val - 800000 < 50000 := by have := e.isLt; omega
    exact (concatenate_pair_apply_right (0 : Fin S850000.rank) v (iotaInDim S50000 32 0) concatenates_S800000_S50000_S850000_d0
      (ix1 e) rfl rfl (ix1 ⟨e.val - 800000, h2⟩) (fun b hb => absurd (Subsingleton.elim _ _) hb)
      (by show (e.val - 800000) + 800000 = e.val; omega)).trans rfl

theorem col_apply (s : S850000.Idx → α) (e : Fin 850000) (z : Fin 1) :
    broadcastInDim S850000x1 ![0] bcast_S850000_S850000x1_0 s (ix2 e z) = s (ix1 e) :=
  broadcastInDim_apply _ bcast_S850000_S850000x1_0 s (ix2 e z) (ix1 e) (fun a => match a with
    | ⟨0, _⟩ => by show e.val = if (850000 : Nat) = 1 then 0 else e.val; rw [if_neg (by decide)])

theorem spread_apply (s : S850000x1.Idx → α) (e : Fin 850000) (k : Fin 128) :
    broadcastInDim S850000x128 ![0, 1] bcast_S850000x1_S850000x128_0_1 s (ix2 e k) = s (ix2 e 0) :=
  broadcastInDim_apply _ bcast_S850000x1_S850000x128_0_1 s (ix2 e k) (ix2 e 0) (fun a => match a with
    | ⟨0, _⟩ => by show e.val = if (850000 : Nat) = 1 then 0 else e.val; rw [if_neg (by decide)]
    | ⟨1, _⟩ => by show (0 : Nat) = if (1 : Nat) = 1 then 0 else k.val; rw [if_pos rfl])

theorem bias_apply (b : S128.Idx → α) (p : Fin 50000) (q : Fin 128) :
    broadcastInDim S50000x128 ![0, 1] bcast_S1x128_S50000x128_0_1 (broadcastInDim S1x128 ![1] bcast_S128_S1x128_1 b) (ix2 p q)
      = b (ix1 q) := by
  refine (broadcastInDim_apply _ bcast_S1x128_S50000x128_0_1 _ (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

theorem zeros_apply (j : S50000x128.Idx) :
    broadcastInDim S50000x128 ![] bcast_S_S50000x128 (constant (F := Ideal) S_ .f32 0x00000000#32) j = (0 : EReal) :=
  (broadcastInDim_apply _ bcast_S_S50000x128 (constant (F := Ideal) S_ .f32 0x00000000#32) j (fun a => a.elim0)
    (fun a => a.elim0)).trans Ideal.ofBits_zero_f32

theorem take_apply (d : S50000.Idx → α) (idx : IVec S850000x1 32) (e : Fin 850000) (w : BitVec 32)
    (hw : idx (ix2 e 0) = w) :
    Host.gather gather_S50000_S850000x1_S850000_n_0_n_n_0_1_1 d idx (ix1 e)
      = d (ix1 ⟨min w.toInt.toNat 49999, by omega⟩) := by
  subst hw
  have hrec : gather_S50000_S850000x1_S850000_n_0_n_n_0_1_1
      = Cert.Lib.HostIndex.take1Dims 50000 850000 Gen.gather_S50000_S850000x1_S850000_n_0_n_n_0_1_1_wf := rfl
  rw [hrec]
  exact Cert.Lib.HostIndex.gather_take1_apply (by decide) _ d idx (ix1 e)

theorem rows_apply (h : S50000x128.Idx → α) (idx : IVec S850000x1 32) (e : Fin 850000) (k : Fin 128) (w : BitVec 32)
    (hw : idx (ix2 e 0) = w) :
    Host.gather gather_S50000x128_S850000x1_S850000x128_1_0_n_n_0_1_1128 h idx (ix2 e k)
      = h (ix2 ⟨min w.toInt.toNat 49999, by omega⟩ k) := by
  subst hw
  have hrec : gather_S50000x128_S850000x1_S850000x128_1_0_n_n_0_1_1128
      = Cert.Lib.RowGather.rowDims 50000 128 850000 Gen.gather_S50000x128_S850000x1_S850000x128_1_0_n_n_0_1_1128_wf := rfl
  rw [hrec]
  exact Cert.Lib.RowGather.rowGather_apply (by decide) _ h idx e k

theorem putRows_apply (x : S50000x128.Idx → EReal) (idx : IVec S850000x1 32) (upd : S850000x128.Idx → EReal)
    (p : Fin 50000) (q : Fin 128) :
    Host.scatterAdd (F := Ideal) (φ := .f32) scatter_S50000x128_S850000x1_S850000x128_1_0_0_1 x idx upd (ix2 p q)
      = x (ix2 p q) + ∑ n : Fin 850000, if (idx (ix2 n (0 : Fin 1))).toInt = (p.val : ℤ) then upd (ix2 n q) else 0 := by
  have hrec : scatter_S50000x128_S850000x1_S850000x128_1_0_0_1
      = Cert.Lib.RowScatter.putRowDims 50000 850000 128 Gen.scatter_S50000x128_S850000x1_S850000x128_1_0_0_1_wf := rfl
  rw [hrec]
  exact Cert.Lib.RowScatter.hostScatterAdd_rows_apply _ x idx upd p q

theorem addf_at {S : Shape} (x y : FVec Ideal S .f32) (j : S.Idx) : addf x y j = x j + y j := rfl
theorem mulf_at {S : Shape} (x y : FVec Ideal S .f32) (j : S.Idx) : mulf x y j = x j * y j := rfl

def lookText (d : FVec F S50000 .f32) (s : IVec S850000 32) : FVec F S850000 .f32 :=
  Host.gather gather_S50000_S850000x1_S850000_n_0_n_n_0_1_1 d
    (broadcastInDim S850000x1 ![0] bcast_S850000_S850000x1_0 (wrapText s))

def convCore (d : FVec F S50000 .f32) (s t : IVec S850000 32) (h : FVec F S50000x128 .f32) (b : FVec F S128 .f32) :
    FVec F S50000x128 .f32 :=
  addf (Host.scatterAdd scatter_S50000x128_S850000x1_S850000x128_1_0_0_1
      (broadcastInDim S50000x128 ![] bcast_S_S50000x128 (constant S_ .f32 0x00000000#32))
      (broadcastInDim S850000x1 ![0] bcast_S850000_S850000x1_0 t)
      (mulf (Host.gather gather_S50000x128_S850000x1_S850000x128_1_0_n_n_0_1_1128 h
          (broadcastInDim S850000x1 ![0] bcast_S850000_S850000x1_0 (wrapText s)))
        (broadcastInDim S850000x128 ![0, 1] bcast_S850000x1_S850000x128_0_1
          (broadcastInDim S850000x1 ![0] bcast_S850000_S850000x1_0 (mulf (lookText d s) (lookText d t))))))
    (broadcastInDim S50000x128 ![0, 1] bcast_S1x128_S50000x128_0_1 (broadcastInDim S1x128 ![1] bcast_S128_S1x128_1 b))

theorem lookText_apply (d : FVec Ideal S50000 .f32) (s : IVec S850000 32) (e : Fin 850000) :
    lookText (F := Ideal) d s (ix1 e) = d (ix1 (lookupRow (s (ix1 e)))) := by
  unfold lookText
  exact take_apply d _ e (wrap (s (ix1 e))) (by rw [col_apply, wrapText_apply])

theorem convCore_apply (d : FVec Ideal S50000 .f32) (s t : IVec S850000 32) (h : FVec Ideal S50000x128 .f32)
    (b : FVec Ideal S128 .f32) (p : Fin 50000) (q : Fin 128) :
    convCore (F := Ideal) d s t h b (ix2 p q)
      = (∑ e : Fin 850000, if (t (ix1 e)).toInt = (p.val : ℤ)
          then h (ix2 (lookupRow (s (ix1 e))) q) * (d (ix1 (lookupRow (s (ix1 e)))) * d (ix1 (lookupRow (t (ix1 e))))) else 0)
        + b (ix1 q) := by
  unfold convCore
  rw [addf_at, putRows_apply, bias_apply, zeros_apply, zero_add]
  refine congrArg (fun z => z + b (ix1 q)) (Finset.sum_congr rfl fun e _ => ?_)
  rw [col_apply]
  by_cases he : (t (ix1 e)).toInt = (p.val : ℤ)
  · rw [if_pos he, if_pos he, mulf_at,
      rows_apply h _ e q (wrap (s (ix1 e))) (by rw [col_apply, wrapText_apply]),
      spread_apply, col_apply, mulf_at, lookText_apply, lookText_apply]
    rfl
  · rw [if_neg he, if_neg he]

theorem onesE_apply (i : S850000.Idx) :
    broadcastInDim S850000 ![] bcast_S_S850000 (constant (F := Ideal) S_ .f32 0x3F800000#32) i = cOne :=
  broadcastInDim_apply _ bcast_S_S850000 (constant (F := Ideal) S_ .f32 0x3F800000#32) i (fun a => a.elim0) (fun a => a.elim0)

theorem zerosN_apply (i : S50000.Idx) :
    broadcastInDim S50000 ![] bcast_S_S50000 (constant (F := Ideal) S_ .f32 0x00000000#32) i = (0 : EReal) :=
  (broadcastInDim_apply _ bcast_S_S50000 (constant (F := Ideal) S_ .f32 0x00000000#32) i (fun a => a.elim0)
    (fun a => a.elim0)).trans Ideal.ofBits_zero_f32

theorem putFlat_apply (x : S50000.Idx → EReal) (idx : IVec S850000x1 32) (upd : S850000.Idx → EReal) (i : S50000.Idx) :
    Host.scatterAdd (F := Ideal) (φ := .f32) scatter_S50000_S850000x1_S850000_n_0_0_1 x idx upd i
      = x i + ∑ n : Fin 850000, if (idx (ix2 n (0 : Fin 1))).toInt = ((i 0).val : ℤ) then upd (ix1 n) else 0 := by
  have hrec : scatter_S50000_S850000x1_S850000_n_0_0_1
      = Cert.Lib.HostIndex.put1Dims 50000 850000 Gen.scatter_S50000_S850000x1_S850000_n_0_0_1_wf := rfl
  rw [hrec]
  exact Cert.Lib.FlatScatter.hostScatterAdd_flat_apply _ x idx upd i

def degCore (t : IVec S850000 32) : FVec F S50000 .f32 :=
  Host.rsqrt (Host.scatterAdd scatter_S50000_S850000x1_S850000_n_0_0_1
    (broadcastInDim S50000 ![] bcast_S_S50000 (constant S_ .f32 0x00000000#32))
    (broadcastInDim S850000x1 ![0] bcast_S850000_S850000x1_0 t)
    (broadcastInDim S850000 ![] bcast_S_S850000 (constant S_ .f32 0x3F800000#32)))

theorem rsqrt_at {S : Shape} (x : FVec Ideal S .f32) (j : S.Idx) : Host.rsqrt x j = Ideal.rsqrt (x j) := rfl

theorem degCore_apply (t : IVec S850000 32) (i : S50000.Idx) :
    degCore (F := Ideal) t i
      = Ideal.rsqrt (∑ e : Fin 850000, if (t (ix1 e)).toInt = ((i 0).val : ℤ) then cOne else 0) := by
  unfold degCore
  rw [rsqrt_at, putFlat_apply, zerosN_apply, zero_add]
  refine congrArg Ideal.rsqrt (Finset.sum_congr rfl fun e _ => ?_)
  rw [col_apply, onesE_apply]

end Cert.ReferenceIdeal.RefValue

end
-- ==== Proof.Ref.RefGraph.lean ====
import proofs.«408734_j33483565039990_3_alg».proof.Proof.Ref.RefRun
import proofs.«408734_j33483565039990_3_alg».proof.Proof.Ref.GraphCore
import proofs.«408734_j33483565039990_3_alg».proof.Proof.MathSpec

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.ShloMosaic.StableHlo
open Cert.Spec Cert.MathSpec

variable {F : FTy → Type} [FloatOps F]

theorem val_main_v3_msg (ei : (⟨S2x800000, .i32⟩ : BufTy).Contents (Elt F)) (e : Fin 850000) :
    val_main_v3 (F := F) ei (ix1 e) = msgWord ei 0 e := by
  unfold val_main_v3 val_main_v2 val_main_v1 val_main_v0
  rw [join_apply]
  unfold msgWord
  by_cases h : e.val < 800000
  · rw [dif_pos h, dif_pos h, row0_apply]
  · rw [dif_neg h, dif_neg h]

theorem val_main_v6_msg (ei : (⟨S2x800000, .i32⟩ : BufTy).Contents (Elt F)) (e : Fin 850000) :
    val_main_v6 (F := F) ei (ix1 e) = msgWord ei 1 e := by
  unfold val_main_v6 val_main_v5 val_main_v4 val_main_v0
  rw [join_apply]
  unfold msgWord
  by_cases h : e.val < 800000
  · rw [dif_pos h, dif_pos h, row1_apply]
  · rw [dif_neg h, dif_neg h]

theorem val_main_v11_core (ei : (⟨S2x800000, .i32⟩ : BufTy).Contents (Elt F)) :
    val_main_v11 (F := F) ei = degCore (val_main_v6 (F := F) ei) := rfl

theorem val_main_v11_eq (ei : (⟨S2x800000, .i32⟩ : BufTy).Contents (Elt Ideal)) :
    val_main_v11 (F := Ideal) ei = dinvR (graphOf ei) := by
  rw [val_main_v11_core]
  funext i
  rw [degCore_apply]
  unfold dinvR
  refine congrArg Ideal.rsqrt (Finset.sum_congr rfl fun e _ => ?_)
  rw [val_main_v6_msg]
  rfl

def convText (x1 : (⟨S2x800000, .i32⟩ : BufTy).Contents (Elt F)) (h : (⟨S50000x128, .f32⟩ : BufTy).Contents (Elt F)) (b : (⟨S128, .f32⟩ : BufTy).Contents (Elt F)) :
    (⟨S50000x128, .f32⟩ : BufTy).Contents (Elt F) :=
  convCore (val_main_v11 (F := F) x1) (val_main_v3 (F := F) x1) (val_main_v6 (F := F) x1) h b

theorem val_main_v43_text (x0 : (⟨S50000x64, .f32⟩ : BufTy).Contents (Elt F)) (x1 : (⟨S2x800000, .i32⟩ : BufTy).Contents (Elt F)) (x2 : (⟨S64x128, .f32⟩ : BufTy).Contents (Elt F)) (x3 : (⟨S128, .f32⟩ : BufTy).Contents (Elt F)) :
    val_main_v43 (F := F) x0 x1 x2 x3 = convText x1 (val_main_v12 (F := F) x0 x2) x3 := rfl

theorem val_main_v101_text (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 : (⟨S128, .f32⟩ : BufTy).Contents (Elt F)) :
    val_main_v101 (F := F) x0 x1 x2 x3 x4 x5 x6 x7 = convText x1 (val_main_v70 (F := F) x0 x1 x2 x3 x4 x5 x6) x7 := rfl

theorem val_main_v159_text (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 x8 x9 : (⟨S128, .f32⟩ : BufTy).Contents (Elt F)) (x10 : (⟨S128x128, .f32⟩ : BufTy).Contents (Elt F)) (x11 : (⟨S128, .f32⟩ : BufTy).Contents (Elt F)) :
    val_main_v159 (F := F) x0 x1 x2 x3 x4 x5 x6 x7 x8 x9 x10 x11
      = convText x1 (val_main_v128 (F := F) x0 x1 x2 x3 x4 x5 x6 x7 x8 x9 x10) x11 := rfl

theorem convText_eq (ei : (⟨S2x800000, .i32⟩ : BufTy).Contents (Elt Ideal)) (h : (⟨S50000x128, .f32⟩ : BufTy).Contents (Elt Ideal)) (b : (⟨S128, .f32⟩ : BufTy).Contents (Elt Ideal)) :
    convText (F := Ideal) ei h b = convR (graphOf ei) h b := by
  funext j
  obtain ⟨p, q, rfl⟩ : ∃ (p : Fin 50000) (q : Fin 128), j = ix2 p q := ⟨rowOf j, colOf j, (ix2_rowOf_colOf j).symm⟩
  unfold convText
  rw [convCore_apply, val_main_v11_eq]
  unfold convR
  refine congrArg₂ (fun y z => y + z) (Finset.sum_congr rfl fun e _ => ?_) rfl
  rw [val_main_v3_msg, val_main_v6_msg]
  rfl

end Cert.ReferenceIdeal.RefValue

end
-- ==== Proof.Ref.BnCore.lean ====
import proofs.«408734_j33483565039990_3_alg».proof.ReferenceIdeal
import proofs.«408734_j33483565039990_3_alg».proof.Proof.Gen.ReferenceIdeal
import proofs.«408734_j33483565039990_3_alg».proof.Proof.MathSpec
import proofs.«408734_j33483565039990_3_alg».proof.Proof.Ref.GraphCore
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen
open Idealize.ShloMosaic Idealize.ShloMosaic.TcCoe Idealize.ShloMosaic.ValueIdx Idealize.ShloMosaic.StableHlo
open Cert.Spec Cert.MathSpec

variable {F : FTy → Type} [FloatOps F]

def rowsText (v : FVec F S128 .f32) : FVec F S50000x128 .f32 :=
  broadcastInDim S50000x128 ![0, 1] bcast_S1x128_S50000x128_0_1 (broadcastInDim S1x128 ![1] bcast_S128_S1x128_1 v)

def colSumText (a : FVec F S50000x128 .f32) : FVec F S128 .f32 :=
  Host.reduceAdd a (constant S_ .f32 0x00000000#32) reducesTo_S50000x128_S128_d0 h_S_

def meanText (a : FVec F S50000x128 .f32) : FVec F S128 .f32 :=
  Host.divf (colSumText a) (broadcastInDim S128 ![] bcast_S_S128 (constant S_ .f32 0x47435000#32))

def devText (a : FVec F S50000x128 .f32) : FVec F S50000x128 .f32 := subf a (rowsText (meanText a))

def invStdText (a : FVec F S50000x128 .f32) : FVec F S128 .f32 :=
  Host.rsqrt (addf (Host.divf (colSumText (mulf (devText a) (devText a)))
      (broadcastInDim S128 ![] bcast_S_S128 (constant S_ .f32 0x47435000#32)))
    (broadcastInDim S128 ![] bcast_S_S128 (constant S_ .f32 0x3727C5AC#32)))

def bnCore (a : FVec F S50000x128 .f32) (g bt : FVec F S128 .f32) : FVec F S50000x128 .f32 :=
  maximumf (addf (mulf (mulf (devText a) (rowsText (invStdText a))) (rowsText g)) (rowsText bt))
    (broadcastInDim S50000x128 ![] bcast_S_S50000x128 (constant S_ .f32 0x00000000#32))

theorem subf_at {S : Shape} (x y : FVec Ideal S .f32) (j : S.Idx) : subf x y j = x j - y j := rfl
theorem maximumf_at {S : Shape} (x y : FVec Ideal S .f32) (j : S.Idx) : maximumf x y j = max (x j) (y j) := rfl
theorem divf_at {S : Shape} (x y : FVec Ideal S .f32) (j : S.Idx) : Host.divf x y j = Ideal.div (x j) (y j) := rfl

theorem rowsText_apply (v : FVec Ideal S128 .f32) (p : Fin 50000) (q : Fin 128) :
    rowsText (F := Ideal) v (ix2 p q) = v (ix1 q) := by
  unfold rowsText
  exact bias_apply v p q

theorem bcastC_const (c : BitVec 32) (i : S128.Idx) :
    broadcastInDim S128 ![] bcast_S_S128 (constant (F := Ideal) S_ .f32 c) i = Ideal.ofBits .f32 c :=
  broadcastInDim_apply _ bcast_S_S128 (constant (F := Ideal) S_ .f32 c) i (fun a => a.elim0) (fun a => a.elim0)

theorem colSumText_apply (a : FVec Ideal S50000x128 .f32) (q : Fin 128) :
    colSumText (F := Ideal) a (ix1 q) = ∑ k : Fin 50000, a (ix2 k q) := by
  unfold colSumText
  simp only [Host.reduceAdd, Ideal.hostReduceAdd_def]
  rw [Ideal.hostReduceAdd_single reducesTo_S50000x128_S128_d0 (by decide)]
  refine (congrArg (· + _) (show constant (F := Ideal) S_ .f32 0x00000000#32 (Shape.Idx.first h_S_) = (0 : EReal) from
    Ideal.ofBits_zero_f32)).trans ?_
  rw [zero_add]
  refine Finset.sum_congr rfl fun k _ => ?_
  exact congrArg a (funext fun b => Fin.ext (by match b with | ⟨0, _⟩ => rfl | ⟨1, _⟩ => rfl))

theorem meanText_apply (a : FVec Ideal S50000x128 .f32) (q : Fin 128) :
    meanText (F := Ideal) a (ix1 q) = meanR a q := by
  unfold meanText meanR c50000
  rw [divf_at, colSumText_apply, bcastC_const]

theorem devText_apply (a : FVec Ideal S50000x128 .f32) (p : Fin 50000) (q : Fin 128) :
    devText (F := Ideal) a (ix2 p q) = a (ix2 p q) - meanR a q := by
  unfold devText
  rw [subf_at, rowsText_apply, meanText_apply]

theorem invStdText_apply (a : FVec Ideal S50000x128 .f32) (q : Fin 128) :
    invStdText (F := Ideal) a (ix1 q) = Ideal.rsqrt (varR a q + epsBN) := by
  unfold invStdText varR c50000 epsBN
  rw [rsqrt_at, addf_at, divf_at, colSumText_apply, bcastC_const, bcastC_const]
  refine congrArg (fun z => Ideal.rsqrt (Ideal.div z (Ideal.ofBits .f32 0x47435000#32) + Ideal.ofBits .f32 0x3727C5AC#32))
    (Finset.sum_congr rfl fun k _ => ?_)
  rw [mulf_at, devText_apply]

theorem bnCore_eq (a : FVec Ideal S50000x128 .f32) (g bt : FVec Ideal S128 .f32) :
    bnCore (F := Ideal) a g bt = bnReluR a g bt := by
  funext j
  obtain ⟨p, q, rfl⟩ : ∃ (p : Fin 50000) (q : Fin 128), j = ix2 p q := ⟨rowOf j, colOf j, (ix2_rowOf_colOf j).symm⟩
  unfold bnCore bnReluR
  rw [maximumf_at, addf_at, mulf_at, mulf_at, devText_apply, rowsText_apply, rowsText_apply, rowsText_apply,
    invStdText_apply, zeros_apply]
  rfl

end Cert.ReferenceIdeal.RefValue

end
-- ==== Proof.Ref.RefBn.lean ====
import proofs.«408734_j33483565039990_3_alg».proof.Proof.Ref.RefRun
import proofs.«408734_j33483565039990_3_alg».proof.Proof.Ref.BnCore
import proofs.«408734_j33483565039990_3_alg».proof.Proof.MathSpec

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.ShloMosaic.StableHlo
open Cert.Spec Cert.MathSpec

variable {F : FTy → Type} [FloatOps F]

theorem val_main_v69_text (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) :
    val_main_v69 (F := F) x0 x1 x2 x3 x4 x5 = bnCore (val_main_v43 (F := F) x0 x1 x2 x3) x4 x5 := rfl

theorem val_main_v127_text (x0 : (⟨S50000x64, .f32⟩ : BufTy).Contents (Elt F)) (x1 : (⟨S2x800000, .i32⟩ : BufTy).Contents (Elt F)) (x2 : (⟨S64x128, .f32⟩ : BufTy).Contents (Elt F)) (x3 x4 x5 : (⟨S128, .f32⟩ : BufTy).Contents (Elt F)) (x6 : (⟨S128x128, .f32⟩ : BufTy).Contents (Elt F)) (x7 x8 x9 : (⟨S128, .f32⟩ : BufTy).Contents (Elt F)) :
    val_main_v127 (F := F) x0 x1 x2 x3 x4 x5 x6 x7 x8 x9
      = bnCore (val_main_v101 (F := F) x0 x1 x2 x3 x4 x5 x6 x7) x8 x9 := rfl

theorem val_main_v69_bn (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 x4 x5 : (⟨S128, .f32⟩ : BufTy).Contents (Elt Ideal)) :
    val_main_v69 (F := Ideal) x0 x1 x2 x3 x4 x5 = bnReluR (val_main_v43 (F := Ideal) x0 x1 x2 x3) x4 x5 :=
  (val_main_v69_text x0 x1 x2 x3 x4 x5).trans (bnCore_eq _ x4 x5)

theorem val_main_v127_bn (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 x4 x5 : (⟨S128, .f32⟩ : BufTy).Contents (Elt Ideal)) (x6 : (⟨S128x128, .f32⟩ : BufTy).Contents (Elt Ideal)) (x7 x8 x9 : (⟨S128, .f32⟩ : BufTy).Contents (Elt Ideal)) :
    val_main_v127 (F := Ideal) x0 x1 x2 x3 x4 x5 x6 x7 x8 x9
      = bnReluR (val_main_v101 (F := Ideal) x0 x1 x2 x3 x4 x5 x6 x7) x8 x9 :=
  (val_main_v127_text x0 x1 x2 x3 x4 x5 x6 x7 x8 x9).trans (bnCore_eq _ x8 x9)

end Cert.ReferenceIdeal.RefValue

end
-- ==== Proof.Ref.RefValue.lean ====
import proofs.«408734_j33483565039990_3_alg».proof.Proof.Ref.RefGraph
import proofs.«408734_j33483565039990_3_alg».proof.Proof.Ref.RefBn
import proofs.«408734_j33483565039990_3_alg».proof.Proof.MathSpec

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Spec Cert.MathSpec

theorem ofBits_one_f32 : Ideal.ofBits .f32 0x3F800000#32 = 1 := by
  have h1 : (BitVec.extractLsb' (8 + 23) 1 (0x3F800000#32) == 1#1) = false := by decide
  have h2 : (BitVec.extractLsb' 23 8 (0x3F800000#32)).toNat = 127 := by decide
  have h3 : (BitVec.extractLsb' 0 23 (0x3F800000#32)).toNat = 0 := by decide
  simp only [Ideal.ofBits, Ideal.ieee, h1, h2, h3]
  norm_num

theorem logistic_stages (x : EReal) :
    Ideal.div (Ideal.ofBits .f32 0x3F800000#32) (Ideal.ofBits .f32 0x3F800000#32 + Ideal.exp (-x)) = Ideal.logistic x := by
  rw [ofBits_one_f32]; rfl

theorem v12_mm (x0 : (⟨S50000x64, .f32⟩ : BufTy).Contents (Elt Ideal)) (x2 : (⟨S64x128, .f32⟩ : BufTy).Contents (Elt Ideal)) :
    val_main_v12 (F := Ideal) x0 x2 = mm x0 x2 := by
  funext i
  rw [val_main_v12_apply]
  refine Finset.sum_congr rfl fun k _ => ?_
  have el : lidx_main_v12 i k = ix2 (rowOf i) k :=
    funext fun a => Fin.ext (by match a with | ⟨0, _⟩ => rfl | ⟨1, _⟩ => rfl)
  have er : ridx_main_v12 i k = ix2 k (colOf i) :=
    funext fun a => Fin.ext (by match a with | ⟨0, _⟩ => rfl | ⟨1, _⟩ => rfl)
  rw [el, er]

theorem v70_mm (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 x4 x5 : (⟨S128, .f32⟩ : BufTy).Contents (Elt Ideal)) (x6 : (⟨S128x128, .f32⟩ : BufTy).Contents (Elt Ideal)) :
    val_main_v70 (F := Ideal) x0 x1 x2 x3 x4 x5 x6 = mm (val_main_v69 (F := Ideal) x0 x1 x2 x3 x4 x5) x6 := by
  funext i
  rw [val_main_v70_apply]
  refine Finset.sum_congr rfl fun k _ => ?_
  have el : lidx_main_v70 i k = ix2 (rowOf i) k :=
    funext fun a => Fin.ext (by match a with | ⟨0, _⟩ => rfl | ⟨1, _⟩ => rfl)
  have er : ridx_main_v70 i k = ix2 k (colOf i) :=
    funext fun a => Fin.ext (by match a with | ⟨0, _⟩ => rfl | ⟨1, _⟩ => rfl)
  rw [el, er]

theorem v128_mm (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 x4 x5 : (⟨S128, .f32⟩ : BufTy).Contents (Elt Ideal)) (x6 : (⟨S128x128, .f32⟩ : BufTy).Contents (Elt Ideal)) (x7 : (⟨S128, .f32⟩ : BufTy).Contents (Elt Ideal)) (x8 x9 : (⟨S128, .f32⟩ : BufTy).Contents (Elt Ideal)) (x10 : (⟨S128x128, .f32⟩ : BufTy).Contents (Elt Ideal)) :
    val_main_v128 (F := Ideal) x0 x1 x2 x3 x4 x5 x6 x7 x8 x9 x10
      = mm (val_main_v127 (F := Ideal) x0 x1 x2 x3 x4 x5 x6 x7 x8 x9) x10 := by
  funext i
  rw [val_main_v128_apply]
  refine Finset.sum_congr rfl fun k _ => ?_
  have el : lidx_main_v128 i k = ix2 (rowOf i) k :=
    funext fun a => Fin.ext (by match a with | ⟨0, _⟩ => rfl | ⟨1, _⟩ => rfl)
  have er : ridx_main_v128 i k = ix2 k (colOf i) :=
    funext fun a => Fin.ext (by match a with | ⟨0, _⟩ => rfl | ⟨1, _⟩ => rfl)
  rw [el, er]

theorem idx_fcb (p : Fin 50000) (q : Fin 1) : idx_main_v162 (idx_main_v163 (ix2 p q)) = ix1 0 :=
  funext fun a => Fin.ext (by match a with | ⟨0, _⟩ => rfl)

theorem v160_relu (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 x4 x5 : (⟨S128, .f32⟩ : BufTy).Contents (Elt Ideal)) (x6 : (⟨S128x128, .f32⟩ : BufTy).Contents (Elt Ideal)) (x7 x8 x9 : (⟨S128, .f32⟩ : BufTy).Contents (Elt Ideal)) (x10 : (⟨S128x128, .f32⟩ : BufTy).Contents (Elt Ideal)) (x11 : (⟨S128, .f32⟩ : BufTy).Contents (Elt Ideal)) (j : S50000x128.Idx) :
    val_main_v160 (F := Ideal) x0 x1 x2 x3 x4 x5 x6 x7 x8 x9 x10 x11 j
      = max (val_main_v159 (F := Ideal) x0 x1 x2 x3 x4 x5 x6 x7 x8 x9 x10 x11 j) 0 := by
  rw [val_main_v160_apply, val_main_call2_v0_apply, val_main_call2_cst_apply]
  generalize val_main_v159 (F := Ideal) x0 x1 x2 x3 x4 x5 x6 x7 x8 x9 x10 x11 j = y
  simp only [Ideal.maximumf_def, Ideal.ofBits_def, Ideal.ofBits_zero_f32]

theorem v164_head (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 x4 x5 : (⟨S128, .f32⟩ : BufTy).Contents (Elt Ideal)) (x6 : (⟨S128x128, .f32⟩ : BufTy).Contents (Elt Ideal)) (x7 x8 x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x1, .f32⟩ : BufTy).Contents (Elt Ideal)) (x13 : (⟨S1, .f32⟩ : BufTy).Contents (Elt Ideal)) (i : S50000x1.Idx) :
    val_main_v164 (F := Ideal) x0 x1 x2 x3 x4 x5 x6 x7 x8 x9 x10 x11 x12 x13 i
      = (∑ k : Fin 128, max (val_main_v159 (F := Ideal) x0 x1 x2 x3 x4 x5 x6 x7 x8 x9 x10 x11 (ix2 (rowOf i) k)) 0 * x12 (ix2 k 0))
        + x13 (ix1 0) := by
  obtain ⟨p, q, rfl⟩ : ∃ (p : Fin 50000) (q : Fin 1), i = ix2 p q := ⟨i 0, i 1, eq_ix2 i⟩
  obtain rfl : q = 0 := Subsingleton.elim _ _
  rw [val_main_v164_apply, val_main_v163_apply, val_main_v162_apply, val_main_v161_apply, idx_fcb]
  simp only [v160_relu]
  generalize val_main_v159 (F := Ideal) x0 x1 x2 x3 x4 x5 x6 x7 x8 x9 x10 x11 = h
  have el : ∀ k : Fin 128, lidx_main_v161 (ix2 p (0 : Fin 1)) k = ix2 p k := fun k =>
    funext fun a => Fin.ext (by match a with | ⟨0, _⟩ => rfl | ⟨1, _⟩ => rfl)
  have er : ∀ k : Fin 128, ridx_main_v161 (ix2 p (0 : Fin 1)) k = ix2 k 0 := fun k =>
    funext fun a => Fin.ext (by match a with | ⟨0, _⟩ => rfl | ⟨1, _⟩ => rfl)
  simp only [el, er, Ideal.addf_def, rowOf_ix2]

theorem v170_logistic (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 x4 x5 : (⟨S128, .f32⟩ : BufTy).Contents (Elt Ideal)) (x6 : (⟨S128x128, .f32⟩ : BufTy).Contents (Elt Ideal)) (x7 x8 x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x1, .f32⟩ : BufTy).Contents (Elt Ideal)) (x13 : (⟨S1, .f32⟩ : BufTy).Contents (Elt Ideal)) (i : S50000x1.Idx) :
    val_main_v170 (F := Ideal) x0 x1 x2 x3 x4 x5 x6 x7 x8 x9 x10 x11 x12 x13 i
      = Ideal.logistic (val_main_v164 (F := Ideal) x0 x1 x2 x3 x4 x5 x6 x7 x8 x9 x10 x11 x12 x13 i) := by
  rw [val_main_v170_apply, val_main_v169_apply, val_main_cst_32_apply, val_main_v168_apply, val_main_v167_apply,
    val_main_cst_31_apply, val_main_v166_apply, val_main_v165_apply]
  generalize val_main_v164 (F := Ideal) x0 x1 x2 x3 x4 x5 x6 x7 x8 x9 x10 x11 x12 x13 i = y
  simp only [Ideal.hostDivf_def, Ideal.addf_def, Ideal.hostUnary_exp_def, Ideal.hostNegf_def, Ideal.negf_def, Ideal.ofBits_def]
  exact logistic_stages y

theorem v159_conv3 (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x1, .f32⟩ : BufTy).Contents (Elt Ideal)) (x13 : (⟨S1, .f32⟩ : BufTy).Contents (Elt Ideal)) :
    val_main_v159 (F := Ideal) x0 x1 x2 x3 x4 x5 x6 x7 x8 x9 x10 x11
      = conv3R (graphOf x1) ⟨x0, x2, x3, x4, x5, x6, x7, x8, x9, x10, x11, x12, x13⟩ := by
  rw [val_main_v159_text, convText_eq, v128_mm, val_main_v127_bn, val_main_v101_text, convText_eq, v70_mm, val_main_v69_bn,
    val_main_v43_text, convText_eq, v12_mm]
  rfl

theorem v164_out (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x1, .f32⟩ : BufTy).Contents (Elt Ideal)) (x13 : (⟨S1, .f32⟩ : BufTy).Contents (Elt Ideal)) :
    val_main_v164 (F := Ideal) x0 x1 x2 x3 x4 x5 x6 x7 x8 x9 x10 x11 x12 x13
      = rOut (graphOf x1) ⟨x0, x2, x3, x4, x5, x6, x7, x8, x9, x10, x11, x12, x13⟩ := by
  funext i
  rw [v164_head, v159_conv3 x0 x1 x2 x3 x4 x5 x6 x7 x8 x9 x10 x11 x12 x13]
  rfl

theorem v170_sig (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x1, .f32⟩ : BufTy).Contents (Elt Ideal)) (x13 : (⟨S1, .f32⟩ : BufTy).Contents (Elt Ideal)) :
    val_main_v170 (F := Ideal) x0 x1 x2 x3 x4 x5 x6 x7 x8 x9 x10 x11 x12 x13
      = rSig (graphOf x1) ⟨x0, x2, x3, x4, x5, x6, x7, x8, x9, x10, x11, x12, x13⟩ := by
  funext i
  rw [v170_logistic, v164_out]
  rfl

def paramsOf (m : (ℓ : Loc nD τ sig) → Buf (Elt Ideal) ℓ) (c : Dev nD) : Params :=
  ⟨m ((c.tc : Thread nD τ).loc main_arg0), m ((c.tc : Thread nD τ).loc main_arg2), m ((c.tc : Thread nD τ).loc main_arg3),
   m ((c.tc : Thread nD τ).loc main_arg4), m ((c.tc : Thread nD τ).loc main_arg5), m ((c.tc : Thread nD τ).loc main_arg6),
   m ((c.tc : Thread nD τ).loc main_arg7), m ((c.tc : Thread nD τ).loc main_arg8), m ((c.tc : Thread nD τ).loc main_arg9),
   m ((c.tc : Thread nD τ).loc main_arg10), m ((c.tc : Thread nD τ).loc main_arg11), m ((c.tc : Thread nD τ).loc main_arg12),
   m ((c.tc : Thread nD τ).loc main_arg13)⟩

theorem ref_out (m : (ℓ : Loc nD τ sig) → Buf (Elt Ideal) ℓ) (c : Dev nD) :
    (val_main_v164 (F := Ideal)
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13)) : M2 50000 1)
      = rOut (graphOf (m ((c.tc : Thread nD τ).loc main_arg1))) (paramsOf m c) :=
  v164_out _ _ _ _ _ _ _ _ _ _ _ _ _ _

theorem ref_sig (m : (ℓ : Loc nD τ sig) → Buf (Elt Ideal) ℓ) (c : Dev nD) :
    (val_main_v170 (F := Ideal)
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13)) : M2 50000 1)
      = rSig (graphOf (m ((c.tc : Thread nD τ).loc main_arg1))) (paramsOf m c) :=
  v170_sig _ _ _ _ _ _ _ _ _ _ _ _ _ _

end Cert.ReferenceIdeal.RefValue

end
-- ==== Proof.LibERealScale.lean ====
import Idealize.ShloMosaic.PureOps.Ideal

noncomputable section

open scoped BigOperators

namespace Cert.Lib.ERealScale

open Idealize.ShloMosaic

theorem sum_mul_coe_of_nonneg {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

theorem sum_ite_mul_coe_of_nonneg {ι : Type*} (s : Finset ι) (c : ι → Prop) [DecidablePred c] (h δ : ι → EReal)
    {r : ℝ} (hr : 0 ≤ r) :
    (∑ e ∈ s, if c e then h e * δ e else 0) * (r : EReal) = ∑ e ∈ s, if c e then h e * (δ e * (r : EReal)) else 0 := by
  rw [sum_mul_coe_of_nonneg s _ hr]
  refine Finset.sum_congr rfl fun e _ => ?_
  split_ifs
  · rw [mul_assoc]
  · rw [zero_mul]

theorem coe_finset_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_ite_one {ι : Type*} (s : Finset ι) (c : ι → Prop) [DecidablePred c] :
    (∑ e ∈ s, if c e then (1 : EReal) else 0) = (((s.filter c).card : ℝ) : EReal) := by
  rw [← Finset.sum_filter]
  have h := coe_finset_sum (s.filter c) (fun _ => (1 : ℝ))
  rw [Finset.sum_const, nsmul_eq_mul, mul_one] at h
  rw [h]
  simp only [EReal.coe_one]

theorem toInt_ofNat_of_lt {n : ℕ} (h : n < 2 ^ 31) : (BitVec.ofNat 32 n).toInt = (n : ℤ) := by
  rw [BitVec.toInt_eq_toNat_cond, BitVec.toNat_ofNat]
  have h1 : n % 2 ^ 32 = n := Nat.mod_eq_of_lt (by omega)
  rw [h1, if_pos (by omega)]

theorem ofBits_one_f32 : Ideal.ofBits .f32 0x3F800000#32 = 1 := by
  simp [Ideal.ofBits, Ideal.ieee]
  rw [← EReal.coe_mul, ← EReal.coe_one]
  congr 1
  norm_num

theorem rsqrt_natCast_pos {n : ℕ} (h : 0 < n) :
    ∃ r : ℝ, 0 ≤ r ∧ Ideal.rsqrt (((n : ℝ)) : EReal) = (r : EReal) := by
  have hn : (0 : ℝ) < (n : ℝ) := Nat.cast_pos.mpr h
  refine ⟨(Real.sqrt (n : ℝ))⁻¹, inv_nonneg.mpr (Real.sqrt_nonneg _), ?_⟩
  rw [Ideal.rsqrt_coe, if_neg (not_lt.mpr hn.le), if_neg hn.ne']

end Cert.Lib.ERealScale

end
-- ==== Proof.Bridge.lean ====
import proofs.«408734_j33483565039990_3_alg».proof.Proof.MathSpec
import proofs.«408734_j33483565039990_3_alg».proof.Proof.LibERealScale

noncomputable section

open scoped BigOperators

namespace Cert.MathSpec

open Idealize.ShloMosaic Idealize.ShloMosaic.ValueIdx Cert.Spec Cert.Lib.ERealScale

theorem lookupRow_of_toInt {w : BitVec 32} {p : Fin 50000} (h : w.toInt = (p.val : ℤ)) : lookupRow w = p := by
  have hp := p.isLt
  have hns : ¬ (BitVec.slt w 0#32 = true) := by
    rw [BitVec.slt_iff_toInt_lt, BitVec.toInt_zero]
    omega
  apply Fin.ext
  simp only [lookupRow, wrap, if_neg hns, h]
  omega

theorem graphOf_good (ei : (⟨2, ![2, 800000]⟩ : Shape).Idx → BitVec 32) : (graphOf ei).Good := by
  constructor
  · intro p
    have hp := p.isLt
    refine ⟨⟨800000 + p.val, by omega⟩, ?_⟩
    show (msgWord ei 1 ⟨800000 + p.val, _⟩).toInt = (p.val : ℤ)
    have hnot : ¬ (800000 + p.val < 800000) := by omega
    simp only [msgWord, dif_neg hnot, Nat.add_sub_cancel_left]
    exact toInt_ofNat_of_lt (by omega)
  · intro e p h
    exact lookupRow_of_toInt h

theorem inDeg_le (G : Graph) (p : Fin 50000) : inDeg G p ≤ 850000 := by
  unfold inDeg
  calc _ ≤ (Finset.univ : Finset (Fin 850000)).card := Finset.card_filter_le _ _
    _ = 850000 := by rw [Finset.card_univ, Fintype.card_fin]

theorem inDeg_pos (G : Graph) (hG : G.Good) (p : Fin 50000) : 0 < inDeg G p := by
  obtain ⟨e, he⟩ := hG.loop p
  exact Finset.card_pos.mpr ⟨e, Finset.mem_filter.mpr ⟨Finset.mem_univ e, he⟩⟩

theorem dinvR_eq (G : Graph) (p : Fin 50000) : dinvR G (ix1 p) = Ideal.rsqrt (((inDeg G p : ℝ)) : EReal) := by
  unfold dinvR inDeg cOne
  rw [ofBits_one_f32, sum_ite_one]
  rfl

theorem dinvK_eq (G : Graph) (j : (⟨2, ![50000, 1]⟩ : Shape).Idx) :
    dinvK G j = Ideal.rsqrt (((inDeg G (rowOf j) : ℝ)) : EReal) := by
  unfold dinvK
  rw [toInt_ofNat_of_lt (lt_of_le_of_lt (inDeg_le G _) (by norm_num)), Int.cast_natCast]

theorem dinvK_eq_dinvR (G : Graph) (s : Fin 50000) : dinvK G (ix2 s 0) = dinvR G (ix1 s) := by
  rw [dinvK_eq, dinvR_eq]
  rfl

theorem exists_dinv (G : Graph) (hG : G.Good) (p : Fin 50000) :
    ∃ r : ℝ, 0 ≤ r ∧ dinvK G (ix2 p 0) = (r : EReal) := by
  obtain ⟨r, hr, h⟩ := rsqrt_natCast_pos (inDeg_pos G hG p)
  exact ⟨r, hr, by rw [dinvK_eq]; exact h⟩

theorem postAgg_aggK (G : Graph) (hG : G.Good) (h : M2 50000 128) (b : V1 128) (p : Fin 50000) (q : Fin 128) :
    postAgg (aggK G (fun j => h j * dinvK G (ix2 (rowOf j) 0))) (dinvK G) (rowVec b) p q = convR G h b (ix2 p q) := by
  obtain ⟨r, hr, hK⟩ := exists_dinv G hG p
  have hR : dinvR G (ix1 p) = (r : EReal) := by rw [← dinvK_eq_dinvR, hK]
  show (∑ e : Fin 850000, if G.dst e = (p.val : ℤ) then h (ix2 (G.src e) q) * dinvK G (ix2 (G.src e) 0) else 0)
        * dinvK G (ix2 p 0) + b (ix1 q)
      = (∑ e : Fin 850000, if G.dst e = (p.val : ℤ)
          then h (ix2 (G.src e) q) * (dinvR G (ix1 (G.src e)) * dinvR G (ix1 (G.dstRow e))) else 0) + b (ix1 q)
  rw [hK, sum_ite_mul_coe_of_nonneg _ _ _ _ hr]
  have key : ∀ e : Fin 850000,
      (if G.dst e = (p.val : ℤ) then h (ix2 (G.src e) q) * (dinvK G (ix2 (G.src e) 0) * (r : EReal)) else 0)
        = (if G.dst e = (p.val : ℤ)
            then h (ix2 (G.src e) q) * (dinvR G (ix1 (G.src e)) * dinvR G (ix1 (G.dstRow e))) else 0) := by
    intro e
    split_ifs with hc
    · rw [hG.row e p hc, hR, dinvK_eq_dinvR]
    · rfl
  simp only [key]

theorem sum_tileRow {M : Type*} [AddCommMonoid M] (f : Fin 50000 → M) :
    ∑ t : Fin 10, ∑ r : Fin 5000, f (tileRow t r) = ∑ p : Fin 50000, f p := by
  rw [← Fintype.sum_prod_type' (f := fun (t : Fin 10) (r : Fin 5000) => f (tileRow t r))]
  refine Fintype.sum_equiv (finProdFinEquiv (m := 10) (n := 5000)) _ _ ?_
  rintro ⟨t, r⟩
  congr 1
  apply Fin.ext
  simp only [tileRow, finProdFinEquiv, Equiv.coe_fn_mk]
  omega

section Layer

variable (A : M2 50000 128) (d : M2 50000 1) (b' : M2 1 128) (a : M2 50000 128)
  (hA : ∀ p q, postAgg A d b' p q = a (ix2 p q))

include hA

theorem colSum_eq (q : Fin 128) : colSum A d b' (ix2 0 q) = ∑ p : Fin 50000, a (ix2 p q) := by
  unfold colSum
  simp only [colOf_ix2, hA]
  exact sum_tileRow (fun p => a (ix2 p q))

theorem meanOf_colSum (q : Fin 128) : meanOf (colSum A d b') (ix2 0 q) = meanR a q := by
  unfold meanOf meanR
  rw [colOf_ix2, colSum_eq A d b' a hA]

theorem invStdOf_colSumSq (mean : M2 1 128) (hm : ∀ q, mean (ix2 0 q) = meanR a q) (q : Fin 128) :
    invStdOf (colSumSq A d b' mean) (ix2 0 q) = Ideal.rsqrt (varR a q + epsBN) := by
  unfold invStdOf varR colSumSq
  simp only [colOf_ix2, hA, hm]
  rw [sum_tileRow (fun p => (a (ix2 p q) - meanR a q) * (a (ix2 p q) - meanR a q))]

end Layer

theorem bnRelu_eq (G : Graph) (A a : M2 50000 128) (b g bt : V1 128)
    (hA : ∀ p q, postAgg A (dinvK G) (rowVec b) p q = a (ix2 p q)) (p : Fin 50000) (k : Fin 128) :
    bnRelu A (dinvK G) (rowVec b) (meanOf (colSum A (dinvK G) (rowVec b)))
        (invStdOf (colSumSq A (dinvK G) (rowVec b) (meanOf (colSum A (dinvK G) (rowVec b)))))
        (rowVec g) (rowVec bt) p k
      = bnReluR a g bt (ix2 p k) := by
  unfold bnRelu bnReluR
  rw [hA, meanOf_colSum A (dinvK G) (rowVec b) a hA,
    invStdOf_colSumSq A (dinvK G) (rowVec b) a hA _ (meanOf_colSum A (dinvK G) (rowVec b) a hA)]
  rfl

theorem nextK_eq (G : Graph) (A a : M2 50000 128) (b g bt : V1 128) (W : M2 128 128)
    (hA : ∀ p q, postAgg A (dinvK G) (rowVec b) p q = a (ix2 p q)) :
    nextK G A b g bt W = fun j => mm (bnReluR a g bt) W j * dinvK G (ix2 (rowOf j) 0) := by
  funext j
  unfold nextK bnReluMatmul mm
  simp only [bnRelu_eq G A a b g bt hA]

theorem postAgg_agg3K (G : Graph) (hG : G.Good) (P : Params) (p : Fin 50000) (q : Fin 128) :
    postAgg (agg3K G P) (dinvK G) (rowVec P.b3) p q = conv3R G P (ix2 p q) := by
  unfold agg3K conv3R
  simp only []
  have h1 : ∀ p q, postAgg (aggK G (scaledMatmul P.x P.W1 (dinvK G))) (dinvK G) (rowVec P.b1) p q
      = convR G (mm P.x P.W1) P.b1 (ix2 p q) := fun p q => postAgg_aggK G hG (mm P.x P.W1) P.b1 p q
  rw [nextK_eq G _ _ P.b1 P.g1 P.bt1 P.W2 h1]
  have h2 := fun p q => postAgg_aggK G hG (mm (bnReluR (convR G (mm P.x P.W1) P.b1) P.g1 P.bt1) P.W2) P.b2 p q
  rw [nextK_eq G _ _ P.b2 P.g2 P.bt2 P.W3 h2]
  exact postAgg_aggK G hG _ P.b3 p q

theorem kOut_eq_rOut (G : Graph) (hG : G.Good) (P : Params) : kOut G P = rOut G P := by
  funext j
  unfold kOut rOut headOut
  simp only [postAgg_agg3K G hG P]
  rfl

theorem kSig_eq_rSig (G : Graph) (hG : G.Good) (P : Params) : kSig G P = rSig G P := by
  funext j
  unfold kSig rSig headSig
  rw [← kOut_eq_rOut G hG P]
  rfl

end Cert.MathSpec

end
-- ==== Proof.Claims.lean ====
import proofs.«408734_j33483565039990_3_alg».proof.Defs
import proofs.«408734_j33483565039990_3_alg».proof.Proof.Gen.Kernel
import proofs.«408734_j33483565039990_3_alg».proof.Proof.Gen.KernelIdeal
import proofs.«408734_j33483565039990_3_alg».proof.Proof.Gen.ReferenceIdeal
import proofs.«408734_j33483565039990_3_alg».proof.Proof.Gen.Pre_finite_inputs
import proofs.«408734_j33483565039990_3_alg».proof.Proof.KI.Run
import proofs.«408734_j33483565039990_3_alg».proof.Proof.KI.Chain
import proofs.«408734_j33483565039990_3_alg».proof.Proof.Ref.RunP
import proofs.«408734_j33483565039990_3_alg».proof.Proof.Ref.RefValue
import proofs.«408734_j33483565039990_3_alg».proof.Proof.Bridge
import Idealize.ShloMosaic.Adequacy
import Idealize.ShloMosaic.Init

noncomputable section

namespace Cert.Proof.Claims

open Idealize.ShloMosaic Idealize.ShloMosaic.Tactic Idealize.SL.Sem Cert.KernelIdeal Cert.KernelIdeal.Hand

-- A final memory that holds the last boundary's contents holds the launch memory's at every argument.
theorem args_unchanged {F : FTy → Type} [FloatOps F] (m mem : (ℓ : Loc nD τ sig) → Buf (Elt F) ℓ)
    (h : ∀ c : Dev nD, ∀ b ∈ Pipeline.ucRefs τ sig,
      mem ((c.tc : Thread nD τ).1, b) = U16 m c b) (c : Dev nD) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11)
      ∧ mem ((c.tc : Thread nD τ).loc main_arg12) = m ((c.tc : Thread nD τ).loc main_arg12)
      ∧ mem ((c.tc : Thread nD τ).loc main_arg13) = m ((c.tc : Thread nD τ).loc main_arg13) :=
  have H := fun (a : Ref sig .tc) ha => h c (Proc.devRef .tc a) (Finset.mem_filter.mpr ⟨StableHlo.devRef_mem_tcRefs a, ha⟩)
  ⟨(H main_arg0 (by decide)).trans (U16_main_arg0 m c),
   (H main_arg1 (by decide)).trans (U16_main_arg1 m c),
   (H main_arg2 (by decide)).trans (U16_main_arg2 m c),
   (H main_arg3 (by decide)).trans (U16_main_arg3 m c),
   (H main_arg4 (by decide)).trans (U16_main_arg4 m c),
   (H main_arg5 (by decide)).trans (U16_main_arg5 m c),
   (H main_arg6 (by decide)).trans (U16_main_arg6 m c),
   (H main_arg7 (by decide)).trans (U16_main_arg7 m c),
   (H main_arg8 (by decide)).trans (U16_main_arg8 m c),
   (H main_arg9 (by decide)).trans (U16_main_arg9 m c),
   (H main_arg10 (by decide)).trans (U16_main_arg10 m c),
   (H main_arg11 (by decide)).trans (U16_main_arg11 m c),
   (H main_arg12 (by decide)).trans (U16_main_arg12 m c),
   (H main_arg13 (by decide)).trans (U16_main_arg13 m c)⟩

theorem frame_ki : Cert.frame_KernelIdeal := fun m ρ _ =>
  (θ_run defs _ _).mono (fun r h c => args_unchanged m r.2.mem h c) (run_all (F := Ideal) m ρ)

-- The ideal pass rewrote nothing, so the printed program and its idealization are one text: the run above, generic in the number type, is the printed program's run by unfolding.
theorem frame_k : Cert.frame_Kernel :=
  cast (by sl_kernel_rfl) fun (m : (ℓ : Loc Cert.Kernel.nD Cert.Kernel.τ Cert.Kernel.sig) → Buf (Elt Bits) ℓ)
      (ρ : Dev Cert.Kernel.nD → PrngReg) (_ : Cert.Pre_Kernel m) =>
    (θ_run defs _ _).mono (fun r h c => args_unchanged m r.2.mem h c) (run_all (F := Bits) m ρ)

theorem frame_ri : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

-- The kernel ends at the split form of the network, the reference at the per-message form; on the graph of an edge array they are one function.
theorem algebraic : Cert.algebraic_KernelIdeal_ReferenceIdeal := by
  intro m ρ m' ρ' _ hagree
  refine ⟨fun c => Cert.MathSpec.kOut (Cert.MathSpec.graphOf (m ((c.tc : Thread nD τ).loc main_arg1)))
      (paramsOf m c),
    fun c => Cert.MathSpec.kSig (Cert.MathSpec.graphOf (m ((c.tc : Thread nD τ).loc main_arg1)))
      (paramsOf m c), ?_, ?_⟩
  · refine (θ_run defs _ _).mono (fun r h c => ⟨?_, ?_, args_unchanged m r.2.mem h c⟩)
      (run_all (F := Ideal) m ρ)
    · exact (h c (Proc.devRef .tc main_v87_0)
        (Finset.mem_filter.mpr ⟨StableHlo.devRef_mem_tcRefs main_v87_0, by decide⟩)).trans
        (kernel_out m c)
    · exact (h c (Proc.devRef .tc main_v87_1)
        (Finset.mem_filter.mpr ⟨StableHlo.devRef_mem_tcRefs main_v87_1, by decide⟩)).trans
        (kernel_sig m c)
  · have hP : ∀ c, Cert.ReferenceIdeal.RefValue.paramsOf m' c = paramsOf m c := by
      intro c
      obtain ⟨h0, -, h2, h3, h4, h5, h6, h7, h8, h9, h10, h11, h12, h13⟩ := hagree c
      unfold Cert.ReferenceIdeal.RefValue.paramsOf paramsOf
      rw [h0, h2, h3, h4, h5, h6, h7, h8, h9, h10, h11, h12, h13]
    refine (θ_run Cert.ReferenceIdeal.defs _ _).mono (fun r h c => ⟨(h c).1.trans ?_, (h c).2.1.trans ?_, (h c).2.2⟩)
      (Cert.ReferenceIdeal.ValueP.run (F := Ideal) m' ρ')
    · rw [Cert.ReferenceIdeal.RefValue.ref_out m' c, hP, (hagree c).2.1]
      exact (Cert.MathSpec.kOut_eq_rOut _ (Cert.MathSpec.graphOf_good _) _).symm
    · rw [Cert.ReferenceIdeal.RefValue.ref_sig m' c, hP, (hagree c).2.1]
      exact (Cert.MathSpec.kSig_eq_rSig _ (Cert.MathSpec.graphOf_good _) _).symm

end Cert.Proof.Claims

end
-- ==== Proof.lean ====
-- The certificate's conjunction: each conjunct is proved in Proof/Claims.lean; the side conditions' witnesses are the generated ones.
import proofs.«408734_j33483565039990_3_alg».proof.Defs
import proofs.«408734_j33483565039990_3_alg».proof.Proof.Gen.Kernel
import proofs.«408734_j33483565039990_3_alg».proof.Proof.Gen.Kernel.Skeleton
import proofs.«408734_j33483565039990_3_alg».proof.Proof.Gen.Kernel.Launch
import proofs.«408734_j33483565039990_3_alg».proof.Proof.Gen.Kernel.Regions
import proofs.«408734_j33483565039990_3_alg».proof.Proof.Gen.Kernel.Points
import proofs.«408734_j33483565039990_3_alg».proof.Proof.Gen.KernelIdeal
import proofs.«408734_j33483565039990_3_alg».proof.Proof.Gen.KernelIdeal.Skeleton
import proofs.«408734_j33483565039990_3_alg».proof.Proof.Gen.KernelIdeal.Launch
import proofs.«408734_j33483565039990_3_alg».proof.Proof.Gen.KernelIdeal.Regions
import proofs.«408734_j33483565039990_3_alg».proof.Proof.Gen.KernelIdeal.Points
import proofs.«408734_j33483565039990_3_alg».proof.Proof.Gen.ReferenceIdeal
import proofs.«408734_j33483565039990_3_alg».proof.Proof.Gen.Pre_finite_inputs
import proofs.«408734_j33483565039990_3_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
